-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S3x128 .f32) (main_arg7 : FVec F S3x128 .f32) (main_arg8 : FVec F S3x128 .f32) (main_arg9 : FVec F S128x128 .f32) (main_arg10 : FVec F S128 .f32) (main_arg11 : FVec F S128x64 .f32) (main_arg12 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S128x128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128x128 : Shape := ⟨3, ![1, 128, 128]⟩
abbrev S1x128 : Shape := ⟨2, ![1, 128]⟩
abbrev S4000x128 : Shape := ⟨2, ![4000, 128]⟩
abbrev S1600000x128 : Shape := ⟨2, ![1600000, 128]⟩
abbrev S4000x1 : Shape := ⟨2, ![4000, 1]⟩
abbrev S1024 : Shape := ⟨1, ![1024]⟩
abbrev S1024x128 : Shape := ⟨2, ![1024, 128]⟩
abbrev S1024x1 : Shape := ⟨2, ![1024, 1]⟩
abbrev S1x64 : Shape := ⟨2, ![1, 64]⟩
abbrev S1024x64 : Shape := ⟨2, ![1024, 64]⟩

abbrev nBuf : Space → Nat
  | .hbm => 196
  | .vmem => 78
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S100000, .f32⟩
  | 48 => ⟨S100000x1, .f32⟩
  | 49 => ⟨S1x128x128, .f32⟩
  | 50 => ⟨S128x128, .f32⟩
  | 51 => ⟨S1x128, .f32⟩
  | 52 => ⟨S100000x128, .bf16⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .bf16⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S1x128, .f32⟩
  | 94 => ⟨S100000x128, .bf16⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .bf16⟩
  | 104 => ⟨S1600000x128, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S1x128, .f32⟩
  | 8 => ⟨S100000x128, .bf16⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .bf16⟩
  | 18 => ⟨S1600000x128, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S100000x128, .f32⟩
  | 49 => ⟨S_, .f32⟩
  | 50 => ⟨S100000, .f32⟩
  | 51 => ⟨S_, .f32⟩
  | 52 => ⟨S1024, .f32⟩
  | 53 => ⟨S100000x1, .i32⟩
  | 54 => ⟨S1024, .f32⟩
  | 55 => ⟨S_, .f32⟩
  | 56 => ⟨S1024x128, .f32⟩
  | 57 => ⟨S100000x1, .i32⟩
  | 58 => ⟨S1024x128, .f32⟩
  | 59 => ⟨S_, .f32⟩
  | 60 => ⟨S1024, .f32⟩
  | 61 => ⟨S1024, .f32⟩
  | 62 => ⟨S1024x1, .f32⟩
  | 63 => ⟨S1024x128, .f32⟩
  | 64 => ⟨S1024x128, .f32⟩
  | 65 => ⟨S1x128, .f32⟩
  | 66 => ⟨S1x64, .f32⟩
  | 67 => ⟨S1024x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S4000x128, .bf16⟩
  | .local _ .vmem, ⟨28, _⟩ => ⟨S4000x128, .bf16⟩
  | .local _ .vmem, ⟨29, _⟩ => ⟨S4000x128, .f32⟩
  | .local _ .vmem, ⟨30, _⟩ => ⟨S4000x128, .f32⟩
  | .local _ .vmem, ⟨31, _⟩ => ⟨S4000x128, .bf16⟩
  | .local _ .vmem, ⟨32, _⟩ => ⟨S4000x128, .bf16⟩
  | .local _ .vmem, ⟨33, _⟩ => ⟨S4000x1, .f32⟩
  | .local _ .vmem, ⟨34, _⟩ => ⟨S4000x1, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S4000x128, .bf16⟩
  | .local _ .vmem, ⟨50, _⟩ => ⟨S4000x128, .bf16⟩
  | .local _ .vmem, ⟨51, _⟩ => ⟨S4000x128, .f32⟩
  | .local _ .vmem, ⟨52, _⟩ => ⟨S4000x128, .f32⟩
  | .local _ .vmem, ⟨53, _⟩ => ⟨S4000x128, .bf16⟩
  | .local _ .vmem, ⟨54, _⟩ => ⟨S4000x128, .bf16⟩
  | .local _ .vmem, ⟨55, _⟩ => ⟨S4000x1, .f32⟩
  | .local _ .vmem, ⟨56, _⟩ => ⟨S4000x1, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S4000x128, .f32⟩
  | .local _ .vmem, ⟨65, _⟩ => ⟨S4000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S4000x128, .f32⟩
  | .local _ .vmem, ⟨71, _⟩ => ⟨S4000x128, .f32⟩
  | .local _ .vmem, ⟨72, _⟩ => ⟨S1024x128, .f32⟩
  | .local _ .vmem, ⟨73, _⟩ => ⟨S128x128, .f32⟩
  | .local _ .vmem, ⟨74, _⟩ => ⟨S1x128, .f32⟩
  | .local _ .vmem, ⟨75, _⟩ => ⟨S128x64, .f32⟩
  | .local _ .vmem, ⟨76, _⟩ => ⟨S1x64, .f32⟩
  | .local _ .vmem, ⟨77, _⟩ => ⟨S1024x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_v49_2 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83_0 : Ref sig .tc := ⟨.hbm, 114, rfl⟩
abbrev main_v83_1 : Ref sig .tc := ⟨.hbm, 115, rfl⟩
abbrev main_v83_2 : Ref sig .tc := ⟨.hbm, 116, rfl⟩
abbrev main_cst_14 : Ref sig .tc := ⟨.hbm, 117, rfl⟩
abbrev main_v84 : Ref sig .tc := ⟨.hbm, 118, rfl⟩
abbrev main_v85 : Ref sig .tc := ⟨.hbm, 119, rfl⟩
abbrev main_cst_15 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_17 : Ref sig .tc := ⟨.hbm, 137, rfl⟩
abbrev main_v101 : Ref sig .tc := ⟨.hbm, 138, rfl⟩
abbrev main_v102 : Ref sig .tc := ⟨.hbm, 139, rfl⟩
abbrev main_c_18 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_19 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117_0 : Ref sig .tc := ⟨.hbm, 156, rfl⟩
abbrev main_v117_1 : Ref sig .tc := ⟨.hbm, 157, rfl⟩
abbrev main_v117_2 : Ref sig .tc := ⟨.hbm, 158, rfl⟩
abbrev main_cst_20 : Ref sig .tc := ⟨.hbm, 159, rfl⟩
abbrev main_v118 : Ref sig .tc := ⟨.hbm, 160, rfl⟩
abbrev main_v119 : Ref sig .tc := ⟨.hbm, 161, rfl⟩
abbrev main_cst_21 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_23 : Ref sig .tc := ⟨.hbm, 177, rfl⟩
abbrev main_v133 : Ref sig .tc := ⟨.hbm, 178, rfl⟩
abbrev main_cst_24 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_25 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_26 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc3_scratch0 : Ref sig .tc := ⟨.vmem, 40, rfl⟩
abbrev cc3_scratch1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg6_0 : Ref sig .tc := ⟨.vmem, 61, rfl⟩
abbrev cc5_scratch0 : Ref sig .tc := ⟨.vmem, 62, rfl⟩
abbrev cc5_scratch1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg4_0 : Ref sig .tc := ⟨.vmem, 69, rfl⟩
abbrev cc6_stg5_0 : Ref sig .tc := ⟨.vmem, 70, rfl⟩
abbrev cc6_stg5_1 : Ref sig .tc := ⟨.vmem, 71, rfl⟩
abbrev cc7_stg0_0 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem6_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem6_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem4_1 : DmaSem sig := 55
abbrev cc5_sem5_0 : DmaSem sig := 56
abbrev cc5_sem6_0 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem5_0 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1024x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1024x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S128x128_S128x128 : S128x128.ShapeCasts S128x128
  packedbf16_S4000x128_S4000x128_0_0 : (Rect.unit (s := S4000x128) ![0, 0] S4000x128.size inb_S4000x128_S4000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  reduces_S4000x128_S128 : S4000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024 : S_.BroadcastsInDim S1024 (![] : Fin 0 → Fin S1024.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .bf16 = 32 ∨ (Rect.block (s := S100000x128) S4000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .bf16 = 32 ∨ (Rect.block (s := S100000x128) S4000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .bf16 = 32 ∨ (Rect.block (s := S100000x128) S4000x128.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .bf16 = 32 ∨ (Rect.block (s := S100000x128) S4000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S100000x128.size a
  hwx6_5 : ∀ i : grid6.Coords, EltTy.bits .f32 = 32 ∨ (Rect.block (s := S100000x128) S4000x128.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S1024x128.size a
  hwx7_0 : ∀ i : grid7.Coords, EltTy.bits .f32 = 32 ∨ (Rect.block (s := S1024x128) S1024x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .f32 = 32 ∨ (Rect.block (s := S128x64) S128x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1024x64.size a ≤ S1024x64.size a
  hwx7_5 : ∀ i : grid7.Coords, EltTy.bits .f32 = 32 ∨ (Rect.block (s := S1024x64) S1024x64.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v79) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83_0) S4000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v83_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v83_0) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v113) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v116) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117_0) S4000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v117_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v117_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v117_0) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v119) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v132) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v144) S1024x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v145) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v146) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v147) S1024x64.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S1x128x128 : Shape := ⟨3, ![1, 128, 128]⟩
abbrev S1600000x128 : Shape := ⟨2, ![1600000, 128]⟩
abbrev S1024 : Shape := ⟨1, ![1024]⟩
abbrev S1024x128 : Shape := ⟨2, ![1024, 128]⟩
abbrev S1024x1 : Shape := ⟨2, ![1024, 1]⟩
abbrev S1024x64 : Shape := ⟨2, ![1024, 64]⟩
abbrev S1x64 : Shape := ⟨2, ![1, 64]⟩

abbrev nBuf : Space → Nat
  | .hbm => 314
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S128x128, .f32⟩
  | 10 => ⟨S128, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S100000, .f32⟩
  | 48 => ⟨S100000x1, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x128x128, .f32⟩
  | 57 => ⟨S128x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S1x128x128, .f32⟩
  | 6 => ⟨S128x128, .f32⟩
  | 7 => ⟨S100000x128, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x128, .f32⟩
  | 17 => ⟨S1600000x128, .f32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S1600000x128, .f32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S_, .f32⟩
  | 125 => ⟨S_, .f32⟩
  | 126 => ⟨S_, .f32⟩
  | 127 => ⟨S128, .f32⟩
  | _ => ⟨S100000x128, .f32⟩

abbrev hbmTy0_2 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S100000, .f32⟩
  | 33 => ⟨S_, .f32⟩
  | 34 => ⟨S1024, .f32⟩
  | 35 => ⟨S100000x1, .i32⟩
  | 36 => ⟨S1024, .f32⟩
  | 37 => ⟨S_, .f32⟩
  | 38 => ⟨S1024x128, .f32⟩
  | 39 => ⟨S100000x1, .i32⟩
  | 40 => ⟨S1024x128, .f32⟩
  | 41 => ⟨S_, .f32⟩
  | 42 => ⟨S1024, .f32⟩
  | 43 => ⟨S1024, .f32⟩
  | 44 => ⟨S1024x1, .f32⟩
  | 45 => ⟨S1024x128, .f32⟩
  | 46 => ⟨S1024x128, .f32⟩
  | 47 => ⟨S1024x128, .f32⟩
  | 48 => ⟨S1x128, .f32⟩
  | 49 => ⟨S1024x128, .f32⟩
  | 50 => ⟨S1024x128, .f32⟩
  | 51 => ⟨S_, .f32⟩
  | 52 => ⟨S1024x128, .f32⟩
  | 53 => ⟨S1024x128, .f32⟩
  | 54 => ⟨S1024x64, .f32⟩
  | 55 => ⟨S1x64, .f32⟩
  | 56 => ⟨S1024x64, .f32⟩
  | 57 => ⟨S1024x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_11 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call2_cst : Ref sig .tc := ⟨.hbm, 130, rfl⟩
abbrev main_call2_v0 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_c_12 : Ref sig .tc := ⟨.hbm, 136, rfl⟩
abbrev main_v84 : Ref sig .tc := ⟨.hbm, 137, rfl⟩
abbrev main_v85 : Ref sig .tc := ⟨.hbm, 138, rfl⟩
abbrev main_c_13 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_14 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_15 : Ref sig .tc := ⟨.hbm, 159, rfl⟩
abbrev main_v104 : Ref sig .tc := ⟨.hbm, 160, rfl⟩
abbrev main_cst_16 : Ref sig .tc := ⟨.hbm, 161, rfl⟩
abbrev main_v105 : Ref sig .tc := ⟨.hbm, 162, rfl⟩
abbrev main_v106 : Ref sig .tc := ⟨.hbm, 163, rfl⟩
abbrev main_c_17 : Ref sig .tc := ⟨.hbm, 164, rfl⟩
abbrev main_call3_cst : Ref sig .tc := ⟨.hbm, 165, rfl⟩
abbrev main_call3_v0 : Ref sig .tc := ⟨.hbm, 166, rfl⟩
abbrev main_call3_v1 : Ref sig .tc := ⟨.hbm, 167, rfl⟩
abbrev main_call3_cst_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_v6 : Ref sig .tc := ⟨.hbm, 173, rfl⟩
abbrev main_call3_v7 : Ref sig .tc := ⟨.hbm, 174, rfl⟩
abbrev main_call3_cst_1 : Ref sig .tc := ⟨.hbm, 175, rfl⟩
abbrev main_call3_v8 : Ref sig .tc := ⟨.hbm, 176, rfl⟩
abbrev main_call3_cst_2 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_call3_cst_3 : Ref sig .tc := ⟨.hbm, 181, rfl⟩
abbrev main_call3_v12 : Ref sig .tc := ⟨.hbm, 182, rfl⟩
abbrev main_call3_cst_4 : Ref sig .tc := ⟨.hbm, 183, rfl⟩
abbrev main_call3_call0_v0 : Ref sig .tc := ⟨.hbm, 184, rfl⟩
abbrev main_call3_call0_v1 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_cst_18 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call4_cst : Ref sig .tc := ⟨.hbm, 207, rfl⟩
abbrev main_call4_v0 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_c_19 : Ref sig .tc := ⟨.hbm, 213, rfl⟩
abbrev main_v131 : Ref sig .tc := ⟨.hbm, 214, rfl⟩
abbrev main_v132 : Ref sig .tc := ⟨.hbm, 215, rfl⟩
abbrev main_c_20 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_21 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_22 : Ref sig .tc := ⟨.hbm, 236, rfl⟩
abbrev main_v151 : Ref sig .tc := ⟨.hbm, 237, rfl⟩
abbrev main_cst_23 : Ref sig .tc := ⟨.hbm, 238, rfl⟩
abbrev main_v152 : Ref sig .tc := ⟨.hbm, 239, rfl⟩
abbrev main_v153 : Ref sig .tc := ⟨.hbm, 240, rfl⟩
abbrev main_c_24 : Ref sig .tc := ⟨.hbm, 241, rfl⟩
abbrev main_call5_cst : Ref sig .tc := ⟨.hbm, 242, rfl⟩
abbrev main_call5_v0 : Ref sig .tc := ⟨.hbm, 243, rfl⟩
abbrev main_call5_v1 : Ref sig .tc := ⟨.hbm, 244, rfl⟩
abbrev main_call5_cst_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_v6 : Ref sig .tc := ⟨.hbm, 250, rfl⟩
abbrev main_call5_v7 : Ref sig .tc := ⟨.hbm, 251, rfl⟩
abbrev main_call5_cst_1 : Ref sig .tc := ⟨.hbm, 252, rfl⟩
abbrev main_call5_v8 : Ref sig .tc := ⟨.hbm, 253, rfl⟩
abbrev main_call5_cst_2 : Ref sig .tc := ⟨.hbm, 254, rfl⟩
abbrev main_call5_v9 : Ref sig .tc := ⟨.hbm, 255, rfl⟩
abbrev main_call5_v10 : Ref sig .tc := ⟨.hbm, 256, rfl⟩
abbrev main_call5_v11 : Ref sig .tc := ⟨.hbm, 257, rfl⟩
abbrev main_call5_cst_3 : Ref sig .tc := ⟨.hbm, 258, rfl⟩
abbrev main_call5_v12 : Ref sig .tc := ⟨.hbm, 259, rfl⟩
abbrev main_call5_cst_4 : Ref sig .tc := ⟨.hbm, 260, rfl⟩
abbrev main_call5_call0_v0 : Ref sig .tc := ⟨.hbm, 261, rfl⟩
abbrev main_call5_call0_v1 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_cst_25 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_call6_cst : Ref sig .tc := ⟨.hbm, 284, rfl⟩
abbrev main_call6_v0 : Ref sig .tc := ⟨.hbm, 285, rfl⟩
abbrev main_v174 : Ref sig .tc := ⟨.hbm, 286, rfl⟩
abbrev main_cst_26 : Ref sig .tc := ⟨.hbm, 287, rfl⟩
abbrev main_v175 : Ref sig .tc := ⟨.hbm, 288, rfl⟩
abbrev main_cst_27 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_cst_28 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_cst_29 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_call7_cst : Ref sig .tc := ⟨.hbm, 307, rfl⟩
abbrev main_call7_v0 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1024 : S_.BroadcastsInDim S1024 (![] : Fin 0 → Fin S1024.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

class Facts : Prop extends Facts₀ where

variable [Facts]
-- ==== Proof.K.RegA0.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 : Rect S4000x128 := Rect.unit (s := S4000x128) ![0, 0] S4000x128.size inb_S4000x128_S4000x128_0_0
abbrev mat0 : Rect S128x128 := Rect.unit (s := S128x128) ![0, 0] S128x128.size inb_S128x128_S128x128_0_0
abbrev bias0 : Rect S1x128 := Rect.unit (s := S1x128) ![0, 0] S1x128.size inb_S1x128_S1x128_0_0

def out0_4 (x0 : Vec F S4000x128 .f32) (x1 : Vec F S128x128 .f32) (x2 : Vec F S1x128 .f32) (x3 : Vec F S128x128 .f32) : Vec F S4000x128 .bf16 :=
  View.canon [⟨rows0, k0_pay1 (View.ld x0 rows0) (View.ld x1 mat0) (View.ld x2 bias0) (View.ld x3 mat0)⟩]

set_option maxHeartbeats 1000000 in
theorem sound_kernel0 (c : Dev nD) (E : Set ℕ) (i : grid0.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S4000x128 .bf16) (harg5 : arg5.IsWhole)
    (x0 : Vec F S4000x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg5 fullShare (out0_4 x0 x1 x2 x3) ∗ owns (c : Thread nD τ) arg1 fullShare x0 ∗ owns (c : Thread nD τ) arg2 fullShare x1 ∗ owns (c : Thread nD τ) arg3 fullShare x2
            ∗ owns (c : Thread nD τ) arg4 fullShare x3) -∗ K ⟨⟩))
      ⊢ wp frame (wpE (defs₀ (F := F)) Variants.none c none) E (cc0__fused_in_proj_kernel i arg1 harg1 arg2 harg2 arg3 harg3 arg4 harg4 arg5 harg5) K := by
  simp only [cc0__fused_in_proj_kernel_eq_skeleton]; unfold cc0__fused_in_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H4]
  · iexists _; isplitr; swap; · iexact H4
    ipureintro; exact View.read_writes_eq_canon _ _ _ (View.cover_of_tiled _ S4000x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) := by
  refine ⟨?_, ?_, ?_, ?_⟩ <;> intro d <;>
    refine (Dat.before_in_eq_fetched _ _ ?_ ?_ ?_ ?_ t d).trans ?_ <;> intros <;> rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) fun _ =>
    iprop((dat0 V c).Φ t.castSucc ∗ (dat0 V c).owesAt () t.castSucc
      ∗ owns (c : Thread nD τ) (st0_0 t) fullShare (iblk0 V c 0 t)
      ∗ owns (c : Thread nD τ) (st0_1 t) fullShare (iblk0 V c 1 t)
      ∗ owns (c : Thread nD τ) (st0_2 t) fullShare (iblk0 V c 2 t)
      ∗ owns (c : Thread nD τ) (st0_3 t) fullShare (iblk0 V c 3 t)
      ∗ owns (c : Thread nD τ) (st0_4 t) fullShare ((dat0 V c).after 4 t)) := by
  obtain ⟨ha, hb, hc, hd⟩ := before0 V c t
  simp only [ha, hb, hc, hd, after0_4]
  iintro ⟨HΦ, Ho, ⟨%d0, H0⟩, ⟨%d1, H1⟩, ⟨%d2, H2⟩, ⟨%d3, H3⟩, ⟨%dO, H4⟩⟩
  iapply (sound_kernel0 c Set.univ _ _ _ _ _ _ _ _ _ _ _ (iblk0 V c 0 t) (iblk0 V c 1 t) (iblk0 V c 2 t) (iblk0 V c 3 t) _)
  iframe H0 H1 H2 H3
  isplitl [H4]; · iexists _; iexact H4
  iintro ⟨H4, H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.RegR1.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) (iblk1 V c 3 ⟨0, hn⟩) k1_pay1,
      k1_pay5 (iblk1 V c 0 ⟨0, hn⟩) (iblk1 V c 1 ⟨0, hn⟩) (iblk1 V c 2 ⟨0, hn⟩) (iblk1 V c 3 ⟨0, hn⟩) k1_pay2)
  | n + 1, hn => (k1_pay4 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1,
      k1_pay5 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2)

theorem accAt1_zero (c : Dev nD) (hn : 0 < cfg1.N) :
    accAt1 V c 0 hn = (k1_pay4 (iblk1 V c 0 ⟨0, hn⟩) (iblk1 V c 1 ⟨0, hn⟩) (iblk1 V c 2 ⟨0, hn⟩) (iblk1 V c 3 ⟨0, hn⟩) k1_pay1,
      k1_pay5 (iblk1 V c 0 ⟨0, hn⟩) (iblk1 V c 1 ⟨0, hn⟩) (iblk1 V c 2 ⟨0, hn⟩) (iblk1 V c 3 ⟨0, hn⟩) k1_pay2) := rfl

theorem accAt1_succ (c : Dev nD) (n : ℕ) (hn : n + 1 < cfg1.N) :
    accAt1 V c (n + 1) hn = (k1_pay4 (iblk1 V c 0 ⟨n + 1, hn⟩) (iblk1 V c 1 ⟨n + 1, hn⟩) (iblk1 V c 2 ⟨n + 1, hn⟩) (iblk1 V c 3 ⟨n + 1, hn⟩) (accAt1 V c n (Nat.lt_of_succ_lt hn)).1,
      k1_pay5 (iblk1 V c 0 ⟨n + 1, hn⟩) (iblk1 V c 1 ⟨n + 1, hn⟩) (iblk1 V c 2 ⟨n + 1, hn⟩) (iblk1 V c 3 ⟨n + 1, hn⟩) (accAt1 V c n (Nat.lt_of_succ_lt hn)).2) := rfl

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 := by decide +kernel

-- One step of the two sums at a point: from the zero rows at the first point, from `a`, the sums of the point before, at a later one.
theorem accAt1_step (c : Dev nD) (t : Fin cfg1.N) (a : Vec F S1x128 .f32 × Vec F S1x128 .f32)
    (ha : ∀ h : t.val ≠ 0, a = accAt1 V c (t.val - 1) (Nat.lt_of_le_of_lt (Nat.sub_le _ _) t.isLt)) :
    accAt1 V c t.val t.isLt = (k1_pay4 (iblk1 V c 0 t) (iblk1 V c 1 t) (iblk1 V c 2 t) (iblk1 V c 3 t) (if cond1 (grid1.coords t) then k1_pay1 else a.1),
      k1_pay5 (iblk1 V c 0 t) (iblk1 V c 1 t) (iblk1 V c 2 t) (iblk1 V c 3 t) (if cond1 (grid1.coords t) then k1_pay2 else a.2)) := by
  have hc := hcond1 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel1 {c : Dev nD} {E : Set ℕ} {i : grid1.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k1_pay3 x0 x1 x2 x3)
            ∗ ownsTc c arg6 fullShare (k1_pay4 x0 x1 x2 x3 (if cond1 i then k1_pay1 else a0))
            ∗ ownsTc c arg7 fullShare (k1_pay5 x0 x1 x2 x3 (if cond1 i then k1_pay2 else a1))
            ∗ ownsTc c arg8 fullShare (k1_pay4 x0 x1 x2 x3 (if cond1 i then k1_pay1 else a0))
            ∗ ownsTc c arg9 fullShare (k1_pay5 x0 x1 x2 x3 (if cond1 i then k1_pay2 else a1))) -∗ K ⟨⟩))
      ⊢ wp frame (wpE (defs₀ (F := F)) Variants.none c none) E (cc1__combine_reduce_kernel i arg1 harg1 arg2 harg2 arg3 harg3 arg4 harg4 arg5 harg5 arg6 harg6 arg7 harg7 arg8 harg8 arg9 harg9) K := by
  by_cases hc : cond1 i
  all_goals
    first | rw [if_pos hc, if_pos hc] | rw [if_neg hc, if_neg hc]
    simp only [cc1__combine_reduce_kernel_eq_skeleton]; unfold cc1__combine_reduce_kernel_skel
    simp only [k1_part1_eq_skeleton]; unfold k1_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS1 (c : Dev nD) (n : ℕ) (hn : n ≤ cfg1.N) : sProp 𝕄 :=
  iprop(((∃ a : Vec F S1x128 .f32 × Vec F S1x128 .f32, ⌜∀ h : n ≠ 0, a = accAt1 V c (n - 1) (by omega)⌝
      ∗ ownsTc c (Memref.whole cc1_scratch0) fullShare a.1 ∗ ownsTc c (Memref.whole cc1_scratch1) fullShare a.2)
    ∗ Pipeline.scopedRestBut spec1 c [cc1_scratch0, cc1_scratch1]) ∗ (∃ r, prngReg c r))

theorem PhiA1_eq (c : Dev nD) :
    (Pipeline.ΦA spec1 c : sProp 𝕄)
      = iprop((iprop((∃ d, ownsTc c (Memref.whole cc1_scratch0) fullShare d) ∗ (∃ d, ownsTc c (Memref.whole cc1_scratch1) fullShare d))
        ∗ Pipeline.scopedRestBut spec1 c [cc1_scratch0, cc1_scratch1]) ∗ (∃ r, prngReg c r)) := by
  unfold Pipeline.ΦA; rw [scopedRest1_split]; simp only [owns_whole]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 0 t) (iblk1 V c 1 t) (iblk1 V c 2 t) (iblk1 V c 3 t)
    | ⟨5, _⟩ => (accAt1 V c t.val t.isLt).1
    | ⟨6, _⟩ => (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = k1_pay3 (iblk1 V c 0 t) (iblk1 V c 1 t) (iblk1 V c 2 t) (iblk1 V c 3 t) := rfl
theorem after1_5 (c : Dev nD) (t : Fin cfg1.N) : (dat1 V c).after 5 t = (accAt1 V c t.val t.isLt).1 := rfl
theorem after1_6 (c : Dev nD) (t : Fin cfg1.N) : (dat1 V c).after 6 t = (accAt1 V c t.val t.isLt).2 := rfl

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> refine fun d => (Dat.before_in_eq_fetched _ _ ?_ ?_ ?_ ?_ t d).trans ?_ <;> (intros; rfl)

theorem sound_body1 (c : Dev nD) (t : Fin cfg1.N) :
    iprop(PhiS1 V c t.val (Nat.le_of_lt t.isLt) ∗ (dat1 V c).owesAt () t.castSucc
      ∗ bigSep Finset.univ fun w => iprop(∃ d, ownsTc c ((cfg1.win w).stage (cfg1.slots t w)) fullShare ((dat1 V c).before w t d)))
    ⊢ wp frame (wpE (defs₀ (F := F)) Variants.none c none) Set.univ (bodyAt1 t) fun _ =>
      iprop(PhiS1 V c (t.val + 1) t.isLt ∗ (dat1 V c).owesAt () t.castSucc
        ∗ bigSep Finset.univ fun w => ownsTc c ((cfg1.win w).stage (cfg1.slots t w)) fullShare ((dat1 V c).after w t)) := by
  rw [bigSep_W1, bigSep_W1]
  obtain ⟨h0, h1, h2, h3⟩ := before1 V c t
  simp only [h0, h1, h2, h3]
  unfold PhiS1 bodyAt1
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after1_5, after1_6, accAt1_step V c t a ha]
  iapply (sound_kernel1 (iblk1 V c 0 t) (iblk1 V c 1 t) (iblk1 V c 2 t) (iblk1 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt1_step V c t a ha).symm
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  have h := sound_body1 V c t
  rw [bigSep_W1, bigSep_W1] at h ⊢
  exact h

theorem hin1 (c : Dev nD) : (Pipeline.ΦA spec1 c : sProp 𝕄) ⊢ (dat1 V c).Φ 0 := by
  rw [PhiA1_eq]; show _ ⊢ PhiS1 V c 0 (Nat.zero_le _); unfold PhiS1
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout1 (c : Dev nD) : (dat1 V c).Φ (Fin.last cfg1.N) ⊢ (Pipeline.ΦA spec1 c : sProp 𝕄) := by
  rw [PhiA1_eq]; show PhiS1 V c _ (Nat.le_refl _) ⊢ _; unfold PhiS1
  iintro ⟨⟨⟨%a, -, HS0, HS1⟩, Hrest⟩, Hg⟩
  iframe Hrest Hg
  isplitl [HS0] <;> iexists _ <;> iassumption

end Cert.Kernel.Hand

end
-- ==== Proof.K.RegA2.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_5 : Rect S128x128 := Rect.unit (s := S128x128) ![0, 0] S128x128.size inb_S128x128_S128x128_0_0

def out2_6 (xh : Vec F S4000x128 .f32) (xm xv xg xb : Vec F S1x128 .f32) (xw : Vec F S128x128 .f32) : Vec F S4000x128 .bf16 :=
  View.canon [⟨r2_0, k2_pay1 (View.ld xh r2_0) (View.ld xm r2_1) (View.ld xv r2_1) (View.ld xg r2_1) (View.ld xb r2_1) (View.ld xw r2_5)⟩]

set_option maxHeartbeats 1000000 in
theorem sound_kernel2 (c : Dev nD) (E : Set ℕ) (i : grid2.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole) (aw : Memref sig .tc .vmem S128x128 .f32) (haw : aw.IsWhole)
    (ao : Memref sig .tc .vmem S4000x128 .bf16) (hao : ao.IsWhole)
    (xh : Vec F S4000x128 .f32) (xm xv xg xb : Vec F S1x128 .f32) (xw : Vec F S128x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb ∗ owns (c : Thread nD τ) aw fullShare xw
        ∗ (∃ d, owns (c : Thread nD τ) ao fullShare d)
        ∗ (iprop(owns (c : Thread nD τ) ao fullShare (out2_6 xh xm xv xg xb xw) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb ∗ owns (c : Thread nD τ) aw fullShare xw) -∗ K ⟨⟩))
      ⊢ wp frame (wpE (defs₀ (F := F)) Variants.none c none) E (cc2__norm_relu_linear_kernel i ah hah am ham av hav ag hag ab hab aw haw ao hao) K := by
  simp only [cc2__norm_relu_linear_kernel_eq_skeleton]; unfold cc2__norm_relu_linear_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%fw, %hfw, Hw⟩, ⟨%dO, %fO, -, HO⟩, Hk⟩
  subst hfh hfm hfv hfg hfb hfw
  sl_exec
  sl_step
  iapply Hk
  isplitl [HO]
  · iexists _; isplitr; swap; · iexact HO
    ipureintro; exact View.read_writes_eq_canon _ _ _ (View.cover_of_tiled _ S4000x128.size (by rfl))
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    refine (Dat.before_in_eq_fetched _ _ ?_ ?_ ?_ ?_ t d).trans ?_ <;> intros <;> rfl

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) fun _ =>
    iprop((dat2 V c).Φ t.castSucc ∗ (dat2 V c).owesAt () t.castSucc
      ∗ owns (c : Thread nD τ) (st2_0 t) fullShare (iblk2 V c 0 t)
      ∗ owns (c : Thread nD τ) (st2_1 t) fullShare (iblk2 V c 1 t)
      ∗ owns (c : Thread nD τ) (st2_2 t) fullShare (iblk2 V c 2 t)
      ∗ owns (c : Thread nD τ) (st2_3 t) fullShare (iblk2 V c 3 t)
      ∗ owns (c : Thread nD τ) (st2_4 t) fullShare (iblk2 V c 4 t)
      ∗ owns (c : Thread nD τ) (st2_5 t) fullShare (iblk2 V c 5 t)
      ∗ owns (c : Thread nD τ) (st2_6 t) fullShare ((dat2 V c).after 6 t)) := by
  obtain ⟨ha, hb, hc, hd, he, hf⟩ := before2 V c t
  simp only [ha, hb, hc, hd, he, hf, after2_6]
  iintro ⟨HΦ, Ho, ⟨%dh, Hh⟩, ⟨%dm, Hm⟩, ⟨%dv, Hv⟩, ⟨%dg, Hg⟩, ⟨%db, Hb⟩, ⟨%dw, Hw⟩, ⟨%dO, HO⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe Hh Hm Hv Hg Hb Hw
  isplitl [HO]; · iexists _; iexact HO
  iintro ⟨HO, Hh, Hm, Hv, Hg, Hb, Hw⟩
  iframe

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.RegR3.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accAt3 (c : Dev nD) : (n : ℕ) → n < cfg3.N → Vec F S1x128 .f32 × Vec F S1x128 .f32
  | 0, hn => (k3_pay4 (iblk3 V c 0 ⟨0, hn⟩) (iblk3 V c 1 ⟨0, hn⟩) (iblk3 V c 2 ⟨0, hn⟩) (iblk3 V c 3 ⟨0, hn⟩) k3_pay1,
      k3_pay5 (iblk3 V c 0 ⟨0, hn⟩) (iblk3 V c 1 ⟨0, hn⟩) (iblk3 V c 2 ⟨0, hn⟩) (iblk3 V c 3 ⟨0, hn⟩) k3_pay2)
  | n + 1, hn => (k3_pay4 (iblk3 V c 0 ⟨n + 1, hn⟩) (iblk3 V c 1 ⟨n + 1, hn⟩) (iblk3 V c 2 ⟨n + 1, hn⟩) (iblk3 V c 3 ⟨n + 1, hn⟩) (accAt3 c n (Nat.lt_of_succ_lt hn)).1,
      k3_pay5 (iblk3 V c 0 ⟨n + 1, hn⟩) (iblk3 V c 1 ⟨n + 1, hn⟩) (iblk3 V c 2 ⟨n + 1, hn⟩) (iblk3 V c 3 ⟨n + 1, hn⟩) (accAt3 c n (Nat.lt_of_succ_lt hn)).2)

theorem accAt3_zero (c : Dev nD) (hn : 0 < cfg3.N) :
    accAt3 V c 0 hn = (k3_pay4 (iblk3 V c 0 ⟨0, hn⟩) (iblk3 V c 1 ⟨0, hn⟩) (iblk3 V c 2 ⟨0, hn⟩) (iblk3 V c 3 ⟨0, hn⟩) k3_pay1,
      k3_pay5 (iblk3 V c 0 ⟨0, hn⟩) (iblk3 V c 1 ⟨0, hn⟩) (iblk3 V c 2 ⟨0, hn⟩) (iblk3 V c 3 ⟨0, hn⟩) k3_pay2) := rfl

theorem accAt3_succ (c : Dev nD) (n : ℕ) (hn : n + 1 < cfg3.N) :
    accAt3 V c (n + 1) hn = (k3_pay4 (iblk3 V c 0 ⟨n + 1, hn⟩) (iblk3 V c 1 ⟨n + 1, hn⟩) (iblk3 V c 2 ⟨n + 1, hn⟩) (iblk3 V c 3 ⟨n + 1, hn⟩) (accAt3 V c n (Nat.lt_of_succ_lt hn)).1,
      k3_pay5 (iblk3 V c 0 ⟨n + 1, hn⟩) (iblk3 V c 1 ⟨n + 1, hn⟩) (iblk3 V c 2 ⟨n + 1, hn⟩) (iblk3 V c 3 ⟨n + 1, hn⟩) (accAt3 V c n (Nat.lt_of_succ_lt hn)).2) := rfl

abbrev cond3 (i : grid3.Coords) : Prop :=
  (Scalar.cmpi .ne (Scalar.extui (Scalar.cmpi .eq (BitVec.ofNat 32 (i 0).val) 0#32)) 0#32) = 1#1

theorem hcond3 : ∀ t : Fin cfg3.N, cond3 (grid3.coords t) ↔ t.val = 0 := by decide +kernel

-- One step of the two sums at a point: from the zero rows at the first point, from `a`, the sums of the point before, at a later one.
theorem accAt3_step (c : Dev nD) (t : Fin cfg3.N) (a : Vec F S1x128 .f32 × Vec F S1x128 .f32)
    (ha : ∀ h : t.val ≠ 0, a = accAt3 V c (t.val - 1) (Nat.lt_of_le_of_lt (Nat.sub_le _ _) t.isLt)) :
    accAt3 V c t.val t.isLt = (k3_pay4 (iblk3 V c 0 t) (iblk3 V c 1 t) (iblk3 V c 2 t) (iblk3 V c 3 t) (if cond3 (grid3.coords t) then k3_pay1 else a.1),
      k3_pay5 (iblk3 V c 0 t) (iblk3 V c 1 t) (iblk3 V c 2 t) (iblk3 V c 3 t) (if cond3 (grid3.coords t) then k3_pay2 else a.2)) := by
  have hc := hcond3 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel3 {c : Dev nD} {E : Set ℕ} {i : grid3.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k3_pay3 x0 x1 x2 x3)
            ∗ ownsTc c arg6 fullShare (k3_pay4 x0 x1 x2 x3 (if cond3 i then k3_pay1 else a0))
            ∗ ownsTc c arg7 fullShare (k3_pay5 x0 x1 x2 x3 (if cond3 i then k3_pay2 else a1))
            ∗ ownsTc c arg8 fullShare (k3_pay4 x0 x1 x2 x3 (if cond3 i then k3_pay1 else a0))
            ∗ ownsTc c arg9 fullShare (k3_pay5 x0 x1 x2 x3 (if cond3 i then k3_pay2 else a1))) -∗ K ⟨⟩))
      ⊢ wp frame (wpE (defs₀ (F := F)) Variants.none c none) E (cc3__combine_reduce_kernel i arg1 harg1 arg2 harg2 arg3 harg3 arg4 harg4 arg5 harg5 arg6 harg6 arg7 harg7 arg8 harg8 arg9 harg9) K := by
  by_cases hc : cond3 i
  all_goals
    first | rw [if_pos hc, if_pos hc] | rw [if_neg hc, if_neg hc]
    simp only [cc3__combine_reduce_kernel_eq_skeleton]; unfold cc3__combine_reduce_kernel_skel
    simp only [k3_part1_eq_skeleton]; unfold k3_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS3 (c : Dev nD) (n : ℕ) (hn : n ≤ cfg3.N) : sProp 𝕄 :=
  iprop(((∃ a : Vec F S1x128 .f32 × Vec F S1x128 .f32, ⌜∀ h : n ≠ 0, a = accAt3 V c (n - 1) (by omega)⌝
      ∗ ownsTc c (Memref.whole cc3_scratch0) fullShare a.1 ∗ ownsTc c (Memref.whole cc3_scratch1) fullShare a.2)
    ∗ Pipeline.scopedRestBut spec3 c [cc3_scratch0, cc3_scratch1]) ∗ (∃ r, prngReg c r))

theorem PhiA3_eq (c : Dev nD) :
    (Pipeline.ΦA spec3 c : sProp 𝕄)
      = iprop((iprop((∃ d, ownsTc c (Memref.whole cc3_scratch0) fullShare d) ∗ (∃ d, ownsTc c (Memref.whole cc3_scratch1) fullShare d))
        ∗ Pipeline.scopedRestBut spec3 c [cc3_scratch0, cc3_scratch1]) ∗ (∃ r, prngReg c r)) := by
  unfold Pipeline.ΦA; rw [scopedRest3_split]; simp only [owns_whole]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 0 t) (iblk3 V c 1 t) (iblk3 V c 2 t) (iblk3 V c 3 t)
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = k3_pay3 (iblk3 V c 0 t) (iblk3 V c 1 t) (iblk3 V c 2 t) (iblk3 V c 3 t) := rfl
theorem after3_5 (c : Dev nD) (t : Fin cfg3.N) : (dat3 V c).after 5 t = (accAt3 V c t.val t.isLt).1 := rfl
theorem after3_6 (c : Dev nD) (t : Fin cfg3.N) : (dat3 V c).after 6 t = (accAt3 V c t.val t.isLt).2 := rfl

theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> refine fun d => (Dat.before_in_eq_fetched _ _ ?_ ?_ ?_ ?_ t d).trans ?_ <;> (intros; rfl)

theorem sound_body3 (c : Dev nD) (t : Fin cfg3.N) :
    iprop(PhiS3 V c t.val (Nat.le_of_lt t.isLt) ∗ (dat3 V c).owesAt () t.castSucc
      ∗ bigSep Finset.univ fun w => iprop(∃ d, ownsTc c ((cfg3.win w).stage (cfg3.slots t w)) fullShare ((dat3 V c).before w t d)))
    ⊢ wp frame (wpE (defs₀ (F := F)) Variants.none c none) Set.univ (bodyAt3 t) fun _ =>
      iprop(PhiS3 V c (t.val + 1) t.isLt ∗ (dat3 V c).owesAt () t.castSucc
        ∗ bigSep Finset.univ fun w => ownsTc c ((cfg3.win w).stage (cfg3.slots t w)) fullShare ((dat3 V c).after w t)) := by
  rw [bigSep_W3, bigSep_W3]
  obtain ⟨h0, h1, h2, h3⟩ := before3 V c t
  simp only [h0, h1, h2, h3]
  unfold PhiS3 bodyAt3
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after3_5, after3_6, accAt3_step V c t a ha]
  iapply (sound_kernel3 (iblk3 V c 0 t) (iblk3 V c 1 t) (iblk3 V c 2 t) (iblk3 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt3_step V c t a ha).symm
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  have h := sound_body3 V c t
  rw [bigSep_W3, bigSep_W3] at h ⊢
  exact h

theorem hin3 (c : Dev nD) : (Pipeline.ΦA spec3 c : sProp 𝕄) ⊢ (dat3 V c).Φ 0 := by
  rw [PhiA3_eq]; show _ ⊢ PhiS3 V c 0 (Nat.zero_le _); unfold PhiS3
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout3 (c : Dev nD) : (dat3 V c).Φ (Fin.last cfg3.N) ⊢ (Pipeline.ΦA spec3 c : sProp 𝕄) := by
  rw [PhiA3_eq]; show PhiS3 V c _ (Nat.le_refl _) ⊢ _; unfold PhiS3
  iintro ⟨⟨⟨%a, -, HS0, HS1⟩, Hrest⟩, Hg⟩
  iframe Hrest Hg
  isplitl [HS0] <;> iexists _ <;> iassumption

end Cert.Kernel.Hand

end
-- ==== Proof.K.RegA4.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x128 := Rect.unit (s := S4000x128) ![0, 0] S4000x128.size inb_S4000x128_S4000x128_0_0
abbrev r4_1 : Rect S1x128 := Rect.unit (s := S1x128) ![0, 0] S1x128.size inb_S1x128_S1x128_0_0
abbrev r4_5 : Rect S128x128 := Rect.unit (s := S128x128) ![0, 0] S128x128.size inb_S128x128_S128x128_0_0

def out4_6 (xh : Vec F S4000x128 .f32) (xm xv xg xb : Vec F S1x128 .f32) (xw : Vec F S128x128 .f32) : Vec F S4000x128 .bf16 :=
  View.canon [⟨r4_0, k4_pay1 (View.ld xh r4_0) (View.ld xm r4_1) (View.ld xv r4_1) (View.ld xg r4_1) (View.ld xb r4_1) (View.ld xw r4_5)⟩]

set_option maxHeartbeats 1000000 in
theorem sound_kernel4 (c : Dev nD) (E : Set ℕ) (i : grid4.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole) (aw : Memref sig .tc .vmem S128x128 .f32) (haw : aw.IsWhole)
    (ao : Memref sig .tc .vmem S4000x128 .bf16) (hao : ao.IsWhole)
    (xh : Vec F S4000x128 .f32) (xm xv xg xb : Vec F S1x128 .f32) (xw : Vec F S128x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb ∗ owns (c : Thread nD τ) aw fullShare xw
        ∗ (∃ d, owns (c : Thread nD τ) ao fullShare d)
        ∗ (iprop(owns (c : Thread nD τ) ao fullShare (out4_6 xh xm xv xg xb xw) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb ∗ owns (c : Thread nD τ) aw fullShare xw) -∗ K ⟨⟩))
      ⊢ wp frame (wpE (defs₀ (F := F)) Variants.none c none) E (cc4__norm_relu_linear_kernel i ah hah am ham av hav ag hag ab hab aw haw ao hao) K := by
  simp only [cc4__norm_relu_linear_kernel_eq_skeleton]; unfold cc4__norm_relu_linear_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%fw, %hfw, Hw⟩, ⟨%dO, %fO, -, HO⟩, Hk⟩
  subst hfh hfm hfv hfg hfb hfw
  sl_exec
  sl_step
  iapply Hk
  isplitl [HO]
  · iexists _; isplitr; swap; · iexact HO
    ipureintro; exact View.read_writes_eq_canon _ _ _ (View.cover_of_tiled _ S4000x128.size (by rfl))
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t) := by
  refine ⟨?_, ?_, ?_, ?_, ?_, ?_⟩ <;> intro d <;>
    refine (Dat.before_in_eq_fetched _ _ ?_ ?_ ?_ ?_ t d).trans ?_ <;> intros <;> rfl

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d))
      ∗ (∃ d, owns (c : Thread nD τ) (st4_4 t) fullShare ((dat4 V c).before 4 t d))
      ∗ (∃ d, owns (c : Thread nD τ) (st4_5 t) fullShare ((dat4 V c).before 5 t d))
      ∗ (∃ d, owns (c : Thread nD τ) (st4_6 t) fullShare ((dat4 V c).before 6 t d)))
    ⊢ wp frame (wpE (defs₀ (F := F)) Variants.none c none) Set.univ (bodyAt4 t) fun _ =>
    iprop((dat4 V c).Φ t.castSucc ∗ (dat4 V c).owesAt () t.castSucc
      ∗ owns (c : Thread nD τ) (st4_0 t) fullShare (iblk4 V c 0 t)
      ∗ owns (c : Thread nD τ) (st4_1 t) fullShare (iblk4 V c 1 t)
      ∗ owns (c : Thread nD τ) (st4_2 t) fullShare (iblk4 V c 2 t)
      ∗ owns (c : Thread nD τ) (st4_3 t) fullShare (iblk4 V c 3 t)
      ∗ owns (c : Thread nD τ) (st4_4 t) fullShare (iblk4 V c 4 t)
      ∗ owns (c : Thread nD τ) (st4_5 t) fullShare (iblk4 V c 5 t)
      ∗ owns (c : Thread nD τ) (st4_6 t) fullShare ((dat4 V c).after 6 t)) := by
  obtain ⟨ha, hb, hc, hd, he, hf⟩ := before4 V c t
  simp only [ha, hb, hc, hd, he, hf, after4_6]
  iintro ⟨HΦ, Ho, ⟨%dh, Hh⟩, ⟨%dm, Hm⟩, ⟨%dv, Hv⟩, ⟨%dg, Hg⟩, ⟨%db, Hb⟩, ⟨%dw, Hw⟩, ⟨%dO, HO⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  iframe Hh Hm Hv Hg Hb Hw
  isplitl [HO]; · iexists _; iexact HO
  iintro ⟨HO, Hh, Hm, Hv, Hg, Hb, Hw⟩
  iframe

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.RegR5.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S1x128 .f32 × Vec F S1x128 .f32
  | 0, hn => (k5_pay4 (iblk5 V c 0 ⟨0, hn⟩) (iblk5 V c 1 ⟨0, hn⟩) (iblk5 V c 2 ⟨0, hn⟩) (iblk5 V c 3 ⟨0, hn⟩) k5_pay1,
      k5_pay5 (iblk5 V c 0 ⟨0, hn⟩) (iblk5 V c 1 ⟨0, hn⟩) (iblk5 V c 2 ⟨0, hn⟩) (iblk5 V c 3 ⟨0, hn⟩) k5_pay2)
  | n + 1, hn => (k5_pay4 (iblk5 V c 0 ⟨n + 1, hn⟩) (iblk5 V c 1 ⟨n + 1, hn⟩) (iblk5 V c 2 ⟨n + 1, hn⟩) (iblk5 V c 3 ⟨n + 1, hn⟩) (accAt5 c n (Nat.lt_of_succ_lt hn)).1,
      k5_pay5 (iblk5 V c 0 ⟨n + 1, hn⟩) (iblk5 V c 1 ⟨n + 1, hn⟩) (iblk5 V c 2 ⟨n + 1, hn⟩) (iblk5 V c 3 ⟨n + 1, hn⟩) (accAt5 c n (Nat.lt_of_succ_lt hn)).2)

theorem accAt5_zero (c : Dev nD) (hn : 0 < cfg5.N) :
    accAt5 V c 0 hn = (k5_pay4 (iblk5 V c 0 ⟨0, hn⟩) (iblk5 V c 1 ⟨0, hn⟩) (iblk5 V c 2 ⟨0, hn⟩) (iblk5 V c 3 ⟨0, hn⟩) k5_pay1,
      k5_pay5 (iblk5 V c 0 ⟨0, hn⟩) (iblk5 V c 1 ⟨0, hn⟩) (iblk5 V c 2 ⟨0, hn⟩) (iblk5 V c 3 ⟨0, hn⟩) k5_pay2) := rfl

theorem accAt5_succ (c : Dev nD) (n : ℕ) (hn : n + 1 < cfg5.N) :
    accAt5 V c (n + 1) hn = (k5_pay4 (iblk5 V c 0 ⟨n + 1, hn⟩) (iblk5 V c 1 ⟨n + 1, hn⟩) (iblk5 V c 2 ⟨n + 1, hn⟩) (iblk5 V c 3 ⟨n + 1, hn⟩) (accAt5 V c n (Nat.lt_of_succ_lt hn)).1,
      k5_pay5 (iblk5 V c 0 ⟨n + 1, hn⟩) (iblk5 V c 1 ⟨n + 1, hn⟩) (iblk5 V c 2 ⟨n + 1, hn⟩) (iblk5 V c 3 ⟨n + 1, hn⟩) (accAt5 V c n (Nat.lt_of_succ_lt hn)).2) := rfl

abbrev cond5 (i : grid5.Coords) : Prop :=
  (Scalar.cmpi .ne (Scalar.extui (Scalar.cmpi .eq (BitVec.ofNat 32 (i 0).val) 0#32)) 0#32) = 1#1

theorem hcond5 : ∀ t : Fin cfg5.N, cond5 (grid5.coords t) ↔ t.val = 0 := by decide +kernel

-- One step of the two sums at a point: from the zero rows at the first point, from `a`, the sums of the point before, at a later one.
theorem accAt5_step (c : Dev nD) (t : Fin cfg5.N) (a : Vec F S1x128 .f32 × Vec F S1x128 .f32)
    (ha : ∀ h : t.val ≠ 0, a = accAt5 V c (t.val - 1) (Nat.lt_of_le_of_lt (Nat.sub_le _ _) t.isLt)) :
    accAt5 V c t.val t.isLt = (k5_pay4 (iblk5 V c 0 t) (iblk5 V c 1 t) (iblk5 V c 2 t) (iblk5 V c 3 t) (if cond5 (grid5.coords t) then k5_pay1 else a.1),
      k5_pay5 (iblk5 V c 0 t) (iblk5 V c 1 t) (iblk5 V c 2 t) (iblk5 V c 3 t) (if cond5 (grid5.coords t) then k5_pay2 else a.2)) := by
  have hc := hcond5 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel5 {c : Dev nD} {E : Set ℕ} {i : grid5.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k5_pay3 x0 x1 x2 x3)
            ∗ ownsTc c arg6 fullShare (k5_pay4 x0 x1 x2 x3 (if cond5 i then k5_pay1 else a0))
            ∗ ownsTc c arg7 fullShare (k5_pay5 x0 x1 x2 x3 (if cond5 i then k5_pay2 else a1))
            ∗ ownsTc c arg8 fullShare (k5_pay4 x0 x1 x2 x3 (if cond5 i then k5_pay1 else a0))
            ∗ ownsTc c arg9 fullShare (k5_pay5 x0 x1 x2 x3 (if cond5 i then k5_pay2 else a1))) -∗ K ⟨⟩))
      ⊢ wp frame (wpE (defs₀ (F := F)) Variants.none c none) E (cc5__combine_reduce_kernel i arg1 harg1 arg2 harg2 arg3 harg3 arg4 harg4 arg5 harg5 arg6 harg6 arg7 harg7 arg8 harg8 arg9 harg9) K := by
  by_cases hc : cond5 i
  all_goals
    first | rw [if_pos hc, if_pos hc] | rw [if_neg hc, if_neg hc]
    simp only [cc5__combine_reduce_kernel_eq_skeleton]; unfold cc5__combine_reduce_kernel_skel
    simp only [k5_part1_eq_skeleton]; unfold k5_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS5 (c : Dev nD) (n : ℕ) (hn : n ≤ cfg5.N) : sProp 𝕄 :=
  iprop(((∃ a : Vec F S1x128 .f32 × Vec F S1x128 .f32, ⌜∀ h : n ≠ 0, a = accAt5 V c (n - 1) (by omega)⌝
      ∗ ownsTc c (Memref.whole cc5_scratch0) fullShare a.1 ∗ ownsTc c (Memref.whole cc5_scratch1) fullShare a.2)
    ∗ Pipeline.scopedRestBut spec5 c [cc5_scratch0, cc5_scratch1]) ∗ (∃ r, prngReg c r))

theorem PhiA5_eq (c : Dev nD) :
    (Pipeline.ΦA spec5 c : sProp 𝕄)
      = iprop((iprop((∃ d, ownsTc c (Memref.whole cc5_scratch0) fullShare d) ∗ (∃ d, ownsTc c (Memref.whole cc5_scratch1) fullShare d))
        ∗ Pipeline.scopedRestBut spec5 c [cc5_scratch0, cc5_scratch1]) ∗ (∃ r, prngReg c r)) := by
  unfold Pipeline.ΦA; rw [scopedRest5_split]; simp only [owns_whole]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 0 t) (iblk5 V c 1 t) (iblk5 V c 2 t) (iblk5 V c 3 t)
    | ⟨5, _⟩ => (accAt5 V c t.val t.isLt).1
    | ⟨6, _⟩ => (accAt5 V c t.val t.isLt).2
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = k5_pay3 (iblk5 V c 0 t) (iblk5 V c 1 t) (iblk5 V c 2 t) (iblk5 V c 3 t) := rfl
theorem after5_5 (c : Dev nD) (t : Fin cfg5.N) : (dat5 V c).after 5 t = (accAt5 V c t.val t.isLt).1 := rfl
theorem after5_6 (c : Dev nD) (t : Fin cfg5.N) : (dat5 V c).after 6 t = (accAt5 V c t.val t.isLt).2 := rfl

theorem before5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> refine fun d => (Dat.before_in_eq_fetched _ _ ?_ ?_ ?_ ?_ t d).trans ?_ <;> (intros; rfl)

theorem sound_body5 (c : Dev nD) (t : Fin cfg5.N) :
    iprop(PhiS5 V c t.val (Nat.le_of_lt t.isLt) ∗ (dat5 V c).owesAt () t.castSucc
      ∗ bigSep Finset.univ fun w => iprop(∃ d, ownsTc c ((cfg5.win w).stage (cfg5.slots t w)) fullShare ((dat5 V c).before w t d)))
    ⊢ wp frame (wpE (defs₀ (F := F)) Variants.none c none) Set.univ (bodyAt5 t) fun _ =>
      iprop(PhiS5 V c (t.val + 1) t.isLt ∗ (dat5 V c).owesAt () t.castSucc
        ∗ bigSep Finset.univ fun w => ownsTc c ((cfg5.win w).stage (cfg5.slots t w)) fullShare ((dat5 V c).after w t)) := by
  rw [bigSep_W5, bigSep_W5]
  obtain ⟨h0, h1, h2, h3⟩ := before5 V c t
  simp only [h0, h1, h2, h3]
  unfold PhiS5 bodyAt5
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after5_5, after5_6, accAt5_step V c t a ha]
  iapply (sound_kernel5 (iblk5 V c 0 t) (iblk5 V c 1 t) (iblk5 V c 2 t) (iblk5 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt5_step V c t a ha).symm
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  have h := sound_body5 V c t
  rw [bigSep_W5, bigSep_W5] at h ⊢
  exact h

theorem hin5 (c : Dev nD) : (Pipeline.ΦA spec5 c : sProp 𝕄) ⊢ (dat5 V c).Φ 0 := by
  rw [PhiA5_eq]; show _ ⊢ PhiS5 V c 0 (Nat.zero_le _); unfold PhiS5
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout5 (c : Dev nD) : (dat5 V c).Φ (Fin.last cfg5.N) ⊢ (Pipeline.ΦA spec5 c : sProp 𝕄) := by
  rw [PhiA5_eq]; show PhiS5 V c _ (Nat.le_refl _) ⊢ _; unfold PhiS5
  iintro ⟨⟨⟨%a, -, HS0, HS1⟩, Hrest⟩, Hg⟩
  iframe Hrest Hg
  isplitl [HS0] <;> iexists _ <;> iassumption

end Cert.Kernel.Hand

end
-- ==== Proof.K.RegA6.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S4000x128 := Rect.unit (s := S4000x128) ![0, 0] S4000x128.size inb_S4000x128_S4000x128_0_0
abbrev r6_1 : Rect S1x128 := Rect.unit (s := S1x128) ![0, 0] S1x128.size inb_S1x128_S1x128_0_0

def out6_5 (xh : Vec F S4000x128 .f32) (xm xv xg xb : Vec F S1x128 .f32) : Vec F S4000x128 .f32 :=
  View.canon [⟨r6_0, k6_pay1 (View.ld xh r6_0) (View.ld xm r6_1) (View.ld xv r6_1) (View.ld xg r6_1) (View.ld xb r6_1)⟩]

set_option maxHeartbeats 1000000 in
theorem sound_kernel6 (c : Dev nD) (E : Set ℕ) (i : grid6.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole)
    (ao : Memref sig .tc .vmem S4000x128 .f32) (hao : ao.IsWhole)
    (xh : Vec F S4000x128 .f32) (xm xv xg xb : Vec F S1x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb
        ∗ (∃ d, owns (c : Thread nD τ) ao fullShare d)
        ∗ (iprop(owns (c : Thread nD τ) ao fullShare (out6_5 xh xm xv xg xb) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb) -∗ K ⟨⟩))
      ⊢ wp frame (wpE (defs₀ (F := F)) Variants.none c none) E (cc6__norm_relu_kernel i ah hah am ham av hav ag hag ab hab ao hao) K := by
  simp only [cc6__norm_relu_kernel_eq_skeleton]; unfold cc6__norm_relu_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%dO, %fO, -, HO⟩, Hk⟩
  subst hfh hfm hfv hfg hfb
  sl_exec
  sl_step
  iapply Hk
  isplitl [HO]
  · iexists _; isplitr; swap; · iexact HO
    ipureintro; exact View.read_writes_eq_canon _ _ _ (View.cover_of_tiled _ S4000x128.size (by rfl))
  sl_close

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t
    = out6_5 (iblk6 V c 0 t) (iblk6 V c 1 t) (iblk6 V c 2 t) (iblk6 V c 3 t) (iblk6 V c 4 t) := by dsimp only [dat6]

theorem before6 (c : Dev nD) (t : Fin cfg6.N) :
    (∀ d, (dat6 V c).before 0 t d = iblk6 V c 0 t) ∧ (∀ d, (dat6 V c).before 1 t d = iblk6 V c 1 t)
    ∧ (∀ d, (dat6 V c).before 2 t d = iblk6 V c 2 t) ∧ (∀ d, (dat6 V c).before 3 t d = iblk6 V c 3 t)
    ∧ (∀ d, (dat6 V c).before 4 t d = iblk6 V c 4 t) := by
  refine ⟨?_, ?_, ?_, ?_, ?_⟩ <;> intro d <;>
    refine (Dat.before_in_eq_fetched _ _ ?_ ?_ ?_ ?_ t d).trans ?_ <;> intros <;> rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
    ⊢ wp frame (wpE (defs₀ (F := F)) Variants.none c none) Set.univ (bodyAt6 t) fun _ =>
    iprop((dat6 V c).Φ t.castSucc ∗ (dat6 V c).owesAt () t.castSucc
      ∗ owns (c : Thread nD τ) (st6_0 t) fullShare (iblk6 V c 0 t)
      ∗ owns (c : Thread nD τ) (st6_1 t) fullShare (iblk6 V c 1 t)
      ∗ owns (c : Thread nD τ) (st6_2 t) fullShare (iblk6 V c 2 t)
      ∗ owns (c : Thread nD τ) (st6_3 t) fullShare (iblk6 V c 3 t)
      ∗ owns (c : Thread nD τ) (st6_4 t) fullShare (iblk6 V c 4 t)
      ∗ owns (c : Thread nD τ) (st6_5 t) fullShare ((dat6 V c).after 5 t)) := by
  obtain ⟨ha, hb, hc, hd, he⟩ := before6 V c t
  simp only [ha, hb, hc, hd, he, after6_5]
  iintro ⟨HΦ, Ho, ⟨%dh, Hh⟩, ⟨%dm, Hm⟩, ⟨%dv, Hv⟩, ⟨%dg, Hg⟩, ⟨%db, Hb⟩, ⟨%dO, HO⟩⟩
  iapply (sound_kernel6 c Set.univ _ _ _ _ _ _ _ _ _ _ _ _ _
    (iblk6 V c 0 t) (iblk6 V c 1 t) (iblk6 V c 2 t) (iblk6 V c 3 t) (iblk6 V c 4 t) _)
  iframe Hh Hm Hv Hg Hb
  isplitl [HO]; · iexists _; iexact HO
  iintro ⟨HO, Hh, Hm, Hv, Hg, Hb⟩
  iframe

theorem body_obligation6 (c : Dev nD) : BodyObligation (dat6 (F := F) V c) (defs₀ (F := F)) Variants.none () Set.univ := fun t => by
  rw [bigSep_W6, bigSep_W6]
  exact sound_body6 V c t

end Region6

end Cert.Kernel.Hand

end
-- ==== Proof.K.RegA7.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev pooled7 : Rect S1024x128 := Rect.unit (s := S1024x128) ![0, 0] S1024x128.size inb_S1024x128_S1024x128_0_0
abbrev mat7a : Rect S128x128 := Rect.unit (s := S128x128) ![0, 0] S128x128.size inb_S128x128_S128x128_0_0
abbrev bias7a : Rect S1x128 := Rect.unit (s := S1x128) ![0, 0] S1x128.size inb_S1x128_S1x128_0_0
abbrev mat7b : Rect S128x64 := Rect.unit (s := S128x64) ![0, 0] S128x64.size inb_S128x64_S128x64_0_0
abbrev bias7b : Rect S1x64 := Rect.unit (s := S1x64) ![0, 0] S1x64.size inb_S1x64_S1x64_0_0
abbrev res7 : Rect S1024x64 := Rect.unit (s := S1024x64) ![0, 0] S1024x64.size inb_S1024x64_S1024x64_0_0

def out7_5 (x0 : Vec F S1024x128 .f32) (x1 : Vec F S128x128 .f32) (x2 : Vec F S1x128 .f32) (x3 : Vec F S128x64 .f32) (x4 : Vec F S1x64 .f32) : Vec F S1024x64 .f32 :=
  View.canon [⟨res7, k7_pay1 (View.ld x0 pooled7) (View.ld x1 mat7a) (View.ld x2 bias7a) (View.ld x3 mat7b) (View.ld x4 bias7b)⟩]

set_option maxHeartbeats 1000000 in
theorem sound_kernel7 (c : Dev nD) (E : Set ℕ) (i : grid7.Coords)
    (arg1 : Memref sig .tc .vmem S1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S1024x64 .f32) (harg6 : arg6.IsWhole)
    (x0 : Vec F S1024x128 .f32) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg6 fullShare (out7_5 x0 x1 x2 x3 x4) ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4) -∗ K ⟨⟩))
      ⊢ wp frame (wpE (defs₀ (F := F)) Variants.none c none) E (cc7__mlp_fused_kernel i arg1 harg1 arg2 harg2 arg3 harg3 arg4 harg4 arg5 harg5 arg6 harg6) K := by
  simp only [cc7__mlp_fused_kernel_eq_skeleton]; unfold cc7__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H5]
  · iexists _; isplitr; swap; · iexact H5
    ipureintro; exact View.read_writes_eq_canon _ _ _ (View.cover_of_tiled _ S1024x64.size (by rfl))
  sl_close

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) := by
  refine ⟨?_, ?_, ?_, ?_, ?_⟩ <;> intro d <;>
    refine (Dat.before_in_eq_fetched _ _ ?_ ?_ ?_ ?_ t d).trans ?_ <;> intros <;> rfl

theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
    ⊢ wp frame (wpE (defs₀ (F := F)) Variants.none c none) Set.univ (bodyAt7 t) fun _ =>
    iprop((dat7 V c).Φ t.castSucc ∗ (dat7 V c).owesAt () t.castSucc
      ∗ owns (c : Thread nD τ) (st7_0 t) fullShare (iblk7 V c 0 t)
      ∗ owns (c : Thread nD τ) (st7_1 t) fullShare (iblk7 V c 1 t)
      ∗ owns (c : Thread nD τ) (st7_2 t) fullShare (iblk7 V c 2 t)
      ∗ owns (c : Thread nD τ) (st7_3 t) fullShare (iblk7 V c 3 t)
      ∗ owns (c : Thread nD τ) (st7_4 t) fullShare (iblk7 V c 4 t)
      ∗ owns (c : Thread nD τ) (st7_5 t) fullShare ((dat7 V c).after 5 t)) := by
  obtain ⟨ha, hb, hc, hd, he⟩ := before7 V c t
  simp only [ha, hb, hc, hd, he, after7_5]
  iintro ⟨HΦ, Ho, ⟨%d0, H0⟩, ⟨%d1, H1⟩, ⟨%d2, H2⟩, ⟨%d3, H3⟩, ⟨%d4, H4⟩, ⟨%dO, H5⟩⟩
  iapply (sound_kernel7 c Set.univ _ _ _ _ _ _ _ _ _ _ _ _ _ (iblk7 V c 0 t) (iblk7 V c 1 t) (iblk7 V c 2 t) (iblk7 V c 3 t) (iblk7 V c 4 t) _)
  iframe H0 H1 H2 H3 H4
  isplitl [H5]; · iexists _; iexact H5
  iintro ⟨H5, H0, H1, H2, H3, H4⟩
  iframe

theorem body_obligation7 (c : Dev nD) : BodyObligation (dat7 (F := F) V c) (defs₀ (F := F)) Variants.none () Set.univ := fun t => by
  rw [bigSep_W7, bigSep_W7]
  exact sound_body7 V c t

end Region7

end Cert.Kernel.Hand

end
-- ==== Proof.K.Run.lean ====
import proofs.«166185_j35605278883840_2_alg».proof.Proof.Gen.Kernel.Launch
import proofs.«166185_j35605278883840_2_alg».proof.Proof.Gen.Kernel.Skeleton
import proofs.«166185_j35605278883840_2_alg».proof.Proof.Gen.Kernel.Points
import proofs.«166185_j35605278883840_2_alg».proof.Proof.Gen.Kernel.Regions
import proofs.«166185_j35605278883840_2_alg».proof.Proof.K.RegA0
import proofs.«166185_j35605278883840_2_alg».proof.Proof.K.RegR1
import proofs.«166185_j35605278883840_2_alg».proof.Proof.K.RegA2
import proofs.«166185_j35605278883840_2_alg».proof.Proof.K.RegR3
import proofs.«166185_j35605278883840_2_alg».proof.Proof.K.RegA4
import proofs.«166185_j35605278883840_2_alg».proof.Proof.K.RegR5
import proofs.«166185_j35605278883840_2_alg».proof.Proof.K.RegA6
import proofs.«166185_j35605278883840_2_alg».proof.Proof.K.RegA7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev BW0 : Dev nD → Valuation τ sig (Elt F) := fun c b => (s₀ m ρ).mem ((c : Dev nD), b)

abbrev BW1 : Dev nD → Valuation τ sig (Elt F) := fun c => StableHlo.after hostOps0 (BW0 m ρ c)

abbrev BV1 : (c : Dev nD) → (b : Ref sig .tc) → Buf (Elt F) ((c : Thread nD τ).loc b) := fun c b => BW1 m ρ c b

def BW2 (c : Dev nD) : Valuation τ sig (Elt F) :=
  Pipeline.withArrays spec0 c (BW1 m ρ c) fun w => (dat0 (BV1 m ρ) c).arrAt w cfg0.N
theorem BW2_arr (c : Dev nD) (w : Fin cfg0.W) :
    BW2 m ρ c (Proc.devRef .tc (Pipeline.arrRef spec0 w)) = (dat0 (BV1 m ρ) c).arrAt w cfg0.N :=
  Pipeline.withArrays_arr spec0 launch0.win.arr_inj c _ _ w
theorem BW2_of_ne (c : Dev nD) (b : Ref sig .tc) (hb : ∀ w, Pipeline.arrRef spec0 w ≠ b) :
    BW2 m ρ c (Proc.devRef .tc b) = BW1 m ρ c (Proc.devRef .tc b) :=
  Pipeline.withArrays_of_ne spec0 c _ _ b hb

abbrev BV2 : (c : Dev nD) → (b : Ref sig .tc) → Buf (Elt F) ((c : Thread nD τ).loc b) := fun c b => BW2 m ρ c b

abbrev BW3 : Dev nD → Valuation τ sig (Elt F) := fun c => StableHlo.after hostOps1 (BW2 m ρ c)

abbrev BV3 : (c : Dev nD) → (b : Ref sig .tc) → Buf (Elt F) ((c : Thread nD τ).loc b) := fun c b => BW3 m ρ c b

def BW4 (c : Dev nD) : Valuation τ sig (Elt F) :=
  Pipeline.withArrays spec1 c (BW3 m ρ c) fun w => (dat1 (BV3 m ρ) c).arrAt w cfg1.N
theorem BW4_arr (c : Dev nD) (w : Fin cfg1.W) :
    BW4 m ρ c (Proc.devRef .tc (Pipeline.arrRef spec1 w)) = (dat1 (BV3 m ρ) c).arrAt w cfg1.N :=
  Pipeline.withArrays_arr spec1 launch1.win.arr_inj c _ _ w
theorem BW4_of_ne (c : Dev nD) (b : Ref sig .tc) (hb : ∀ w, Pipeline.arrRef spec1 w ≠ b) :
    BW4 m ρ c (Proc.devRef .tc b) = BW3 m ρ c (Proc.devRef .tc b) :=
  Pipeline.withArrays_of_ne spec1 c _ _ b hb

abbrev BV4 : (c : Dev nD) → (b : Ref sig .tc) → Buf (Elt F) ((c : Thread nD τ).loc b) := fun c b => BW4 m ρ c b

abbrev BW5 : Dev nD → Valuation τ sig (Elt F) := fun c => StableHlo.after hostOps2 (BW4 m ρ c)

abbrev BV5 : (c : Dev nD) → (b : Ref sig .tc) → Buf (Elt F) ((c : Thread nD τ).loc b) := fun c b => BW5 m ρ c b

def BW6 (c : Dev nD) : Valuation τ sig (Elt F) :=
  Pipeline.withArrays spec2 c (BW5 m ρ c) fun w => (dat2 (BV5 m ρ) c).arrAt w cfg2.N
theorem BW6_arr (c : Dev nD) (w : Fin cfg2.W) :
    BW6 m ρ c (Proc.devRef .tc (Pipeline.arrRef spec2 w)) = (dat2 (BV5 m ρ) c).arrAt w cfg2.N :=
  Pipeline.withArrays_arr spec2 launch2.win.arr_inj c _ _ w
theorem BW6_of_ne (c : Dev nD) (b : Ref sig .tc) (hb : ∀ w, Pipeline.arrRef spec2 w ≠ b) :
    BW6 m ρ c (Proc.devRef .tc b) = BW5 m ρ c (Proc.devRef .tc b) :=
  Pipeline.withArrays_of_ne spec2 c _ _ b hb

abbrev BV6 : (c : Dev nD) → (b : Ref sig .tc) → Buf (Elt F) ((c : Thread nD τ).loc b) := fun c b => BW6 m ρ c b

abbrev BW7 : Dev nD → Valuation τ sig (Elt F) := fun c => StableHlo.after hostOps3 (BW6 m ρ c)

abbrev BV7 : (c : Dev nD) → (b : Ref sig .tc) → Buf (Elt F) ((c : Thread nD τ).loc b) := fun c b => BW7 m ρ c b

def BW8 (c : Dev nD) : Valuation τ sig (Elt F) :=
  Pipeline.withArrays spec3 c (BW7 m ρ c) fun w => (dat3 (BV7 m ρ) c).arrAt w cfg3.N
theorem BW8_arr (c : Dev nD) (w : Fin cfg3.W) :
    BW8 m ρ c (Proc.devRef .tc (Pipeline.arrRef spec3 w)) = (dat3 (BV7 m ρ) c).arrAt w cfg3.N :=
  Pipeline.withArrays_arr spec3 launch3.win.arr_inj c _ _ w
theorem BW8_of_ne (c : Dev nD) (b : Ref sig .tc) (hb : ∀ w, Pipeline.arrRef spec3 w ≠ b) :
    BW8 m ρ c (Proc.devRef .tc b) = BW7 m ρ c (Proc.devRef .tc b) :=
  Pipeline.withArrays_of_ne spec3 c _ _ b hb

abbrev BV8 : (c : Dev nD) → (b : Ref sig .tc) → Buf (Elt F) ((c : Thread nD τ).loc b) := fun c b => BW8 m ρ c b

abbrev BW9 : Dev nD → Valuation τ sig (Elt F) := fun c => StableHlo.after hostOps4 (BW8 m ρ c)

abbrev BV9 : (c : Dev nD) → (b : Ref sig .tc) → Buf (Elt F) ((c : Thread nD τ).loc b) := fun c b => BW9 m ρ c b

def BW10 (c : Dev nD) : Valuation τ sig (Elt F) :=
  Pipeline.withArrays spec4 c (BW9 m ρ c) fun w => (dat4 (BV9 m ρ) c).arrAt w cfg4.N
theorem BW10_arr (c : Dev nD) (w : Fin cfg4.W) :
    BW10 m ρ c (Proc.devRef .tc (Pipeline.arrRef spec4 w)) = (dat4 (BV9 m ρ) c).arrAt w cfg4.N :=
  Pipeline.withArrays_arr spec4 launch4.win.arr_inj c _ _ w
theorem BW10_of_ne (c : Dev nD) (b : Ref sig .tc) (hb : ∀ w, Pipeline.arrRef spec4 w ≠ b) :
    BW10 m ρ c (Proc.devRef .tc b) = BW9 m ρ c (Proc.devRef .tc b) :=
  Pipeline.withArrays_of_ne spec4 c _ _ b hb

abbrev BV10 : (c : Dev nD) → (b : Ref sig .tc) → Buf (Elt F) ((c : Thread nD τ).loc b) := fun c b => BW10 m ρ c b

abbrev BW11 : Dev nD → Valuation τ sig (Elt F) := fun c => StableHlo.after hostOps5 (BW10 m ρ c)

abbrev BV11 : (c : Dev nD) → (b : Ref sig .tc) → Buf (Elt F) ((c : Thread nD τ).loc b) := fun c b => BW11 m ρ c b

def BW12 (c : Dev nD) : Valuation τ sig (Elt F) :=
  Pipeline.withArrays spec5 c (BW11 m ρ c) fun w => (dat5 (BV11 m ρ) c).arrAt w cfg5.N
theorem BW12_arr (c : Dev nD) (w : Fin cfg5.W) :
    BW12 m ρ c (Proc.devRef .tc (Pipeline.arrRef spec5 w)) = (dat5 (BV11 m ρ) c).arrAt w cfg5.N :=
  Pipeline.withArrays_arr spec5 launch5.win.arr_inj c _ _ w
theorem BW12_of_ne (c : Dev nD) (b : Ref sig .tc) (hb : ∀ w, Pipeline.arrRef spec5 w ≠ b) :
    BW12 m ρ c (Proc.devRef .tc b) = BW11 m ρ c (Proc.devRef .tc b) :=
  Pipeline.withArrays_of_ne spec5 c _ _ b hb

abbrev BV12 : (c : Dev nD) → (b : Ref sig .tc) → Buf (Elt F) ((c : Thread nD τ).loc b) := fun c b => BW12 m ρ c b

abbrev BW13 : Dev nD → Valuation τ sig (Elt F) := fun c => StableHlo.after hostOps6 (BW12 m ρ c)

abbrev BV13 : (c : Dev nD) → (b : Ref sig .tc) → Buf (Elt F) ((c : Thread nD τ).loc b) := fun c b => BW13 m ρ c b

def BW14 (c : Dev nD) : Valuation τ sig (Elt F) :=
  Pipeline.withArrays spec6 c (BW13 m ρ c) fun w => (dat6 (BV13 m ρ) c).arrAt w cfg6.N
theorem BW14_arr (c : Dev nD) (w : Fin cfg6.W) :
    BW14 m ρ c (Proc.devRef .tc (Pipeline.arrRef spec6 w)) = (dat6 (BV13 m ρ) c).arrAt w cfg6.N :=
  Pipeline.withArrays_arr spec6 launch6.win.arr_inj c _ _ w
theorem BW14_of_ne (c : Dev nD) (b : Ref sig .tc) (hb : ∀ w, Pipeline.arrRef spec6 w ≠ b) :
    BW14 m ρ c (Proc.devRef .tc b) = BW13 m ρ c (Proc.devRef .tc b) :=
  Pipeline.withArrays_of_ne spec6 c _ _ b hb

abbrev BV14 : (c : Dev nD) → (b : Ref sig .tc) → Buf (Elt F) ((c : Thread nD τ).loc b) := fun c b => BW14 m ρ c b

abbrev BW15 : Dev nD → Valuation τ sig (Elt F) := fun c => StableHlo.after hostOps7 (BW14 m ρ c)

abbrev BV15 : (c : Dev nD) → (b : Ref sig .tc) → Buf (Elt F) ((c : Thread nD τ).loc b) := fun c b => BW15 m ρ c b

def BW16 (c : Dev nD) : Valuation τ sig (Elt F) :=
  Pipeline.withArrays spec7 c (BW15 m ρ c) fun w => (dat7 (BV15 m ρ) c).arrAt w cfg7.N
theorem BW16_arr (c : Dev nD) (w : Fin cfg7.W) :
    BW16 m ρ c (Proc.devRef .tc (Pipeline.arrRef spec7 w)) = (dat7 (BV15 m ρ) c).arrAt w cfg7.N :=
  Pipeline.withArrays_arr spec7 launch7.win.arr_inj c _ _ w
theorem BW16_of_ne (c : Dev nD) (b : Ref sig .tc) (hb : ∀ w, Pipeline.arrRef spec7 w ≠ b) :
    BW16 m ρ c (Proc.devRef .tc b) = BW15 m ρ c (Proc.devRef .tc b) :=
  Pipeline.withArrays_of_ne spec7 c _ _ b hb

theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

theorem hostOps3_keeps (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

theorem hostOps4_keeps (W : Valuation τ sig (Elt F)) (r : Ref sig .tc) (h : r ∉ hostOps4_W) :
    StableHlo.after hostOps4 W (Proc.devRef .tc r) = W (Proc.devRef .tc r) :=
  StableHlo.after_of_writes_sub hostOps4 W hostOps4_writes h

theorem hostOps5_keeps (W : Valuation τ sig (Elt F)) (r : Ref sig .tc) (h : r ∉ hostOps5_W) :
    StableHlo.after hostOps5 W (Proc.devRef .tc r) = W (Proc.devRef .tc r) :=
  StableHlo.after_of_writes_sub hostOps5 W hostOps5_writes h

theorem hostOps6_keeps (W : Valuation τ sig (Elt F)) (r : Ref sig .tc) (h : r ∉ hostOps6_W) :
    StableHlo.after hostOps6 W (Proc.devRef .tc r) = W (Proc.devRef .tc r) :=
  StableHlo.after_of_writes_sub hostOps6 W hostOps6_writes h

theorem hostOps7_keeps (W : Valuation τ sig (Elt F)) (r : Ref sig .tc) (h : r ∉ hostOps7_W) :
    StableHlo.after hostOps7 W (Proc.devRef .tc r) = W (Proc.devRef .tc r) :=
  StableHlo.after_of_writes_sub hostOps7 W hostOps7_writes h

theorem BW2_in (c : Dev nD) (w : Fin cfg0.W) (hin : (cfg0.win w).isOut = false) :
    BW2 m ρ c (Proc.devRef .tc (Pipeline.arrRef spec0 w)) = BW1 m ρ c (Proc.devRef .tc (Pipeline.arrRef spec0 w)) :=
  (BW2_arr m ρ c w).trans (((dat0 (BV1 m ρ) c).arrAt_in w hin _).trans (A_eq0 (BV1 m ρ) c w))

theorem BW16_in (c : Dev nD) (w : Fin cfg7.W) (hin : (cfg7.win w).isOut = false) :
    BW16 m ρ c (Proc.devRef .tc (Pipeline.arrRef spec7 w)) = BW15 m ρ c (Proc.devRef .tc (Pipeline.arrRef spec7 w)) :=
  (BW16_arr m ρ c w).trans (((dat7 (BV15 m ρ) c).arrAt_in w hin _).trans (A_eq7 (BV15 m ρ) c w))

theorem BW2_keeps (c : Dev nD) (r : Ref sig .tc) (h : ∀ w, Pipeline.arrRef spec0 w = r → (cfg0.win w).isOut = false) :
    BW2 m ρ c (Proc.devRef .tc r) = BW1 m ρ c (Proc.devRef .tc r) := by
  by_cases hr : ∃ w, Pipeline.arrRef spec0 w = r
  · obtain ⟨w, rfl⟩ := hr
    exact BW2_in m ρ c w (h w rfl)
  · exact BW2_of_ne m ρ c r fun w e => hr ⟨w, e⟩

theorem BW16_keeps (c : Dev nD) (r : Ref sig .tc) (h : ∀ w, Pipeline.arrRef spec7 w = r → (cfg7.win w).isOut = false) :
    BW16 m ρ c (Proc.devRef .tc r) = BW15 m ρ c (Proc.devRef .tc r) := by
  by_cases hr : ∃ w, Pipeline.arrRef spec7 w = r
  · obtain ⟨w, rfl⟩ := hr
    exact BW16_in m ρ c w (h w rfl)
  · exact BW16_of_ne m ρ c r fun w e => hr ⟨w, e⟩

abbrev mainArgs : List (Ref sig .tc) :=
  [main_arg0, main_arg1, main_arg2, main_arg3, main_arg4, main_arg5, main_arg6, main_arg7, main_arg8, main_arg9, main_arg10, main_arg11, main_arg12]

theorem BW16_arg (c : Dev nD) (r : Ref sig .tc) (h : r ∈ mainArgs) : BW16 m ρ c (Proc.devRef .tc r) = m ((c : Thread nD τ).loc r) :=
  (BW16_keeps m ρ c r ((by decide : ∀ r ∈ mainArgs, ∀ w, Pipeline.arrRef spec7 w = r → (cfg7.win w).isOut = false) r h)).trans <|
  (hostOps7_keeps (BW14 m ρ c) r ((by decide : ∀ r ∈ mainArgs, r ∉ hostOps7_W) r h)).trans <|
  (BW14_of_ne m ρ c r ((by decide : ∀ r ∈ mainArgs, ∀ w, Pipeline.arrRef spec6 w ≠ r) r h)).trans <|
  (hostOps6_keeps (BW12 m ρ c) r ((by decide : ∀ r ∈ mainArgs, r ∉ hostOps6_W) r h)).trans <|
  (BW12_of_ne m ρ c r ((by decide : ∀ r ∈ mainArgs, ∀ w, Pipeline.arrRef spec5 w ≠ r) r h)).trans <|
  (hostOps5_keeps (BW10 m ρ c) r ((by decide : ∀ r ∈ mainArgs, r ∉ hostOps5_W) r h)).trans <|
  (BW10_of_ne m ρ c r ((by decide : ∀ r ∈ mainArgs, ∀ w, Pipeline.arrRef spec4 w ≠ r) r h)).trans <|
  (hostOps4_keeps (BW8 m ρ c) r ((by decide : ∀ r ∈ mainArgs, r ∉ hostOps4_W) r h)).trans <|
  (BW8_of_ne m ρ c r ((by decide : ∀ r ∈ mainArgs, ∀ w, Pipeline.arrRef spec3 w ≠ r) r h)).trans <|
  (hostOps3_keeps (BW6 m ρ c) r ((by decide : ∀ r ∈ mainArgs, r ∉ hostOps3_W) r h)).trans <|
  (BW6_of_ne m ρ c r ((by decide : ∀ r ∈ mainArgs, ∀ w, Pipeline.arrRef spec2 w ≠ r) r h)).trans <|
  (hostOps2_keeps (BW4 m ρ c) r ((by decide : ∀ r ∈ mainArgs, r ∉ hostOps2_W) r h)).trans <|
  (BW4_of_ne m ρ c r ((by decide : ∀ r ∈ mainArgs, ∀ w, Pipeline.arrRef spec1 w ≠ r) r h)).trans <|
  (hostOps1_keeps (BW2 m ρ c) r ((by decide : ∀ r ∈ mainArgs, r ∉ hostOps1_W) r h)).trans <|
  (BW2_keeps m ρ c r ((by decide : ∀ r ∈ mainArgs, ∀ w, Pipeline.arrRef spec0 w = r → (cfg0.win w).isOut = false) r h)).trans <|
  (hostOps0_keeps (BW0 m ρ c) r ((by decide : ∀ r ∈ mainArgs, r ∉ hostOps0_W) r h)).trans <|
  rfl

theorem BW16_main_arg0 (c : Dev nD) : BW16 m ρ c (Proc.devRef .tc main_arg0) = m ((c : Thread nD τ).loc main_arg0) :=
  BW16_arg m ρ c main_arg0 (by decide)
theorem BW16_main_arg1 (c : Dev nD) : BW16 m ρ c (Proc.devRef .tc main_arg1) = m ((c : Thread nD τ).loc main_arg1) :=
  BW16_arg m ρ c main_arg1 (by decide)
theorem BW16_main_arg2 (c : Dev nD) : BW16 m ρ c (Proc.devRef .tc main_arg2) = m ((c : Thread nD τ).loc main_arg2) :=
  BW16_arg m ρ c main_arg2 (by decide)
theorem BW16_main_arg3 (c : Dev nD) : BW16 m ρ c (Proc.devRef .tc main_arg3) = m ((c : Thread nD τ).loc main_arg3) :=
  BW16_arg m ρ c main_arg3 (by decide)
theorem BW16_main_arg4 (c : Dev nD) : BW16 m ρ c (Proc.devRef .tc main_arg4) = m ((c : Thread nD τ).loc main_arg4) :=
  BW16_arg m ρ c main_arg4 (by decide)
theorem BW16_main_arg5 (c : Dev nD) : BW16 m ρ c (Proc.devRef .tc main_arg5) = m ((c : Thread nD τ).loc main_arg5) :=
  BW16_arg m ρ c main_arg5 (by decide)
theorem BW16_main_arg6 (c : Dev nD) : BW16 m ρ c (Proc.devRef .tc main_arg6) = m ((c : Thread nD τ).loc main_arg6) :=
  BW16_arg m ρ c main_arg6 (by decide)
theorem BW16_main_arg7 (c : Dev nD) : BW16 m ρ c (Proc.devRef .tc main_arg7) = m ((c : Thread nD τ).loc main_arg7) :=
  BW16_arg m ρ c main_arg7 (by decide)
theorem BW16_main_arg8 (c : Dev nD) : BW16 m ρ c (Proc.devRef .tc main_arg8) = m ((c : Thread nD τ).loc main_arg8) :=
  BW16_arg m ρ c main_arg8 (by decide)
theorem BW16_main_arg9 (c : Dev nD) : BW16 m ρ c (Proc.devRef .tc main_arg9) = m ((c : Thread nD τ).loc main_arg9) :=
  BW16_arg m ρ c main_arg9 (by decide)
theorem BW16_main_arg10 (c : Dev nD) : BW16 m ρ c (Proc.devRef .tc main_arg10) = m ((c : Thread nD τ).loc main_arg10) :=
  BW16_arg m ρ c main_arg10 (by decide)
theorem BW16_main_arg11 (c : Dev nD) : BW16 m ρ c (Proc.devRef .tc main_arg11) = m ((c : Thread nD τ).loc main_arg11) :=
  BW16_arg m ρ c main_arg11 (by decide)
theorem BW16_main_arg12 (c : Dev nD) : BW16 m ρ c (Proc.devRef .tc main_arg12) = m ((c : Thread nD τ).loc main_arg12) :=
  BW16_arg m ρ c main_arg12 (by decide)

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (BV1 m ρ) c
  | ⟨1, _⟩ => fun c => dat1 (BV3 m ρ) c
  | ⟨2, _⟩ => fun c => dat2 (BV5 m ρ) c
  | ⟨3, _⟩ => fun c => dat3 (BV7 m ρ) c
  | ⟨4, _⟩ => fun c => dat4 (BV9 m ρ) c
  | ⟨5, _⟩ => fun c => dat5 (BV11 m ρ) c
  | ⟨6, _⟩ => fun c => dat6 (BV13 m ρ) c
  | ⟨7, _⟩ => fun c => dat7 (BV15 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (BW16 m ρ c) ∗ ∃ r, prngReg c r)

abbrev toV (W : Dev nD → Valuation τ sig (Elt F)) : (c : Dev nD) → (b : Ref sig .tc) → Buf (Elt F) ((c : Thread nD τ).loc b) :=
  fun c b => W c b

theorem ne_of_not_image {α β : Type} [Fintype α] [DecidableEq β] {f : α → β} {b : β} (h : b ∉ Finset.univ.image f) (w : α) : f w ≠ b :=
  fun e => h (Finset.mem_image.mpr ⟨w, Finset.mem_univ _, e⟩)

set_option backward.isDefEq.respectTransparency.types false in
def regOf (p : Fin 8) (ln : Pipeline.LaunchFacts (nD := nD) (τ := τ) cfgs p)
    (hbody : ∀ c, Pipeline.BodyObligationLoose (pdats m ρ p c) defs₀ 𝒱₀ () Set.univ)
    (W W' : Dev nD → Valuation τ sig (Elt F))
    (hq : ∀ c w, (pdats m ρ p c).q w = fullShare)
    (hA : ∀ c w, (pdats m ρ p c).A w = toV W c (Pipeline.arrRef (Pipeline.pin (pcfgs (F := F)) adm p).spec w))
    (howed : ∀ c t, (pdats m ρ p c).owed t = 0)
    (hrec : ∀ c x, x ∈ (pdats m ρ p c).recorded 0)
    (hF : ∀ c w, (pdats m ρ p c).arrAt w (Pipeline.pin (pcfgs (F := F)) adm p).N = toV W' c (Pipeline.arrRef (Pipeline.pin (pcfgs (F := F)) adm p).spec w))
    (hrest : ∀ c (b : Ref sig .tc), b ∉ Finset.univ.image (Pipeline.arrRef (Pipeline.pin (pcfgs (F := F)) adm p).spec) → toV W' c b = toV W c b)
    (hfst : ∀ c, (Pipeline.ΦA (Pipeline.pin (pcfgs (F := F)) adm p).spec c : sProp 𝕄) ⊢ (pdats m ρ p c).Φ 0)
    (hlst : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV W c)
  hentry c := by
    rw [Pipeline.ownSems0_none]
    unfold Pipeline.Dat.owesAt Pipeline.owesWithin
    rw [howed c]
    have hsplit := Pipeline.arrays_of_unscopedBufs (p := p) (pcfgs (F := F)) adm (pdats m ρ) ln.win ln.arr_whole c
      ((pdats m ρ p c).share_full (hq c)) (toV W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W₁, HO⟩; iexists W₁; isplitr; · ipureintro; exact fun x _ => Or.inl (hrec c x)
      iexact HO
    isplitl [Hp]; · iexact Hp
    iexact Hrest
  hin c := by
    refine BIBase.Entails.trans ?_ (hfst c)
    unfold Pipeline.ΦA
    iintro ⟨Hp, -, Hr⟩
    isplitl [Hr]; · iexact Hr
    iexact Hp
  hout c := by
    rw [Pipeline.ownSems0_none]
    refine BIBase.Entails.trans (hlst c) ?_
    unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (toV W c) (toV W' c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W₁, -, HO⟩; iexists W₁; iexact HO

def reg0 :=
  regOf m ρ 0 launch0 (fun c => (body_obligation0 (BV1 m ρ) c).loose) (BW1 m ρ) (BW2 m ρ)
    (fun _ _ => rfl) (fun _ _ => rfl) (fun _ _ => rfl) (fun _ _ => trivial) (fun c w => (BW2_arr m ρ c w).symm)
    (fun c b hb => BW2_of_ne m ρ c b (ne_of_not_image hb)) (fun _ => .rfl) (fun _ => .rfl)

def reg1 :=
  regOf m ρ 1 launch1 (fun c => (body_obligation1 (BV3 m ρ) c).loose) (BW3 m ρ) (BW4 m ρ)
    (fun _ _ => rfl) (fun _ _ => rfl) (fun _ _ => rfl) (fun _ _ => trivial) (fun c w => (BW4_arr m ρ c w).symm)
    (fun c b hb => BW4_of_ne m ρ c b (ne_of_not_image hb)) (hin1 (BV3 m ρ)) (hout1 (BV3 m ρ))

def reg2 :=
  regOf m ρ 2 launch2 (fun c => (body_obligation2 (BV5 m ρ) c).loose) (BW5 m ρ) (BW6 m ρ)
    (fun _ _ => rfl) (fun _ _ => rfl) (fun _ _ => rfl) (fun _ _ => trivial) (fun c w => (BW6_arr m ρ c w).symm)
    (fun c b hb => BW6_of_ne m ρ c b (ne_of_not_image hb)) (fun _ => .rfl) (fun _ => .rfl)

def reg3 :=
  regOf m ρ 3 launch3 (fun c => (body_obligation3 (BV7 m ρ) c).loose) (BW7 m ρ) (BW8 m ρ)
    (fun _ _ => rfl) (fun _ _ => rfl) (fun _ _ => rfl) (fun _ _ => trivial) (fun c w => (BW8_arr m ρ c w).symm)
    (fun c b hb => BW8_of_ne m ρ c b (ne_of_not_image hb)) (hin3 (BV7 m ρ)) (hout3 (BV7 m ρ))

def reg4 :=
  regOf m ρ 4 launch4 (fun c => (body_obligation4 (BV9 m ρ) c).loose) (BW9 m ρ) (BW10 m ρ)
    (fun _ _ => rfl) (fun _ _ => rfl) (fun _ _ => rfl) (fun _ _ => trivial) (fun c w => (BW10_arr m ρ c w).symm)
    (fun c b hb => BW10_of_ne m ρ c b (ne_of_not_image hb)) (fun _ => .rfl) (fun _ => .rfl)

def reg5 :=
  regOf m ρ 5 launch5 (fun c => (body_obligation5 (BV11 m ρ) c).loose) (BW11 m ρ) (BW12 m ρ)
    (fun _ _ => rfl) (fun _ _ => rfl) (fun _ _ => rfl) (fun _ _ => trivial) (fun c w => (BW12_arr m ρ c w).symm)
    (fun c b hb => BW12_of_ne m ρ c b (ne_of_not_image hb)) (hin5 (BV11 m ρ)) (hout5 (BV11 m ρ))

def reg6 :=
  regOf m ρ 6 launch6 (fun c => (body_obligation6 (BV13 m ρ) c).loose) (BW13 m ρ) (BW14 m ρ)
    (fun _ _ => rfl) (fun _ _ => rfl) (fun _ _ => rfl) (fun _ _ => trivial) (fun c w => (BW14_arr m ρ c w).symm)
    (fun c b hb => BW14_of_ne m ρ c b (ne_of_not_image hb)) (fun _ => .rfl) (fun _ => .rfl)

def reg7 :=
  regOf m ρ 7 launch7 (fun c => (body_obligation7 (BV15 m ρ) c).loose) (BW15 m ρ) (BW16 m ρ)
    (fun _ _ => rfl) (fun _ _ => rfl) (fun _ _ => rfl) (fun _ _ => trivial) (fun c w => (BW16_arr m ρ c w).symm)
    (fun c b hb => BW16_of_ne m ρ c b (ne_of_not_image hb)) (fun _ => .rfl) (fun _ => .rfl)

abbrev segs : List (Pipeline.Seg (pcfgs (F := F)) adm (pdats m ρ) () defs₀ 𝒱₀ L lv) :=
  [ .host (hseg hostOps0 hostOps0_sub hostOps0_fresh (BW0 m ρ)),
    .region (reg0 m ρ),
    .host (hseg hostOps1 hostOps1_sub hostOps1_fresh (BW2 m ρ)),
    .region (reg1 m ρ),
    .host (hseg hostOps2 hostOps2_sub hostOps2_fresh (BW4 m ρ)),
    .region (reg2 m ρ),
    .host (hseg hostOps3 hostOps3_sub hostOps3_fresh (BW6 m ρ)),
    .region (reg3 m ρ),
    .host (hseg hostOps4 hostOps4_sub hostOps4_fresh (BW8 m ρ)),
    .region (reg4 m ρ),
    .host (hseg hostOps5 hostOps5_sub hostOps5_fresh (BW10 m ρ)),
    .region (reg5 m ρ),
    .host (hseg hostOps6 hostOps6_sub hostOps6_fresh (BW12 m ρ)),
    .region (reg6 m ρ),
    .host (hseg hostOps7 hostOps7_sub hostOps7_fresh (BW14 m ρ)),
    .region (reg7 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = BW16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (BW0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (BW0 m ρ c)
        from Pipeline.unscopedBufs_held c (BW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = BW16 m ρ c b)
    (hfin := fun c s' => by
      iintro ⟨⟨Hh, -⟩, HSI⟩
      unfold StableHlo.held
      imodintro
      iapply (pointsTo_read_all (Pipeline.ucRefs τ sig) (fun b => (((c : Thread nD τ)).1, b)) (BW16 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have g : ∀ b ∈ mainArgs, r.2.mem ((c.tc : Thread nD τ).loc b) = m ((c.tc : Thread nD τ).loc b) := fun b hb =>
      (h c _ (mem_uc b ((by decide : ∀ b ∈ mainArgs, ¬ (Proc.devRef .tc b : DevRef τ sig).isScoped) b hb))).trans (BW16_arg m ρ c b hb)
    ⟨g main_arg0 (by decide), g main_arg1 (by decide), g main_arg2 (by decide), g main_arg3 (by decide), g main_arg4 (by decide), g main_arg5 (by decide), g main_arg6 (by decide), g main_arg7 (by decide), g main_arg8 (by decide), g main_arg9 (by decide), g main_arg10 (by decide), g main_arg11 (by decide), g main_arg12 (by decide)⟩) (run_all m ρ)

theorem BW16_out (c : Dev nD) : BW16 m ρ c (Proc.devRef .tc main_v147) = (dat7 (BV15 m ρ) c).arrAt 5 cfg7.N :=
  BW16_arr m ρ c 5

end Cert.Kernel.Hand

end
-- ==== Proof.KI.RegA0.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rows0 : Rect S4000x128 := Rect.unit (s := S4000x128) ![0, 0] S4000x128.size inb_S4000x128_S4000x128_0_0
abbrev mat0 : Rect S128x128 := Rect.unit (s := S128x128) ![0, 0] S128x128.size inb_S128x128_S128x128_0_0
abbrev bias0 : Rect S1x128 := Rect.unit (s := S1x128) ![0, 0] S1x128.size inb_S1x128_S1x128_0_0

def out0_4 (x0 : Vec F S4000x128 .f32) (x1 : Vec F S128x128 .f32) (x2 : Vec F S1x128 .f32) (x3 : Vec F S128x128 .f32) : Vec F S4000x128 .bf16 :=
  View.canon [⟨rows0, k0_pay1 (View.ld x0 rows0) (View.ld x1 mat0) (View.ld x2 bias0) (View.ld x3 mat0)⟩]

set_option maxHeartbeats 1000000 in
theorem sound_kernel0 (c : Dev nD) (E : Set ℕ) (i : grid0.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S4000x128 .bf16) (harg5 : arg5.IsWhole)
    (x0 : Vec F S4000x128 .f32) (x1 : Vec F S128x128 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg5 fullShare (out0_4 x0 x1 x2 x3) ∗ owns (c : Thread nD τ) arg1 fullShare x0 ∗ owns (c : Thread nD τ) arg2 fullShare x1 ∗ owns (c : Thread nD τ) arg3 fullShare x2
            ∗ owns (c : Thread nD τ) arg4 fullShare x3) -∗ K ⟨⟩))
      ⊢ wp frame (wpE (defs₀ (F := F)) Variants.none c none) E (cc0__fused_in_proj_kernel i arg1 harg1 arg2 harg2 arg3 harg3 arg4 harg4 arg5 harg5) K := by
  simp only [cc0__fused_in_proj_kernel_eq_skeleton]; unfold cc0__fused_in_proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H4]
  · iexists _; isplitr; swap; · iexact H4
    ipureintro; exact View.read_writes_eq_canon _ _ _ (View.cover_of_tiled _ S4000x128.size (by rfl))
  sl_close

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) :
    (dat0 V c).after 4 t = out0_4 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) := by
  refine ⟨?_, ?_, ?_, ?_⟩ <;> intro d <;>
    refine (Dat.before_in_eq_fetched _ _ ?_ ?_ ?_ ?_ t d).trans ?_ <;> intros <;> rfl

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d)))
    ⊢ wp frame (wpE (defs₀ (F := F)) Variants.none c none) Set.univ (bodyAt0 t) fun _ =>
    iprop((dat0 V c).Φ t.castSucc ∗ (dat0 V c).owesAt () t.castSucc
      ∗ owns (c : Thread nD τ) (st0_0 t) fullShare (iblk0 V c 0 t)
      ∗ owns (c : Thread nD τ) (st0_1 t) fullShare (iblk0 V c 1 t)
      ∗ owns (c : Thread nD τ) (st0_2 t) fullShare (iblk0 V c 2 t)
      ∗ owns (c : Thread nD τ) (st0_3 t) fullShare (iblk0 V c 3 t)
      ∗ owns (c : Thread nD τ) (st0_4 t) fullShare ((dat0 V c).after 4 t)) := by
  obtain ⟨ha, hb, hc, hd⟩ := before0 V c t
  simp only [ha, hb, hc, hd, after0_4]
  iintro ⟨HΦ, Ho, ⟨%d0, H0⟩, ⟨%d1, H1⟩, ⟨%d2, H2⟩, ⟨%d3, H3⟩, ⟨%dO, H4⟩⟩
  iapply (sound_kernel0 c Set.univ _ _ _ _ _ _ _ _ _ _ _ (iblk0 V c 0 t) (iblk0 V c 1 t) (iblk0 V c 2 t) (iblk0 V c 3 t) _)
  iframe H0 H1 H2 H3
  isplitl [H4]; · iexists _; iexact H4
  iintro ⟨H4, H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.RegR1.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) (iblk1 V c 3 ⟨0, hn⟩) k1_pay1,
      k1_pay5 (iblk1 V c 0 ⟨0, hn⟩) (iblk1 V c 1 ⟨0, hn⟩) (iblk1 V c 2 ⟨0, hn⟩) (iblk1 V c 3 ⟨0, hn⟩) k1_pay2)
  | n + 1, hn => (k1_pay4 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).1,
      k1_pay5 (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn)).2)

theorem accAt1_zero (c : Dev nD) (hn : 0 < cfg1.N) :
    accAt1 V c 0 hn = (k1_pay4 (iblk1 V c 0 ⟨0, hn⟩) (iblk1 V c 1 ⟨0, hn⟩) (iblk1 V c 2 ⟨0, hn⟩) (iblk1 V c 3 ⟨0, hn⟩) k1_pay1,
      k1_pay5 (iblk1 V c 0 ⟨0, hn⟩) (iblk1 V c 1 ⟨0, hn⟩) (iblk1 V c 2 ⟨0, hn⟩) (iblk1 V c 3 ⟨0, hn⟩) k1_pay2) := rfl

theorem accAt1_succ (c : Dev nD) (n : ℕ) (hn : n + 1 < cfg1.N) :
    accAt1 V c (n + 1) hn = (k1_pay4 (iblk1 V c 0 ⟨n + 1, hn⟩) (iblk1 V c 1 ⟨n + 1, hn⟩) (iblk1 V c 2 ⟨n + 1, hn⟩) (iblk1 V c 3 ⟨n + 1, hn⟩) (accAt1 V c n (Nat.lt_of_succ_lt hn)).1,
      k1_pay5 (iblk1 V c 0 ⟨n + 1, hn⟩) (iblk1 V c 1 ⟨n + 1, hn⟩) (iblk1 V c 2 ⟨n + 1, hn⟩) (iblk1 V c 3 ⟨n + 1, hn⟩) (accAt1 V c n (Nat.lt_of_succ_lt hn)).2) := rfl

abbrev cond1 (i : grid1.Coords) : Prop :=
  (Scalar.cmpi .ne (Scalar.extui (Scalar.cmpi .eq (BitVec.ofNat 32 (i 0).val) 0#32)) 0#32) = 1#1

theorem hcond1 : ∀ t : Fin cfg1.N, cond1 (grid1.coords t) ↔ t.val = 0 := by decide +kernel

-- One step of the two sums at a point: from the zero rows at the first point, from `a`, the sums of the point before, at a later one.
theorem accAt1_step (c : Dev nD) (t : Fin cfg1.N) (a : Vec F S1x128 .f32 × Vec F S1x128 .f32)
    (ha : ∀ h : t.val ≠ 0, a = accAt1 V c (t.val - 1) (Nat.lt_of_le_of_lt (Nat.sub_le _ _) t.isLt)) :
    accAt1 V c t.val t.isLt = (k1_pay4 (iblk1 V c 0 t) (iblk1 V c 1 t) (iblk1 V c 2 t) (iblk1 V c 3 t) (if cond1 (grid1.coords t) then k1_pay1 else a.1),
      k1_pay5 (iblk1 V c 0 t) (iblk1 V c 1 t) (iblk1 V c 2 t) (iblk1 V c 3 t) (if cond1 (grid1.coords t) then k1_pay2 else a.2)) := by
  have hc := hcond1 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel1 {c : Dev nD} {E : Set ℕ} {i : grid1.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k1_pay3 x0 x1 x2 x3)
            ∗ ownsTc c arg6 fullShare (k1_pay4 x0 x1 x2 x3 (if cond1 i then k1_pay1 else a0))
            ∗ ownsTc c arg7 fullShare (k1_pay5 x0 x1 x2 x3 (if cond1 i then k1_pay2 else a1))
            ∗ ownsTc c arg8 fullShare (k1_pay4 x0 x1 x2 x3 (if cond1 i then k1_pay1 else a0))
            ∗ ownsTc c arg9 fullShare (k1_pay5 x0 x1 x2 x3 (if cond1 i then k1_pay2 else a1))) -∗ K ⟨⟩))
      ⊢ wp frame (wpE (defs₀ (F := F)) Variants.none c none) E (cc1__combine_reduce_kernel i arg1 harg1 arg2 harg2 arg3 harg3 arg4 harg4 arg5 harg5 arg6 harg6 arg7 harg7 arg8 harg8 arg9 harg9) K := by
  by_cases hc : cond1 i
  all_goals
    first | rw [if_pos hc, if_pos hc] | rw [if_neg hc, if_neg hc]
    simp only [cc1__combine_reduce_kernel_eq_skeleton]; unfold cc1__combine_reduce_kernel_skel
    simp only [k1_part1_eq_skeleton]; unfold k1_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS1 (c : Dev nD) (n : ℕ) (hn : n ≤ cfg1.N) : sProp 𝕄 :=
  iprop(((∃ a : Vec F S1x128 .f32 × Vec F S1x128 .f32, ⌜∀ h : n ≠ 0, a = accAt1 V c (n - 1) (by omega)⌝
      ∗ ownsTc c (Memref.whole cc1_scratch0) fullShare a.1 ∗ ownsTc c (Memref.whole cc1_scratch1) fullShare a.2)
    ∗ Pipeline.scopedRestBut spec1 c [cc1_scratch0, cc1_scratch1]) ∗ (∃ r, prngReg c r))

theorem PhiA1_eq (c : Dev nD) :
    (Pipeline.ΦA spec1 c : sProp 𝕄)
      = iprop((iprop((∃ d, ownsTc c (Memref.whole cc1_scratch0) fullShare d) ∗ (∃ d, ownsTc c (Memref.whole cc1_scratch1) fullShare d))
        ∗ Pipeline.scopedRestBut spec1 c [cc1_scratch0, cc1_scratch1]) ∗ (∃ r, prngReg c r)) := by
  unfold Pipeline.ΦA; rw [scopedRest1_split]; simp only [owns_whole]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (iblk1 V c 0 t) (iblk1 V c 1 t) (iblk1 V c 2 t) (iblk1 V c 3 t)
    | ⟨5, _⟩ => (accAt1 V c t.val t.isLt).1
    | ⟨6, _⟩ => (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = k1_pay3 (iblk1 V c 0 t) (iblk1 V c 1 t) (iblk1 V c 2 t) (iblk1 V c 3 t) := rfl
theorem after1_5 (c : Dev nD) (t : Fin cfg1.N) : (dat1 V c).after 5 t = (accAt1 V c t.val t.isLt).1 := rfl
theorem after1_6 (c : Dev nD) (t : Fin cfg1.N) : (dat1 V c).after 6 t = (accAt1 V c t.val t.isLt).2 := rfl

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ ∀ d, (dat1 V c).before 3 t d = iblk1 V c 3 t := by
  refine ⟨?_, ?_, ?_, ?_⟩ <;> refine fun d => (Dat.before_in_eq_fetched _ _ ?_ ?_ ?_ ?_ t d).trans ?_ <;> (intros; rfl)

theorem sound_body1 (c : Dev nD) (t : Fin cfg1.N) :
    iprop(PhiS1 V c t.val (Nat.le_of_lt t.isLt) ∗ (dat1 V c).owesAt () t.castSucc
      ∗ bigSep Finset.univ fun w => iprop(∃ d, ownsTc c ((cfg1.win w).stage (cfg1.slots t w)) fullShare ((dat1 V c).before w t d)))
    ⊢ wp frame (wpE (defs₀ (F := F)) Variants.none c none) Set.univ (bodyAt1 t) fun _ =>
      iprop(PhiS1 V c (t.val + 1) t.isLt ∗ (dat1 V c).owesAt () t.castSucc
        ∗ bigSep Finset.univ fun w => ownsTc c ((cfg1.win w).stage (cfg1.slots t w)) fullShare ((dat1 V c).after w t)) := by
  rw [bigSep_W1, bigSep_W1]
  obtain ⟨h0, h1, h2, h3⟩ := before1 V c t
  simp only [h0, h1, h2, h3]
  unfold PhiS1 bodyAt1
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after1_5, after1_6, accAt1_step V c t a ha]
  iapply (sound_kernel1 (iblk1 V c 0 t) (iblk1 V c 1 t) (iblk1 V c 2 t) (iblk1 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt1_step V c t a ha).symm
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  have h := sound_body1 V c t
  rw [bigSep_W1, bigSep_W1] at h ⊢
  exact h

theorem hin1 (c : Dev nD) : (Pipeline.ΦA spec1 c : sProp 𝕄) ⊢ (dat1 V c).Φ 0 := by
  rw [PhiA1_eq]; show _ ⊢ PhiS1 V c 0 (Nat.zero_le _); unfold PhiS1
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout1 (c : Dev nD) : (dat1 V c).Φ (Fin.last cfg1.N) ⊢ (Pipeline.ΦA spec1 c : sProp 𝕄) := by
  rw [PhiA1_eq]; show PhiS1 V c _ (Nat.le_refl _) ⊢ _; unfold PhiS1
  iintro ⟨⟨⟨%a, -, HS0, HS1⟩, Hrest⟩, Hg⟩
  iframe Hrest Hg
  isplitl [HS0] <;> iexists _ <;> iassumption

end Cert.KernelIdeal.Hand

end
-- ==== Proof.KI.RegA2.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_5 : Rect S128x128 := Rect.unit (s := S128x128) ![0, 0] S128x128.size inb_S128x128_S128x128_0_0

def out2_6 (xh : Vec F S4000x128 .f32) (xm xv xg xb : Vec F S1x128 .f32) (xw : Vec F S128x128 .f32) : Vec F S4000x128 .bf16 :=
  View.canon [⟨r2_0, k2_pay1 (View.ld xh r2_0) (View.ld xm r2_1) (View.ld xv r2_1) (View.ld xg r2_1) (View.ld xb r2_1) (View.ld xw r2_5)⟩]

set_option maxHeartbeats 1000000 in
theorem sound_kernel2 (c : Dev nD) (E : Set ℕ) (i : grid2.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole) (aw : Memref sig .tc .vmem S128x128 .f32) (haw : aw.IsWhole)
    (ao : Memref sig .tc .vmem S4000x128 .bf16) (hao : ao.IsWhole)
    (xh : Vec F S4000x128 .f32) (xm xv xg xb : Vec F S1x128 .f32) (xw : Vec F S128x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb ∗ owns (c : Thread nD τ) aw fullShare xw
        ∗ (∃ d, owns (c : Thread nD τ) ao fullShare d)
        ∗ (iprop(owns (c : Thread nD τ) ao fullShare (out2_6 xh xm xv xg xb xw) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb ∗ owns (c : Thread nD τ) aw fullShare xw) -∗ K ⟨⟩))
      ⊢ wp frame (wpE (defs₀ (F := F)) Variants.none c none) E (cc2__norm_relu_linear_kernel i ah hah am ham av hav ag hag ab hab aw haw ao hao) K := by
  simp only [cc2__norm_relu_linear_kernel_eq_skeleton]; unfold cc2__norm_relu_linear_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%fw, %hfw, Hw⟩, ⟨%dO, %fO, -, HO⟩, Hk⟩
  subst hfh hfm hfv hfg hfb hfw
  sl_exec
  sl_step
  iapply Hk
  isplitl [HO]
  · iexists _; isplitr; swap; · iexact HO
    ipureintro; exact View.read_writes_eq_canon _ _ _ (View.cover_of_tiled _ S4000x128.size (by rfl))
  sl_close

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    refine (Dat.before_in_eq_fetched _ _ ?_ ?_ ?_ ?_ t d).trans ?_ <;> intros <;> rfl

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) fun _ =>
    iprop((dat2 V c).Φ t.castSucc ∗ (dat2 V c).owesAt () t.castSucc
      ∗ owns (c : Thread nD τ) (st2_0 t) fullShare (iblk2 V c 0 t)
      ∗ owns (c : Thread nD τ) (st2_1 t) fullShare (iblk2 V c 1 t)
      ∗ owns (c : Thread nD τ) (st2_2 t) fullShare (iblk2 V c 2 t)
      ∗ owns (c : Thread nD τ) (st2_3 t) fullShare (iblk2 V c 3 t)
      ∗ owns (c : Thread nD τ) (st2_4 t) fullShare (iblk2 V c 4 t)
      ∗ owns (c : Thread nD τ) (st2_5 t) fullShare (iblk2 V c 5 t)
      ∗ owns (c : Thread nD τ) (st2_6 t) fullShare ((dat2 V c).after 6 t)) := by
  obtain ⟨ha, hb, hc, hd, he, hf⟩ := before2 V c t
  simp only [ha, hb, hc, hd, he, hf, after2_6]
  iintro ⟨HΦ, Ho, ⟨%dh, Hh⟩, ⟨%dm, Hm⟩, ⟨%dv, Hv⟩, ⟨%dg, Hg⟩, ⟨%db, Hb⟩, ⟨%dw, Hw⟩, ⟨%dO, HO⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  iframe Hh Hm Hv Hg Hb Hw
  isplitl [HO]; · iexists _; iexact HO
  iintro ⟨HO, Hh, Hm, Hv, Hg, Hb, Hw⟩
  iframe

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.RegR3.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def accAt3 (c : Dev nD) : (n : ℕ) → n < cfg3.N → Vec F S1x128 .f32 × Vec F S1x128 .f32
  | 0, hn => (k3_pay4 (iblk3 V c 0 ⟨0, hn⟩) (iblk3 V c 1 ⟨0, hn⟩) (iblk3 V c 2 ⟨0, hn⟩) (iblk3 V c 3 ⟨0, hn⟩) k3_pay1,
      k3_pay5 (iblk3 V c 0 ⟨0, hn⟩) (iblk3 V c 1 ⟨0, hn⟩) (iblk3 V c 2 ⟨0, hn⟩) (iblk3 V c 3 ⟨0, hn⟩) k3_pay2)
  | n + 1, hn => (k3_pay4 (iblk3 V c 0 ⟨n + 1, hn⟩) (iblk3 V c 1 ⟨n + 1, hn⟩) (iblk3 V c 2 ⟨n + 1, hn⟩) (iblk3 V c 3 ⟨n + 1, hn⟩) (accAt3 c n (Nat.lt_of_succ_lt hn)).1,
      k3_pay5 (iblk3 V c 0 ⟨n + 1, hn⟩) (iblk3 V c 1 ⟨n + 1, hn⟩) (iblk3 V c 2 ⟨n + 1, hn⟩) (iblk3 V c 3 ⟨n + 1, hn⟩) (accAt3 c n (Nat.lt_of_succ_lt hn)).2)

theorem accAt3_zero (c : Dev nD) (hn : 0 < cfg3.N) :
    accAt3 V c 0 hn = (k3_pay4 (iblk3 V c 0 ⟨0, hn⟩) (iblk3 V c 1 ⟨0, hn⟩) (iblk3 V c 2 ⟨0, hn⟩) (iblk3 V c 3 ⟨0, hn⟩) k3_pay1,
      k3_pay5 (iblk3 V c 0 ⟨0, hn⟩) (iblk3 V c 1 ⟨0, hn⟩) (iblk3 V c 2 ⟨0, hn⟩) (iblk3 V c 3 ⟨0, hn⟩) k3_pay2) := rfl

theorem accAt3_succ (c : Dev nD) (n : ℕ) (hn : n + 1 < cfg3.N) :
    accAt3 V c (n + 1) hn = (k3_pay4 (iblk3 V c 0 ⟨n + 1, hn⟩) (iblk3 V c 1 ⟨n + 1, hn⟩) (iblk3 V c 2 ⟨n + 1, hn⟩) (iblk3 V c 3 ⟨n + 1, hn⟩) (accAt3 V c n (Nat.lt_of_succ_lt hn)).1,
      k3_pay5 (iblk3 V c 0 ⟨n + 1, hn⟩) (iblk3 V c 1 ⟨n + 1, hn⟩) (iblk3 V c 2 ⟨n + 1, hn⟩) (iblk3 V c 3 ⟨n + 1, hn⟩) (accAt3 V c n (Nat.lt_of_succ_lt hn)).2) := rfl

abbrev cond3 (i : grid3.Coords) : Prop :=
  (Scalar.cmpi .ne (Scalar.extui (Scalar.cmpi .eq (BitVec.ofNat 32 (i 0).val) 0#32)) 0#32) = 1#1

theorem hcond3 : ∀ t : Fin cfg3.N, cond3 (grid3.coords t) ↔ t.val = 0 := by decide +kernel

-- One step of the two sums at a point: from the zero rows at the first point, from `a`, the sums of the point before, at a later one.
theorem accAt3_step (c : Dev nD) (t : Fin cfg3.N) (a : Vec F S1x128 .f32 × Vec F S1x128 .f32)
    (ha : ∀ h : t.val ≠ 0, a = accAt3 V c (t.val - 1) (Nat.lt_of_le_of_lt (Nat.sub_le _ _) t.isLt)) :
    accAt3 V c t.val t.isLt = (k3_pay4 (iblk3 V c 0 t) (iblk3 V c 1 t) (iblk3 V c 2 t) (iblk3 V c 3 t) (if cond3 (grid3.coords t) then k3_pay1 else a.1),
      k3_pay5 (iblk3 V c 0 t) (iblk3 V c 1 t) (iblk3 V c 2 t) (iblk3 V c 3 t) (if cond3 (grid3.coords t) then k3_pay2 else a.2)) := by
  have hc := hcond3 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel3 {c : Dev nD} {E : Set ℕ} {i : grid3.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k3_pay3 x0 x1 x2 x3)
            ∗ ownsTc c arg6 fullShare (k3_pay4 x0 x1 x2 x3 (if cond3 i then k3_pay1 else a0))
            ∗ ownsTc c arg7 fullShare (k3_pay5 x0 x1 x2 x3 (if cond3 i then k3_pay2 else a1))
            ∗ ownsTc c arg8 fullShare (k3_pay4 x0 x1 x2 x3 (if cond3 i then k3_pay1 else a0))
            ∗ ownsTc c arg9 fullShare (k3_pay5 x0 x1 x2 x3 (if cond3 i then k3_pay2 else a1))) -∗ K ⟨⟩))
      ⊢ wp frame (wpE (defs₀ (F := F)) Variants.none c none) E (cc3__combine_reduce_kernel i arg1 harg1 arg2 harg2 arg3 harg3 arg4 harg4 arg5 harg5 arg6 harg6 arg7 harg7 arg8 harg8 arg9 harg9) K := by
  by_cases hc : cond3 i
  all_goals
    first | rw [if_pos hc, if_pos hc] | rw [if_neg hc, if_neg hc]
    simp only [cc3__combine_reduce_kernel_eq_skeleton]; unfold cc3__combine_reduce_kernel_skel
    simp only [k3_part1_eq_skeleton]; unfold k3_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS3 (c : Dev nD) (n : ℕ) (hn : n ≤ cfg3.N) : sProp 𝕄 :=
  iprop(((∃ a : Vec F S1x128 .f32 × Vec F S1x128 .f32, ⌜∀ h : n ≠ 0, a = accAt3 V c (n - 1) (by omega)⌝
      ∗ ownsTc c (Memref.whole cc3_scratch0) fullShare a.1 ∗ ownsTc c (Memref.whole cc3_scratch1) fullShare a.2)
    ∗ Pipeline.scopedRestBut spec3 c [cc3_scratch0, cc3_scratch1]) ∗ (∃ r, prngReg c r))

theorem PhiA3_eq (c : Dev nD) :
    (Pipeline.ΦA spec3 c : sProp 𝕄)
      = iprop((iprop((∃ d, ownsTc c (Memref.whole cc3_scratch0) fullShare d) ∗ (∃ d, ownsTc c (Memref.whole cc3_scratch1) fullShare d))
        ∗ Pipeline.scopedRestBut spec3 c [cc3_scratch0, cc3_scratch1]) ∗ (∃ r, prngReg c r)) := by
  unfold Pipeline.ΦA; rw [scopedRest3_split]; simp only [owns_whole]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (iblk3 V c 0 t) (iblk3 V c 1 t) (iblk3 V c 2 t) (iblk3 V c 3 t)
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = k3_pay3 (iblk3 V c 0 t) (iblk3 V c 1 t) (iblk3 V c 2 t) (iblk3 V c 3 t) := rfl
theorem after3_5 (c : Dev nD) (t : Fin cfg3.N) : (dat3 V c).after 5 t = (accAt3 V c t.val t.isLt).1 := rfl
theorem after3_6 (c : Dev nD) (t : Fin cfg3.N) : (dat3 V c).after 6 t = (accAt3 V c t.val t.isLt).2 := rfl

theorem before3 (c : Dev nD) (t : Fin cfg3.N) : (∀ d, (dat3 V c).before 0 t d = iblk3 V c 0 t) ∧ (∀ d, (dat3 V c).before 1 t d = iblk3 V c 1 t)
    ∧ (∀ d, (dat3 V c).before 2 t d = iblk3 V c 2 t) ∧ ∀ d, (dat3 V c).before 3 t d = iblk3 V c 3 t := by
  refine ⟨?_, ?_, ?_, ?_⟩ <;> refine fun d => (Dat.before_in_eq_fetched _ _ ?_ ?_ ?_ ?_ t d).trans ?_ <;> (intros; rfl)

theorem sound_body3 (c : Dev nD) (t : Fin cfg3.N) :
    iprop(PhiS3 V c t.val (Nat.le_of_lt t.isLt) ∗ (dat3 V c).owesAt () t.castSucc
      ∗ bigSep Finset.univ fun w => iprop(∃ d, ownsTc c ((cfg3.win w).stage (cfg3.slots t w)) fullShare ((dat3 V c).before w t d)))
    ⊢ wp frame (wpE (defs₀ (F := F)) Variants.none c none) Set.univ (bodyAt3 t) fun _ =>
      iprop(PhiS3 V c (t.val + 1) t.isLt ∗ (dat3 V c).owesAt () t.castSucc
        ∗ bigSep Finset.univ fun w => ownsTc c ((cfg3.win w).stage (cfg3.slots t w)) fullShare ((dat3 V c).after w t)) := by
  rw [bigSep_W3, bigSep_W3]
  obtain ⟨h0, h1, h2, h3⟩ := before3 V c t
  simp only [h0, h1, h2, h3]
  unfold PhiS3 bodyAt3
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after3_5, after3_6, accAt3_step V c t a ha]
  iapply (sound_kernel3 (iblk3 V c 0 t) (iblk3 V c 1 t) (iblk3 V c 2 t) (iblk3 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt3_step V c t a ha).symm
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  have h := sound_body3 V c t
  rw [bigSep_W3, bigSep_W3] at h ⊢
  exact h

theorem hin3 (c : Dev nD) : (Pipeline.ΦA spec3 c : sProp 𝕄) ⊢ (dat3 V c).Φ 0 := by
  rw [PhiA3_eq]; show _ ⊢ PhiS3 V c 0 (Nat.zero_le _); unfold PhiS3
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout3 (c : Dev nD) : (dat3 V c).Φ (Fin.last cfg3.N) ⊢ (Pipeline.ΦA spec3 c : sProp 𝕄) := by
  rw [PhiA3_eq]; show PhiS3 V c _ (Nat.le_refl _) ⊢ _; unfold PhiS3
  iintro ⟨⟨⟨%a, -, HS0, HS1⟩, Hrest⟩, Hg⟩
  iframe Hrest Hg
  isplitl [HS0] <;> iexists _ <;> iassumption

end Cert.KernelIdeal.Hand

end
-- ==== Proof.KI.RegA4.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4000x128 := Rect.unit (s := S4000x128) ![0, 0] S4000x128.size inb_S4000x128_S4000x128_0_0
abbrev r4_1 : Rect S1x128 := Rect.unit (s := S1x128) ![0, 0] S1x128.size inb_S1x128_S1x128_0_0
abbrev r4_5 : Rect S128x128 := Rect.unit (s := S128x128) ![0, 0] S128x128.size inb_S128x128_S128x128_0_0

def out4_6 (xh : Vec F S4000x128 .f32) (xm xv xg xb : Vec F S1x128 .f32) (xw : Vec F S128x128 .f32) : Vec F S4000x128 .bf16 :=
  View.canon [⟨r4_0, k4_pay1 (View.ld xh r4_0) (View.ld xm r4_1) (View.ld xv r4_1) (View.ld xg r4_1) (View.ld xb r4_1) (View.ld xw r4_5)⟩]

set_option maxHeartbeats 1000000 in
theorem sound_kernel4 (c : Dev nD) (E : Set ℕ) (i : grid4.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole) (aw : Memref sig .tc .vmem S128x128 .f32) (haw : aw.IsWhole)
    (ao : Memref sig .tc .vmem S4000x128 .bf16) (hao : ao.IsWhole)
    (xh : Vec F S4000x128 .f32) (xm xv xg xb : Vec F S1x128 .f32) (xw : Vec F S128x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb ∗ owns (c : Thread nD τ) aw fullShare xw
        ∗ (∃ d, owns (c : Thread nD τ) ao fullShare d)
        ∗ (iprop(owns (c : Thread nD τ) ao fullShare (out4_6 xh xm xv xg xb xw) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb ∗ owns (c : Thread nD τ) aw fullShare xw) -∗ K ⟨⟩))
      ⊢ wp frame (wpE (defs₀ (F := F)) Variants.none c none) E (cc4__norm_relu_linear_kernel i ah hah am ham av hav ag hag ab hab aw haw ao hao) K := by
  simp only [cc4__norm_relu_linear_kernel_eq_skeleton]; unfold cc4__norm_relu_linear_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%fw, %hfw, Hw⟩, ⟨%dO, %fO, -, HO⟩, Hk⟩
  subst hfh hfm hfv hfg hfb hfw
  sl_exec
  sl_step
  iapply Hk
  isplitl [HO]
  · iexists _; isplitr; swap; · iexact HO
    ipureintro; exact View.read_writes_eq_canon _ _ _ (View.cover_of_tiled _ S4000x128.size (by rfl))
  sl_close

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t) := by
  refine ⟨?_, ?_, ?_, ?_, ?_, ?_⟩ <;> intro d <;>
    refine (Dat.before_in_eq_fetched _ _ ?_ ?_ ?_ ?_ t d).trans ?_ <;> intros <;> rfl

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d))
      ∗ (∃ d, owns (c : Thread nD τ) (st4_4 t) fullShare ((dat4 V c).before 4 t d))
      ∗ (∃ d, owns (c : Thread nD τ) (st4_5 t) fullShare ((dat4 V c).before 5 t d))
      ∗ (∃ d, owns (c : Thread nD τ) (st4_6 t) fullShare ((dat4 V c).before 6 t d)))
    ⊢ wp frame (wpE (defs₀ (F := F)) Variants.none c none) Set.univ (bodyAt4 t) fun _ =>
    iprop((dat4 V c).Φ t.castSucc ∗ (dat4 V c).owesAt () t.castSucc
      ∗ owns (c : Thread nD τ) (st4_0 t) fullShare (iblk4 V c 0 t)
      ∗ owns (c : Thread nD τ) (st4_1 t) fullShare (iblk4 V c 1 t)
      ∗ owns (c : Thread nD τ) (st4_2 t) fullShare (iblk4 V c 2 t)
      ∗ owns (c : Thread nD τ) (st4_3 t) fullShare (iblk4 V c 3 t)
      ∗ owns (c : Thread nD τ) (st4_4 t) fullShare (iblk4 V c 4 t)
      ∗ owns (c : Thread nD τ) (st4_5 t) fullShare (iblk4 V c 5 t)
      ∗ owns (c : Thread nD τ) (st4_6 t) fullShare ((dat4 V c).after 6 t)) := by
  obtain ⟨ha, hb, hc, hd, he, hf⟩ := before4 V c t
  simp only [ha, hb, hc, hd, he, hf, after4_6]
  iintro ⟨HΦ, Ho, ⟨%dh, Hh⟩, ⟨%dm, Hm⟩, ⟨%dv, Hv⟩, ⟨%dg, Hg⟩, ⟨%db, Hb⟩, ⟨%dw, Hw⟩, ⟨%dO, HO⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  iframe Hh Hm Hv Hg Hb Hw
  isplitl [HO]; · iexists _; iexact HO
  iintro ⟨HO, Hh, Hm, Hv, Hg, Hb, Hw⟩
  iframe

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.RegR5.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S1x128 .f32 × Vec F S1x128 .f32
  | 0, hn => (k5_pay4 (iblk5 V c 0 ⟨0, hn⟩) (iblk5 V c 1 ⟨0, hn⟩) (iblk5 V c 2 ⟨0, hn⟩) (iblk5 V c 3 ⟨0, hn⟩) k5_pay1,
      k5_pay5 (iblk5 V c 0 ⟨0, hn⟩) (iblk5 V c 1 ⟨0, hn⟩) (iblk5 V c 2 ⟨0, hn⟩) (iblk5 V c 3 ⟨0, hn⟩) k5_pay2)
  | n + 1, hn => (k5_pay4 (iblk5 V c 0 ⟨n + 1, hn⟩) (iblk5 V c 1 ⟨n + 1, hn⟩) (iblk5 V c 2 ⟨n + 1, hn⟩) (iblk5 V c 3 ⟨n + 1, hn⟩) (accAt5 c n (Nat.lt_of_succ_lt hn)).1,
      k5_pay5 (iblk5 V c 0 ⟨n + 1, hn⟩) (iblk5 V c 1 ⟨n + 1, hn⟩) (iblk5 V c 2 ⟨n + 1, hn⟩) (iblk5 V c 3 ⟨n + 1, hn⟩) (accAt5 c n (Nat.lt_of_succ_lt hn)).2)

theorem accAt5_zero (c : Dev nD) (hn : 0 < cfg5.N) :
    accAt5 V c 0 hn = (k5_pay4 (iblk5 V c 0 ⟨0, hn⟩) (iblk5 V c 1 ⟨0, hn⟩) (iblk5 V c 2 ⟨0, hn⟩) (iblk5 V c 3 ⟨0, hn⟩) k5_pay1,
      k5_pay5 (iblk5 V c 0 ⟨0, hn⟩) (iblk5 V c 1 ⟨0, hn⟩) (iblk5 V c 2 ⟨0, hn⟩) (iblk5 V c 3 ⟨0, hn⟩) k5_pay2) := rfl

theorem accAt5_succ (c : Dev nD) (n : ℕ) (hn : n + 1 < cfg5.N) :
    accAt5 V c (n + 1) hn = (k5_pay4 (iblk5 V c 0 ⟨n + 1, hn⟩) (iblk5 V c 1 ⟨n + 1, hn⟩) (iblk5 V c 2 ⟨n + 1, hn⟩) (iblk5 V c 3 ⟨n + 1, hn⟩) (accAt5 V c n (Nat.lt_of_succ_lt hn)).1,
      k5_pay5 (iblk5 V c 0 ⟨n + 1, hn⟩) (iblk5 V c 1 ⟨n + 1, hn⟩) (iblk5 V c 2 ⟨n + 1, hn⟩) (iblk5 V c 3 ⟨n + 1, hn⟩) (accAt5 V c n (Nat.lt_of_succ_lt hn)).2) := rfl

abbrev cond5 (i : grid5.Coords) : Prop :=
  (Scalar.cmpi .ne (Scalar.extui (Scalar.cmpi .eq (BitVec.ofNat 32 (i 0).val) 0#32)) 0#32) = 1#1

theorem hcond5 : ∀ t : Fin cfg5.N, cond5 (grid5.coords t) ↔ t.val = 0 := by decide +kernel

-- One step of the two sums at a point: from the zero rows at the first point, from `a`, the sums of the point before, at a later one.
theorem accAt5_step (c : Dev nD) (t : Fin cfg5.N) (a : Vec F S1x128 .f32 × Vec F S1x128 .f32)
    (ha : ∀ h : t.val ≠ 0, a = accAt5 V c (t.val - 1) (Nat.lt_of_le_of_lt (Nat.sub_le _ _) t.isLt)) :
    accAt5 V c t.val t.isLt = (k5_pay4 (iblk5 V c 0 t) (iblk5 V c 1 t) (iblk5 V c 2 t) (iblk5 V c 3 t) (if cond5 (grid5.coords t) then k5_pay1 else a.1),
      k5_pay5 (iblk5 V c 0 t) (iblk5 V c 1 t) (iblk5 V c 2 t) (iblk5 V c 3 t) (if cond5 (grid5.coords t) then k5_pay2 else a.2)) := by
  have hc := hcond5 t
  obtain ⟨n, hn⟩ := t
  cases n with
  | zero => simp only [if_pos (hc.mpr rfl)]; rfl
  | succ n => obtain rfl := ha n.succ_ne_zero; simp only [if_neg (mt hc.mp n.succ_ne_zero)]; rfl

private theorem hzz : (![0, 0] : Fin 2 → Nat) = fun _ => 0 := funext fun a => by fin_cases a <;> rfl

private theorem read_writes_whole {sg κ sp S e Val} (v : View sg κ sp S e) (f : v.ty.Contents Val) [∀ e, Nonempty (Val e)] {off : Fin S.rank → Nat}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.Mem.head _, View.mem_set_unit_zero h inb y⟩)]
  exact View.canon_cons_unit_zero h inb w L

private theorem readAt_whole {sg κ sp S e Val} (v : View sg κ sp S e) (f : v.ty.Contents Val) {off : Fin S.rank → Nat}
    (h : off = fun _ => 0) (inb : ∀ a, off a + S.size a ≤ S.size a) :
    v.readAt Val (Rect.unit off S.size inb).toLoadRect f = v.read Val f :=
  View.ld_unit_zero h inb (v.read Val f)

set_option maxHeartbeats 4000000 in
theorem sound_kernel5 {c : Dev nD} {E : Set ℕ} {i : grid5.Coords} {arg1 arg5 : Memref sig .tc .vmem S4000x128 .f32} {arg2 : Memref sig .tc .vmem S4000x128 .bf16}
    {arg3 : Memref sig .tc .vmem S4000x1 .f32} {arg4 arg6 arg7 arg8 arg9 : Memref sig .tc .vmem S1x128 .f32} {harg1 : arg1.IsWhole} {harg2 : arg2.IsWhole} {harg3 : arg3.IsWhole}
    {harg4 : arg4.IsWhole} {harg5 : arg5.IsWhole} {harg6 : arg6.IsWhole} {harg7 : arg7.IsWhole} {harg8 : arg8.IsWhole} {harg9 : arg9.IsWhole}
    (x0 : Vec F S4000x128 .f32) (x1 : Vec F S4000x128 .bf16) (x2 : Vec F S4000x1 .f32) (x3 a0 a1 : Vec F S1x128 .f32) {K : PUnit → sProp 𝕄} :
    iprop(ownsTc c arg1 fullShare x0 ∗ ownsTc c arg2 fullShare x1
        ∗ ownsTc c arg3 fullShare x2 ∗ ownsTc c arg4 fullShare x3
        ∗ (∃ d, ownsTc c arg5 fullShare d) ∗ (∃ d, ownsTc c arg6 fullShare d)
        ∗ (∃ d, ownsTc c arg7 fullShare d) ∗ ownsTc c arg8 fullShare a0
        ∗ ownsTc c arg9 fullShare a1
        ∗ (iprop(ownsTc c arg1 fullShare x0 ∗ ownsTc c arg2 fullShare x1
            ∗ ownsTc c arg3 fullShare x2 ∗ ownsTc c arg4 fullShare x3
            ∗ ownsTc c arg5 fullShare (k5_pay3 x0 x1 x2 x3)
            ∗ ownsTc c arg6 fullShare (k5_pay4 x0 x1 x2 x3 (if cond5 i then k5_pay1 else a0))
            ∗ ownsTc c arg7 fullShare (k5_pay5 x0 x1 x2 x3 (if cond5 i then k5_pay2 else a1))
            ∗ ownsTc c arg8 fullShare (k5_pay4 x0 x1 x2 x3 (if cond5 i then k5_pay1 else a0))
            ∗ ownsTc c arg9 fullShare (k5_pay5 x0 x1 x2 x3 (if cond5 i then k5_pay2 else a1))) -∗ K ⟨⟩))
      ⊢ wp frame (wpE (defs₀ (F := F)) Variants.none c none) E (cc5__combine_reduce_kernel i arg1 harg1 arg2 harg2 arg3 harg3 arg4 harg4 arg5 harg5 arg6 harg6 arg7 harg7 arg8 harg8 arg9 harg9) K := by
  by_cases hc : cond5 i
  all_goals
    first | rw [if_pos hc, if_pos hc] | rw [if_neg hc, if_neg hc]
    simp only [cc5__combine_reduce_kernel_eq_skeleton]; unfold cc5__combine_reduce_kernel_skel
    simp only [k5_part1_eq_skeleton]; unfold k5_part1_skel
    unfold ownsTc owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    subst hf1 hf2 hf3 hf4 hf8 hf9
    sl_exec (disch := first | exact hc)
    sl_step
    iapply Hk
    isplitl [H1]; swap; isplitl [H2]; swap; isplitl [H3]; swap; isplitl [H4]; swap
    isplitl [H5]; swap; isplitl [H6]; swap; isplitl [H7]; swap; isplitl [H8]; swap
    all_goals
      iexists _; isplitr; swap; · iassumption
      ipureintro
      first
        | (sl_unfold_words
           refine (read_writes_whole _ _ hzz _ _ _).trans ?_
           simp only [View.readCov_cons_toLoadRect, readAt_whole (S := S4000x128) _ _ hzz, readAt_whole (S := S4000x1) _ _ hzz, readAt_whole (S := S1x128) _ _ hzz])
        | rfl

def PhiS5 (c : Dev nD) (n : ℕ) (hn : n ≤ cfg5.N) : sProp 𝕄 :=
  iprop(((∃ a : Vec F S1x128 .f32 × Vec F S1x128 .f32, ⌜∀ h : n ≠ 0, a = accAt5 V c (n - 1) (by omega)⌝
      ∗ ownsTc c (Memref.whole cc5_scratch0) fullShare a.1 ∗ ownsTc c (Memref.whole cc5_scratch1) fullShare a.2)
    ∗ Pipeline.scopedRestBut spec5 c [cc5_scratch0, cc5_scratch1]) ∗ (∃ r, prngReg c r))

theorem PhiA5_eq (c : Dev nD) :
    (Pipeline.ΦA spec5 c : sProp 𝕄)
      = iprop((iprop((∃ d, ownsTc c (Memref.whole cc5_scratch0) fullShare d) ∗ (∃ d, ownsTc c (Memref.whole cc5_scratch1) fullShare d))
        ∗ Pipeline.scopedRestBut spec5 c [cc5_scratch0, cc5_scratch1]) ∗ (∃ r, prngReg c r)) := by
  unfold Pipeline.ΦA; rw [scopedRest5_split]; simp only [owns_whole]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 0 t) (iblk5 V c 1 t) (iblk5 V c 2 t) (iblk5 V c 3 t)
    | ⟨5, _⟩ => (accAt5 V c t.val t.isLt).1
    | ⟨6, _⟩ => (accAt5 V c t.val t.isLt).2
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = k5_pay3 (iblk5 V c 0 t) (iblk5 V c 1 t) (iblk5 V c 2 t) (iblk5 V c 3 t) := rfl
theorem after5_5 (c : Dev nD) (t : Fin cfg5.N) : (dat5 V c).after 5 t = (accAt5 V c t.val t.isLt).1 := rfl
theorem after5_6 (c : Dev nD) (t : Fin cfg5.N) : (dat5 V c).after 6 t = (accAt5 V c t.val t.isLt).2 := rfl

theorem before5 (c : Dev nD) (t : Fin cfg5.N) : (∀ d, (dat5 V c).before 0 t d = iblk5 V c 0 t) ∧ (∀ d, (dat5 V c).before 1 t d = iblk5 V c 1 t)
    ∧ (∀ d, (dat5 V c).before 2 t d = iblk5 V c 2 t) ∧ ∀ d, (dat5 V c).before 3 t d = iblk5 V c 3 t := by
  refine ⟨?_, ?_, ?_, ?_⟩ <;> refine fun d => (Dat.before_in_eq_fetched _ _ ?_ ?_ ?_ ?_ t d).trans ?_ <;> (intros; rfl)

theorem sound_body5 (c : Dev nD) (t : Fin cfg5.N) :
    iprop(PhiS5 V c t.val (Nat.le_of_lt t.isLt) ∗ (dat5 V c).owesAt () t.castSucc
      ∗ bigSep Finset.univ fun w => iprop(∃ d, ownsTc c ((cfg5.win w).stage (cfg5.slots t w)) fullShare ((dat5 V c).before w t d)))
    ⊢ wp frame (wpE (defs₀ (F := F)) Variants.none c none) Set.univ (bodyAt5 t) fun _ =>
      iprop(PhiS5 V c (t.val + 1) t.isLt ∗ (dat5 V c).owesAt () t.castSucc
        ∗ bigSep Finset.univ fun w => ownsTc c ((cfg5.win w).stage (cfg5.slots t w)) fullShare ((dat5 V c).after w t)) := by
  rw [bigSep_W5, bigSep_W5]
  obtain ⟨h0, h1, h2, h3⟩ := before5 V c t
  simp only [h0, h1, h2, h3]
  unfold PhiS5 bodyAt5
  iintro ⟨⟨⟨⟨%a, %ha, HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
  rw [after5_5, after5_6, accAt5_step V c t a ha]
  iapply (sound_kernel5 (iblk5 V c 0 t) (iblk5 V c 1 t) (iblk5 V c 2 t) (iblk5 V c 3 t) a.1 a.2)
  iframe H0 H1 H2 H3 HS0 HS1
  isplitl [H4]; · iexists _; iexact H4
  isplitl [H5]; · iexists _; iexact H5
  isplitl [H6]; · iexists _; iexact H6
  iintro ⟨H0, H1, H2, H3, H4, H5, H6, HS0, HS1⟩
  iframe Hrest Hg Ho H5 H6
  isplitl [HS0 HS1]
  · iexists (_, _); isplitr; swap
    · isplitl [HS0]; · iexact HS0
      iexact HS1
    ipureintro; exact fun _ => (accAt5_step V c t a ha).symm
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  have h := sound_body5 V c t
  rw [bigSep_W5, bigSep_W5] at h ⊢
  exact h

theorem hin5 (c : Dev nD) : (Pipeline.ΦA spec5 c : sProp 𝕄) ⊢ (dat5 V c).Φ 0 := by
  rw [PhiA5_eq]; show _ ⊢ PhiS5 V c 0 (Nat.zero_le _); unfold PhiS5
  iintro ⟨⟨⟨⟨%a0, HS0⟩, ⟨%a1, HS1⟩⟩, Hrest⟩, Hg⟩
  iframe Hrest Hg
  iexists (a0, a1); isplitr; · ipureintro; exact fun h => absurd rfl h
  isplitl [HS0]; · iexact HS0
  iexact HS1

theorem hout5 (c : Dev nD) : (dat5 V c).Φ (Fin.last cfg5.N) ⊢ (Pipeline.ΦA spec5 c : sProp 𝕄) := by
  rw [PhiA5_eq]; show PhiS5 V c _ (Nat.le_refl _) ⊢ _; unfold PhiS5
  iintro ⟨⟨⟨%a, -, HS0, HS1⟩, Hrest⟩, Hg⟩
  iframe Hrest Hg
  isplitl [HS0] <;> iexists _ <;> iassumption

end Cert.KernelIdeal.Hand

end
-- ==== Proof.KI.RegA6.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S4000x128 := Rect.unit (s := S4000x128) ![0, 0] S4000x128.size inb_S4000x128_S4000x128_0_0
abbrev r6_1 : Rect S1x128 := Rect.unit (s := S1x128) ![0, 0] S1x128.size inb_S1x128_S1x128_0_0

def out6_5 (xh : Vec F S4000x128 .f32) (xm xv xg xb : Vec F S1x128 .f32) : Vec F S4000x128 .f32 :=
  View.canon [⟨r6_0, k6_pay1 (View.ld xh r6_0) (View.ld xm r6_1) (View.ld xv r6_1) (View.ld xg r6_1) (View.ld xb r6_1)⟩]

set_option maxHeartbeats 1000000 in
theorem sound_kernel6 (c : Dev nD) (E : Set ℕ) (i : grid6.Coords)
    (ah : Memref sig .tc .vmem S4000x128 .f32) (hah : ah.IsWhole) (am : Memref sig .tc .vmem S1x128 .f32) (ham : am.IsWhole)
    (av : Memref sig .tc .vmem S1x128 .f32) (hav : av.IsWhole) (ag : Memref sig .tc .vmem S1x128 .f32) (hag : ag.IsWhole)
    (ab : Memref sig .tc .vmem S1x128 .f32) (hab : ab.IsWhole)
    (ao : Memref sig .tc .vmem S4000x128 .f32) (hao : ao.IsWhole)
    (xh : Vec F S4000x128 .f32) (xm xv xg xb : Vec F S1x128 .f32) (K : PUnit → sProp 𝕄) :
    iprop(owns (c : Thread nD τ) ah fullShare xh ∗ owns (c : Thread nD τ) am fullShare xm ∗ owns (c : Thread nD τ) av fullShare xv
        ∗ owns (c : Thread nD τ) ag fullShare xg ∗ owns (c : Thread nD τ) ab fullShare xb
        ∗ (∃ d, owns (c : Thread nD τ) ao fullShare d)
        ∗ (iprop(owns (c : Thread nD τ) ao fullShare (out6_5 xh xm xv xg xb) ∗ owns (c : Thread nD τ) ah fullShare xh ∗ owns (c : Thread nD τ) am fullShare xm ∗ owns (c : Thread nD τ) av fullShare xv
            ∗ owns (c : Thread nD τ) ag fullShare xg ∗ owns (c : Thread nD τ) ab fullShare xb) -∗ K ⟨⟩))
      ⊢ wp frame (wpE (defs₀ (F := F)) Variants.none c none) E (cc6__norm_relu_kernel i ah hah am ham av hav ag hag ab hab ao hao) K := by
  simp only [cc6__norm_relu_kernel_eq_skeleton]; unfold cc6__norm_relu_kernel_skel
  unfold owns
  iintro ⟨⟨%fh, %hfh, Hh⟩, ⟨%fm, %hfm, Hm⟩, ⟨%fv, %hfv, Hv⟩, ⟨%fg, %hfg, Hg⟩, ⟨%fb, %hfb, Hb⟩, ⟨%dO, %fO, -, HO⟩, Hk⟩
  subst hfh hfm hfv hfg hfb
  sl_exec
  sl_step
  iapply Hk
  isplitl [HO]
  · iexists _; isplitr; swap; · iexact HO
    ipureintro; exact View.read_writes_eq_canon _ _ _ (View.cover_of_tiled _ S4000x128.size (by rfl))
  sl_close

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_5 (c : Dev nD) (t : Fin cfg6.N) : (dat6 V c).after 5 t
    = out6_5 (iblk6 V c 0 t) (iblk6 V c 1 t) (iblk6 V c 2 t) (iblk6 V c 3 t) (iblk6 V c 4 t) := by dsimp only [dat6]

theorem before6 (c : Dev nD) (t : Fin cfg6.N) :
    (∀ d, (dat6 V c).before 0 t d = iblk6 V c 0 t) ∧ (∀ d, (dat6 V c).before 1 t d = iblk6 V c 1 t)
    ∧ (∀ d, (dat6 V c).before 2 t d = iblk6 V c 2 t) ∧ (∀ d, (dat6 V c).before 3 t d = iblk6 V c 3 t)
    ∧ (∀ d, (dat6 V c).before 4 t d = iblk6 V c 4 t) := by
  refine ⟨?_, ?_, ?_, ?_, ?_⟩ <;> intro d <;>
    refine (Dat.before_in_eq_fetched _ _ ?_ ?_ ?_ ?_ t d).trans ?_ <;> intros <;> rfl

theorem sound_body6 (c : Dev nD) (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d)))
    ⊢ wp frame (wpE (defs₀ (F := F)) Variants.none c none) Set.univ (bodyAt6 t) fun _ =>
    iprop((dat6 V c).Φ t.castSucc ∗ (dat6 V c).owesAt () t.castSucc
      ∗ owns (c : Thread nD τ) (st6_0 t) fullShare (iblk6 V c 0 t)
      ∗ owns (c : Thread nD τ) (st6_1 t) fullShare (iblk6 V c 1 t)
      ∗ owns (c : Thread nD τ) (st6_2 t) fullShare (iblk6 V c 2 t)
      ∗ owns (c : Thread nD τ) (st6_3 t) fullShare (iblk6 V c 3 t)
      ∗ owns (c : Thread nD τ) (st6_4 t) fullShare (iblk6 V c 4 t)
      ∗ owns (c : Thread nD τ) (st6_5 t) fullShare ((dat6 V c).after 5 t)) := by
  obtain ⟨ha, hb, hc, hd, he⟩ := before6 V c t
  simp only [ha, hb, hc, hd, he, after6_5]
  iintro ⟨HΦ, Ho, ⟨%dh, Hh⟩, ⟨%dm, Hm⟩, ⟨%dv, Hv⟩, ⟨%dg, Hg⟩, ⟨%db, Hb⟩, ⟨%dO, HO⟩⟩
  iapply (sound_kernel6 c Set.univ _ _ _ _ _ _ _ _ _ _ _ _ _
    (iblk6 V c 0 t) (iblk6 V c 1 t) (iblk6 V c 2 t) (iblk6 V c 3 t) (iblk6 V c 4 t) _)
  iframe Hh Hm Hv Hg Hb
  isplitl [HO]; · iexists _; iexact HO
  iintro ⟨HO, Hh, Hm, Hv, Hg, Hb⟩
  iframe

theorem body_obligation6 (c : Dev nD) : BodyObligation (dat6 (F := F) V c) (defs₀ (F := F)) Variants.none () Set.univ := fun t => by
  rw [bigSep_W6, bigSep_W6]
  exact sound_body6 V c t

end Region6

end Cert.KernelIdeal.Hand

end
-- ==== Proof.KI.RegA7.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region7

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev pooled7 : Rect S1024x128 := Rect.unit (s := S1024x128) ![0, 0] S1024x128.size inb_S1024x128_S1024x128_0_0
abbrev mat7a : Rect S128x128 := Rect.unit (s := S128x128) ![0, 0] S128x128.size inb_S128x128_S128x128_0_0
abbrev bias7a : Rect S1x128 := Rect.unit (s := S1x128) ![0, 0] S1x128.size inb_S1x128_S1x128_0_0
abbrev mat7b : Rect S128x64 := Rect.unit (s := S128x64) ![0, 0] S128x64.size inb_S128x64_S128x64_0_0
abbrev bias7b : Rect S1x64 := Rect.unit (s := S1x64) ![0, 0] S1x64.size inb_S1x64_S1x64_0_0
abbrev res7 : Rect S1024x64 := Rect.unit (s := S1024x64) ![0, 0] S1024x64.size inb_S1024x64_S1024x64_0_0

def out7_5 (x0 : Vec F S1024x128 .f32) (x1 : Vec F S128x128 .f32) (x2 : Vec F S1x128 .f32) (x3 : Vec F S128x64 .f32) (x4 : Vec F S1x64 .f32) : Vec F S1024x64 .f32 :=
  View.canon [⟨res7, k7_pay1 (View.ld x0 pooled7) (View.ld x1 mat7a) (View.ld x2 bias7a) (View.ld x3 mat7b) (View.ld x4 bias7b)⟩]

set_option maxHeartbeats 1000000 in
theorem sound_kernel7 (c : Dev nD) (E : Set ℕ) (i : grid7.Coords)
    (arg1 : Memref sig .tc .vmem S1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x64 .f32) (harg4 : arg4.IsWhole)
    (arg5 : Memref sig .tc .vmem S1x64 .f32) (harg5 : arg5.IsWhole) (arg6 : Memref sig .tc .vmem S1024x64 .f32) (harg6 : arg6.IsWhole)
    (x0 : Vec F S1024x128 .f32) (x1 : Vec F S128x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg6 fullShare (out7_5 x0 x1 x2 x3 x4) ∗ owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4) -∗ K ⟨⟩))
      ⊢ wp frame (wpE (defs₀ (F := F)) Variants.none c none) E (cc7__mlp_fused_kernel i arg1 harg1 arg2 harg2 arg3 harg3 arg4 harg4 arg5 harg5 arg6 harg6) K := by
  simp only [cc7__mlp_fused_kernel_eq_skeleton]; unfold cc7__mlp_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H5]
  · iexists _; isplitr; swap; · iexact H5
    ipureintro; exact View.read_writes_eq_canon _ _ _ (View.cover_of_tiled _ S1024x64.size (by rfl))
  sl_close

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) := by
  refine ⟨?_, ?_, ?_, ?_, ?_⟩ <;> intro d <;>
    refine (Dat.before_in_eq_fetched _ _ ?_ ?_ ?_ ?_ t d).trans ?_ <;> intros <;> rfl

theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d)))
    ⊢ wp frame (wpE (defs₀ (F := F)) Variants.none c none) Set.univ (bodyAt7 t) fun _ =>
    iprop((dat7 V c).Φ t.castSucc ∗ (dat7 V c).owesAt () t.castSucc
      ∗ owns (c : Thread nD τ) (st7_0 t) fullShare (iblk7 V c 0 t)
      ∗ owns (c : Thread nD τ) (st7_1 t) fullShare (iblk7 V c 1 t)
      ∗ owns (c : Thread nD τ) (st7_2 t) fullShare (iblk7 V c 2 t)
      ∗ owns (c : Thread nD τ) (st7_3 t) fullShare (iblk7 V c 3 t)
      ∗ owns (c : Thread nD τ) (st7_4 t) fullShare (iblk7 V c 4 t)
      ∗ owns (c : Thread nD τ) (st7_5 t) fullShare ((dat7 V c).after 5 t)) := by
  obtain ⟨ha, hb, hc, hd, he⟩ := before7 V c t
  simp only [ha, hb, hc, hd, he, after7_5]
  iintro ⟨HΦ, Ho, ⟨%d0, H0⟩, ⟨%d1, H1⟩, ⟨%d2, H2⟩, ⟨%d3, H3⟩, ⟨%d4, H4⟩, ⟨%dO, H5⟩⟩
  iapply (sound_kernel7 c Set.univ _ _ _ _ _ _ _ _ _ _ _ _ _ (iblk7 V c 0 t) (iblk7 V c 1 t) (iblk7 V c 2 t) (iblk7 V c 3 t) (iblk7 V c 4 t) _)
  iframe H0 H1 H2 H3 H4
  isplitl [H5]; · iexists _; iexact H5
  iintro ⟨H5, H0, H1, H2, H3, H4⟩
  iframe

theorem body_obligation7 (c : Dev nD) : BodyObligation (dat7 (F := F) V c) (defs₀ (F := F)) Variants.none () Set.univ := fun t => by
  rw [bigSep_W7, bigSep_W7]
  exact sound_body7 V c t

end Region7

end Cert.KernelIdeal.Hand

end
-- ==== Proof.KI.Run.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import proofs.«166185_j35605278883840_2_alg».proof.Proof.Gen.KernelIdeal.Regions
import proofs.«166185_j35605278883840_2_alg».proof.Proof.KI.RegA0
import proofs.«166185_j35605278883840_2_alg».proof.Proof.KI.RegR1
import proofs.«166185_j35605278883840_2_alg».proof.Proof.KI.RegA2
import proofs.«166185_j35605278883840_2_alg».proof.Proof.KI.RegR3
import proofs.«166185_j35605278883840_2_alg».proof.Proof.KI.RegA4
import proofs.«166185_j35605278883840_2_alg».proof.Proof.KI.RegR5
import proofs.«166185_j35605278883840_2_alg».proof.Proof.KI.RegA6
import proofs.«166185_j35605278883840_2_alg».proof.Proof.KI.RegA7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev BW0 : Dev nD → Valuation τ sig (Elt F) := fun c b => (s₀ m ρ).mem ((c : Dev nD), b)

abbrev BW1 : Dev nD → Valuation τ sig (Elt F) := fun c => StableHlo.after hostOps0 (BW0 m ρ c)

abbrev BV1 : (c : Dev nD) → (b : Ref sig .tc) → Buf (Elt F) ((c : Thread nD τ).loc b) := fun c b => BW1 m ρ c b

def BW2 (c : Dev nD) : Valuation τ sig (Elt F) :=
  Pipeline.withArrays spec0 c (BW1 m ρ c) fun w => (dat0 (BV1 m ρ) c).arrAt w cfg0.N
theorem BW2_arr (c : Dev nD) (w : Fin cfg0.W) :
    BW2 m ρ c (Proc.devRef .tc (Pipeline.arrRef spec0 w)) = (dat0 (BV1 m ρ) c).arrAt w cfg0.N :=
  Pipeline.withArrays_arr spec0 launch0.win.arr_inj c _ _ w
theorem BW2_of_ne (c : Dev nD) (b : Ref sig .tc) (hb : ∀ w, Pipeline.arrRef spec0 w ≠ b) :
    BW2 m ρ c (Proc.devRef .tc b) = BW1 m ρ c (Proc.devRef .tc b) :=
  Pipeline.withArrays_of_ne spec0 c _ _ b hb

abbrev BV2 : (c : Dev nD) → (b : Ref sig .tc) → Buf (Elt F) ((c : Thread nD τ).loc b) := fun c b => BW2 m ρ c b

abbrev BW3 : Dev nD → Valuation τ sig (Elt F) := fun c => StableHlo.after hostOps1 (BW2 m ρ c)

abbrev BV3 : (c : Dev nD) → (b : Ref sig .tc) → Buf (Elt F) ((c : Thread nD τ).loc b) := fun c b => BW3 m ρ c b

def BW4 (c : Dev nD) : Valuation τ sig (Elt F) :=
  Pipeline.withArrays spec1 c (BW3 m ρ c) fun w => (dat1 (BV3 m ρ) c).arrAt w cfg1.N
theorem BW4_arr (c : Dev nD) (w : Fin cfg1.W) :
    BW4 m ρ c (Proc.devRef .tc (Pipeline.arrRef spec1 w)) = (dat1 (BV3 m ρ) c).arrAt w cfg1.N :=
  Pipeline.withArrays_arr spec1 launch1.win.arr_inj c _ _ w
theorem BW4_of_ne (c : Dev nD) (b : Ref sig .tc) (hb : ∀ w, Pipeline.arrRef spec1 w ≠ b) :
    BW4 m ρ c (Proc.devRef .tc b) = BW3 m ρ c (Proc.devRef .tc b) :=
  Pipeline.withArrays_of_ne spec1 c _ _ b hb

abbrev BV4 : (c : Dev nD) → (b : Ref sig .tc) → Buf (Elt F) ((c : Thread nD τ).loc b) := fun c b => BW4 m ρ c b

abbrev BW5 : Dev nD → Valuation τ sig (Elt F) := fun c => StableHlo.after hostOps2 (BW4 m ρ c)

abbrev BV5 : (c : Dev nD) → (b : Ref sig .tc) → Buf (Elt F) ((c : Thread nD τ).loc b) := fun c b => BW5 m ρ c b

def BW6 (c : Dev nD) : Valuation τ sig (Elt F) :=
  Pipeline.withArrays spec2 c (BW5 m ρ c) fun w => (dat2 (BV5 m ρ) c).arrAt w cfg2.N
theorem BW6_arr (c : Dev nD) (w : Fin cfg2.W) :
    BW6 m ρ c (Proc.devRef .tc (Pipeline.arrRef spec2 w)) = (dat2 (BV5 m ρ) c).arrAt w cfg2.N :=
  Pipeline.withArrays_arr spec2 launch2.win.arr_inj c _ _ w
theorem BW6_of_ne (c : Dev nD) (b : Ref sig .tc) (hb : ∀ w, Pipeline.arrRef spec2 w ≠ b) :
    BW6 m ρ c (Proc.devRef .tc b) = BW5 m ρ c (Proc.devRef .tc b) :=
  Pipeline.withArrays_of_ne spec2 c _ _ b hb

abbrev BV6 : (c : Dev nD) → (b : Ref sig .tc) → Buf (Elt F) ((c : Thread nD τ).loc b) := fun c b => BW6 m ρ c b

abbrev BW7 : Dev nD → Valuation τ sig (Elt F) := fun c => StableHlo.after hostOps3 (BW6 m ρ c)

abbrev BV7 : (c : Dev nD) → (b : Ref sig .tc) → Buf (Elt F) ((c : Thread nD τ).loc b) := fun c b => BW7 m ρ c b

def BW8 (c : Dev nD) : Valuation τ sig (Elt F) :=
  Pipeline.withArrays spec3 c (BW7 m ρ c) fun w => (dat3 (BV7 m ρ) c).arrAt w cfg3.N
theorem BW8_arr (c : Dev nD) (w : Fin cfg3.W) :
    BW8 m ρ c (Proc.devRef .tc (Pipeline.arrRef spec3 w)) = (dat3 (BV7 m ρ) c).arrAt w cfg3.N :=
  Pipeline.withArrays_arr spec3 launch3.win.arr_inj c _ _ w
theorem BW8_of_ne (c : Dev nD) (b : Ref sig .tc) (hb : ∀ w, Pipeline.arrRef spec3 w ≠ b) :
    BW8 m ρ c (Proc.devRef .tc b) = BW7 m ρ c (Proc.devRef .tc b) :=
  Pipeline.withArrays_of_ne spec3 c _ _ b hb

abbrev BV8 : (c : Dev nD) → (b : Ref sig .tc) → Buf (Elt F) ((c : Thread nD τ).loc b) := fun c b => BW8 m ρ c b

abbrev BW9 : Dev nD → Valuation τ sig (Elt F) := fun c => StableHlo.after hostOps4 (BW8 m ρ c)

abbrev BV9 : (c : Dev nD) → (b : Ref sig .tc) → Buf (Elt F) ((c : Thread nD τ).loc b) := fun c b => BW9 m ρ c b

def BW10 (c : Dev nD) : Valuation τ sig (Elt F) :=
  Pipeline.withArrays spec4 c (BW9 m ρ c) fun w => (dat4 (BV9 m ρ) c).arrAt w cfg4.N
theorem BW10_arr (c : Dev nD) (w : Fin cfg4.W) :
    BW10 m ρ c (Proc.devRef .tc (Pipeline.arrRef spec4 w)) = (dat4 (BV9 m ρ) c).arrAt w cfg4.N :=
  Pipeline.withArrays_arr spec4 launch4.win.arr_inj c _ _ w
theorem BW10_of_ne (c : Dev nD) (b : Ref sig .tc) (hb : ∀ w, Pipeline.arrRef spec4 w ≠ b) :
    BW10 m ρ c (Proc.devRef .tc b) = BW9 m ρ c (Proc.devRef .tc b) :=
  Pipeline.withArrays_of_ne spec4 c _ _ b hb

abbrev BV10 : (c : Dev nD) → (b : Ref sig .tc) → Buf (Elt F) ((c : Thread nD τ).loc b) := fun c b => BW10 m ρ c b

abbrev BW11 : Dev nD → Valuation τ sig (Elt F) := fun c => StableHlo.after hostOps5 (BW10 m ρ c)

abbrev BV11 : (c : Dev nD) → (b : Ref sig .tc) → Buf (Elt F) ((c : Thread nD τ).loc b) := fun c b => BW11 m ρ c b

def BW12 (c : Dev nD) : Valuation τ sig (Elt F) :=
  Pipeline.withArrays spec5 c (BW11 m ρ c) fun w => (dat5 (BV11 m ρ) c).arrAt w cfg5.N
theorem BW12_arr (c : Dev nD) (w : Fin cfg5.W) :
    BW12 m ρ c (Proc.devRef .tc (Pipeline.arrRef spec5 w)) = (dat5 (BV11 m ρ) c).arrAt w cfg5.N :=
  Pipeline.withArrays_arr spec5 launch5.win.arr_inj c _ _ w
theorem BW12_of_ne (c : Dev nD) (b : Ref sig .tc) (hb : ∀ w, Pipeline.arrRef spec5 w ≠ b) :
    BW12 m ρ c (Proc.devRef .tc b) = BW11 m ρ c (Proc.devRef .tc b) :=
  Pipeline.withArrays_of_ne spec5 c _ _ b hb

abbrev BV12 : (c : Dev nD) → (b : Ref sig .tc) → Buf (Elt F) ((c : Thread nD τ).loc b) := fun c b => BW12 m ρ c b

abbrev BW13 : Dev nD → Valuation τ sig (Elt F) := fun c => StableHlo.after hostOps6 (BW12 m ρ c)

abbrev BV13 : (c : Dev nD) → (b : Ref sig .tc) → Buf (Elt F) ((c : Thread nD τ).loc b) := fun c b => BW13 m ρ c b

def BW14 (c : Dev nD) : Valuation τ sig (Elt F) :=
  Pipeline.withArrays spec6 c (BW13 m ρ c) fun w => (dat6 (BV13 m ρ) c).arrAt w cfg6.N
theorem BW14_arr (c : Dev nD) (w : Fin cfg6.W) :
    BW14 m ρ c (Proc.devRef .tc (Pipeline.arrRef spec6 w)) = (dat6 (BV13 m ρ) c).arrAt w cfg6.N :=
  Pipeline.withArrays_arr spec6 launch6.win.arr_inj c _ _ w
theorem BW14_of_ne (c : Dev nD) (b : Ref sig .tc) (hb : ∀ w, Pipeline.arrRef spec6 w ≠ b) :
    BW14 m ρ c (Proc.devRef .tc b) = BW13 m ρ c (Proc.devRef .tc b) :=
  Pipeline.withArrays_of_ne spec6 c _ _ b hb

abbrev BV14 : (c : Dev nD) → (b : Ref sig .tc) → Buf (Elt F) ((c : Thread nD τ).loc b) := fun c b => BW14 m ρ c b

abbrev BW15 : Dev nD → Valuation τ sig (Elt F) := fun c => StableHlo.after hostOps7 (BW14 m ρ c)

abbrev BV15 : (c : Dev nD) → (b : Ref sig .tc) → Buf (Elt F) ((c : Thread nD τ).loc b) := fun c b => BW15 m ρ c b

def BW16 (c : Dev nD) : Valuation τ sig (Elt F) :=
  Pipeline.withArrays spec7 c (BW15 m ρ c) fun w => (dat7 (BV15 m ρ) c).arrAt w cfg7.N
theorem BW16_arr (c : Dev nD) (w : Fin cfg7.W) :
    BW16 m ρ c (Proc.devRef .tc (Pipeline.arrRef spec7 w)) = (dat7 (BV15 m ρ) c).arrAt w cfg7.N :=
  Pipeline.withArrays_arr spec7 launch7.win.arr_inj c _ _ w
theorem BW16_of_ne (c : Dev nD) (b : Ref sig .tc) (hb : ∀ w, Pipeline.arrRef spec7 w ≠ b) :
    BW16 m ρ c (Proc.devRef .tc b) = BW15 m ρ c (Proc.devRef .tc b) :=
  Pipeline.withArrays_of_ne spec7 c _ _ b hb

theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

theorem hostOps2_keeps (W : Valuation τ sig (Elt F)) (r : Ref sig .tc) (h : r ∉ hostOps2_W) :
    StableHlo.after hostOps2 W (Proc.devRef .tc r) = W (Proc.devRef .tc r) :=
  StableHlo.after_of_writes_sub hostOps2 W hostOps2_writes h

theorem hostOps3_keeps (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

theorem hostOps4_keeps (W : Valuation τ sig (Elt F)) (r : Ref sig .tc) (h : r ∉ hostOps4_W) :
    StableHlo.after hostOps4 W (Proc.devRef .tc r) = W (Proc.devRef .tc r) :=
  StableHlo.after_of_writes_sub hostOps4 W hostOps4_writes h

theorem hostOps5_keeps (W : Valuation τ sig (Elt F)) (r : Ref sig .tc) (h : r ∉ hostOps5_W) :
    StableHlo.after hostOps5 W (Proc.devRef .tc r) = W (Proc.devRef .tc r) :=
  StableHlo.after_of_writes_sub hostOps5 W hostOps5_writes h

theorem hostOps6_keeps (W : Valuation τ sig (Elt F)) (r : Ref sig .tc) (h : r ∉ hostOps6_W) :
    StableHlo.after hostOps6 W (Proc.devRef .tc r) = W (Proc.devRef .tc r) :=
  StableHlo.after_of_writes_sub hostOps6 W hostOps6_writes h

theorem hostOps7_keeps (W : Valuation τ sig (Elt F)) (r : Ref sig .tc) (h : r ∉ hostOps7_W) :
    StableHlo.after hostOps7 W (Proc.devRef .tc r) = W (Proc.devRef .tc r) :=
  StableHlo.after_of_writes_sub hostOps7 W hostOps7_writes h

theorem BW2_in (c : Dev nD) (w : Fin cfg0.W) (hin : (cfg0.win w).isOut = false) :
    BW2 m ρ c (Proc.devRef .tc (Pipeline.arrRef spec0 w)) = BW1 m ρ c (Proc.devRef .tc (Pipeline.arrRef spec0 w)) :=
  (BW2_arr m ρ c w).trans (((dat0 (BV1 m ρ) c).arrAt_in w hin _).trans (A_eq0 (BV1 m ρ) c w))

theorem BW16_in (c : Dev nD) (w : Fin cfg7.W) (hin : (cfg7.win w).isOut = false) :
    BW16 m ρ c (Proc.devRef .tc (Pipeline.arrRef spec7 w)) = BW15 m ρ c (Proc.devRef .tc (Pipeline.arrRef spec7 w)) :=
  (BW16_arr m ρ c w).trans (((dat7 (BV15 m ρ) c).arrAt_in w hin _).trans (A_eq7 (BV15 m ρ) c w))

theorem BW2_keeps (c : Dev nD) (r : Ref sig .tc) (h : ∀ w, Pipeline.arrRef spec0 w = r → (cfg0.win w).isOut = false) :
    BW2 m ρ c (Proc.devRef .tc r) = BW1 m ρ c (Proc.devRef .tc r) := by
  by_cases hr : ∃ w, Pipeline.arrRef spec0 w = r
  · obtain ⟨w, rfl⟩ := hr
    exact BW2_in m ρ c w (h w rfl)
  · exact BW2_of_ne m ρ c r fun w e => hr ⟨w, e⟩

theorem BW16_keeps (c : Dev nD) (r : Ref sig .tc) (h : ∀ w, Pipeline.arrRef spec7 w = r → (cfg7.win w).isOut = false) :
    BW16 m ρ c (Proc.devRef .tc r) = BW15 m ρ c (Proc.devRef .tc r) := by
  by_cases hr : ∃ w, Pipeline.arrRef spec7 w = r
  · obtain ⟨w, rfl⟩ := hr
    exact BW16_in m ρ c w (h w rfl)
  · exact BW16_of_ne m ρ c r fun w e => hr ⟨w, e⟩

abbrev mainArgs : List (Ref sig .tc) :=
  [main_arg0, main_arg1, main_arg2, main_arg3, main_arg4, main_arg5, main_arg6, main_arg7, main_arg8, main_arg9, main_arg10, main_arg11, main_arg12]

theorem BW16_arg (c : Dev nD) (r : Ref sig .tc) (h : r ∈ mainArgs) : BW16 m ρ c (Proc.devRef .tc r) = m ((c : Thread nD τ).loc r) :=
  (BW16_keeps m ρ c r ((by decide : ∀ r ∈ mainArgs, ∀ w, Pipeline.arrRef spec7 w = r → (cfg7.win w).isOut = false) r h)).trans <|
  (hostOps7_keeps (BW14 m ρ c) r ((by decide : ∀ r ∈ mainArgs, r ∉ hostOps7_W) r h)).trans <|
  (BW14_of_ne m ρ c r ((by decide : ∀ r ∈ mainArgs, ∀ w, Pipeline.arrRef spec6 w ≠ r) r h)).trans <|
  (hostOps6_keeps (BW12 m ρ c) r ((by decide : ∀ r ∈ mainArgs, r ∉ hostOps6_W) r h)).trans <|
  (BW12_of_ne m ρ c r ((by decide : ∀ r ∈ mainArgs, ∀ w, Pipeline.arrRef spec5 w ≠ r) r h)).trans <|
  (hostOps5_keeps (BW10 m ρ c) r ((by decide : ∀ r ∈ mainArgs, r ∉ hostOps5_W) r h)).trans <|
  (BW10_of_ne m ρ c r ((by decide : ∀ r ∈ mainArgs, ∀ w, Pipeline.arrRef spec4 w ≠ r) r h)).trans <|
  (hostOps4_keeps (BW8 m ρ c) r ((by decide : ∀ r ∈ mainArgs, r ∉ hostOps4_W) r h)).trans <|
  (BW8_of_ne m ρ c r ((by decide : ∀ r ∈ mainArgs, ∀ w, Pipeline.arrRef spec3 w ≠ r) r h)).trans <|
  (hostOps3_keeps (BW6 m ρ c) r ((by decide : ∀ r ∈ mainArgs, r ∉ hostOps3_W) r h)).trans <|
  (BW6_of_ne m ρ c r ((by decide : ∀ r ∈ mainArgs, ∀ w, Pipeline.arrRef spec2 w ≠ r) r h)).trans <|
  (hostOps2_keeps (BW4 m ρ c) r ((by decide : ∀ r ∈ mainArgs, r ∉ hostOps2_W) r h)).trans <|
  (BW4_of_ne m ρ c r ((by decide : ∀ r ∈ mainArgs, ∀ w, Pipeline.arrRef spec1 w ≠ r) r h)).trans <|
  (hostOps1_keeps (BW2 m ρ c) r ((by decide : ∀ r ∈ mainArgs, r ∉ hostOps1_W) r h)).trans <|
  (BW2_keeps m ρ c r ((by decide : ∀ r ∈ mainArgs, ∀ w, Pipeline.arrRef spec0 w = r → (cfg0.win w).isOut = false) r h)).trans <|
  (hostOps0_keeps (BW0 m ρ c) r ((by decide : ∀ r ∈ mainArgs, r ∉ hostOps0_W) r h)).trans <|
  rfl

theorem BW16_main_arg0 (c : Dev nD) : BW16 m ρ c (Proc.devRef .tc main_arg0) = m ((c : Thread nD τ).loc main_arg0) :=
  BW16_arg m ρ c main_arg0 (by decide)
theorem BW16_main_arg1 (c : Dev nD) : BW16 m ρ c (Proc.devRef .tc main_arg1) = m ((c : Thread nD τ).loc main_arg1) :=
  BW16_arg m ρ c main_arg1 (by decide)
theorem BW16_main_arg2 (c : Dev nD) : BW16 m ρ c (Proc.devRef .tc main_arg2) = m ((c : Thread nD τ).loc main_arg2) :=
  BW16_arg m ρ c main_arg2 (by decide)
theorem BW16_main_arg3 (c : Dev nD) : BW16 m ρ c (Proc.devRef .tc main_arg3) = m ((c : Thread nD τ).loc main_arg3) :=
  BW16_arg m ρ c main_arg3 (by decide)
theorem BW16_main_arg4 (c : Dev nD) : BW16 m ρ c (Proc.devRef .tc main_arg4) = m ((c : Thread nD τ).loc main_arg4) :=
  BW16_arg m ρ c main_arg4 (by decide)
theorem BW16_main_arg5 (c : Dev nD) : BW16 m ρ c (Proc.devRef .tc main_arg5) = m ((c : Thread nD τ).loc main_arg5) :=
  BW16_arg m ρ c main_arg5 (by decide)
theorem BW16_main_arg6 (c : Dev nD) : BW16 m ρ c (Proc.devRef .tc main_arg6) = m ((c : Thread nD τ).loc main_arg6) :=
  BW16_arg m ρ c main_arg6 (by decide)
theorem BW16_main_arg7 (c : Dev nD) : BW16 m ρ c (Proc.devRef .tc main_arg7) = m ((c : Thread nD τ).loc main_arg7) :=
  BW16_arg m ρ c main_arg7 (by decide)
theorem BW16_main_arg8 (c : Dev nD) : BW16 m ρ c (Proc.devRef .tc main_arg8) = m ((c : Thread nD τ).loc main_arg8) :=
  BW16_arg m ρ c main_arg8 (by decide)
theorem BW16_main_arg9 (c : Dev nD) : BW16 m ρ c (Proc.devRef .tc main_arg9) = m ((c : Thread nD τ).loc main_arg9) :=
  BW16_arg m ρ c main_arg9 (by decide)
theorem BW16_main_arg10 (c : Dev nD) : BW16 m ρ c (Proc.devRef .tc main_arg10) = m ((c : Thread nD τ).loc main_arg10) :=
  BW16_arg m ρ c main_arg10 (by decide)
theorem BW16_main_arg11 (c : Dev nD) : BW16 m ρ c (Proc.devRef .tc main_arg11) = m ((c : Thread nD τ).loc main_arg11) :=
  BW16_arg m ρ c main_arg11 (by decide)
theorem BW16_main_arg12 (c : Dev nD) : BW16 m ρ c (Proc.devRef .tc main_arg12) = m ((c : Thread nD τ).loc main_arg12) :=
  BW16_arg m ρ c main_arg12 (by decide)

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (BV1 m ρ) c
  | ⟨1, _⟩ => fun c => dat1 (BV3 m ρ) c
  | ⟨2, _⟩ => fun c => dat2 (BV5 m ρ) c
  | ⟨3, _⟩ => fun c => dat3 (BV7 m ρ) c
  | ⟨4, _⟩ => fun c => dat4 (BV9 m ρ) c
  | ⟨5, _⟩ => fun c => dat5 (BV11 m ρ) c
  | ⟨6, _⟩ => fun c => dat6 (BV13 m ρ) c
  | ⟨7, _⟩ => fun c => dat7 (BV15 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (BW16 m ρ c) ∗ ∃ r, prngReg c r)

abbrev toV (W : Dev nD → Valuation τ sig (Elt F)) : (c : Dev nD) → (b : Ref sig .tc) → Buf (Elt F) ((c : Thread nD τ).loc b) :=
  fun c b => W c b

theorem ne_of_not_image {α β : Type} [Fintype α] [DecidableEq β] {f : α → β} {b : β} (h : b ∉ Finset.univ.image f) (w : α) : f w ≠ b :=
  fun e => h (Finset.mem_image.mpr ⟨w, Finset.mem_univ _, e⟩)

set_option backward.isDefEq.respectTransparency.types false in
def regOf (p : Fin 8) (ln : Pipeline.LaunchFacts (nD := nD) (τ := τ) cfgs p)
    (hbody : ∀ c, Pipeline.BodyObligationLoose (pdats m ρ p c) defs₀ 𝒱₀ () Set.univ)
    (W W' : Dev nD → Valuation τ sig (Elt F))
    (hq : ∀ c w, (pdats m ρ p c).q w = fullShare)
    (hA : ∀ c w, (pdats m ρ p c).A w = toV W c (Pipeline.arrRef (Pipeline.pin (pcfgs (F := F)) adm p).spec w))
    (howed : ∀ c t, (pdats m ρ p c).owed t = 0)
    (hrec : ∀ c x, x ∈ (pdats m ρ p c).recorded 0)
    (hF : ∀ c w, (pdats m ρ p c).arrAt w (Pipeline.pin (pcfgs (F := F)) adm p).N = toV W' c (Pipeline.arrRef (Pipeline.pin (pcfgs (F := F)) adm p).spec w))
    (hrest : ∀ c (b : Ref sig .tc), b ∉ Finset.univ.image (Pipeline.arrRef (Pipeline.pin (pcfgs (F := F)) adm p).spec) → toV W' c b = toV W c b)
    (hfst : ∀ c, (Pipeline.ΦA (Pipeline.pin (pcfgs (F := F)) adm p).spec c : sProp 𝕄) ⊢ (pdats m ρ p c).Φ 0)
    (hlst : ∀ c, (pdats m ρ p c).Φ (Fin.last _) ⊢ (Pipeline.ΦA (Pipeline.pin (pcfgs (F := F)) adm p).spec c : sProp 𝕄)) :
    Pipeline.RegionSeg (pcfgs (F := F)) adm (pdats m ρ) () defs₀ 𝒱₀ L lv p where
  win := ln.win.to₀
  block_pos := ln.block_pos
  stage_whole := ln.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV W c)
  hentry c := by
    rw [Pipeline.ownSems0_none]
    unfold Pipeline.Dat.owesAt Pipeline.owesWithin
    rw [howed c]
    have hsplit := Pipeline.arrays_of_unscopedBufs (p := p) (pcfgs (F := F)) adm (pdats m ρ) ln.win ln.arr_whole c
      ((pdats m ρ p c).share_full (hq c)) (toV W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W₁, HO⟩; iexists W₁; isplitr; · ipureintro; exact fun x _ => Or.inl (hrec c x)
      iexact HO
    isplitl [Hp]; · iexact Hp
    iexact Hrest
  hin c := by
    refine BIBase.Entails.trans ?_ (hfst c)
    unfold Pipeline.ΦA
    iintro ⟨Hp, -, Hr⟩
    isplitl [Hr]; · iexact Hr
    iexact Hp
  hout c := by
    rw [Pipeline.ownSems0_none]
    refine BIBase.Entails.trans (hlst c) ?_
    unfold Pipeline.ΦA
    iintro ⟨Hr, Hp⟩
    isplitl [Hp]; · iexact Hp
    isplitr; · iempintro
    iexact Hr
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      ln.win ln.arr_whole c (pdats m ρ) ((pdats m ρ p c).share_full (hq c))
      (toV W c) (toV W' c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W₁, -, HO⟩; iexists W₁; iexact HO

def reg0 :=
  regOf m ρ 0 launch0 (fun c => (body_obligation0 (BV1 m ρ) c).loose) (BW1 m ρ) (BW2 m ρ)
    (fun _ _ => rfl) (fun _ _ => rfl) (fun _ _ => rfl) (fun _ _ => trivial) (fun c w => (BW2_arr m ρ c w).symm)
    (fun c b hb => BW2_of_ne m ρ c b (ne_of_not_image hb)) (fun _ => .rfl) (fun _ => .rfl)

def reg1 :=
  regOf m ρ 1 launch1 (fun c => (body_obligation1 (BV3 m ρ) c).loose) (BW3 m ρ) (BW4 m ρ)
    (fun _ _ => rfl) (fun _ _ => rfl) (fun _ _ => rfl) (fun _ _ => trivial) (fun c w => (BW4_arr m ρ c w).symm)
    (fun c b hb => BW4_of_ne m ρ c b (ne_of_not_image hb)) (hin1 (BV3 m ρ)) (hout1 (BV3 m ρ))

def reg2 :=
  regOf m ρ 2 launch2 (fun c => (body_obligation2 (BV5 m ρ) c).loose) (BW5 m ρ) (BW6 m ρ)
    (fun _ _ => rfl) (fun _ _ => rfl) (fun _ _ => rfl) (fun _ _ => trivial) (fun c w => (BW6_arr m ρ c w).symm)
    (fun c b hb => BW6_of_ne m ρ c b (ne_of_not_image hb)) (fun _ => .rfl) (fun _ => .rfl)

def reg3 :=
  regOf m ρ 3 launch3 (fun c => (body_obligation3 (BV7 m ρ) c).loose) (BW7 m ρ) (BW8 m ρ)
    (fun _ _ => rfl) (fun _ _ => rfl) (fun _ _ => rfl) (fun _ _ => trivial) (fun c w => (BW8_arr m ρ c w).symm)
    (fun c b hb => BW8_of_ne m ρ c b (ne_of_not_image hb)) (hin3 (BV7 m ρ)) (hout3 (BV7 m ρ))

def reg4 :=
  regOf m ρ 4 launch4 (fun c => (body_obligation4 (BV9 m ρ) c).loose) (BW9 m ρ) (BW10 m ρ)
    (fun _ _ => rfl) (fun _ _ => rfl) (fun _ _ => rfl) (fun _ _ => trivial) (fun c w => (BW10_arr m ρ c w).symm)
    (fun c b hb => BW10_of_ne m ρ c b (ne_of_not_image hb)) (fun _ => .rfl) (fun _ => .rfl)

def reg5 :=
  regOf m ρ 5 launch5 (fun c => (body_obligation5 (BV11 m ρ) c).loose) (BW11 m ρ) (BW12 m ρ)
    (fun _ _ => rfl) (fun _ _ => rfl) (fun _ _ => rfl) (fun _ _ => trivial) (fun c w => (BW12_arr m ρ c w).symm)
    (fun c b hb => BW12_of_ne m ρ c b (ne_of_not_image hb)) (hin5 (BV11 m ρ)) (hout5 (BV11 m ρ))

def reg6 :=
  regOf m ρ 6 launch6 (fun c => (body_obligation6 (BV13 m ρ) c).loose) (BW13 m ρ) (BW14 m ρ)
    (fun _ _ => rfl) (fun _ _ => rfl) (fun _ _ => rfl) (fun _ _ => trivial) (fun c w => (BW14_arr m ρ c w).symm)
    (fun c b hb => BW14_of_ne m ρ c b (ne_of_not_image hb)) (fun _ => .rfl) (fun _ => .rfl)

def reg7 :=
  regOf m ρ 7 launch7 (fun c => (body_obligation7 (BV15 m ρ) c).loose) (BW15 m ρ) (BW16 m ρ)
    (fun _ _ => rfl) (fun _ _ => rfl) (fun _ _ => rfl) (fun _ _ => trivial) (fun c w => (BW16_arr m ρ c w).symm)
    (fun c b hb => BW16_of_ne m ρ c b (ne_of_not_image hb)) (fun _ => .rfl) (fun _ => .rfl)

abbrev segs : List (Pipeline.Seg (pcfgs (F := F)) adm (pdats m ρ) () defs₀ 𝒱₀ L lv) :=
  [ .host (hseg hostOps0 hostOps0_sub hostOps0_fresh (BW0 m ρ)),
    .region (reg0 m ρ),
    .host (hseg hostOps1 hostOps1_sub hostOps1_fresh (BW2 m ρ)),
    .region (reg1 m ρ),
    .host (hseg hostOps2 hostOps2_sub hostOps2_fresh (BW4 m ρ)),
    .region (reg2 m ρ),
    .host (hseg hostOps3 hostOps3_sub hostOps3_fresh (BW6 m ρ)),
    .region (reg3 m ρ),
    .host (hseg hostOps4 hostOps4_sub hostOps4_fresh (BW8 m ρ)),
    .region (reg4 m ρ),
    .host (hseg hostOps5 hostOps5_sub hostOps5_fresh (BW10 m ρ)),
    .region (reg5 m ρ),
    .host (hseg hostOps6 hostOps6_sub hostOps6_fresh (BW12 m ρ)),
    .region (reg6 m ρ),
    .host (hseg hostOps7 hostOps7_sub hostOps7_fresh (BW14 m ρ)),
    .region (reg7 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = BW16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (BW0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (BW0 m ρ c)
        from Pipeline.unscopedBufs_held c (BW0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = BW16 m ρ c b)
    (hfin := fun c s' => by
      iintro ⟨⟨Hh, -⟩, HSI⟩
      unfold StableHlo.held
      imodintro
      iapply (pointsTo_read_all (Pipeline.ucRefs τ sig) (fun b => (((c : Thread nD τ)).1, b)) (BW16 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have g : ∀ b ∈ mainArgs, r.2.mem ((c.tc : Thread nD τ).loc b) = m ((c.tc : Thread nD τ).loc b) := fun b hb =>
      (h c _ (mem_uc b ((by decide : ∀ b ∈ mainArgs, ¬ (Proc.devRef .tc b : DevRef τ sig).isScoped) b hb))).trans (BW16_arg m ρ c b hb)
    ⟨g main_arg0 (by decide), g main_arg1 (by decide), g main_arg2 (by decide), g main_arg3 (by decide), g main_arg4 (by decide), g main_arg5 (by decide), g main_arg6 (by decide), g main_arg7 (by decide), g main_arg8 (by decide), g main_arg9 (by decide), g main_arg10 (by decide), g main_arg11 (by decide), g main_arg12 (by decide)⟩) (run_all m ρ)

theorem BW16_out (c : Dev nD) : BW16 m ρ c (Proc.devRef .tc main_v147) = (dat7 (BV15 m ρ) c).arrAt 5 cfg7.N :=
  BW16_arr m ρ c 5

end Cert.KernelIdeal.Hand

end
-- ==== Proof.Ref.Stages.lean ====
import proofs.«166185_j35605278883840_2_alg».proof.ReferenceIdeal

noncomputable section

namespace Cert.ReferenceIdeal.Hand

open Idealize.ShloMosaic
open Cert.ReferenceIdeal Cert.ReferenceIdeal.Facts₀

variable {F : FTy → Type} [FloatOps F] [Facts]

local notation "Arr" s:max e:max => BufTy.Contents (Elt F) (BufTy.mk s e)

def r_rows (v : Arr S128 .f32) : Arr S100000x128 .f32 :=
  broadcastInDim (s := S1x128) S100000x128 ![0, 1] bcast_S1x128_S100000x128_0_1
    (broadcastInDim (s := S128) S1x128 ![1] bcast_S128_S1x128_1 v)

def r_relu (x : Arr S100000x128 .f32) : Arr S100000x128 .f32 :=
  maximumf x (broadcastInDim (s := S_) S100000x128 ![] bcast_S_S100000x128 (constant S_ .f32 0x00000000#32))

def r_wrap (idx : Arr S1600000 .i32) : Arr S1600000x1 .i32 :=
  broadcastInDim (s := S1600000) S1600000x1 ![0] bcast_S1600000_S1600000x1_0
    (select (cmpi .slt idx (broadcastInDim (s := S_) S1600000 ![] bcast_S_S1600000 (constantI S_ 32 0#32)))
      (addi idx (broadcastInDim (s := S_) S1600000 ![] bcast_S_S1600000 (constantI S_ 32 100000#32))) idx)

def r_mat (off : Fin S3x128x128.rank → ℕ) (h : S3x128x128.Slices off S1x128x128) (a : Arr S3x128x128 .f32) :
    Arr S128x128 .f32 :=
  shapeCast S128x128 (extractStridedSlice (s := S3x128x128) S1x128x128 off a h) shapeCasts_S1x128x128_S128x128

def r_row (off : Fin S3x128.rank → ℕ) (h : S3x128.Slices off S1x128) (a : Arr S3x128 .f32) : Arr S128 .f32 :=
  shapeCast S128 (extractStridedSlice (s := S3x128) S1x128 off a h) shapeCasts_S1x128_S128

def r_src (a1 : Arr S2x1600000 .i32) : Arr S1600000 .i32 :=
  shapeCast S1600000 (extractStridedSlice (s := S2x1600000) S1x1600000 ![0, 0] a1 slices_S2x1600000_S1x1600000_0_0)
    shapeCasts_S1x1600000_S1600000

def r_dst (a1 : Arr S2x1600000 .i32) : Arr S1600000 .i32 :=
  shapeCast S1600000 (extractStridedSlice (s := S2x1600000) S1x1600000 ![1, 0] a1 slices_S2x1600000_S1x1600000_1_0)
    shapeCasts_S1x1600000_S1600000

def r_dinv (dst : Arr S1600000 .i32) : Arr S100000 .f32 :=
  Host.rsqrt (addf
    (Host.scatterAdd scatter_S100000_S1600000x1_S1600000_n_0_0_1
      (broadcastInDim (s := S_) S100000 ![] bcast_S_S100000 (constant S_ .f32 0x00000000#32))
      (broadcastInDim (s := S1600000) S1600000x1 ![0] bcast_S1600000_S1600000x1_0 dst)
      (broadcastInDim (s := S_) S1600000 ![] bcast_S_S1600000 (constant S_ .f32 0x3F800000#32)))
    (broadcastInDim (s := S_) S100000 ![] bcast_S_S100000 (constant S_ .f32 0x3F800000#32)))

def r_edge_norm (dinv : Arr S100000 .f32) (src dst : Arr S1600000 .i32) : Arr S1600000x1 .f32 :=
  broadcastInDim (s := S1600000) S1600000x1 ![0] bcast_S1600000_S1600000x1_0
    (mulf (Host.gather gather_S100000_S1600000x1_S1600000_n_0_n_n_0_1_1 dinv (r_wrap src))
      (Host.gather gather_S100000_S1600000x1_S1600000_n_0_n_n_0_1_1 dinv (r_wrap dst)))

def r_self_norm (dinv : Arr S100000 .f32) : Arr S100000x1 .f32 :=
  broadcastInDim (s := S100000) S100000x1 ![0] bcast_S100000_S100000x1_0 (mulf dinv dinv)

def r_h0 (a0 : Arr S100000x128 .f32) (a3 : Arr S128x128 .f32) (a4 : Arr S128 .f32) : Arr S100000x128 .f32 :=
  r_relu (addf (Host.dotGeneral dot_S100000x128_S128x128_S100000x128_1_0_0_1_n_n none a0 a3) (r_rows a4))

def r_hw (h : Arr S100000x128 .f32) (W : Arr S128x128 .f32) : Arr S100000x128 .f32 :=
  Host.dotGeneral dot_S100000x128_S128x128_S100000x128_1_0_0_1_n_n none h W

def r_agg (hw : Arr S100000x128 .f32) (src dst : Arr S1600000 .i32) (edge_norm : Arr S1600000x1 .f32) :
    Arr S100000x128 .f32 :=
  Host.scatterAdd scatter_S100000x128_S1600000x1_S1600000x128_1_0_0_1
    (broadcastInDim (s := S_) S100000x128 ![] bcast_S_S100000x128 (constant S_ .f32 0x00000000#32))
    (broadcastInDim (s := S1600000) S1600000x1 ![0] bcast_S1600000_S1600000x1_0 dst)
    (mulf (Host.gather gather_S100000x128_S1600000x1_S1600000x128_1_0_n_n_0_1_1128 hw (r_wrap src))
      (broadcastInDim (s := S1600000x1) S1600000x128 ![0, 1] bcast_S1600000x1_S1600000x128_0_1 edge_norm))

def r_hpre (agg hw : Arr S100000x128 .f32) (self_norm : Arr S100000x1 .f32) (bias : Arr S128 .f32) :
    Arr S100000x128 .f32 :=
  addf (addf agg (mulf hw (broadcastInDim (s := S100000x1) S100000x128 ![0, 1] bcast_S100000x1_S100000x128_0_1 self_norm)))
    (r_rows bias)

def r_colsum (x : Arr S100000x128 .f32) : Arr S128 .f32 :=
  Host.reduceAdd x (constant S_ .f32 0x00000000#32) reducesTo_S100000x128_S128_d0 h_S_

def r_mean (hpre : Arr S100000x128 .f32) : Arr S128 .f32 :=
  Host.divf (r_colsum hpre) (broadcastInDim (s := S_) S128 ![] bcast_S_S128 (constant S_ .f32 0x47C35000#32))

def r_rowsLess : Arr S_ .f32 :=
  subf (constant S_ .f32 0x47C35000#32) (sitofp .f32 (constantI S_ 32 0#32))

def r_centered (hpre : Arr S100000x128 .f32) : Arr S100000x128 .f32 :=
  subf hpre (broadcastInDim (s := S1x128) S100000x128 ![0, 1] bcast_S1x128_S100000x128_0_1
    (Host.divf (broadcastInDim (s := S128) S1x128 ![1] bcast_S128_S1x128_1 (r_colsum hpre))
      (broadcastInDim (s := S_) S1x128 ![] bcast_S_S1x128 (constant S_ .f32 0x47C35000#32))))

def r_var (hpre : Arr S100000x128 .f32) : Arr S128 .f32 :=
  select (broadcastInDim (s := S_) S128 ![] bcast_S_S128 (cmpf .ogt (r_rowsLess (F := F)) (constant S_ .f32 0x00000000#32)))
    (Host.divf (r_colsum (mulf (r_centered hpre) (r_centered hpre)))
      (broadcastInDim (s := S_) S128 ![] bcast_S_S128 (r_rowsLess (F := F))))
    (broadcastInDim (s := S_) S128 ![] bcast_S_S128 (constant S_ .f32 0x7FC00000#32))

def r_norm_relu (hpre : Arr S100000x128 .f32) (mean var gamma beta : Arr S128 .f32) : Arr S100000x128 .f32 :=
  r_relu (addf (mulf (mulf (subf hpre (r_rows mean))
    (r_rows (Host.rsqrt (addf var (broadcastInDim (s := S_) S128 ![] bcast_S_S128 (constant S_ .f32 0x3727C5AC#32))))))
    (r_rows gamma)) (r_rows beta))

def r_cnt (a2 : Arr S100000 .i32) : Arr S1024 .f32 :=
  Host.scatterAdd scatter_S1024_S100000x1_S100000_n_0_0_1
    (broadcastInDim (s := S_) S1024 ![] bcast_S_S1024 (constant S_ .f32 0x00000000#32))
    (broadcastInDim (s := S100000) S100000x1 ![0] bcast_S100000_S100000x1_0 a2)
    (broadcastInDim (s := S_) S100000 ![] bcast_S_S100000 (constant S_ .f32 0x3F800000#32))

def r_pool (h : Arr S100000x128 .f32) (cnt : Arr S1024 .f32) (a2 : Arr S100000 .i32) : Arr S1024x128 .f32 :=
  Host.divf
    (Host.scatterAdd scatter_S1024x128_S100000x1_S100000x128_1_0_0_1
      (broadcastInDim (s := S_) S1024x128 ![] bcast_S_S1024x128 (constant S_ .f32 0x00000000#32))
      (broadcastInDim (s := S100000) S100000x1 ![0] bcast_S100000_S100000x1_0 a2) h)
    (broadcastInDim (s := S1024x1) S1024x128 ![0, 1] bcast_S1024x1_S1024x128_0_1
      (broadcastInDim (s := S1024) S1024x1 ![0] bcast_S1024_S1024x1_0
        (maximumf cnt (broadcastInDim (s := S_) S1024 ![] bcast_S_S1024 (constant S_ .f32 0x3F800000#32)))))

def r_mlp1 (pooled : Arr S1024x128 .f32) (a9 : Arr S128x128 .f32) (a10 : Arr S128 .f32) : Arr S1024x128 .f32 :=
  maximumf
    (addf (Host.dotGeneral dot_S1024x128_S128x128_S1024x128_1_0_0_1_n_n none pooled a9)
      (broadcastInDim (s := S1x128) S1024x128 ![0, 1] bcast_S1x128_S1024x128_0_1
        (broadcastInDim (s := S128) S1x128 ![1] bcast_S128_S1x128_1 a10)))
    (broadcastInDim (s := S_) S1024x128 ![] bcast_S_S1024x128 (constant S_ .f32 0x00000000#32))

def r_mlp2 (hid : Arr S1024x128 .f32) (a11 : Arr S128x64 .f32) (a12 : Arr S64 .f32) : Arr S1024x64 .f32 :=
  addf (Host.dotGeneral dot_S1024x128_S128x64_S1024x64_1_0_0_1_n_n none hid a11)
    (broadcastInDim (s := S1x64) S1024x64 ![0, 1] bcast_S1x64_S1024x64_0_1
      (broadcastInDim (s := S64) S1x64 ![1] bcast_S64_S1x64_1 a12))

def r_dinv_at (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000 .f32 :=
  r_dinv (r_dst a1)

def r_edge_norm_at (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S1600000x1 .f32 :=
  r_edge_norm (r_dinv_at a0 a1 a2 a3 a4 a5 a6 a7 a8 a9 a10 a11 a12) (r_src a1) (r_dst a1)

def r_self_norm_at (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x1 .f32 :=
  r_self_norm (r_dinv_at a0 a1 a2 a3 a4 a5 a6 a7 a8 a9 a10 a11 a12)

def r_h_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_h0 a0 a3 a4

def r_hw_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hw (r_h_0 a0 a1 a2 a3 a4 a5 a6 a7 a8 a9 a10 a11 a12) (r_mat ![0, 0, 0] slices_S3x128x128_S1x128x128_0_0_0 a5)

def r_agg_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_agg (r_hw_0 a0 a1 a2 a3 a4 a5 a6 a7 a8 a9 a10 a11 a12) (r_src a1) (r_dst a1) (r_edge_norm_at a0 a1 a2 a3 a4 a5 a6 a7 a8 a9 a10 a11 a12)

def r_hpre_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hpre (r_agg_0 a0 a1 a2 a3 a4 a5 a6 a7 a8 a9 a10 a11 a12) (r_hw_0 a0 a1 a2 a3 a4 a5 a6 a7 a8 a9 a10 a11 a12) (r_self_norm_at a0 a1 a2 a3 a4 a5 a6 a7 a8 a9 a10 a11 a12) (r_row ![0, 0] slices_S3x128_S1x128_0_0 a6)

def r_mean_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_mean (r_hpre_0 a0 a1 a2 a3 a4 a5 a6 a7 a8 a9 a10 a11 a12)

def r_var_0 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_var (r_hpre_0 a0 a1 a2 a3 a4 a5 a6 a7 a8 a9 a10 a11 a12)

def r_h_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_norm_relu (r_hpre_0 a0 a1 a2 a3 a4 a5 a6 a7 a8 a9 a10 a11 a12) (r_mean_0 a0 a1 a2 a3 a4 a5 a6 a7 a8 a9 a10 a11 a12) (r_var_0 a0 a1 a2 a3 a4 a5 a6 a7 a8 a9 a10 a11 a12) (r_row ![0, 0] slices_S3x128_S1x128_0_0 a7) (r_row ![0, 0] slices_S3x128_S1x128_0_0 a8)

def r_hw_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hw (r_h_1 a0 a1 a2 a3 a4 a5 a6 a7 a8 a9 a10 a11 a12) (r_mat ![1, 0, 0] slices_S3x128x128_S1x128x128_1_0_0 a5)

def r_agg_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_agg (r_hw_1 a0 a1 a2 a3 a4 a5 a6 a7 a8 a9 a10 a11 a12) (r_src a1) (r_dst a1) (r_edge_norm_at a0 a1 a2 a3 a4 a5 a6 a7 a8 a9 a10 a11 a12)

def r_hpre_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hpre (r_agg_1 a0 a1 a2 a3 a4 a5 a6 a7 a8 a9 a10 a11 a12) (r_hw_1 a0 a1 a2 a3 a4 a5 a6 a7 a8 a9 a10 a11 a12) (r_self_norm_at a0 a1 a2 a3 a4 a5 a6 a7 a8 a9 a10 a11 a12) (r_row ![1, 0] slices_S3x128_S1x128_1_0 a6)

def r_mean_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_mean (r_hpre_1 a0 a1 a2 a3 a4 a5 a6 a7 a8 a9 a10 a11 a12)

def r_var_1 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_var (r_hpre_1 a0 a1 a2 a3 a4 a5 a6 a7 a8 a9 a10 a11 a12)

def r_h_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_norm_relu (r_hpre_1 a0 a1 a2 a3 a4 a5 a6 a7 a8 a9 a10 a11 a12) (r_mean_1 a0 a1 a2 a3 a4 a5 a6 a7 a8 a9 a10 a11 a12) (r_var_1 a0 a1 a2 a3 a4 a5 a6 a7 a8 a9 a10 a11 a12) (r_row ![1, 0] slices_S3x128_S1x128_1_0 a7) (r_row ![1, 0] slices_S3x128_S1x128_1_0 a8)

def r_hw_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hw (r_h_2 a0 a1 a2 a3 a4 a5 a6 a7 a8 a9 a10 a11 a12) (r_mat ![2, 0, 0] slices_S3x128x128_S1x128x128_2_0_0 a5)

def r_agg_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_agg (r_hw_2 a0 a1 a2 a3 a4 a5 a6 a7 a8 a9 a10 a11 a12) (r_src a1) (r_dst a1) (r_edge_norm_at a0 a1 a2 a3 a4 a5 a6 a7 a8 a9 a10 a11 a12)

def r_hpre_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_hpre (r_agg_2 a0 a1 a2 a3 a4 a5 a6 a7 a8 a9 a10 a11 a12) (r_hw_2 a0 a1 a2 a3 a4 a5 a6 a7 a8 a9 a10 a11 a12) (r_self_norm_at a0 a1 a2 a3 a4 a5 a6 a7 a8 a9 a10 a11 a12) (r_row ![2, 0] slices_S3x128_S1x128_2_0 a6)

def r_mean_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_mean (r_hpre_2 a0 a1 a2 a3 a4 a5 a6 a7 a8 a9 a10 a11 a12)

def r_var_2 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S128 .f32 :=
  r_var (r_hpre_2 a0 a1 a2 a3 a4 a5 a6 a7 a8 a9 a10 a11 a12)

def r_h_3 (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S100000x128 .f32 :=
  r_norm_relu (r_hpre_2 a0 a1 a2 a3 a4 a5 a6 a7 a8 a9 a10 a11 a12) (r_mean_2 a0 a1 a2 a3 a4 a5 a6 a7 a8 a9 a10 a11 a12) (r_var_2 a0 a1 a2 a3 a4 a5 a6 a7 a8 a9 a10 a11 a12) (r_row ![2, 0] slices_S3x128_S1x128_2_0 a7) (r_row ![2, 0] slices_S3x128_S1x128_2_0 a8)

def r_cnt_at (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S1024 .f32 :=
  r_cnt a2

def r_pooled (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S1024x128 .f32 :=
  r_pool (r_h_3 a0 a1 a2 a3 a4 a5 a6 a7 a8 a9 a10 a11 a12) (r_cnt_at a0 a1 a2 a3 a4 a5 a6 a7 a8 a9 a10 a11 a12) a2

def r_hid (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S1024x128 .f32 :=
  r_mlp1 (r_pooled a0 a1 a2 a3 a4 a5 a6 a7 a8 a9 a10 a11 a12) a9 a10

def r_out (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32) : Arr S1024x64 .f32 :=
  r_mlp2 (r_hid a0 a1 a2 a3 a4 a5 a6 a7 a8 a9 a10 a11 a12) a11 a12

end Cert.ReferenceIdeal.Hand

end
-- ==== Proof.Ref.Run.lean ====
import proofs.«166185_j35605278883840_2_alg».proof.Proof.Gen.ReferenceIdeal
import proofs.«166185_j35605278883840_2_alg».proof.Proof.Ref.Stages
import Idealize.ShloMosaic.Lib.StableHlo.Run
import Idealize.ShloMosaic.Lib.Pipeline.Frame

set_option Elab.async false

noncomputable section

namespace Cert.ReferenceIdeal.Hand

open Cert.ReferenceIdeal Cert.ReferenceIdeal.Facts₀
open Idealize.ShloMosaic Idealize.ShloMosaic.TcCoe Idealize.SL.Sem Idealize.ShloMosaic.StableHlo

variable {F : FTy → Type} [FloatOps F]

abbrev ops0a : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_cst (constant S_ .f32 0x3F800000#32),
    unary main_cst main_v4 (broadcastInDim S1600000 ![] bcast_S_S1600000),
    nullary main_cst_0 (constant S_ .f32 0x00000000#32),
    unary main_cst_0 main_v5 (broadcastInDim S100000 ![] bcast_S_S100000),
    unary main_v3 main_v6 (broadcastInDim S1600000x1 ![0] bcast_S1600000_S1600000x1_0),
    ternary main_v5 main_v6 main_v4 main_v7 (fun x i u => Host.scatterAdd scatter_S100000_S1600000x1_S1600000_n_0_0_1 x i u),
    nullary main_cst_1 (constant S_ .f32 0x3F800000#32),
    unary main_cst_1 main_v8 (broadcastInDim S100000 ![] bcast_S_S100000),
    binary main_v7 main_v8 main_v9 addf,
    unary main_v9 main_v10 Host.rsqrt,
    nullary main_c (constantI S_ 32 0#32),
    unary main_c main_v11 (broadcastInDim S1600000 ![] bcast_S_S1600000),
    binary main_v1 main_v11 main_v12 (cmpi .slt),
    nullary main_c_2 (constantI S_ 32 100000#32),
    unary main_c_2 main_v13 (broadcastInDim S1600000 ![] bcast_S_S1600000),
    binary main_v1 main_v13 main_v14 addi,
    ternary main_v12 main_v14 main_v1 main_v15 select,
    unary main_v15 main_v16 (broadcastInDim S1600000x1 ![0] bcast_S1600000_S1600000x1_0),
    binary main_v10 main_v16 main_v17 (fun x i => Host.gather gather_S100000_S1600000x1_S1600000_n_0_n_n_0_1_1 x i),
    nullary main_c_3 (constantI S_ 32 0#32),
    unary main_c_3 main_v18 (broadcastInDim S1600000 ![] bcast_S_S1600000),
    binary main_v3 main_v18 main_v19 (cmpi .slt),
    nullary main_c_4 (constantI S_ 32 100000#32),
    unary main_c_4 main_v20 (broadcastInDim S1600000 ![] bcast_S_S1600000),
    binary main_v3 main_v20 main_v21 addi,
    ternary main_v19 main_v21 main_v3 main_v22 select,
    unary main_v22 main_v23 (broadcastInDim S1600000x1 ![0] bcast_S1600000_S1600000x1_0),
    binary main_v10 main_v23 main_v24 (fun x i => Host.gather gather_S100000_S1600000x1_S1600000_n_0_n_n_0_1_1 x i),
    binary main_v17 main_v24 main_v25 mulf,
    unary main_v25 main_v26 (broadcastInDim S1600000x1 ![0] bcast_S1600000_S1600000x1_0),
    binary main_v10 main_v10 main_v27 mulf,
    unary main_v27 main_v28 (broadcastInDim S100000x1 ![0] bcast_S100000_S100000x1_0) ]

abbrev ops0b : List (HloOp τ sig (Elt F)) :=
  [ binary main_arg0 main_arg3 main_v29 (fun l r => Host.dotGeneral dot_S100000x128_S128x128_S100000x128_1_0_0_1_n_n none l r),
    unary main_arg4 main_v30 (broadcastInDim S1x128 ![1] bcast_S128_S1x128_1),
    unary main_v30 main_v31 (broadcastInDim S100000x128 ![0, 1] bcast_S1x128_S100000x128_0_1),
    binary main_v29 main_v31 main_v32 addf,
    TRef.nullary main_call0.cst (constant S_ .f32 0x00000000#32),
    TRef.unary main_call0.cst main_call0.v0 (broadcastInDim S100000x128 ![] bcast_S_S100000x128),
    TRef.binary (.of main_v32 : TRef sig ⟨S100000x128, .f32⟩) main_call0.v0 main_call0.v1 maximumf,
    unary main_arg5 main_v34 (extractStridedSlice S1x128x128 ![0, 0, 0] · slices_S3x128x128_S1x128x128_0_0_0),
    reshape main_v34 main_v35 rfl shapeCasts_S1x128x128_S128x128,
    binary main_v33 main_v35 main_v36 (fun l r => Host.dotGeneral dot_S100000x128_S128x128_S100000x128_1_0_0_1_n_n none l r),
    nullary main_c_5 (constantI S_ 32 0#32),
    unary main_c_5 main_v37 (broadcastInDim S1600000 ![] bcast_S_S1600000),
    binary main_v1 main_v37 main_v38 (cmpi .slt),
    nullary main_c_6 (constantI S_ 32 100000#32),
    unary main_c_6 main_v39 (broadcastInDim S1600000 ![] bcast_S_S1600000),
    binary main_v1 main_v39 main_v40 addi,
    ternary main_v38 main_v40 main_v1 main_v41 select,
    unary main_v41 main_v42 (broadcastInDim S1600000x1 ![0] bcast_S1600000_S1600000x1_0),
    binary main_v36 main_v42 main_v43 (fun x i => Host.gather gather_S100000x128_S1600000x1_S1600000x128_1_0_n_n_0_1_1128 x i),
    unary main_v26 main_v44 (broadcastInDim S1600000x128 ![0, 1] bcast_S1600000x1_S1600000x128_0_1),
    binary main_v43 main_v44 main_v45 mulf,
    nullary main_cst_7 (constant S_ .f32 0x00000000#32),
    unary main_cst_7 main_v46 (broadcastInDim S100000x128 ![] bcast_S_S100000x128),
    unary main_v3 main_v47 (broadcastInDim S1600000x1 ![0] bcast_S1600000_S1600000x1_0),
    ternary main_v46 main_v47 main_v45 main_v48 (fun x i u => Host.scatterAdd scatter_S100000x128_S1600000x1_S1600000x128_1_0_0_1 x i u),
    unary main_v28 main_v49 (broadcastInDim S100000x128 ![0, 1] bcast_S100000x1_S100000x128_0_1) ]

abbrev ops1a : List (HloOp τ sig (Elt F)) :=
  [ binary main_v36 main_v49 main_v50 mulf,
    binary main_v48 main_v50 main_v51 addf,
    unary main_arg6 main_v52 (extractStridedSlice S1x128 ![0, 0] · slices_S3x128_S1x128_0_0),
    reshape main_v52 main_v53 rfl shapeCasts_S1x128_S128,
    unary main_v53 main_v54 (broadcastInDim S1x128 ![1] bcast_S128_S1x128_1),
    unary main_v54 main_v55 (broadcastInDim S100000x128 ![0, 1] bcast_S1x128_S100000x128_0_1),
    binary main_v51 main_v55 main_v56 addf,
    nullary main_cst_8 (constant S_ .f32 0x00000000#32),
    binary main_v56 main_cst_8 main_v57 (fun x v => Host.reduceAdd x v reducesTo_S100000x128_S128_d0 h_S_),
    nullary main_cst_9 (constant S_ .f32 0x47C35000#32),
    unary main_cst_9 main_v58 (broadcastInDim S128 ![] bcast_S_S128),
    binary main_v57 main_v58 main_v59 Host.divf,
    nullary main_c_10 (constantI S_ 32 0#32),
    TRef.nullary main_call1.cst (constant S_ .f32 0x00000000#32),
    TRef.binary (.of main_v56 : TRef sig ⟨S100000x128, .f32⟩) main_call1.cst main_call1.v0 (fun x v => Host.reduceAdd x v reducesTo_S100000x128_S128_d0 h_S_),
    TRef.unary main_call1.v0 main_call1.v1 (broadcastInDim S1x128 ![1] bcast_S128_S1x128_1),
    TRef.nullary main_call1.cst_0 (constant S_ .f32 0x47C35000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S100000x128 ![0, 1] bcast_S1x128_S100000x128_0_1),
    TRef.binary (.of main_v56 : TRef sig ⟨S100000x128, .f32⟩) main_call1.v4 main_call1.v5 subf,
    TRef.binary main_call1.v5 main_call1.v5 main_call1.v6 mulf,
    TRef.unary (.of main_c_10 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

abbrev ops1b : List (HloOp τ sig (Elt F)) :=
  [ unary main_v59 main_v61 (broadcastInDim S1x128 ![1] bcast_S128_S1x128_1),
    unary main_v61 main_v62 (broadcastInDim S100000x128 ![0, 1] bcast_S1x128_S100000x128_0_1),
    binary main_v56 main_v62 main_v63 subf,
    nullary main_cst_11 (constant S_ .f32 0x3727C5AC#32),
    unary main_cst_11 main_v64 (broadcastInDim S128 ![] bcast_S_S128),
    binary main_v60 main_v64 main_v65 addf,
    unary main_v65 main_v66 Host.rsqrt,
    unary main_v66 main_v67 (broadcastInDim S1x128 ![1] bcast_S128_S1x128_1),
    unary main_v67 main_v68 (broadcastInDim S100000x128 ![0, 1] bcast_S1x128_S100000x128_0_1),
    binary main_v63 main_v68 main_v69 mulf,
    unary main_arg7 main_v70 (extractStridedSlice S1x128 ![0, 0] · slices_S3x128_S1x128_0_0),
    reshape main_v70 main_v71 rfl shapeCasts_S1x128_S128,
    unary main_v71 main_v72 (broadcastInDim S1x128 ![1] bcast_S128_S1x128_1),
    unary main_v72 main_v73 (broadcastInDim S100000x128 ![0, 1] bcast_S1x128_S100000x128_0_1),
    binary main_v69 main_v73 main_v74 mulf,
    unary main_arg8 main_v75 (extractStridedSlice S1x128 ![0, 0] · slices_S3x128_S1x128_0_0),
    reshape main_v75 main_v76 rfl shapeCasts_S1x128_S128,
    unary main_v76 main_v77 (broadcastInDim S1x128 ![1] bcast_S128_S1x128_1),
    unary main_v77 main_v78 (broadcastInDim S100000x128 ![0, 1] bcast_S1x128_S100000x128_0_1),
    binary main_v74 main_v78 main_v79 addf,
    TRef.nullary main_call2.cst (constant S_ .f32 0x00000000#32),
    TRef.unary main_call2.cst main_call2.v0 (broadcastInDim S100000x128 ![] bcast_S_S100000x128),
    TRef.binary (.of main_v79 : TRef sig ⟨S100000x128, .f32⟩) main_call2.v0 main_call2.v1 maximumf,
    unary main_arg5 main_v81 (extractStridedSlice S1x128x128 ![1, 0, 0] · slices_S3x128x128_S1x128x128_1_0_0),
    reshape main_v81 main_v82 rfl shapeCasts_S1x128x128_S128x128,
    binary main_v80 main_v82 main_v83 (fun l r => Host.dotGeneral dot_S100000x128_S128x128_S100000x128_1_0_0_1_n_n none l r) ]

abbrev ops1c : List (HloOp τ sig (Elt F)) :=
  [ nullary main_c_12 (constantI S_ 32 0#32),
    unary main_c_12 main_v84 (broadcastInDim S1600000 ![] bcast_S_S1600000),
    binary main_v1 main_v84 main_v85 (cmpi .slt),
    nullary main_c_13 (constantI S_ 32 100000#32),
    unary main_c_13 main_v86 (broadcastInDim S1600000 ![] bcast_S_S1600000),
    binary main_v1 main_v86 main_v87 addi,
    ternary main_v85 main_v87 main_v1 main_v88 select,
    unary main_v88 main_v89 (broadcastInDim S1600000x1 ![0] bcast_S1600000_S1600000x1_0),
    binary main_v83 main_v89 main_v90 (fun x i => Host.gather gather_S100000x128_S1600000x1_S1600000x128_1_0_n_n_0_1_1128 x i),
    unary main_v26 main_v91 (broadcastInDim S1600000x128 ![0, 1] bcast_S1600000x1_S1600000x128_0_1),
    binary main_v90 main_v91 main_v92 mulf,
    nullary main_cst_14 (constant S_ .f32 0x00000000#32),
    unary main_cst_14 main_v93 (broadcastInDim S100000x128 ![] bcast_S_S100000x128),
    unary main_v3 main_v94 (broadcastInDim S1600000x1 ![0] bcast_S1600000_S1600000x1_0),
    ternary main_v93 main_v94 main_v92 main_v95 (fun x i u => Host.scatterAdd scatter_S100000x128_S1600000x1_S1600000x128_1_0_0_1 x i u),
    unary main_v28 main_v96 (broadcastInDim S100000x128 ![0, 1] bcast_S100000x1_S100000x128_0_1),
    binary main_v83 main_v96 main_v97 mulf,
    binary main_v95 main_v97 main_v98 addf,
    unary main_arg6 main_v99 (extractStridedSlice S1x128 ![1, 0] · slices_S3x128_S1x128_1_0),
    reshape main_v99 main_v100 rfl shapeCasts_S1x128_S128,
    unary main_v100 main_v101 (broadcastInDim S1x128 ![1] bcast_S128_S1x128_1),
    unary main_v101 main_v102 (broadcastInDim S100000x128 ![0, 1] bcast_S1x128_S100000x128_0_1) ]

abbrev ops2a : List (HloOp τ sig (Elt F)) :=
  [ binary main_v98 main_v102 main_v103 addf,
    nullary main_cst_15 (constant S_ .f32 0x00000000#32),
    binary main_v103 main_cst_15 main_v104 (fun x v => Host.reduceAdd x v reducesTo_S100000x128_S128_d0 h_S_),
    nullary main_cst_16 (constant S_ .f32 0x47C35000#32),
    unary main_cst_16 main_v105 (broadcastInDim S128 ![] bcast_S_S128),
    binary main_v104 main_v105 main_v106 Host.divf,
    nullary main_c_17 (constantI S_ 32 0#32),
    TRef.nullary main_call3.cst (constant S_ .f32 0x00000000#32),
    TRef.binary (.of main_v103 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v103 : TRef sig ⟨S100000x128, .f32⟩) main_call3.v4 main_call3.v5 subf,
    TRef.binary main_call3.v5 main_call3.v5 main_call3.v6 mulf,
    TRef.unary (.of main_c_17 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]

abbrev ops2b : List (HloOp τ sig (Elt F)) :=
  [ unary main_v106 main_v108 (broadcastInDim S1x128 ![1] bcast_S128_S1x128_1),
    unary main_v108 main_v109 (broadcastInDim S100000x128 ![0, 1] bcast_S1x128_S100000x128_0_1),
    binary main_v103 main_v109 main_v110 subf,
    nullary main_cst_18 (constant S_ .f32 0x3727C5AC#32),
    unary main_cst_18 main_v111 (broadcastInDim S128 ![] bcast_S_S128),
    binary main_v107 main_v111 main_v112 addf,
    unary main_v112 main_v113 Host.rsqrt,
    unary main_v113 main_v114 (broadcastInDim S1x128 ![1] bcast_S128_S1x128_1),
    unary main_v114 main_v115 (broadcastInDim S100000x128 ![0, 1] bcast_S1x128_S100000x128_0_1),
    binary main_v110 main_v115 main_v116 mulf,
    unary main_arg7 main_v117 (extractStridedSlice S1x128 ![1, 0] · slices_S3x128_S1x128_1_0),
    reshape main_v117 main_v118 rfl shapeCasts_S1x128_S128,
    unary main_v118 main_v119 (broadcastInDim S1x128 ![1] bcast_S128_S1x128_1),
    unary main_v119 main_v120 (broadcastInDim S100000x128 ![0, 1] bcast_S1x128_S100000x128_0_1),
    binary main_v116 main_v120 main_v121 mulf,
    unary main_arg8 main_v122 (extractStridedSlice S1x128 ![1, 0] · slices_S3x128_S1x128_1_0),
    reshape main_v122 main_v123 rfl shapeCasts_S1x128_S128,
    unary main_v123 main_v124 (broadcastInDim S1x128 ![1] bcast_S128_S1x128_1),
    unary main_v124 main_v125 (broadcastInDim S100000x128 ![0, 1] bcast_S1x128_S100000x128_0_1),
    binary main_v121 main_v125 main_v126 addf,
    TRef.nullary main_call4.cst (constant S_ .f32 0x00000000#32),
    TRef.unary main_call4.cst main_call4.v0 (broadcastInDim S100000x128 ![] bcast_S_S100000x128),
    TRef.binary (.of main_v126 : TRef sig ⟨S100000x128, .f32⟩) main_call4.v0 main_call4.v1 maximumf,
    unary main_arg5 main_v128 (extractStridedSlice S1x128x128 ![2, 0, 0] · slices_S3x128x128_S1x128x128_2_0_0),
    reshape main_v128 main_v129 rfl shapeCasts_S1x128x128_S128x128,
    binary main_v127 main_v129 main_v130 (fun l r => Host.dotGeneral dot_S100000x128_S128x128_S100000x128_1_0_0_1_n_n none l r) ]

abbrev ops2c : List (HloOp τ sig (Elt F)) :=
  [ nullary main_c_19 (constantI S_ 32 0#32),
    unary main_c_19 main_v131 (broadcastInDim S1600000 ![] bcast_S_S1600000),
    binary main_v1 main_v131 main_v132 (cmpi .slt),
    nullary main_c_20 (constantI S_ 32 100000#32),
    unary main_c_20 main_v133 (broadcastInDim S1600000 ![] bcast_S_S1600000),
    binary main_v1 main_v133 main_v134 addi,
    ternary main_v132 main_v134 main_v1 main_v135 select,
    unary main_v135 main_v136 (broadcastInDim S1600000x1 ![0] bcast_S1600000_S1600000x1_0),
    binary main_v130 main_v136 main_v137 (fun x i => Host.gather gather_S100000x128_S1600000x1_S1600000x128_1_0_n_n_0_1_1128 x i),
    unary main_v26 main_v138 (broadcastInDim S1600000x128 ![0, 1] bcast_S1600000x1_S1600000x128_0_1),
    binary main_v137 main_v138 main_v139 mulf,
    nullary main_cst_21 (constant S_ .f32 0x00000000#32),
    unary main_cst_21 main_v140 (broadcastInDim S100000x128 ![] bcast_S_S100000x128),
    unary main_v3 main_v141 (broadcastInDim S1600000x1 ![0] bcast_S1600000_S1600000x1_0),
    ternary main_v140 main_v141 main_v139 main_v142 (fun x i u => Host.scatterAdd scatter_S100000x128_S1600000x1_S1600000x128_1_0_0_1 x i u),
    unary main_v28 main_v143 (broadcastInDim S100000x128 ![0, 1] bcast_S100000x1_S100000x128_0_1),
    binary main_v130 main_v143 main_v144 mulf,
    binary main_v142 main_v144 main_v145 addf,
    unary main_arg6 main_v146 (extractStridedSlice S1x128 ![2, 0] · slices_S3x128_S1x128_2_0),
    reshape main_v146 main_v147 rfl shapeCasts_S1x128_S128,
    unary main_v147 main_v148 (broadcastInDim S1x128 ![1] bcast_S128_S1x128_1),
    unary main_v148 main_v149 (broadcastInDim S100000x128 ![0, 1] bcast_S1x128_S100000x128_0_1),
    binary main_v145 main_v149 main_v150 addf,
    nullary main_cst_22 (constant S_ .f32 0x00000000#32),
    binary main_v150 main_cst_22 main_v151 (fun x v => Host.reduceAdd x v reducesTo_S100000x128_S128_d0 h_S_),
    nullary main_cst_23 (constant S_ .f32 0x47C35000#32),
    unary main_cst_23 main_v152 (broadcastInDim S128 ![] bcast_S_S128),
    binary main_v151 main_v152 main_v153 Host.divf ]

abbrev ops3a : List (HloOp τ sig (Elt F)) :=
  [ nullary main_c_24 (constantI S_ 32 0#32),
    TRef.nullary main_call5.cst (constant S_ .f32 0x00000000#32),
    TRef.binary (.of main_v150 : TRef sig ⟨S100000x128, .f32⟩) main_call5.cst main_call5.v0 (fun x v => Host.reduceAdd x v reducesTo_S100000x128_S128_d0 h_S_),
    TRef.unary main_call5.v0 main_call5.v1 (broadcastInDim S1x128 ![1] bcast_S128_S1x128_1),
    TRef.nullary main_call5.cst_0 (constant S_ .f32 0x47C35000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S100000x128 ![0, 1] bcast_S1x128_S100000x128_0_1),
    TRef.binary (.of main_v150 : TRef sig ⟨S100000x128, .f32⟩) main_call5.v4 main_call5.v5 subf,
    TRef.binary main_call5.v5 main_call5.v5 main_call5.v6 mulf,
    TRef.unary (.of main_c_24 : TRef sig ⟨S_, .i32⟩) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b) ]

abbrev ops3b : List (HloOp τ sig (Elt F)) :=
  [ unary main_v153 main_v155 (broadcastInDim S1x128 ![1] bcast_S128_S1x128_1),
    unary main_v155 main_v156 (broadcastInDim S100000x128 ![0, 1] bcast_S1x128_S100000x128_0_1),
    binary main_v150 main_v156 main_v157 subf,
    nullary main_cst_25 (constant S_ .f32 0x3727C5AC#32),
    unary main_cst_25 main_v158 (broadcastInDim S128 ![] bcast_S_S128),
    binary main_v154 main_v158 main_v159 addf,
    unary main_v159 main_v160 Host.rsqrt,
    unary main_v160 main_v161 (broadcastInDim S1x128 ![1] bcast_S128_S1x128_1),
    unary main_v161 main_v162 (broadcastInDim S100000x128 ![0, 1] bcast_S1x128_S100000x128_0_1),
    binary main_v157 main_v162 main_v163 mulf,
    unary main_arg7 main_v164 (extractStridedSlice S1x128 ![2, 0] · slices_S3x128_S1x128_2_0),
    reshape main_v164 main_v165 rfl shapeCasts_S1x128_S128,
    unary main_v165 main_v166 (broadcastInDim S1x128 ![1] bcast_S128_S1x128_1),
    unary main_v166 main_v167 (broadcastInDim S100000x128 ![0, 1] bcast_S1x128_S100000x128_0_1),
    binary main_v163 main_v167 main_v168 mulf,
    unary main_arg8 main_v169 (extractStridedSlice S1x128 ![2, 0] · slices_S3x128_S1x128_2_0),
    reshape main_v169 main_v170 rfl shapeCasts_S1x128_S128,
    unary main_v170 main_v171 (broadcastInDim S1x128 ![1] bcast_S128_S1x128_1),
    unary main_v171 main_v172 (broadcastInDim S100000x128 ![0, 1] bcast_S1x128_S100000x128_0_1),
    binary main_v168 main_v172 main_v173 addf,
    TRef.nullary main_call6.cst (constant S_ .f32 0x00000000#32),
    TRef.unary main_call6.cst main_call6.v0 (broadcastInDim S100000x128 ![] bcast_S_S100000x128),
    TRef.binary (.of main_v173 : TRef sig ⟨S100000x128, .f32⟩) main_call6.v0 main_call6.v1 maximumf ]

abbrev ops3c : List (HloOp τ sig (Elt F)) :=
  [ nullary main_cst_26 (constant S_ .f32 0x3F800000#32),
    unary main_cst_26 main_v175 (broadcastInDim S100000 ![] bcast_S_S100000),
    nullary main_cst_27 (constant S_ .f32 0x00000000#32),
    unary main_cst_27 main_v176 (broadcastInDim S1024 ![] bcast_S_S1024),
    unary main_arg2 main_v177 (broadcastInDim S100000x1 ![0] bcast_S100000_S100000x1_0),
    ternary main_v176 main_v177 main_v175 main_v178 (fun x i u => Host.scatterAdd scatter_S1024_S100000x1_S100000_n_0_0_1 x i u),
    nullary main_cst_28 (constant S_ .f32 0x00000000#32),
    unary main_cst_28 main_v179 (broadcastInDim S1024x128 ![] bcast_S_S1024x128),
    unary main_arg2 main_v180 (broadcastInDim S100000x1 ![0] bcast_S100000_S100000x1_0),
    ternary main_v179 main_v180 main_v174 main_v181 (fun x i u => Host.scatterAdd scatter_S1024x128_S100000x1_S100000x128_1_0_0_1 x i u),
    nullary main_cst_29 (constant S_ .f32 0x3F800000#32),
    unary main_cst_29 main_v182 (broadcastInDim S1024 ![] bcast_S_S1024),
    binary main_v178 main_v182 main_v183 maximumf,
    unary main_v183 main_v184 (broadcastInDim S1024x1 ![0] bcast_S1024_S1024x1_0),
    unary main_v184 main_v185 (broadcastInDim S1024x128 ![0, 1] bcast_S1024x1_S1024x128_0_1),
    binary main_v181 main_v185 main_v186 Host.divf,
    binary main_v186 main_arg9 main_v187 (fun l r => Host.dotGeneral dot_S1024x128_S128x128_S1024x128_1_0_0_1_n_n none l r),
    unary main_arg10 main_v188 (broadcastInDim S1x128 ![1] bcast_S128_S1x128_1),
    unary main_v188 main_v189 (broadcastInDim S1024x128 ![0, 1] bcast_S1x128_S1024x128_0_1),
    binary main_v187 main_v189 main_v190 addf,
    TRef.nullary main_call7.cst (constant S_ .f32 0x00000000#32),
    TRef.unary main_call7.cst main_call7.v0 (broadcastInDim S1024x128 ![] bcast_S_S1024x128),
    TRef.binary (.of main_v190 : TRef sig ⟨S1024x128, .f32⟩) main_call7.v0 main_call7.v1 maximumf,
    binary main_v191 main_arg11 main_v192 (fun l r => Host.dotGeneral dot_S1024x128_S128x64_S1024x64_1_0_0_1_n_n none l r),
    unary main_arg12 main_v193 (broadcastInDim S1x64 ![1] bcast_S64_S1x64_1),
    unary main_v193 main_v194 (broadcastInDim S1024x64 ![0, 1] bcast_S1x64_S1024x64_0_1),
    binary main_v192 main_v194 main_v195 addf ]

abbrev opsP0 : List (HloOp τ sig (Elt F)) := ops0a ++ ops0b

abbrev opsP1 : List (HloOp τ sig (Elt F)) := ops1a ++ (ops1b ++ (ops1c))

abbrev opsP2 : List (HloOp τ sig (Elt F)) := ops2a ++ (ops2b ++ (ops2c))

abbrev opsP3 : List (HloOp τ sig (Elt F)) := ops3a ++ (ops3b ++ (ops3c))

abbrev ops : List (HloOp τ sig (Elt F)) := opsP0 ++ (opsP1 ++ (opsP2 ++ opsP3))

theorem main_part0_eq (c : Dev nD) : main_part0 (F := F) c = seq opsP0 := by
  simp only [main_part0, fn_relu.body, fn_relu_0.body, fn_var.body, fn_where.body, opsP0, ops0a, ops0b,
    List.cons_append, List.nil_append, seq, bind_assoc, pure_bind]
  all_goals rfl

theorem main_part1_eq (c : Dev nD) : main_part1 (F := F) c = seq opsP1 := by
  simp only [main_part1, fn_relu.body, fn_relu_0.body, fn_var.body, fn_where.body, opsP1, ops1a, ops1b, ops1c,
    List.cons_append, List.nil_append, seq, bind_assoc, pure_bind]
  all_goals rfl

theorem main_part2_eq (c : Dev nD) : main_part2 (F := F) c = seq opsP2 := by
  simp only [main_part2, fn_relu.body, fn_relu_0.body, fn_var.body, fn_where.body, opsP2, ops2a, ops2b, ops2c,
    List.cons_append, List.nil_append, seq, bind_assoc, pure_bind]
  all_goals rfl

theorem main_part3_eq (c : Dev nD) : main_part3 (F := F) c = seq opsP3 := by
  simp only [main_part3, fn_relu.body, fn_relu_0.body, fn_var.body, fn_where.body, opsP3, ops3a, ops3b, ops3c,
    List.cons_append, List.nil_append, seq, bind_assoc, pure_bind]
  all_goals rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsP0, opsP1, opsP2, opsP3, ops0a, ops0b, ops1a, ops1b, ops1c, ops2a, ops2b, ops2c, ops3a, ops3b, ops3c, List.cons_append, List.nil_append,
    List.Forall, nullary_bufs_sub, unary_bufs_sub, binary_bufs_sub, ternary_bufs_sub, reshape_bufs_sub, and_self]

abbrev argRefs : List (Ref sig .tc) := [main_arg0, main_arg1, main_arg2, main_arg3, main_arg4, main_arg5, main_arg6, main_arg7, main_arg8, main_arg9, main_arg10, main_arg11, main_arg12]

abbrev atArgs {β : Type}
    (f : (⟨S100000x128, .f32⟩ : BufTy).Contents (Elt F) →
      (⟨S2x1600000, .i32⟩ : BufTy).Contents (Elt F) →
      (⟨S100000, .i32⟩ : BufTy).Contents (Elt F) →
      (⟨S128x128, .f32⟩ : BufTy).Contents (Elt F) →
      (⟨S128, .f32⟩ : BufTy).Contents (Elt F) →
      (⟨S3x128x128, .f32⟩ : BufTy).Contents (Elt F) →
      (⟨S3x128, .f32⟩ : BufTy).Contents (Elt F) →
      (⟨S3x128, .f32⟩ : BufTy).Contents (Elt F) →
      (⟨S3x128, .f32⟩ : BufTy).Contents (Elt F) →
      (⟨S128x128, .f32⟩ : BufTy).Contents (Elt F) →
      (⟨S128, .f32⟩ : BufTy).Contents (Elt F) →
      (⟨S128x64, .f32⟩ : BufTy).Contents (Elt F) →
      (⟨S64, .f32⟩ : BufTy).Contents (Elt F) → β)
    (V : Valuation τ sig (Elt F)) : β :=
  f (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

variable (V : Valuation τ sig (Elt F))

abbrev ops0a_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28]
def val1 : Valuation τ sig (Elt F) := after ops0a V
theorem val1_keep {r : Ref sig .tc} (h : r ∉ ops0a_W) :
    val1 V (no_index (Proc.devRef .tc r)) = V (Proc.devRef .tc r) :=
  after_of_writes_sub ops0a _ (by
    simp only [List.Forall, nullary_writes, unary_writes, binary_writes, ternary_writes, reshape_writes,
      Finset.singleton_subset_iff, List.mem_toFinset]
    repeat' apply And.intro
    all_goals exact List.mem_map_of_mem (by decide)) h

abbrev ops0b_W : List (Ref sig .tc) := [main_v29, main_v30, main_v31, main_v32, main_call0_cst, main_call0_v0, main_v33, main_v34, main_v35, main_v36, main_c_5, main_v37, main_v38, main_c_6, main_v39, main_v40, main_v41, main_v42, main_v43, main_v44, main_v45, main_cst_7, main_v46, main_v47, main_v48, main_v49]
def val2 : Valuation τ sig (Elt F) := after ops0b (val1 V)
theorem val2_keep {r : Ref sig .tc} (h : r ∉ ops0b_W) :
    val2 V (no_index (Proc.devRef .tc r)) = val1 V (Proc.devRef .tc r) :=
  after_of_writes_sub ops0b _ (by
    simp only [List.Forall, nullary_writes, unary_writes, binary_writes, ternary_writes, reshape_writes,
      Finset.singleton_subset_iff, List.mem_toFinset]
    repeat' apply And.intro
    all_goals exact List.mem_map_of_mem (by decide)) h

abbrev ops1a_W : List (Ref sig .tc) := [main_v50, main_v51, main_v52, main_v53, main_v54, main_v55, main_v56, main_cst_8, main_v57, main_cst_9, main_v58, main_v59, main_c_10, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v60]
def val3 : Valuation τ sig (Elt F) := after ops1a (val2 V)
theorem val3_keep {r : Ref sig .tc} (h : r ∉ ops1a_W) :
    val3 V (no_index (Proc.devRef .tc r)) = val2 V (Proc.devRef .tc r) :=
  after_of_writes_sub ops1a _ (by
    simp only [List.Forall, nullary_writes, unary_writes, binary_writes, ternary_writes, reshape_writes,
      Finset.singleton_subset_iff, List.mem_toFinset]
    repeat' apply And.intro
    all_goals exact List.mem_map_of_mem (by decide)) h

abbrev ops1b_W : List (Ref sig .tc) := [main_v61, main_v62, main_v63, main_cst_11, main_v64, main_v65, main_v66, main_v67, main_v68, main_v69, main_v70, main_v71, main_v72, main_v73, main_v74, main_v75, main_v76, main_v77, main_v78, main_v79, main_call2_cst, main_call2_v0, main_v80, main_v81, main_v82, main_v83]
def val4 : Valuation τ sig (Elt F) := after ops1b (val3 V)
theorem val4_keep {r : Ref sig .tc} (h : r ∉ ops1b_W) :
    val4 V (no_index (Proc.devRef .tc r)) = val3 V (Proc.devRef .tc r) :=
  after_of_writes_sub ops1b _ (by
    simp only [List.Forall, nullary_writes, unary_writes, binary_writes, ternary_writes, reshape_writes,
      Finset.singleton_subset_iff, List.mem_toFinset]
    repeat' apply And.intro
    all_goals exact List.mem_map_of_mem (by decide)) h

abbrev ops1c_W : List (Ref sig .tc) := [main_c_12, main_v84, main_v85, main_c_13, main_v86, main_v87, main_v88, main_v89, main_v90, main_v91, main_v92, main_cst_14, main_v93, main_v94, main_v95, main_v96, main_v97, main_v98, main_v99, main_v100, main_v101, main_v102]
def val5 : Valuation τ sig (Elt F) := after ops1c (val4 V)
theorem val5_keep {r : Ref sig .tc} (h : r ∉ ops1c_W) :
    val5 V (no_index (Proc.devRef .tc r)) = val4 V (Proc.devRef .tc r) :=
  after_of_writes_sub ops1c _ (by
    simp only [List.Forall, nullary_writes, unary_writes, binary_writes, ternary_writes, reshape_writes,
      Finset.singleton_subset_iff, List.mem_toFinset]
    repeat' apply And.intro
    all_goals exact List.mem_map_of_mem (by decide)) h

abbrev ops2a_W : List (Ref sig .tc) := [main_v103, main_cst_15, main_v104, main_cst_16, main_v105, main_v106, main_c_17, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v107]
def val6 : Valuation τ sig (Elt F) := after ops2a (val5 V)
theorem val6_keep {r : Ref sig .tc} (h : r ∉ ops2a_W) :
    val6 V (no_index (Proc.devRef .tc r)) = val5 V (Proc.devRef .tc r) :=
  after_of_writes_sub ops2a _ (by
    simp only [List.Forall, nullary_writes, unary_writes, binary_writes, ternary_writes, reshape_writes,
      Finset.singleton_subset_iff, List.mem_toFinset]
    repeat' apply And.intro
    all_goals exact List.mem_map_of_mem (by decide)) h

abbrev ops2b_W : List (Ref sig .tc) := [main_v108, main_v109, main_v110, main_cst_18, main_v111, main_v112, main_v113, main_v114, main_v115, main_v116, main_v117, main_v118, main_v119, main_v120, main_v121, main_v122, main_v123, main_v124, main_v125, main_v126, main_call4_cst, main_call4_v0, main_v127, main_v128, main_v129, main_v130]
def val7 : Valuation τ sig (Elt F) := after ops2b (val6 V)
theorem val7_keep {r : Ref sig .tc} (h : r ∉ ops2b_W) :
    val7 V (no_index (Proc.devRef .tc r)) = val6 V (Proc.devRef .tc r) :=
  after_of_writes_sub ops2b _ (by
    simp only [List.Forall, nullary_writes, unary_writes, binary_writes, ternary_writes, reshape_writes,
      Finset.singleton_subset_iff, List.mem_toFinset]
    repeat' apply And.intro
    all_goals exact List.mem_map_of_mem (by decide)) h

abbrev ops2c_W : List (Ref sig .tc) := [main_c_19, main_v131, main_v132, main_c_20, main_v133, main_v134, main_v135, main_v136, main_v137, main_v138, main_v139, main_cst_21, main_v140, main_v141, main_v142, main_v143, main_v144, main_v145, main_v146, main_v147, main_v148, main_v149, main_v150, main_cst_22, main_v151, main_cst_23, main_v152, main_v153]
def val8 : Valuation τ sig (Elt F) := after ops2c (val7 V)
theorem val8_keep {r : Ref sig .tc} (h : r ∉ ops2c_W) :
    val8 V (no_index (Proc.devRef .tc r)) = val7 V (Proc.devRef .tc r) :=
  after_of_writes_sub ops2c _ (by
    simp only [List.Forall, nullary_writes, unary_writes, binary_writes, ternary_writes, reshape_writes,
      Finset.singleton_subset_iff, List.mem_toFinset]
    repeat' apply And.intro
    all_goals exact List.mem_map_of_mem (by decide)) h

abbrev ops3a_W : List (Ref sig .tc) := [main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v154]
def val9 : Valuation τ sig (Elt F) := after ops3a (val8 V)
theorem val9_keep {r : Ref sig .tc} (h : r ∉ ops3a_W) :
    val9 V (no_index (Proc.devRef .tc r)) = val8 V (Proc.devRef .tc r) :=
  after_of_writes_sub ops3a _ (by
    simp only [List.Forall, nullary_writes, unary_writes, binary_writes, ternary_writes, reshape_writes,
      Finset.singleton_subset_iff, List.mem_toFinset]
    repeat' apply And.intro
    all_goals exact List.mem_map_of_mem (by decide)) h

abbrev ops3b_W : List (Ref sig .tc) := [main_v155, main_v156, main_v157, main_cst_25, main_v158, main_v159, main_v160, main_v161, main_v162, main_v163, main_v164, main_v165, main_v166, main_v167, main_v168, main_v169, main_v170, main_v171, main_v172, main_v173, main_call6_cst, main_call6_v0, main_v174]
def val10 : Valuation τ sig (Elt F) := after ops3b (val9 V)
theorem val10_keep {r : Ref sig .tc} (h : r ∉ ops3b_W) :
    val10 V (no_index (Proc.devRef .tc r)) = val9 V (Proc.devRef .tc r) :=
  after_of_writes_sub ops3b _ (by
    simp only [List.Forall, nullary_writes, unary_writes, binary_writes, ternary_writes, reshape_writes,
      Finset.singleton_subset_iff, List.mem_toFinset]
    repeat' apply And.intro
    all_goals exact List.mem_map_of_mem (by decide)) h

abbrev ops3c_W : List (Ref sig .tc) := [main_cst_26, main_v175, main_cst_27, main_v176, main_v177, main_v178, main_cst_28, main_v179, main_v180, main_v181, main_cst_29, main_v182, main_v183, main_v184, main_v185, main_v186, main_v187, main_v188, main_v189, main_v190, main_call7_cst, main_call7_v0, main_v191, main_v192, main_v193, main_v194, main_v195]
def val11 : Valuation τ sig (Elt F) := after ops3c (val10 V)
theorem val11_keep {r : Ref sig .tc} (h : r ∉ ops3c_W) :
    val11 V (no_index (Proc.devRef .tc r)) = val10 V (Proc.devRef .tc r) :=
  after_of_writes_sub ops3c _ (by
    simp only [List.Forall, nullary_writes, unary_writes, binary_writes, ternary_writes, reshape_writes,
      Finset.singleton_subset_iff, List.mem_toFinset]
    repeat' apply And.intro
    all_goals exact List.mem_map_of_mem (by decide)) h

theorem after_ops : after ops V = val11 V := by
  simp only [ops, opsP0, opsP1, opsP2, opsP3, after_append]
  rfl

theorem val11_arg {r : Ref sig .tc} (h : r ∈ argRefs) :
    val11 V (Proc.devRef .tc r) = V (Proc.devRef .tc r) := by
  rw [val11_keep, val10_keep, val9_keep, val8_keep, val7_keep, val6_keep, val5_keep, val4_keep, val3_keep, val2_keep,
    val1_keep] <;> revert r <;> decide

theorem val1_main_v1 : val1 V (no_index (Proc.devRef .tc main_v1)) = r_src (V (Proc.devRef .tc main_arg1)) := by
  unfold val1
  simp only [ops0a]
  after_results_simp
  all_goals rfl

theorem val1_main_v3 : val1 V (no_index (Proc.devRef .tc main_v3)) = r_dst (V (Proc.devRef .tc main_arg1)) := by
  unfold val1
  simp only [ops0a]
  after_results_simp
  all_goals rfl

theorem val1_main_v26 : val1 V (no_index (Proc.devRef .tc main_v26)) = atArgs r_edge_norm_at V := by
  unfold val1
  simp only [ops0a]
  after_results_simp
  all_goals rfl

theorem val1_main_v28 : val1 V (no_index (Proc.devRef .tc main_v28)) = atArgs r_self_norm_at V := by
  unfold val1
  simp only [ops0a]
  after_results_simp
  all_goals rfl

theorem val2_main_v36 : val2 V (no_index (Proc.devRef .tc main_v36)) = atArgs r_hw_0 V := by
  unfold val2
  simp only [ops0b]
  after_results_simp
  all_goals simp (disch := decide) only [val1_keep]
  all_goals rfl

theorem val2_main_v48 : val2 V (no_index (Proc.devRef .tc main_v48)) = atArgs r_agg_0 V := by
  unfold val2
  simp only [ops0b]
  after_results_simp
  all_goals simp (disch := decide) only [val1_keep, val1_main_v1, val1_main_v3, val1_main_v26]
  all_goals rfl

theorem val2_main_v49 : val2 V (no_index (Proc.devRef .tc main_v49)) = broadcastInDim (s := S100000x1) S100000x128 ![0, 1] bcast_S100000x1_S100000x128_0_1 (atArgs r_self_norm_at V) := by
  unfold val2
  simp only [ops0b]
  after_results_simp
  all_goals simp (disch := decide) only [val1_main_v28]
  all_goals rfl

theorem val3_main_v56 : val3 V (no_index (Proc.devRef .tc main_v56)) = atArgs r_hpre_0 V := by
  unfold val3
  simp only [ops1a]
  after_results_simp
  all_goals simp (disch := decide) only [val2_keep, val1_keep, val2_main_v36, val2_main_v48, val2_main_v49]
  all_goals rfl

theorem val3_main_v59 : val3 V (no_index (Proc.devRef .tc main_v59)) = atArgs r_mean_0 V := by
  unfold val3
  simp only [ops1a]
  after_results_simp
  all_goals simp (disch := decide) only [val2_keep, val1_keep, val2_main_v36, val2_main_v48, val2_main_v49]
  all_goals rfl

theorem val3_main_v60 : val3 V (no_index (Proc.devRef .tc main_v60)) = atArgs r_var_0 V := by
  unfold val3
  simp only [ops1a]
  after_results_simp
  all_goals simp (disch := decide) only [val2_keep, val1_keep, val2_main_v36, val2_main_v48, val2_main_v49]
  all_goals rfl

theorem val4_main_v83 : val4 V (no_index (Proc.devRef .tc main_v83)) = atArgs r_hw_1 V := by
  unfold val4
  simp only [ops1b]
  after_results_simp
  all_goals simp (disch := decide) only [val3_keep, val2_keep, val1_keep, val3_main_v56, val3_main_v59, val3_main_v60]
  all_goals rfl

theorem val5_main_v98 : val5 V (no_index (Proc.devRef .tc main_v98)) = addf (atArgs r_agg_1 V) (mulf (atArgs r_hw_1 V) (broadcastInDim (s := S100000x1) S100000x128 ![0, 1] bcast_S100000x1_S100000x128_0_1 (atArgs r_self_norm_at V))) := by
  unfold val5
  simp only [ops1c]
  after_results_simp
  all_goals simp (disch := decide) only [val4_keep, val3_keep, val2_keep, val1_keep, val1_main_v1, val1_main_v3,
    val1_main_v26, val1_main_v28, val4_main_v83]
  all_goals rfl

theorem val5_main_v102 : val5 V (no_index (Proc.devRef .tc main_v102)) = r_rows (r_row ![1, 0] slices_S3x128_S1x128_1_0 (V (Proc.devRef .tc main_arg6))) := by
  unfold val5
  simp only [ops1c]
  after_results_simp
  all_goals simp (disch := decide) only [val4_keep, val3_keep, val2_keep, val1_keep]
  all_goals rfl

theorem val6_main_v103 : val6 V (no_index (Proc.devRef .tc main_v103)) = atArgs r_hpre_1 V := by
  unfold val6
  simp only [ops2a]
  after_results_simp
  all_goals simp (disch := decide) only [val5_main_v98, val5_main_v102]
  all_goals rfl

theorem val6_main_v106 : val6 V (no_index (Proc.devRef .tc main_v106)) = atArgs r_mean_1 V := by
  unfold val6
  simp only [ops2a]
  after_results_simp
  all_goals simp (disch := decide) only [val5_main_v98, val5_main_v102]
  all_goals rfl

theorem val6_main_v107 : val6 V (no_index (Proc.devRef .tc main_v107)) = atArgs r_var_1 V := by
  unfold val6
  simp only [ops2a]
  after_results_simp
  all_goals simp (disch := decide) only [val5_main_v98, val5_main_v102]
  all_goals rfl

theorem val7_main_v130 : val7 V (no_index (Proc.devRef .tc main_v130)) = atArgs r_hw_2 V := by
  unfold val7
  simp only [ops2b]
  after_results_simp
  all_goals simp (disch := decide) only [val6_keep, val5_keep, val4_keep, val3_keep, val2_keep, val1_keep,
    val6_main_v103, val6_main_v106, val6_main_v107]
  all_goals rfl

theorem val8_main_v150 : val8 V (no_index (Proc.devRef .tc main_v150)) = atArgs r_hpre_2 V := by
  unfold val8
  simp only [ops2c]
  after_results_simp
  all_goals simp (disch := decide) only [val7_keep, val6_keep, val5_keep, val4_keep, val3_keep, val2_keep, val1_keep,
    val1_main_v1, val1_main_v3, val1_main_v26, val1_main_v28, val7_main_v130]
  all_goals rfl

theorem val8_main_v153 : val8 V (no_index (Proc.devRef .tc main_v153)) = atArgs r_mean_2 V := by
  unfold val8
  simp only [ops2c]
  after_results_simp
  all_goals simp (disch := decide) only [val7_keep, val6_keep, val5_keep, val4_keep, val3_keep, val2_keep, val1_keep,
    val1_main_v1, val1_main_v3, val1_main_v26, val1_main_v28, val7_main_v130]
  all_goals rfl

theorem val9_main_v154 : val9 V (no_index (Proc.devRef .tc main_v154)) = atArgs r_var_2 V := by
  unfold val9
  simp only [ops3a]
  after_results_simp
  all_goals simp (disch := decide) only [val8_main_v150]
  all_goals rfl

theorem val10_main_v174 : val10 V (no_index (Proc.devRef .tc main_v174)) = atArgs r_h_3 V := by
  unfold val10
  simp only [ops3b]
  after_results_simp
  all_goals simp (disch := decide) only [val9_keep, val8_keep, val7_keep, val6_keep, val5_keep, val4_keep, val3_keep,
    val2_keep, val1_keep, val8_main_v150, val8_main_v153, val9_main_v154]
  all_goals rfl

theorem val11_main_v195 : val11 V (no_index (Proc.devRef .tc main_v195)) = atArgs r_out V := by
  unfold val11
  simp only [ops3c]
  after_results_simp
  all_goals simp (disch := decide) only [val10_keep, val9_keep, val8_keep, val7_keep, val6_keep, val5_keep,
    val4_keep, val3_keep, val2_keep, val1_keep, val10_main_v174]
  all_goals rfl

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v195) = r_out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
      have k : ∀ b ∈ argRefs, r.2.mem ((c.tc : Thread nD τ).loc b) = m ((c.tc : Thread nD τ).loc b) := fun b hb =>
        (h c b).trans (by simp only [after_ops]; exact val11_arg (launchContents m c) hb)
      ⟨(h c main_v195).trans (by simp only [after_ops]; exact val11_main_v195 (launchContents m c)),
        k main_arg0 (by decide), k main_arg1 (by decide), k main_arg2 (by decide), k main_arg3 (by decide), k main_arg4 (by decide), k main_arg5 (by decide), k main_arg6 (by decide),
        k main_arg7 (by decide), k main_arg8 (by decide), k main_arg9 (by decide), k main_arg10 (by decide), k main_arg11 (by decide), k main_arg12 (by decide)⟩)
    (run_seq scopedRefs_eq scopedSems_eq defs main (fun _ => ops) main_eq (fun _ => ops_sub) m ρ)

theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => (h c).2) (run m ρ)

end Cert.ReferenceIdeal.Hand

end
-- ==== Proof.Val.KHost.lean ====
import proofs.«166185_j35605278883840_2_alg».proof.Proof.Gen.KernelIdeal.Launch
import proofs.«166185_j35605278883840_2_alg».proof.Proof.Gen.KernelIdeal.Regions
import Idealize.ShloMosaic.Lib.StableHlo.Run

set_option maxRecDepth 16384

noncomputable section

namespace Cert.KernelIdeal.HandValue

open Idealize.ShloMosaic Idealize.ShloMosaic.TcCoe Idealize.SL.Sem Idealize.ShloMosaic.StableHlo
open Cert.KernelIdeal Cert.KernelIdeal.Gen

variable {F : FTy → Type} [FloatOps F]

def edgeRow (k : Nat) (h : S2x1600000.Slices ![k, 0] S1x1600000) (ei : IVec S2x1600000 32) : IVec S1600000 32 :=
  shapeCast S1600000 (extractStridedSlice S1x1600000 ![k, 0] ei h) shapeCasts_S1x1600000_S1600000

def layerMat (k : Nat) (h : S3x128x128.Slices ![k, 0, 0] S1x128x128) (ws : FVec F S3x128x128 .f32) : FVec F S128x128 .f32 :=
  shapeCast S128x128 (extractStridedSlice S1x128x128 ![k, 0, 0] ws h) shapeCasts_S1x128x128_S128x128

def rowOf (v : FVec F S128 .f32) : FVec F S1x128 .f32 := shapeCast S1x128 v shapeCasts_S128_S1x128

def rowOf64 (v : FVec F S64 .f32) : FVec F S1x64 .f32 := shapeCast S1x64 v shapeCasts_S64_S1x64

def layerRow (k : Nat) (h : S3x128.Slices ![k, 0] S1x128) (b : FVec F S3x128 .f32) : FVec F S1x128 .f32 :=
  rowOf (shapeCast S128 (extractStridedSlice S1x128 ![k, 0] b h) shapeCasts_S1x128_S128)

def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def dinvOf (dst : IVec S1600000 32) : FVec F S100000 .f32 :=
  Host.rsqrt (addf
    (Host.scatterAdd scatter_S100000_S1600000x1_S1600000_n_0_0_1
      (broadcastInDim S100000 ![] bcast_S_S100000 (constant S_ .f32 0x00000000#32 : FVec F S_ .f32))
      (broadcastInDim S1600000x1 ![0] bcast_S1600000_S1600000x1_0 dst)
      (broadcastInDim S1600000 ![] bcast_S_S1600000 (constant S_ .f32 0x3F800000#32 : FVec F S_ .f32)))
    (broadcastInDim S100000 ![] bcast_S_S100000 (constant S_ .f32 0x3F800000#32 : FVec F S_ .f32)))

def edgeNormOf (dinv : FVec F S100000 .f32) (src dst : IVec S1600000 32) : FVec F S1600000x1 .f32 :=
  broadcastInDim S1600000x1 ![0] bcast_S1600000_S1600000x1_0
    (mulf (Host.gather gather_S100000_S1600000x1_S1600000_n_0_n_n_0_1_1 dinv (wrapIdx src))
      (Host.gather gather_S100000_S1600000x1_S1600000_n_0_n_n_0_1_1 dinv (wrapIdx dst)))

def selfNormOf (dinv : FVec F S100000 .f32) : FVec F S100000x1 .f32 :=
  broadcastInDim S100000x1 ![0] bcast_S100000_S100000x1_0 (mulf dinv dinv)

def aggOf (hw : FVec F S100000x128 .bf16) (src dst : IVec S1600000 32) (edgeNorm : FVec F S1600000x1 .f32) :
    FVec F S100000x128 .f32 :=
  Host.scatterAdd scatter_S100000x128_S1600000x1_S1600000x128_1_0_0_1
    (broadcastInDim S100000x128 ![] bcast_S_S100000x128 (constant S_ .f32 0x00000000#32 : FVec F S_ .f32))
    (broadcastInDim S1600000x1 ![0] bcast_S1600000_S1600000x1_0 dst)
    (mulf (extf .f32 (Host.gather gather_S100000x128_S1600000x1_S1600000x128_1_0_n_n_0_1_1128 hw (wrapIdx src)) bitsLt_bf16_f32)
      (broadcastInDim S1600000x128 ![0, 1] bcast_S1600000x1_S1600000x128_0_1 edgeNorm))

def meanOf (s : FVec F S1x128 .f32) : FVec F S1x128 .f32 :=
  Host.divf s (broadcastInDim S1x128 ![] bcast_S_S1x128 (constant S_ .f32 0x47C35000#32 : FVec F S_ .f32))

def varOf (s ss : FVec F S1x128 .f32) : FVec F S1x128 .f32 :=
  maximumf (subf (meanOf ss) (mulf (meanOf s) (meanOf s)))
    (broadcastInDim S1x128 ![] bcast_S_S1x128 (constant S_ .f32 0x00000000#32 : FVec F S_ .f32))

def countOf (batch : IVec S100000 32) : FVec F S1024 .f32 :=
  Host.scatterAdd scatter_S1024_S100000x1_S100000_n_0_0_1
    (broadcastInDim S1024 ![] bcast_S_S1024 (constant S_ .f32 0x00000000#32 : FVec F S_ .f32))
    (broadcastInDim S100000x1 ![0] bcast_S100000_S100000x1_0 batch)
    (broadcastInDim S100000 ![] bcast_S_S100000 (constant S_ .f32 0x3F800000#32 : FVec F S_ .f32))

def pooledOf (h : FVec F S100000x128 .f32) (batch : IVec S100000 32) : FVec F S1024x128 .f32 :=
  Host.divf
    (Host.scatterAdd scatter_S1024x128_S100000x1_S100000x128_1_0_0_1
      (broadcastInDim S1024x128 ![] bcast_S_S1024x128 (constant S_ .f32 0x00000000#32 : FVec F S_ .f32))
      (broadcastInDim S100000x1 ![0] bcast_S100000_S100000x1_0 batch) h)
    (broadcastInDim S1024x128 ![0, 1] bcast_S1024x1_S1024x128_0_1
      (broadcastInDim S1024x1 ![0] bcast_S1024_S1024x1_0
        (maximumf (countOf batch) (broadcastInDim S1024 ![] bcast_S_S1024 (constant S_ .f32 0x3F800000#32 : FVec F S_ .f32)))))

def srcOf (ei : IVec S2x1600000 32) : IVec S1600000 32 := edgeRow 0 slices_S2x1600000_S1x1600000_0_0 ei

def dstOf (ei : IVec S2x1600000 32) : IVec S1600000 32 := edgeRow 1 slices_S2x1600000_S1x1600000_1_0 ei

variable (W : Valuation τ sig (Elt F))

theorem host0_main_v1 :
    StableHlo.after hostOps0 W (Proc.devRef .tc main_v1) = srcOf (W (Proc.devRef .tc main_arg1)) := by
  after_results_simp
  rfl

theorem host0_main_v3 :
    StableHlo.after hostOps0 W (Proc.devRef .tc main_v3) = dstOf (W (Proc.devRef .tc main_arg1)) := by
  after_results_simp
  rfl

theorem host0_main_v26 :
    StableHlo.after hostOps0 W (Proc.devRef .tc main_v26) = edgeNormOf (dinvOf (dstOf (W (Proc.devRef .tc main_arg1)))) (srcOf (W (Proc.devRef .tc main_arg1))) (dstOf (W (Proc.devRef .tc main_arg1))) := by
  after_results_simp
  rfl

theorem host0_main_v28 :
    StableHlo.after hostOps0 W (Proc.devRef .tc main_v28) = selfNormOf (dinvOf (dstOf (W (Proc.devRef .tc main_arg1)))) := by
  after_results_simp
  rfl

theorem host0_main_v30 :
    StableHlo.after hostOps0 W (Proc.devRef .tc main_v30) = layerMat 0 slices_S3x128x128_S1x128x128_0_0_0 (W (Proc.devRef .tc main_arg5)) := by
  after_results_simp
  rfl

theorem host0_main_v31 :
    StableHlo.after hostOps0 W (Proc.devRef .tc main_v31) = rowOf (W (Proc.devRef .tc main_arg4)) := by
  after_results_simp
  rfl

theorem host1_main_v45 :
    StableHlo.after hostOps1 W (Proc.devRef .tc main_v45) = aggOf (W (Proc.devRef .tc main_v32)) (W (Proc.devRef .tc main_v1)) (W (Proc.devRef .tc main_v3)) (W (Proc.devRef .tc main_v26)) := by
  after_results_simp
  rfl

theorem host1_main_v48 :
    StableHlo.after hostOps1 W (Proc.devRef .tc main_v48) = layerRow 0 slices_S3x128_S1x128_0_0 (W (Proc.devRef .tc main_arg6)) := by
  after_results_simp
  rfl

theorem host2_main_v51 :
    StableHlo.after hostOps2 W (Proc.devRef .tc main_v51) = meanOf (W (Proc.devRef .tc main_v49_1)) := by
  after_results_simp
  rfl

theorem host2_main_v57 :
    StableHlo.after hostOps2 W (Proc.devRef .tc main_v57) = varOf (W (Proc.devRef .tc main_v49_1)) (W (Proc.devRef .tc main_v49_2)) := by
  after_results_simp
  rfl

theorem host2_main_v63 :
    StableHlo.after hostOps2 W (Proc.devRef .tc main_v63) = layerMat 1 slices_S3x128x128_S1x128x128_1_0_0 (W (Proc.devRef .tc main_arg5)) := by
  after_results_simp
  rfl

theorem host2_main_v64 :
    StableHlo.after hostOps2 W (Proc.devRef .tc main_v64) = layerRow 0 slices_S3x128_S1x128_0_0 (W (Proc.devRef .tc main_arg7)) := by
  after_results_simp
  rfl

theorem host2_main_v65 :
    StableHlo.after hostOps2 W (Proc.devRef .tc main_v65) = layerRow 0 slices_S3x128_S1x128_0_0 (W (Proc.devRef .tc main_arg8)) := by
  after_results_simp
  rfl

theorem host3_main_v79 :
    StableHlo.after hostOps3 W (Proc.devRef .tc main_v79) = aggOf (W (Proc.devRef .tc main_v66)) (W (Proc.devRef .tc main_v1)) (W (Proc.devRef .tc main_v3)) (W (Proc.devRef .tc main_v26)) := by
  after_results_simp
  rfl

theorem host3_main_v82 :
    StableHlo.after hostOps3 W (Proc.devRef .tc main_v82) = layerRow 1 slices_S3x128_S1x128_1_0 (W (Proc.devRef .tc main_arg6)) := by
  after_results_simp
  rfl

theorem host4_main_v85 :
    StableHlo.after hostOps4 W (Proc.devRef .tc main_v85) = meanOf (W (Proc.devRef .tc main_v83_1)) := by
  after_results_simp
  rfl

theorem host4_main_v91 :
    StableHlo.after hostOps4 W (Proc.devRef .tc main_v91) = varOf (W (Proc.devRef .tc main_v83_1)) (W (Proc.devRef .tc main_v83_2)) := by
  after_results_simp
  rfl

theorem host4_main_v97 :
    StableHlo.after hostOps4 W (Proc.devRef .tc main_v97) = layerMat 2 slices_S3x128x128_S1x128x128_2_0_0 (W (Proc.devRef .tc main_arg5)) := by
  after_results_simp
  rfl

theorem host4_main_v98 :
    StableHlo.after hostOps4 W (Proc.devRef .tc main_v98) = layerRow 1 slices_S3x128_S1x128_1_0 (W (Proc.devRef .tc main_arg7)) := by
  after_results_simp
  rfl

theorem host4_main_v99 :
    StableHlo.after hostOps4 W (Proc.devRef .tc main_v99) = layerRow 1 slices_S3x128_S1x128_1_0 (W (Proc.devRef .tc main_arg8)) := by
  after_results_simp
  rfl

theorem host5_main_v113 :
    StableHlo.after hostOps5 W (Proc.devRef .tc main_v113) = aggOf (W (Proc.devRef .tc main_v100)) (W (Proc.devRef .tc main_v1)) (W (Proc.devRef .tc main_v3)) (W (Proc.devRef .tc main_v26)) := by
  after_results_simp
  rfl

theorem host5_main_v116 :
    StableHlo.after hostOps5 W (Proc.devRef .tc main_v116) = layerRow 2 slices_S3x128_S1x128_2_0 (W (Proc.devRef .tc main_arg6)) := by
  after_results_simp
  rfl

theorem host6_main_v119 :
    StableHlo.after hostOps6 W (Proc.devRef .tc main_v119) = meanOf (W (Proc.devRef .tc main_v117_1)) := by
  after_results_simp
  rfl

theorem host6_main_v125 :
    StableHlo.after hostOps6 W (Proc.devRef .tc main_v125) = varOf (W (Proc.devRef .tc main_v117_1)) (W (Proc.devRef .tc main_v117_2)) := by
  after_results_simp
  rfl

theorem host6_main_v130 :
    StableHlo.after hostOps6 W (Proc.devRef .tc main_v130) = layerRow 2 slices_S3x128_S1x128_2_0 (W (Proc.devRef .tc main_arg7)) := by
  after_results_simp
  rfl

theorem host6_main_v131 :
    StableHlo.after hostOps6 W (Proc.devRef .tc main_v131) = layerRow 2 slices_S3x128_S1x128_2_0 (W (Proc.devRef .tc main_arg8)) := by
  after_results_simp
  rfl

theorem host7_main_v144 :
    StableHlo.after hostOps7 W (Proc.devRef .tc main_v144) = pooledOf (W (Proc.devRef .tc main_v132)) (W (Proc.devRef .tc main_arg2)) := by
  after_results_simp
  rfl

theorem host7_main_v145 :
    StableHlo.after hostOps7 W (Proc.devRef .tc main_v145) = rowOf (W (Proc.devRef .tc main_arg10)) := by
  after_results_simp
  rfl

theorem host7_main_v146 :
    StableHlo.after hostOps7 W (Proc.devRef .tc main_v146) = rowOf64 (W (Proc.devRef .tc main_arg12)) := by
  after_results_simp
  rfl

end Cert.KernelIdeal.HandValue

end
-- ==== Proof.Val.KHostRef.lean ====
import proofs.«166185_j35605278883840_2_alg».proof.Proof.Val.KHost
import proofs.«166185_j35605278883840_2_alg».proof.Proof.Ref.Stages
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.ValueIdx
open Cert.KernelIdeal Cert.KernelIdeal.Gen
open Cert.ReferenceIdeal.Hand (r_src r_dst r_dinv r_edge_norm r_self_norm r_mat r_row r_agg r_cnt r_pool)

variable {F : FTy → Type} [FloatOps F]

section Same
variable [Cert.ReferenceIdeal.Facts]

theorem edgeRow_zero_eq (h : S2x1600000.Slices ![0, 0] S1x1600000) (ei : IVec S2x1600000 32) :
    edgeRow 0 h ei = r_src (F := F) ei := rfl

theorem edgeRow_one_eq (h : S2x1600000.Slices ![1, 0] S1x1600000) (ei : IVec S2x1600000 32) :
    edgeRow 1 h ei = r_dst (F := F) ei := rfl

theorem dinvOf_eq (dst : IVec S1600000 32) : dinvOf (F := F) dst = r_dinv dst := rfl

theorem edgeNormOf_eq (dinv : FVec F S100000 .f32) (src dst : IVec S1600000 32) :
    edgeNormOf dinv src dst = r_edge_norm dinv src dst := rfl

theorem selfNormOf_eq (dinv : FVec F S100000 .f32) : selfNormOf dinv = r_self_norm dinv := rfl

theorem layerMat_eq (k : ℕ) (h : S3x128x128.Slices ![k, 0, 0] S1x128x128) (ws : FVec F S3x128x128 .f32) :
    layerMat k h ws = r_mat ![k, 0, 0] h ws := rfl

theorem rowOf_apply (v : FVec F S128 .f32) (u : Fin 1) (q : Fin 128) : rowOf v (ix2 u q) = v (ix1 q) :=
  shapeCast_a_1a_apply v shapeCasts_S128_S1x128 u q

theorem rowOf64_apply (v : FVec F S64 .f32) (u : Fin 1) (q : Fin 64) : rowOf64 v (ix2 u q) = v (ix1 q) :=
  shapeCast_a_1a_apply v shapeCasts_S64_S1x64 u q

theorem layerRow_apply (k : ℕ) (h : S3x128.Slices ![k, 0] S1x128) (b : FVec F S3x128 .f32) (u : Fin 1) (q : Fin 128) :
    layerRow k h b (ix2 u q) = r_row ![k, 0] h b (ix1 q) :=
  shapeCast_a_1a_apply _ shapeCasts_S128_S1x128 u q

theorem pooledOf_eq (h : FVec F S100000x128 .f32) (batch : IVec S100000 32) :
    pooledOf h batch = r_pool h (r_cnt batch) batch := rfl

/-- Arrays equal at every index are equal, and the two sums are then the same expression. -/
theorem aggOf_eq (hw : FVec Ideal S100000x128 .bf16) (hw' : FVec Ideal S100000x128 .f32) (hhw : ∀ i, hw i = hw' i)
    (src dst : IVec S1600000 32) (edgeNorm : FVec Ideal S1600000x1 .f32) :
    aggOf hw src dst edgeNorm = r_agg (F := Ideal) hw' src dst edgeNorm := by
  obtain rfl : hw = hw' := funext hhw
  rfl

end Same

end Cert.KernelIdeal.HandValue

end
-- ==== Proof.Val.Args.lean ====
import proofs.«166185_j35605278883840_2_alg».proof.Proof.KI.Run
import proofs.«166185_j35605278883840_2_alg».proof.Proof.Ref.Stages
import Idealize.ShloMosaic.PureOps.Ideal

noncomputable section

namespace Cert.KernelIdeal.HandValue

open Idealize.ShloMosaic Idealize.ShloMosaic.TcCoe Idealize.SL.Sem
open Cert.KernelIdeal

variable (m : (ℓ : Loc nD τ sig) → Buf (Elt Ideal) ℓ) (c : Dev nD)

-- A function of the reference's thirteen arguments, applied to the kernel program's thirteen argument arrays.
def atArgs {β : Sort _}
    (f : (⟨Cert.ReferenceIdeal.S100000x128, .f32⟩ : BufTy).Contents (Elt Ideal) → (⟨Cert.ReferenceIdeal.S2x1600000, .i32⟩ : BufTy).Contents (Elt Ideal) → (⟨Cert.ReferenceIdeal.S100000, .i32⟩ : BufTy).Contents (Elt Ideal)
      → (⟨Cert.ReferenceIdeal.S128x128, .f32⟩ : BufTy).Contents (Elt Ideal) → (⟨Cert.ReferenceIdeal.S128, .f32⟩ : BufTy).Contents (Elt Ideal) → (⟨Cert.ReferenceIdeal.S3x128x128, .f32⟩ : BufTy).Contents (Elt Ideal)
      → (⟨Cert.ReferenceIdeal.S3x128, .f32⟩ : BufTy).Contents (Elt Ideal) → (⟨Cert.ReferenceIdeal.S3x128, .f32⟩ : BufTy).Contents (Elt Ideal) → (⟨Cert.ReferenceIdeal.S3x128, .f32⟩ : BufTy).Contents (Elt Ideal)
      → (⟨Cert.ReferenceIdeal.S128x128, .f32⟩ : BufTy).Contents (Elt Ideal) → (⟨Cert.ReferenceIdeal.S128, .f32⟩ : BufTy).Contents (Elt Ideal) → (⟨Cert.ReferenceIdeal.S128x64, .f32⟩ : BufTy).Contents (Elt Ideal)
      → (⟨Cert.ReferenceIdeal.S64, .f32⟩ : BufTy).Contents (Elt Ideal) → β) : β :=
  f (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

end Cert.KernelIdeal.HandValue

end
-- ==== Proof.Val.Cols.lean ====
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx
open scoped BigOperators

/-- A column `[a, 1]` laid along `b` lanes reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of an `[a, b]` block, kept as the one row `[1, b]`, is at lane `q` the sum of column `q`. -/
theorem colsum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (q : Fin b) :
    shapeCast ⟨2, ![1, b]⟩ (multiReduction (F := Ideal) .add [0] ⟨1, ![b]⟩ src 0x00000000#32 h hφ hacc) hc (ix2 u q)
      = ∑ p : Fin a, src (ix2 p q) := by
  refine (shapeCast_a_1a_apply _ hc u q).trans ?_
  refine (Ideal.multiReduction_add_single src _ h hφ hacc (ix1 q)).trans ?_
  refine Finset.sum_congr rfl fun p _ => congrArg src ?_
  funext d
  match d with
  | ⟨0, _⟩ => rfl
  | ⟨1, _⟩ => rfl

/-- An `[m, k]` by `[k, n]` product accumulated into zero is, at `(p, q)`, the sum over `j` of the `(p, j)` entry times the `(j, q)` entry. -/
theorem matmul_ix2_apply {m k n : ℕ} {φ₁ φ₂ : FTy} (d : DotDims ⟨2, ![m, k]⟩ ⟨2, ![k, n]⟩ ⟨2, ![m, n]⟩)
    (hr : d.contr.rank = 1) (hs : d.contr.size ⟨0, by omega⟩ = k)
    (hl : d.lhsContracting = [1]) (hrc : d.rhsContracting = [0])
    (h0 : ∀ i q, (d.lhsIdx i q 0).val = (i 0).val) (h1 : ∀ i q, (d.rhsIdx i q 1).val = (i 1).val)
    (a : FVec Ideal ⟨2, ![m, k]⟩ φ₁) (b : FVec Ideal ⟨2, ![k, n]⟩ φ₂) (p : Fin m) (q : Fin n) :
    FloatOps.matmul d none a b (constant (F := Ideal) ⟨2, ![m, n]⟩ .f32 0x00000000#32) (ix2 p q)
      = ∑ j : Fin k, a (ix2 p j) * b (ix2 j q) := by
  rw [Ideal.matmul_constant_zero_apply, ← Equiv.sum_comp (contrEquiv1 d k hr hs).symm]
  refine Finset.sum_congr rfl fun j _ => ?_
  have hj := contrEquiv1_symm_val d k hr hs j
  rw [show d.lhsIdx (ix2 p q) ((contrEquiv1 d k hr hs).symm j) = ix2 p j from
      Shape.idx_ext₂ (h0 _ _) ((d.lhsIdx_val_of_single hl _ _).trans hj),
    show d.rhsIdx (ix2 p q) ((contrEquiv1 d k hr hs).symm j) = ix2 j q from
      Shape.idx_ext₂ ((d.rhsIdx_val_of_single hrc _ _).trans hj) (h1 _ _)]

end Cert.KernelIdeal.HandValue

end
-- ==== Proof.Val.Pay0.lean ====
import proofs.«166185_j35605278883840_2_alg».proof.Proof.Gen.KernelIdeal.Skeleton
import proofs.«166185_j35605278883840_2_alg».proof.Proof.Val.Cols

set_option maxRecDepth 16384

noncomputable section

namespace Cert.KernelIdeal.HandValue

open Idealize.ShloMosaic Idealize.ShloMosaic.ValueIdx
open Cert.KernelIdeal Cert.KernelIdeal.Gen
open scoped BigOperators

/-- A 4000×128 by 128×128 product accumulated into zero, read at `(p, q)`. -/
theorem matmul_rows0_apply {φ₁ φ₂ : FTy} (a : FVec Ideal S4000x128 φ₁) (b : FVec Ideal S128x128 φ₂) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) :=
  matmul_ix2_apply dot_S4000x128_S128x128_S4000x128_1_0_0_1_n_n rfl rfl rfl rfl
    (fun i q => by
      unfold DotDims.lhsIdx
      rw [dif_neg (show ¬(0 : Fin S4000x128.rank) ∈ dot_S4000x128_S128x128_S4000x128_1_0_0_1_n_n.lhsBatch by decide),
        dif_pos (show (0 : Fin S4000x128.rank) ∈ dot_S4000x128_S128x128_S4000x128_1_0_0_1_n_n.lhsNonContracting by decide)]
      rfl)
    (fun i q => by
      unfold DotDims.rhsIdx
      rw [dif_neg (show ¬(1 : Fin S128x128.rank) ∈ dot_S4000x128_S128x128_S4000x128_1_0_0_1_n_n.rhsBatch by decide),
        dif_pos (show (1 : Fin S128x128.rank) ∈ dot_S4000x128_S128x128_S4000x128_1_0_0_1_n_n.rhsNonContracting by decide)]
      rfl) a b p q

/-- The stored block at `(p, q)`: row `p` of the rectified first layer against column `q` of the second matrix. -/
theorem k0_pay1_apply (x : Vec Ideal S4000x128 .f32) (W : Vec Ideal S128x128 .f32) (b : Vec Ideal S1x128 .f32) (W0 : Vec Ideal S128x128 .f32)
    (p : Fin 4000) (q : Fin 128) :
    k0_pay1 (F := Ideal) x W b W0 (ix2 p q)
      = ∑ k : Fin 128, max (∑ j : Fin 128, x (ix2 p j) * W (ix2 j k) + b (ix2 (0 : Fin 1) k)) 0 * W0 (ix2 k q) := by
  unfold k0_pay1
  simp only [shapeCast_self]
  refine (matmul_rows0_apply _ _ p q).trans (Finset.sum_congr rfl fun k _ => ?_)
  rw [truncf_apply, truncf_apply, maximumf_apply, addf_apply, matmul_rows0_apply, broadcastTo_1b_ab_apply, broadcast_apply]
  show max _ (Ideal.ofBits .f32 0x00000000#32) * _ = _
  rw [Ideal.ofBits_zero_f32]
  rfl

end Cert.KernelIdeal.HandValue

end
-- ==== Proof.Val.Final0.lean ====
import proofs.«166185_j35605278883840_2_alg».proof.Proof.KI.RegA0
import proofs.«166185_j35605278883840_2_alg».proof.Proof.Val.Pay0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand
open scoped BigOperators

/-- Row `P`, column `q` of the rows `x` through `W` and the bias row `b`, rectified, then through `W0`. -/
def proj0 (x : S100000x128.Idx → EReal) (W : S128x128.Idx → EReal) (b : S1x128.Idx → EReal) (W0 : S128x128.Idx → EReal)
    (P : Fin 100000) (q : Fin 128) : EReal :=
  ∑ k : Fin 128, max (∑ j : Fin 128, x (ix2 P j) * W (ix2 j k) + b (ix2 (0 : Fin 1) k)) 0 * W0 (ix2 k q)

def projArr0 (x : S100000x128.Idx → EReal) (W : S128x128.Idx → EReal) (b : S1x128.Idx → EReal) (W0 : S128x128.Idx → EReal) :
    S100000x128.Idx → EReal :=
  fun i => proj0 x W b W0 (i 0) (i 1)

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N, (win0_0.index t (0 : Fin 2) = t.val ∧ win0_0.index t (1 : Fin 2) = 0)
    ∧ (∀ a : Fin 2, win0_1.index t a = 0 ∧ win0_2.index t a = 0 ∧ win0_3.index t a = 0)
    ∧ win0_4.index t (0 : Fin 2) = t.val ∧ win0_4.index t (1 : Fin 2) = 0 :=
  (by decide +kernel : ∀ t : Fin grid0.N, _)

theorem row_lt0 (t : Fin cfg0.N) (p : Fin 4000) : 4000 * t.val + p.val < 100000 := by
  have hN : cfg0.N = 25 := N_0
  have := t.isLt; have := p.isLt; omega

abbrev res0 (c : Dev nD) : S100000x128.Idx → EReal :=
  projArr0 (V c main_arg0) (V c main_arg3) (V c main_v31) (V c main_v30)

/-- Row `p` of the row window's block at point `t` is row `4000 t + p` of the array. -/
theorem iblk0_at0 (c : Dev nD) (t : Fin cfg0.N) (p : Fin 4000) (k : Fin 128) :
    (iblk0 V c 0 t : Vec Ideal S4000x128 .f32) (ix2 p k) = V c main_arg0 (ix2 ⟨4000 * t.val + p.val, row_lt0 t p⟩ k) := by
  obtain ⟨⟨e0, e1⟩, -⟩ := idx_facts0 t
  show V c main_arg0 (((cfg0.win 0).blk t).view.emb (ix2 p k)) = V c main_arg0 _
  exact congrArg _ (Shape.idx_ext₂
    (show win0_0.index t (0 : Fin 2) * 4000 + 1 * p.val = 4000 * t.val + p.val by rw [e0]; omega)
    (show win0_0.index t (1 : Fin 2) * 128 + 1 * k.val = k.val by rw [e1]; omega))

/-- A window at block index zero on both axes reads its whole array. -/
theorem iblk1_eq0 (c : Dev nD) (t : Fin cfg0.N) : (iblk0 V c 1 t : Vec Ideal S128x128 .f32) = V c main_arg3 :=
  funext fun y => congrArg (V c main_arg3) (funext fun a => Fin.ext
    ((cfg0.win 1).rect_emb_val_of_index_zero t a ((idx_facts0 t).2.1 a).1 y))

theorem iblk2_eq0 (c : Dev nD) (t : Fin cfg0.N) : (iblk0 V c 2 t : Vec Ideal S1x128 .f32) = V c main_v31 :=
  funext fun y => congrArg (V c main_v31) (funext fun a => Fin.ext
    ((cfg0.win 2).rect_emb_val_of_index_zero t a ((idx_facts0 t).2.1 a).2.1 y))

theorem iblk3_eq0 (c : Dev nD) (t : Fin cfg0.N) : (iblk0 V c 3 t : Vec Ideal S128x128 .f32) = V c main_v30 :=
  funext fun y => congrArg (V c main_v30) (funext fun a => Fin.ext
    ((cfg0.win 3).rect_emb_val_of_index_zero t a ((idx_facts0 t).2.1 a).2.2 y))

/-- Entry `(p, q)` of the result's block at point `t` sits at row `4000 t + p`, column `q` of the array. -/
theorem emb4_0 (t : Fin cfg0.N) (p : Fin 4000) (q : Fin 128) :
    ((cfg0.win 4).blk t).view.emb (ix2 p q) = ix2 ⟨4000 * t.val + p.val, row_lt0 t p⟩ q := by
  obtain ⟨-, -, e0, e1⟩ := idx_facts0 t
  exact Shape.idx_ext₂
    (show win0_4.index t (0 : Fin 2) * 4000 + 1 * p.val = 4000 * t.val + p.val by rw [e0]; omega)
    (show win0_4.index t (1 : Fin 2) * 128 + 1 * q.val = q.val by rw [e1]; omega)

/-- Block `t` of the result is block `t` of the projection of the four arrays, entry by entry. -/
theorem flushed0_eq (c : Dev nD) (t : Fin cfg0.N) :
    (dat0 V c).flushed 4 t = ((cfg0.win 4).blk t).view.read (Elt Ideal) (res0 V c) := by
  show (cfg0.win 4).cut (grid0.coords t) ((dat0 V c).after 4 t) = _
  rw [after0_4]
  unfold out0_4
  rw [View.canon_unit_zero hz0]
  simp only [View.ld_unit_zero (S := S4000x128) hz0, View.ld_unit_zero (S := S128x128) hz0, View.ld_unit_zero (S := S1x128) hz0]
  funext j
  obtain ⟨p, q, rfl⟩ : ∃ (p : Fin 4000) (q : Fin 128), j = ix2 p q := ⟨j 0, j 1, eq_ix2 (n0 := 4000) (n1 := 128) j⟩
  show k0_pay1 (F := Ideal) (iblk0 V c 0 t) (iblk0 V c 1 t) (iblk0 V c 2 t) (iblk0 V c 3 t) (ix2 p q)
      = res0 V c (((cfg0.win 4).blk t).view.emb (ix2 p q))
  rw [emb4_0, iblk1_eq0, iblk2_eq0, iblk3_eq0, k0_pay1_apply]
  show _ = proj0 (V c main_arg0) (V c main_arg3) (V c main_v31) (V c main_v30) ⟨4000 * t.val + p.val, row_lt0 t p⟩ q
  unfold proj0
  simp only [iblk0_at0]

/-- The 25 blocks cover the rows: row `r` is in the block of point `r / 4000`. -/
theorem final0_apply (c : Dev nD) (P : Fin 100000) (q : Fin 128) :
    (dat0 V c).arrAt 4 cfg0.N (ix2 P q) = proj0 (V c main_arg0) (V c main_arg3) (V c main_v31) (V c main_v30) P q :=
  congrFun ((dat0 V c).arrAt_eq_of_cover 4 (res0 V c) (fun t _ => flushed0_eq V c t) fun (i : S100000x128.Idx) => by
    have hi0 : (i 0).val < 100000 := (i 0).isLt
    have hlt : (i 0).val / 4000 < cfg0.N := by rw [show cfg0.N = 25 from N_0]; omega
    exact ⟨⟨(i 0).val / 4000, hlt⟩, flush0_4 _, Finset.mem_map.mpr
      ⟨ix2 (⟨(i 0).val % 4000, Nat.mod_lt _ (by norm_num)⟩ : Fin 4000) (i 1), Finset.mem_univ _, (emb4_0 ⟨(i 0).val / 4000, hlt⟩ _ (i 1)).trans
        (Shape.idx_ext₂ (show 4000 * ((i 0).val / 4000) + (i 0).val % 4000 = (i 0).val by omega) rfl)⟩⟩) (ix2 P q)

end Cert.KernelIdeal.HandValue

end
-- ==== Proof.Val.RefOps.lean ====
import proofs.«166185_j35605278883840_2_alg».proof.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.HandValue

open Idealize.ShloMosaic Idealize.ShloMosaic.ValueIdx
open Cert.ReferenceIdeal Cert.ReferenceIdeal.Facts₀

variable [Facts₀]

section Dot
variable {sl sr so : Shape} (d : DotDims sl sr so) (j : so.Idx) (k : d.contr.Idx)

-- With no batch axes, the left operand's one free axis reads the result's first coordinate.
theorem lhsIdx_val_of_free {a : Fin sl.rank} (hb : d.lhsBatch = []) (hn : d.lhsNonContracting = [a]) (h0 : 0 < so.rank) :
    (d.lhsIdx j k a).val = (j ⟨0, h0⟩).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

-- And the right operand's one free axis reads the result's second coordinate.
theorem rhsIdx_val_of_free {a : Fin sr.rank} {a' : Fin sl.rank} (hb : d.rhsBatch = []) (hlb : d.lhsBatch = [])
    (hln : d.lhsNonContracting = [a']) (hn : d.rhsNonContracting = [a]) (h1 : 1 < so.rank) :
    (d.rhsIdx j k a).val = (j ⟨1, h1⟩).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Dot

-- A product of an m×c by a c×n array, at (p, q): the sum over the contracted axis of row p against column q.
theorem dot2_apply {m n c : ℕ} (D : DotDims ⟨2, ![m, c]⟩ ⟨2, ![c, n]⟩ ⟨2, ![m, n]⟩) (hr : D.contr.rank = 1)
    (hs : D.contr.size ⟨0, by omega⟩ = c) (hlb : D.lhsBatch = []) (hrb : D.rhsBatch = []) (hln : D.lhsNonContracting = [0])
    (hrn : D.rhsNonContracting = [1]) (hlc : D.lhsContracting = [1]) (hrc : D.rhsContracting = [0])
    (l : FVec Ideal ⟨2, ![m, c]⟩ .f32) (r : FVec Ideal ⟨2, ![c, n]⟩ .f32) (p : Fin m) (q : Fin n) :
    Host.dotGeneral (F := Ideal) D none l r (ix2 p q) = ∑ k : Fin c, l (ix2 p k) * r (ix2 k q) := by
  simp only [Host.dotGeneral]
  rw [Ideal.dotGeneral_apply, ← Equiv.sum_comp (contrEquiv1 D c hr hs).symm]
  refine Finset.sum_congr rfl fun k _ => ?_
  have hk := contrEquiv1_symm_val D c hr hs k
  have el : D.lhsIdx (ix2 p q) ((contrEquiv1 D c hr hs).symm k) = ix2 p k :=
    funext fun a => Fin.ext (by
      match a with
      | ⟨0, _⟩ => exact lhsIdx_val_of_free D _ _ hlb hln Nat.zero_lt_two
      | ⟨1, _⟩ => exact (D.lhsIdx_val_of_single hlc _ _).trans hk)
  have er : D.rhsIdx (ix2 p q) ((contrEquiv1 D c hr hs).symm k) = ix2 k q :=
    funext fun a => Fin.ext (by
      match a with
      | ⟨0, _⟩ => exact (D.rhsIdx_val_of_single hrc _ _).trans hk
      | ⟨1, _⟩ => exact rhsIdx_val_of_free D _ _ hrb hlb hln hrn Nat.one_lt_two)
  rw [el, er]

theorem dotNodes_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) :=
  dot2_apply dot_S100000x128_S128x128_S100000x128_1_0_0_1_n_n rfl rfl rfl rfl rfl rfl rfl rfl l r p q

theorem dotPooled_apply (l : FVec Ideal S1024x128 .f32) (r : FVec Ideal S128x128 .f32) (p : Fin 1024) (q : Fin 128) :
    Host.dotGeneral (F := Ideal) dot_S1024x128_S128x128_S1024x128_1_0_0_1_n_n none l r (ix2 p q)
      = ∑ k : Fin 128, l (ix2 p k) * r (ix2 k q) :=
  dot2_apply dot_S1024x128_S128x128_S1024x128_1_0_0_1_n_n rfl rfl rfl rfl rfl rfl rfl rfl l r p q

theorem dotHead_apply (l : FVec Ideal S1024x128 .f32) (r : FVec Ideal S128x64 .f32) (p : Fin 1024) (q : Fin 64) :
    Host.dotGeneral (F := Ideal) dot_S1024x128_S128x64_S1024x64_1_0_0_1_n_n none l r (ix2 p q)
      = ∑ k : Fin 128, l (ix2 p k) * r (ix2 k q) :=
  dot2_apply dot_S1024x128_S128x64_S1024x64_1_0_0_1_n_n rfl rfl rfl rfl rfl rfl rfl rfl l r p q

-- A vector laid as a row and repeated down m rows reads, at (p, q), the vector at q.
theorem rowOver_apply {α : Type} {m n : ℕ} (hn : n ≠ 1) (h1 : (⟨2, ![1, n]⟩ : Shape).BroadcastsInDim ⟨2, ![m, n]⟩ ![0, 1])
    (h2 : (⟨1, ![n]⟩ : Shape).BroadcastsInDim ⟨2, ![1, n]⟩ ![1]) (b : (⟨1, ![n]⟩ : Shape).Idx → α) (p : Fin m) (q : Fin n) :
    broadcastInDim ⟨2, ![m, n]⟩ ![0, 1] h1 (broadcastInDim ⟨2, ![1, n]⟩ ![1] h2 b) (ix2 p q) = b (ix1 q) := by
  refine (broadcastInDim_apply _ h1 _ (ix2 p q) (ix2 (0 : Fin 1) q) (fun a => ?_)).trans
    (broadcastInDim_apply _ h2 b (ix2 (0 : Fin 1) q) (ix1 q) (fun a => ?_))
  · match a with
    | ⟨0, _⟩ => show 0 = if (1 : ℕ) = 1 then 0 else p.val; rw [if_pos rfl]
    | ⟨1, _⟩ => show q.val = if n = 1 then 0 else q.val; rw [if_neg hn]
  · match a with
    | ⟨0, _⟩ => show q.val = if n = 1 then 0 else q.val; rw [if_neg hn]

theorem rowOverNodes_apply {α : Type} (b : S128.Idx → α) (p : Fin 100000) (q : Fin 128) :
    broadcastInDim S100000x128 ![0, 1] bcast_S1x128_S100000x128_0_1 (broadcastInDim S1x128 ![1] bcast_S128_S1x128_1 b) (ix2 p q) = b (ix1 q) :=
  rowOver_apply (by decide) _ _ b p q

theorem rowOverPooled_apply {α : Type} (b : S128.Idx → α) (p : Fin 1024) (q : Fin 128) :
    broadcastInDim S1024x128 ![0, 1] bcast_S1x128_S1024x128_0_1 (broadcastInDim S1x128 ![1] bcast_S128_S1x128_1 b) (ix2 p q) = b (ix1 q) :=
  rowOver_apply (by decide) _ _ b p q

theorem rowOverHead_apply {α : Type} (b : S64.Idx → α) (p : Fin 1024) (q : Fin 64) :
    broadcastInDim S1024x64 ![0, 1] bcast_S1x64_S1024x64_0_1 (broadcastInDim S1x64 ![1] bcast_S64_S1x64_1 b) (ix2 p q) = b (ix1 q) :=
  rowOver_apply (by decide) _ _ b p q

theorem scalarOverNodes_apply {α : Type} (x : S_.Idx → α) (j : S100000x128.Idx) :
    broadcastInDim S100000x128 ![] bcast_S_S100000x128 x j = x ix0 := broadcastInDim_scalar_apply _ x j
theorem scalarOverPooled_apply {α : Type} (x : S_.Idx → α) (j : S1024x128.Idx) :
    broadcastInDim S1024x128 ![] bcast_S_S1024x128 x j = x ix0 := broadcastInDim_scalar_apply _ x j
theorem scalarOverFeatures_apply {α : Type} (x : S_.Idx → α) (j : S128.Idx) :
    broadcastInDim S128 ![] bcast_S_S128 x j = x ix0 := broadcastInDim_scalar_apply _ x j

theorem colSum_apply (x : FVec Ideal S100000x128 .f32) (init : S_.Idx → Ideal .f32) (q : Fin 128) :
    Host.reduceAdd (F := Ideal) x init reducesTo_S100000x128_S128_d0 h_S_ (ix1 q)
      = init ix0 + ∑ p : Fin 100000, x (ix2 p q) := by
  rw [hostReduceAdd_apply, Ideal.hostReduceAdd_single reducesTo_S100000x128_S128_d0 (by decide)]
  refine congrArg₂ (· + ·) (congrArg init (eq_ix0 _)) (Finset.sum_congr rfl fun p _ => ?_)
  exact congrArg x (funext fun a => Fin.ext (by match a with | ⟨0, _⟩ => rfl | ⟨1, _⟩ => rfl))

theorem hostRsqrt_apply {s : Shape} {φ : FTy} (x : FVec Ideal s φ) (i : s.Idx) :
    Host.rsqrt (F := Ideal) x i = Ideal.rsqrt (x i) := rfl

end Cert.ReferenceIdeal.HandValue

end
-- ==== Proof.Val.Bridge0.lean ====
import proofs.«166185_j35605278883840_2_alg».proof.Proof.Val.Final0
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_hw r_h0 r_relu r_rows)
open Cert.ReferenceIdeal.HandValue (dotNodes_apply rowOverNodes_apply scalarOverNodes_apply)
open scoped BigOperators

variable [Cert.ReferenceIdeal.Facts]

-- The two products read at (P, q): the same two sums over the 128 features, the rectifier the maximum with zero.
theorem ref_hw_h0_apply (a0 : FVec Ideal Cert.ReferenceIdeal.S100000x128 .f32) (a3 W0 : FVec Ideal Cert.ReferenceIdeal.S128x128 .f32)
    (b : FVec Ideal Cert.ReferenceIdeal.S128 .f32) (P : Fin 100000) (q : Fin 128) :
    r_hw (F := Ideal) (r_h0 (F := Ideal) a0 a3 b) W0 (ix2 P q)
      = ∑ k : Fin 128, max (∑ j : Fin 128, a0 (ix2 P j) * a3 (ix2 j k) + b (ix1 k)) 0 * W0 (ix2 k q) := by
  unfold r_hw
  refine (dotNodes_apply _ W0 P q).trans (Finset.sum_congr rfl fun k _ => congrArg (· * W0 (ix2 k q)) ?_)
  unfold r_h0 r_relu r_rows
  exact congrArg₂ max (congrArg₂ (· + ·) (dotNodes_apply a0 a3 P k) (rowOverNodes_apply b P k))
    ((scalarOverNodes_apply _ (ix2 P k)).trans Ideal.ofBits_zero_f32)

variable (V : (c : Dev nD) → (b : Ref sig .tc) → Buf (Elt Ideal) ((c : Thread nD τ).loc b))

-- The region computes the same two sums in the same order, so the two agree entry by entry with no reordering.
theorem bridge0 (c : Dev nD) (a0 : FVec Ideal Cert.ReferenceIdeal.S100000x128 .f32) (a3 W0 : FVec Ideal Cert.ReferenceIdeal.S128x128 .f32)
    (b : FVec Ideal Cert.ReferenceIdeal.S128 .f32) (h0 : V c main_arg0 = a0) (h3 : V c main_arg3 = a3) (hW : V c main_v30 = W0)
    (hb : ∀ q : Fin 128, V c main_v31 (ix2 (0 : Fin 1) q) = b (ix1 q)) (i) :
    (dat0 V c).arrAt 4 cfg0.N i = r_hw (F := Ideal) (r_h0 (F := Ideal) a0 a3 b) W0 i := by
  subst h0 h3 hW
  obtain ⟨P, q, rfl⟩ : ∃ (P : Fin 100000) (q : Fin 128), i = ix2 P q := ⟨i 0, i 1, eq_ix2 (n0 := 100000) (n1 := 128) i⟩
  refine (final0_apply V c P q).trans ((ref_hw_h0_apply (V c main_arg0) (V c main_arg3) (V c main_v30) b P q).trans ?_).symm
  unfold proj0
  simp only [hb]

end Cert.KernelIdeal.HandValue

end
-- ==== Proof.Val.ChainStart.lean ====
import proofs.«166185_j35605278883840_2_alg».proof.Proof.KI.Run
import proofs.«166185_j35605278883840_2_alg».proof.Proof.Val.KHost
import proofs.«166185_j35605278883840_2_alg».proof.Proof.Val.KHostRef
import proofs.«166185_j35605278883840_2_alg».proof.Proof.Val.Args
import proofs.«166185_j35605278883840_2_alg».proof.Proof.Val.Bridge0
import proofs.«166185_j35605278883840_2_alg».proof.Proof.Ref.Stages

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable [Cert.ReferenceIdeal.Facts]
variable (m : (ℓ : Loc nD τ sig) → Buf (Elt Ideal) ℓ) (ρ : Dev nD → PrngReg) (c : Dev nD)

-- The first layer's matrix is cut out of the stack of three as the reference cuts it.
theorem chain_start (i) : BW2 m ρ c (Proc.devRef .tc main_v32) i = atArgs m c (r_hw_0 (F := Ideal)) i :=
  (congrFun (BW2_arr m ρ c 4) i).trans (bridge0 (BV1 m ρ) c _ _ _ _ (hostOps0_keeps (BW0 m ρ c) main_arg0 (by decide))
    (hostOps0_keeps (BW0 m ρ c) main_arg3 (by decide)) ((host0_main_v30 (BW0 m ρ c)).trans (layerMat_eq 0 _ _))
    (fun q => (congrFun (host0_main_v31 (BW0 m ρ c)) _).trans (rowOf_apply _ 0 q)) i)

end Cert.KernelIdeal.HandValue

end
-- ==== Proof.KI.Persist.lean ====
import proofs.«166185_j35605278883840_2_alg».proof.Proof.Gen.KernelIdeal.Launch
import proofs.«166185_j35605278883840_2_alg».proof.Proof.Gen.KernelIdeal.Skeleton
import proofs.«166185_j35605278883840_2_alg».proof.Proof.Gen.KernelIdeal.Points
import proofs.«166185_j35605278883840_2_alg».proof.Proof.Gen.KernelIdeal.Regions
import proofs.«166185_j35605278883840_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev P : List (Ref sig .tc) :=
  [main_arg0, main_arg1, main_arg2, main_arg3, main_arg4, main_arg5, main_arg6, main_arg7, main_arg8, main_arg9, main_arg10,
    main_arg11, main_arg12, main_v1, main_v3, main_v26, main_v28]

theorem BW1_main_arg5 (c : Dev nD) : BW1 m ρ c (Proc.devRef .tc main_arg5) = m ((c : Thread nD τ).loc main_arg5) :=
  (hostOps0_keeps (BW0 m ρ c) main_arg5 (by decide)).trans rfl

theorem BW1_main_arg6 (c : Dev nD) : BW1 m ρ c (Proc.devRef .tc main_arg6) = m ((c : Thread nD τ).loc main_arg6) :=
  (hostOps0_keeps (BW0 m ρ c) main_arg6 (by decide)).trans rfl

theorem BW1_main_arg7 (c : Dev nD) : BW1 m ρ c (Proc.devRef .tc main_arg7) = m ((c : Thread nD τ).loc main_arg7) :=
  (hostOps0_keeps (BW0 m ρ c) main_arg7 (by decide)).trans rfl

theorem BW1_main_arg8 (c : Dev nD) : BW1 m ρ c (Proc.devRef .tc main_arg8) = m ((c : Thread nD τ).loc main_arg8) :=
  (hostOps0_keeps (BW0 m ρ c) main_arg8 (by decide)).trans rfl

theorem BW4_in (c : Dev nD) (w : Fin cfg1.W) (hin : (cfg1.win w).isOut = false) :
    BW4 m ρ c (Proc.devRef .tc (Pipeline.arrRef spec1 w)) = BW3 m ρ c (Proc.devRef .tc (Pipeline.arrRef spec1 w)) :=
  (BW4_arr m ρ c w).trans (((dat1 (BV3 m ρ) c).arrAt_in w hin _).trans (A_eq1 (BV3 m ρ) c w))

theorem BW6_in (c : Dev nD) (w : Fin cfg2.W) (hin : (cfg2.win w).isOut = false) :
    BW6 m ρ c (Proc.devRef .tc (Pipeline.arrRef spec2 w)) = BW5 m ρ c (Proc.devRef .tc (Pipeline.arrRef spec2 w)) :=
  (BW6_arr m ρ c w).trans (((dat2 (BV5 m ρ) c).arrAt_in w hin _).trans (A_eq2 (BV5 m ρ) c w))

theorem BW8_in (c : Dev nD) (w : Fin cfg3.W) (hin : (cfg3.win w).isOut = false) :
    BW8 m ρ c (Proc.devRef .tc (Pipeline.arrRef spec3 w)) = BW7 m ρ c (Proc.devRef .tc (Pipeline.arrRef spec3 w)) :=
  (BW8_arr m ρ c w).trans (((dat3 (BV7 m ρ) c).arrAt_in w hin _).trans (A_eq3 (BV7 m ρ) c w))

theorem BW10_in (c : Dev nD) (w : Fin cfg4.W) (hin : (cfg4.win w).isOut = false) :
    BW10 m ρ c (Proc.devRef .tc (Pipeline.arrRef spec4 w)) = BW9 m ρ c (Proc.devRef .tc (Pipeline.arrRef spec4 w)) :=
  (BW10_arr m ρ c w).trans (((dat4 (BV9 m ρ) c).arrAt_in w hin _).trans (A_eq4 (BV9 m ρ) c w))

theorem BW12_in (c : Dev nD) (w : Fin cfg5.W) (hin : (cfg5.win w).isOut = false) :
    BW12 m ρ c (Proc.devRef .tc (Pipeline.arrRef spec5 w)) = BW11 m ρ c (Proc.devRef .tc (Pipeline.arrRef spec5 w)) :=
  (BW12_arr m ρ c w).trans (((dat5 (BV11 m ρ) c).arrAt_in w hin _).trans (A_eq5 (BV11 m ρ) c w))

theorem BW14_in (c : Dev nD) (w : Fin cfg6.W) (hin : (cfg6.win w).isOut = false) :
    BW14 m ρ c (Proc.devRef .tc (Pipeline.arrRef spec6 w)) = BW13 m ρ c (Proc.devRef .tc (Pipeline.arrRef spec6 w)) :=
  (BW14_arr m ρ c w).trans (((dat6 (BV13 m ρ) c).arrAt_in w hin _).trans (A_eq6 (BV13 m ρ) c w))

theorem BW4_keeps (c : Dev nD) (r : Ref sig .tc) (h : ∀ w, Pipeline.arrRef spec1 w = r → (cfg1.win w).isOut = false) :
    BW4 m ρ c (Proc.devRef .tc r) = BW3 m ρ c (Proc.devRef .tc r) := by
  by_cases hr : ∃ w, Pipeline.arrRef spec1 w = r
  · obtain ⟨w, rfl⟩ := hr
    exact BW4_in m ρ c w (h w rfl)
  · exact BW4_of_ne m ρ c r fun w e => hr ⟨w, e⟩

theorem BW6_keeps (c : Dev nD) (r : Ref sig .tc) (h : ∀ w, Pipeline.arrRef spec2 w = r → (cfg2.win w).isOut = false) :
    BW6 m ρ c (Proc.devRef .tc r) = BW5 m ρ c (Proc.devRef .tc r) := by
  by_cases hr : ∃ w, Pipeline.arrRef spec2 w = r
  · obtain ⟨w, rfl⟩ := hr
    exact BW6_in m ρ c w (h w rfl)
  · exact BW6_of_ne m ρ c r fun w e => hr ⟨w, e⟩

theorem BW8_keeps (c : Dev nD) (r : Ref sig .tc) (h : ∀ w, Pipeline.arrRef spec3 w = r → (cfg3.win w).isOut = false) :
    BW8 m ρ c (Proc.devRef .tc r) = BW7 m ρ c (Proc.devRef .tc r) := by
  by_cases hr : ∃ w, Pipeline.arrRef spec3 w = r
  · obtain ⟨w, rfl⟩ := hr
    exact BW8_in m ρ c w (h w rfl)
  · exact BW8_of_ne m ρ c r fun w e => hr ⟨w, e⟩

theorem BW10_keeps (c : Dev nD) (r : Ref sig .tc) (h : ∀ w, Pipeline.arrRef spec4 w = r → (cfg4.win w).isOut = false) :
    BW10 m ρ c (Proc.devRef .tc r) = BW9 m ρ c (Proc.devRef .tc r) := by
  by_cases hr : ∃ w, Pipeline.arrRef spec4 w = r
  · obtain ⟨w, rfl⟩ := hr
    exact BW10_in m ρ c w (h w rfl)
  · exact BW10_of_ne m ρ c r fun w e => hr ⟨w, e⟩

theorem BW12_keeps (c : Dev nD) (r : Ref sig .tc) (h : ∀ w, Pipeline.arrRef spec5 w = r → (cfg5.win w).isOut = false) :
    BW12 m ρ c (Proc.devRef .tc r) = BW11 m ρ c (Proc.devRef .tc r) := by
  by_cases hr : ∃ w, Pipeline.arrRef spec5 w = r
  · obtain ⟨w, rfl⟩ := hr
    exact BW12_in m ρ c w (h w rfl)
  · exact BW12_of_ne m ρ c r fun w e => hr ⟨w, e⟩

theorem BW14_keeps (c : Dev nD) (r : Ref sig .tc) (h : ∀ w, Pipeline.arrRef spec6 w = r → (cfg6.win w).isOut = false) :
    BW14 m ρ c (Proc.devRef .tc r) = BW13 m ρ c (Proc.devRef .tc r) := by
  by_cases hr : ∃ w, Pipeline.arrRef spec6 w = r
  · obtain ⟨w, rfl⟩ := hr
    exact BW14_in m ρ c w (h w rfl)
  · exact BW14_of_ne m ρ c r fun w e => hr ⟨w, e⟩

theorem step2 (c : Dev nD) (r : Ref sig .tc) (h : r ∈ P) : BW2 m ρ c (Proc.devRef .tc r) = BW1 m ρ c (Proc.devRef .tc r) :=
  BW2_keeps m ρ c r ((by decide : ∀ r ∈ P, ∀ w, Pipeline.arrRef spec0 w = r → (cfg0.win w).isOut = false) r h)

theorem step3 (c : Dev nD) (r : Ref sig .tc) (h : r ∈ P) : BW3 m ρ c (Proc.devRef .tc r) = BW2 m ρ c (Proc.devRef .tc r) :=
  hostOps1_keeps (BW2 m ρ c) r ((by decide : ∀ r ∈ P, r ∉ hostOps1_W) r h)

theorem step4 (c : Dev nD) (r : Ref sig .tc) (h : r ∈ P) : BW4 m ρ c (Proc.devRef .tc r) = BW3 m ρ c (Proc.devRef .tc r) :=
  BW4_keeps m ρ c r ((by decide : ∀ r ∈ P, ∀ w, Pipeline.arrRef spec1 w = r → (cfg1.win w).isOut = false) r h)

theorem step5 (c : Dev nD) (r : Ref sig .tc) (h : r ∈ P) : BW5 m ρ c (Proc.devRef .tc r) = BW4 m ρ c (Proc.devRef .tc r) :=
  hostOps2_keeps (BW4 m ρ c) r ((by decide : ∀ r ∈ P, r ∉ hostOps2_W) r h)

theorem step6 (c : Dev nD) (r : Ref sig .tc) (h : r ∈ P) : BW6 m ρ c (Proc.devRef .tc r) = BW5 m ρ c (Proc.devRef .tc r) :=
  BW6_keeps m ρ c r ((by decide : ∀ r ∈ P, ∀ w, Pipeline.arrRef spec2 w = r → (cfg2.win w).isOut = false) r h)

theorem step7 (c : Dev nD) (r : Ref sig .tc) (h : r ∈ P) : BW7 m ρ c (Proc.devRef .tc r) = BW6 m ρ c (Proc.devRef .tc r) :=
  hostOps3_keeps (BW6 m ρ c) r ((by decide : ∀ r ∈ P, r ∉ hostOps3_W) r h)

theorem step8 (c : Dev nD) (r : Ref sig .tc) (h : r ∈ P) : BW8 m ρ c (Proc.devRef .tc r) = BW7 m ρ c (Proc.devRef .tc r) :=
  BW8_keeps m ρ c r ((by decide : ∀ r ∈ P, ∀ w, Pipeline.arrRef spec3 w = r → (cfg3.win w).isOut = false) r h)

theorem step9 (c : Dev nD) (r : Ref sig .tc) (h : r ∈ P) : BW9 m ρ c (Proc.devRef .tc r) = BW8 m ρ c (Proc.devRef .tc r) :=
  hostOps4_keeps (BW8 m ρ c) r ((by decide : ∀ r ∈ P, r ∉ hostOps4_W) r h)

theorem step10 (c : Dev nD) (r : Ref sig .tc) (h : r ∈ P) : BW10 m ρ c (Proc.devRef .tc r) = BW9 m ρ c (Proc.devRef .tc r) :=
  BW10_keeps m ρ c r ((by decide : ∀ r ∈ P, ∀ w, Pipeline.arrRef spec4 w = r → (cfg4.win w).isOut = false) r h)

theorem step11 (c : Dev nD) (r : Ref sig .tc) (h : r ∈ P) : BW11 m ρ c (Proc.devRef .tc r) = BW10 m ρ c (Proc.devRef .tc r) :=
  hostOps5_keeps (BW10 m ρ c) r ((by decide : ∀ r ∈ P, r ∉ hostOps5_W) r h)

theorem step12 (c : Dev nD) (r : Ref sig .tc) (h : r ∈ P) : BW12 m ρ c (Proc.devRef .tc r) = BW11 m ρ c (Proc.devRef .tc r) :=
  BW12_keeps m ρ c r ((by decide : ∀ r ∈ P, ∀ w, Pipeline.arrRef spec5 w = r → (cfg5.win w).isOut = false) r h)

theorem step13 (c : Dev nD) (r : Ref sig .tc) (h : r ∈ P) : BW13 m ρ c (Proc.devRef .tc r) = BW12 m ρ c (Proc.devRef .tc r) :=
  hostOps6_keeps (BW12 m ρ c) r ((by decide : ∀ r ∈ P, r ∉ hostOps6_W) r h)

theorem persist_2 (c : Dev nD) (r : Ref sig .tc) (h : r ∈ P) : BW2 m ρ c (Proc.devRef .tc r) = BW1 m ρ c (Proc.devRef .tc r) :=
  step2 m ρ c r h
theorem persist_3 (c : Dev nD) (r : Ref sig .tc) (h : r ∈ P) : BW3 m ρ c (Proc.devRef .tc r) = BW1 m ρ c (Proc.devRef .tc r) :=
  (step3 m ρ c r h).trans (persist_2 m ρ c r h)
theorem persist_4 (c : Dev nD) (r : Ref sig .tc) (h : r ∈ P) : BW4 m ρ c (Proc.devRef .tc r) = BW1 m ρ c (Proc.devRef .tc r) :=
  (step4 m ρ c r h).trans (persist_3 m ρ c r h)
theorem persist_5 (c : Dev nD) (r : Ref sig .tc) (h : r ∈ P) : BW5 m ρ c (Proc.devRef .tc r) = BW1 m ρ c (Proc.devRef .tc r) :=
  (step5 m ρ c r h).trans (persist_4 m ρ c r h)
theorem persist_6 (c : Dev nD) (r : Ref sig .tc) (h : r ∈ P) : BW6 m ρ c (Proc.devRef .tc r) = BW1 m ρ c (Proc.devRef .tc r) :=
  (step6 m ρ c r h).trans (persist_5 m ρ c r h)
theorem persist_7 (c : Dev nD) (r : Ref sig .tc) (h : r ∈ P) : BW7 m ρ c (Proc.devRef .tc r) = BW1 m ρ c (Proc.devRef .tc r) :=
  (step7 m ρ c r h).trans (persist_6 m ρ c r h)
theorem persist_8 (c : Dev nD) (r : Ref sig .tc) (h : r ∈ P) : BW8 m ρ c (Proc.devRef .tc r) = BW1 m ρ c (Proc.devRef .tc r) :=
  (step8 m ρ c r h).trans (persist_7 m ρ c r h)
theorem persist_9 (c : Dev nD) (r : Ref sig .tc) (h : r ∈ P) : BW9 m ρ c (Proc.devRef .tc r) = BW1 m ρ c (Proc.devRef .tc r) :=
  (step9 m ρ c r h).trans (persist_8 m ρ c r h)
theorem persist_10 (c : Dev nD) (r : Ref sig .tc) (h : r ∈ P) : BW10 m ρ c (Proc.devRef .tc r) = BW1 m ρ c (Proc.devRef .tc r) :=
  (step10 m ρ c r h).trans (persist_9 m ρ c r h)
theorem persist_11 (c : Dev nD) (r : Ref sig .tc) (h : r ∈ P) : BW11 m ρ c (Proc.devRef .tc r) = BW1 m ρ c (Proc.devRef .tc r) :=
  (step11 m ρ c r h).trans (persist_10 m ρ c r h)
theorem persist_12 (c : Dev nD) (r : Ref sig .tc) (h : r ∈ P) : BW12 m ρ c (Proc.devRef .tc r) = BW1 m ρ c (Proc.devRef .tc r) :=
  (step12 m ρ c r h).trans (persist_11 m ρ c r h)
theorem persist_13 (c : Dev nD) (r : Ref sig .tc) (h : r ∈ P) : BW13 m ρ c (Proc.devRef .tc r) = BW1 m ρ c (Proc.devRef .tc r) :=
  (step13 m ρ c r h).trans (persist_12 m ρ c r h)
theorem persist_14 (c : Dev nD) (r : Ref sig .tc) (h : r ∈ P) : BW14 m ρ c (Proc.devRef .tc r) = BW1 m ρ c (Proc.devRef .tc r) :=
  (BW14_keeps m ρ c r ((by decide : ∀ r ∈ P, ∀ w, Pipeline.arrRef spec6 w = r → (cfg6.win w).isOut = false) r h)).trans (persist_13 m ρ c r h)
theorem BW3_main_v32 (c : Dev nD) : BW3 m ρ c (Proc.devRef .tc main_v32) = BW2 m ρ c (Proc.devRef .tc main_v32) :=
  hostOps1_keeps (BW2 m ρ c) main_v32 (by decide)
theorem BW7_main_v66 (c : Dev nD) : BW7 m ρ c (Proc.devRef .tc main_v66) = BW6 m ρ c (Proc.devRef .tc main_v66) :=
  hostOps3_keeps (BW6 m ρ c) main_v66 (by decide)
theorem BW11_main_v100 (c : Dev nD) : BW11 m ρ c (Proc.devRef .tc main_v100) = BW10 m ρ c (Proc.devRef .tc main_v100) :=
  hostOps5_keeps (BW10 m ρ c) main_v100 (by decide)

end Cert.KernelIdeal.Hand

end
-- ==== Proof.Math.Real.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Pow.Real
import Mathlib.Tactic.NormNum
import Mathlib.Tactic.Positivity
import Mathlib.Tactic.Linarith

noncomputable section

namespace Cert.Math

open Idealize.ShloMosaic
open scoped BigOperators

/-- An extended real that is the coercion of a real number: neither infinity. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion is monotone, so it commutes with the maximum. -/
theorem coe_max (a b : ℝ) : ((max a b : ℝ) : EReal) = max (a : EReal) (b : EReal) :=
  EReal.coe_strictMono.monotone.map_max

/-- The coercion is additive, so it commutes with finite sums. -/
theorem coe_sum {ι : Type*} (s : Finset ι) (r : ι → ℝ) :
    ((∑ i ∈ s, r i : ℝ) : EReal) = ∑ i ∈ s, (r i : EReal) :=
  map_sum (⟨⟨Real.toEReal, EReal.coe_zero⟩, EReal.coe_add⟩ : ℝ →+ EReal) r s

theorem IsReal.sum {ι : Type*} {s : Finset ι} {f : ι → EReal} (h : ∀ i ∈ s, IsReal (f i)) :
    IsReal (∑ i ∈ s, f i) :=
  Finset.sum_induction f IsReal (fun _ _ => IsReal.add) isReal_zero h

/-- The quotient of a real by a nonzero real, as extended reals, is the real quotient. -/
theorem div_coe_coe (a : ℝ) {c : ℝ} (hc : c ≠ 0) :
    Ideal.div (a : EReal) (c : EReal) = ((a / c : ℝ) : EReal) := by
  rw [Ideal.div_coe hc, ← EReal.coe_mul, mul_one_div]

def IsNonneg (x : EReal) : Prop := ∃ r : ℝ, 0 ≤ r ∧ x = (r : EReal)

def IsPos (x : EReal) : Prop := ∃ r : ℝ, 0 < r ∧ x = (r : EReal)

def IsGeOne (x : EReal) : Prop := ∃ r : ℝ, 1 ≤ r ∧ x = (r : EReal)

theorem IsNonneg.isReal {x : EReal} (h : IsNonneg x) : IsReal x := let ⟨r, _, e⟩ := h; ⟨r, e⟩
theorem IsPos.isReal {x : EReal} (h : IsPos x) : IsReal x := let ⟨r, _, e⟩ := h; ⟨r, e⟩
theorem IsPos.isNonneg {x : EReal} (h : IsPos x) : IsNonneg x := let ⟨r, p, e⟩ := h; ⟨r, p.le, e⟩
theorem IsGeOne.isPos {x : EReal} (h : IsGeOne x) : IsPos x :=
  let ⟨r, p, e⟩ := h; ⟨r, lt_of_lt_of_le one_pos p, e⟩

theorem isNonneg_zero : IsNonneg 0 := ⟨0, le_rfl, EReal.coe_zero.symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsReal.mul_self_isNonneg {x : EReal} (hx : IsReal x) : IsNonneg (x * x) := by
  obtain ⟨a, rfl⟩ := hx; exact ⟨a * a, mul_self_nonneg a, (EReal.coe_mul a a).symm⟩

theorem IsNonneg.sum {ι : Type*} {s : Finset ι} {f : ι → EReal} (h : ∀ i ∈ s, IsNonneg (f i)) :
    IsNonneg (∑ i ∈ s, f i) :=
  Finset.sum_induction f IsNonneg (fun _ _ => IsNonneg.add) isNonneg_zero h

/-- A nonnegative real plus a positive real is positive: a variance plus the stabiliser, a count plus one. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

theorem IsReal.div_pos {x y : EReal} (hx : IsReal x) (hy : IsPos y) : IsReal (Ideal.div x y) := by
  obtain ⟨a, rfl⟩ := hx; obtain ⟨c, hc, rfl⟩ := hy; exact ⟨a / c, div_coe_coe a hc.ne'⟩

theorem IsNonneg.div_pos {x y : EReal} (hx : IsNonneg x) (hy : IsPos y) : IsNonneg (Ideal.div x y) := by
  obtain ⟨a, ha, rfl⟩ := hx; obtain ⟨c, hc, rfl⟩ := hy
  exact ⟨a / c, div_nonneg ha hc.le, div_coe_coe a hc.ne'⟩

/-- The reciprocal square root of a positive real is the positive real one over its square root. -/
theorem IsPos.rsqrt {x : EReal} (hx : IsPos x) : IsPos (Ideal.rsqrt x) := by
  obtain ⟨r, hr, rfl⟩ := hx
  exact ⟨(Real.sqrt r)⁻¹, inv_pos.mpr (Real.sqrt_pos.mpr hr),
    by rw [Ideal.rsqrt_coe, if_neg (not_lt.mpr hr.le), if_neg hr.ne']⟩

theorem ofBits_100000 : Ideal.ofBits .f32 0x47C35000#32 = ((100000 : ℝ) : EReal) := by
  simp [Ideal.ofBits, Ideal.ieee, -EReal.coe_mul]; norm_num

theorem isPos_ofBits_100000 : IsPos (Ideal.ofBits .f32 0x47C35000#32) :=
  ⟨100000, by norm_num, ofBits_100000⟩

/-- The stabiliser's pattern denotes a positive dyadic rational, the nearest to a hundred-thousandth. -/
theorem isPos_ofBits_eps : IsPos (Ideal.ofBits .f32 0x3727C5AC#32) :=
  ⟨2748779 / 274877906944, by norm_num, by simp [Ideal.ofBits, Ideal.ieee, -EReal.coe_mul]; norm_num⟩

theorem ofBits_100000_sub_sitofp_zero :
    Ideal.ofBits .f32 0x47C35000#32 - FloatOps.sitofp (F := Ideal) .f32 (0#32 : BitVec 32) = ((100000 : ℝ) : EReal) := by
  rw [show FloatOps.sitofp (F := Ideal) .f32 (0#32 : BitVec 32) = (0 : EReal) by
    show ((((0#32 : BitVec 32).toInt : ℤ) : ℝ) : EReal) = 0; simp, ofBits_100000]
  exact sub_zero _

end Cert.Math

end
-- ==== Proof.Math.Var.lean ====
import proofs.«166185_j35605278883840_2_alg».proof.Proof.Math.Real
import Mathlib.Algebra.BigOperators.Fin
import Mathlib.Algebra.BigOperators.Group.Finset.Sigma
import Mathlib.Algebra.BigOperators.Ring.Finset
import Mathlib.Logic.Equiv.Fin.Basic
import Mathlib.Tactic.FieldSimp
import Mathlib.Tactic.Ring

noncomputable section

namespace Cert.Math

open Idealize.ShloMosaic
open scoped BigOperators

/-- The mean of the squares less the square of the mean is the mean of the squared deviations: expand each square. -/
theorem var_real (n : ℕ) (hn : 0 < n) (r : Fin n → ℝ) :
    (∑ i, r i * r i) / n - ((∑ i, r i) / n) * ((∑ i, r i) / n)
      = (∑ i, (r i - (∑ j, r j) / n) * (r i - (∑ j, r j) / n)) / n := by
  have hn' : (n : ℝ) ≠ 0 := Nat.cast_ne_zero.mpr hn.ne'
  obtain ⟨S, hS⟩ : ∃ S : ℝ, S = ∑ j, r j := ⟨_, rfl⟩
  rw [← hS]
  have key : ∑ i, (r i - S / n) * (r i - S / n)
      = (∑ i, r i * r i) - 2 * (S / n) * S + n * (S / n * (S / n)) := by
    have e : ∀ i, (r i - S / n) * (r i - S / n) = r i * r i - 2 * (S / n) * r i + S / n * (S / n) :=
      fun i => by ring
    simp only [e, Finset.sum_add_distrib, Finset.sum_sub_distrib, ← Finset.mul_sum, Finset.sum_const,
      Finset.card_univ, Fintype.card_fin, nsmul_eq_mul, ← hS]
    ring
  rw [key]
  field_simp
  ring

/-- The two spellings of a variance agree on reals: the identity above, and a mean of squares is not negative. -/
theorem var_two_spellings (n : ℕ) (hn : 0 < n) (h : Fin n → EReal) (hr : ∀ i, IsReal (h i)) :
    max (Ideal.div (∑ i, h i * h i) ((n : ℝ) : EReal)
        - Ideal.div (∑ i, h i) ((n : ℝ) : EReal) * Ideal.div (∑ i, h i) ((n : ℝ) : EReal)) 0
      = Ideal.div (∑ i, (h i - Ideal.div (∑ j, h j) ((n : ℝ) : EReal))
          * (h i - Ideal.div (∑ j, h j) ((n : ℝ) : EReal))) ((n : ℝ) : EReal) := by
  choose r hr using hr
  obtain rfl : h = fun i => (r i : EReal) := funext hr
  simp only [← EReal.coe_mul, ← coe_sum, div_coe_coe _ (Nat.cast_ne_zero.mpr hn.ne'), ← EReal.coe_sub]
  rw [var_real n hn r, ← EReal.coe_zero, ← coe_max, max_eq_left
    (div_nonneg (Finset.sum_nonneg fun i _ => mul_self_nonneg _) (Nat.cast_nonneg n))]

theorem ofBits_100000_eq_natCast : Ideal.ofBits .f32 0x47C35000#32 = (((100000 : ℕ) : ℝ) : EReal) := by
  rw [ofBits_100000]; norm_num

theorem blocks_lt {a b : ℕ} (s : Fin a) (q : Fin b) : b * s.val + q.val < a * b :=
  calc b * s.val + q.val < b * s.val + b := Nat.add_lt_add_left q.isLt _
    _ = b * (s.val + 1) := (Nat.mul_succ b s.val).symm
    _ ≤ b * a := Nat.mul_le_mul_left b s.isLt
    _ = a * b := Nat.mul_comm b a

/-- A sum over a * b indices, cut into a blocks of b consecutive indices: (block, place) ↦ place + b * block. -/
theorem sum_blocks_of_eq {M : Type*} [AddCommMonoid M] {N : ℕ} (a b : ℕ) (hN : a * b = N) (f : Fin N → M) :
    ∑ i, f i = ∑ s : Fin a, ∑ q : Fin b, f ⟨b * s.val + q.val, hN ▸ blocks_lt s q⟩ := by
  subst hN
  rw [← Equiv.sum_comp finProdFinEquiv f, Fintype.sum_prod_type]
  exact Finset.sum_congr rfl fun s _ => Finset.sum_congr rfl fun q _ =>
    congrArg f (Fin.ext (by simp [finProdFinEquiv, Nat.add_comm]))

end Cert.Math

end
-- ==== Proof.Val.Stats.lean ====
import proofs.«166185_j35605278883840_2_alg».proof.KernelIdeal
import proofs.«166185_j35605278883840_2_alg».proof.Proof.Ref.Stages
import proofs.«166185_j35605278883840_2_alg».proof.Proof.Math.Real
import proofs.«166185_j35605278883840_2_alg».proof.Proof.Math.Var
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.HandValue

open Idealize.ShloMosaic Idealize.ShloMosaic.ValueIdx
open scoped BigOperators

variable [Cert.ReferenceIdeal.Facts]

namespace Stats

open Cert.ReferenceIdeal Cert.ReferenceIdeal.Facts₀ Cert.ReferenceIdeal.Hand

theorem colsum_at (x : FVec Ideal Cert.ReferenceIdeal.S100000x128 .f32) (q : Fin 128) :
    r_colsum (F := Ideal) x (ix1 q) = ∑ p : Fin 100000, x (ix2 p q) := by
  unfold r_colsum
  rw [hostReduceAdd_apply, Ideal.hostReduceAdd_single reducesTo_S100000x128_S128_d0 (by decide),
    constant_apply, Ideal.ofBits_zero_f32, zero_add]
  refine Finset.sum_congr rfl fun p _ => congrArg x ?_
  funext d
  match d with
  | ⟨0, _⟩ => rfl
  | ⟨1, _⟩ => rfl

theorem rowsLess_at : r_rowsLess (F := Ideal) ix0 = (((100000 : ℕ) : ℝ) : EReal) := by
  show Ideal.ofBits .f32 0x47C35000#32 - FloatOps.sitofp (F := Ideal) .f32 (0#32 : BitVec 32) = _
  rw [Cert.Math.ofBits_100000_sub_sitofp_zero]; norm_num

theorem rowsLess_pos : FloatOps.cmpf (F := Ideal) (φ := .f32) .ogt (((100000 : ℕ) : ℝ) : EReal) (0 : EReal) = 1#1 := by
  show BitVec.ofBool (decide ((0 : EReal) < (((100000 : ℕ) : ℝ) : EReal))) = 1#1
  rw [decide_eq_true (EReal.coe_pos.2 (by norm_num))]; rfl

theorem centered_at (hp : FVec Ideal Cert.ReferenceIdeal.S100000x128 .f32) (p : Fin 100000) (q : Fin 128) :
    r_centered (F := Ideal) hp (ix2 p q)
      = hp (ix2 p q) - Ideal.div (∑ p' : Fin 100000, hp (ix2 p' q)) (((100000 : ℕ) : ℝ) : EReal) := by
  unfold r_centered
  rw [subf_apply,
    broadcastInDim_apply ![0, 1] _ _ (ix2 p q) (ix2 (0 : Fin 1) q) (fun a => by
      match a with
      | ⟨0, _⟩ => rfl
      | ⟨1, _⟩ => rfl),
    hostDivf_apply,
    broadcastInDim_apply ![1] _ _ (ix2 (0 : Fin 1) q) (ix1 q) (fun a => by
      match a with
      | ⟨0, _⟩ => rfl),
    broadcastInDim_scalar_apply, constant_apply, colsum_at, Cert.Math.ofBits_100000_eq_natCast]

theorem var_at (hp : FVec Ideal Cert.ReferenceIdeal.S100000x128 .f32) (q : Fin 128) :
    r_var (F := Ideal) hp (ix1 q)
      = Ideal.div (∑ p : Fin 100000, (hp (ix2 p q) - Ideal.div (∑ p' : Fin 100000, hp (ix2 p' q)) (((100000 : ℕ) : ℝ) : EReal))
          * (hp (ix2 p q) - Ideal.div (∑ p' : Fin 100000, hp (ix2 p' q)) (((100000 : ℕ) : ℝ) : EReal))) (((100000 : ℕ) : ℝ) : EReal) := by
  unfold r_var
  rw [select_apply, broadcastInDim_scalar_apply, broadcastInDim_scalar_apply, hostDivf_apply,
    broadcastInDim_scalar_apply, cmpf_apply, rowsLess_at, constant_apply, Ideal.ofBits_zero_f32, rowsLess_pos,
    Scalar.select, if_pos (show (1#1 : BitVec 1) = 1 from rfl), colsum_at]
  simp only [mulf_apply, centered_at]

end Stats

variable [Cert.KernelIdeal.Facts₀]

def k_mean (S : (⟨Cert.KernelIdeal.S1x128, .f32⟩ : BufTy).Contents (Elt Ideal)) :
    (⟨Cert.KernelIdeal.S1x128, .f32⟩ : BufTy).Contents (Elt Ideal) :=
  Host.divf S (broadcastInDim Cert.KernelIdeal.S1x128 ![] Cert.KernelIdeal.Facts₀.bcast_S_S1x128
    (constant (F := Ideal) Cert.KernelIdeal.S_ .f32 0x47C35000#32))

def k_var (S SS : (⟨Cert.KernelIdeal.S1x128, .f32⟩ : BufTy).Contents (Elt Ideal)) :
    (⟨Cert.KernelIdeal.S1x128, .f32⟩ : BufTy).Contents (Elt Ideal) :=
  maximumf
    (subf (Host.divf SS (broadcastInDim Cert.KernelIdeal.S1x128 ![] Cert.KernelIdeal.Facts₀.bcast_S_S1x128
        (constant (F := Ideal) Cert.KernelIdeal.S_ .f32 0x47C35000#32)))
      (mulf (k_mean S) (k_mean S)))
    (broadcastInDim Cert.KernelIdeal.S1x128 ![] Cert.KernelIdeal.Facts₀.bcast_S_S1x128
      (constant (F := Ideal) Cert.KernelIdeal.S_ .f32 0x00000000#32))

section Bridge
open Cert.ReferenceIdeal.Hand
variable (S SS : (⟨Cert.KernelIdeal.S1x128, .f32⟩ : BufTy).Contents (Elt Ideal))
  (hp : (⟨Cert.ReferenceIdeal.S100000x128, .f32⟩ : BufTy).Contents (Elt Ideal))
  (hS : ∀ q : Fin 128, S (ix2 (0 : Fin 1) q) = r_colsum (F := Ideal) hp (ix1 q))
include hS

theorem mean_bridge : ∀ q : Fin 128, k_mean S (ix2 (0 : Fin 1) q) = r_mean (F := Ideal) hp (ix1 q) := by
  intro q
  unfold k_mean r_mean
  rw [hostDivf_apply, hostDivf_apply, broadcastInDim_scalar_apply, broadcastInDim_scalar_apply, hS q] <;> rfl

/-- The mean of squares less the squared mean, cut at zero, is the mean of squared deviations on columns of reals. -/
theorem var_bridge
    (hSS : ∀ q : Fin 128, SS (ix2 (0 : Fin 1) q)
      = r_colsum (F := Ideal) (mulf (F := Ideal) (s := Cert.ReferenceIdeal.S100000x128) (φ := .f32) hp hp) (ix1 q))
    (hreal : ∀ i, Cert.Math.IsReal (hp i)) :
    ∀ q : Fin 128, k_var S SS (ix2 (0 : Fin 1) q) = r_var (F := Ideal) hp (ix1 q) := by
  intro q
  unfold k_var k_mean
  rw [maximumf_apply, subf_apply, mulf_apply, hostDivf_apply, hostDivf_apply, broadcastInDim_scalar_apply,
    broadcastInDim_scalar_apply, constant_apply, constant_apply, Ideal.ofBits_zero_f32, hS q, hSS q,
    Stats.colsum_at, Stats.colsum_at, Stats.var_at, Cert.Math.ofBits_100000_eq_natCast]
  simp only [mulf_apply]
  exact Cert.Math.var_two_spellings 100000 (by norm_num) (fun p => hp (ix2 p q)) (fun p => hreal _)

end Bridge

end Cert.KernelIdeal.HandValue

end
-- ==== Proof.Math.HostReal.lean ====
import proofs.«166185_j35605278883840_2_alg».proof.Proof.Math.Real
import Idealize.ShloMosaic.PureOps.Ideal
import Idealize.ShloMosaic.PureOps.Ideal.Laws
import Idealize.ShloMosaic.Lib.ValueIdx
import Idealize.ShloMosaic.Lib.IdealHost

noncomputable section

namespace Cert.Math

open Idealize Idealize.ShloMosaic
open scoped BigOperators

theorem IsReal.max_isNonneg {x y : EReal} (hx : IsReal x) (hy : IsNonneg y) : IsNonneg (Max.max x y) := by
  obtain ⟨a, rfl⟩ := hx; obtain ⟨b, hb, rfl⟩ := hy
  exact ⟨Max.max a b, le_trans hb (le_max_right a b), (coe_max a b).symm⟩

section Arrays
variable {s t : Shape} {φ : FTy} {x y : FVec Ideal s φ}

/-- Every entry of the array is a real; likewise a nonnegative real, a positive real, a real at least one. -/
def AllReal (x : FVec Ideal s φ) : Prop := ∀ i, IsReal (x i)

def AllNonneg (x : FVec Ideal s φ) : Prop := ∀ i, IsNonneg (x i)

def AllPos (x : FVec Ideal s φ) : Prop := ∀ i, IsPos (x i)

def AllGeOne (x : FVec Ideal s φ) : Prop := ∀ i, IsGeOne (x i)

theorem AllNonneg.allReal (h : AllNonneg x) : AllReal x := fun i => (h i).isReal
theorem AllPos.allReal (h : AllPos x) : AllReal x := fun i => (h i).isReal
theorem AllGeOne.allNonneg (h : AllGeOne x) : AllNonneg x := fun i => (h i).isPos.isNonneg

theorem AllReal.addf (hx : AllReal x) (hy : AllReal y) : AllReal (ShloMosaic.addf x y) :=
  fun i => (hx i).add (hy i)

theorem AllReal.subf (hx : AllReal x) (hy : AllReal y) : AllReal (ShloMosaic.subf x y) :=
  fun i => (hx i).sub (hy i)

theorem AllReal.mulf (hx : AllReal x) (hy : AllReal y) : AllReal (ShloMosaic.mulf x y) :=
  fun i => (hx i).mul (hy i)

theorem AllReal.mulf_self (hx : AllReal x) : AllNonneg (ShloMosaic.mulf x x) :=
  fun i => (hx i).mul_self_isNonneg

theorem AllReal.maximumf_nonneg (hx : AllReal x) (hy : AllNonneg y) :
    AllNonneg (ShloMosaic.maximumf x y) :=
  fun i => (hx i).max_isNonneg (hy i)

theorem allNonneg_constant_zero (S : Shape) : AllNonneg (constant (F := Ideal) S .f32 0x00000000#32) :=
  fun _ => ⟨0, le_rfl, Ideal.ofBits_zero_f32.trans EReal.coe_zero.symm⟩

theorem allReal_constant_zero (S : Shape) : AllReal (constant (F := Ideal) S .f32 0x00000000#32) :=
  (allNonneg_constant_zero S).allReal

theorem allGeOne_constant_one (S : Shape) : AllGeOne (constant (F := Ideal) S .f32 0x3F800000#32) :=
  fun _ => ⟨1, le_rfl, Ideal.ofBits_one_f32.trans EReal.coe_one.symm⟩

theorem allPos_constant_100000 (S : Shape) : AllPos (constant (F := Ideal) S .f32 0x47C35000#32) :=
  fun _ => isPos_ofBits_100000

theorem allPos_constant_eps (S : Shape) : AllPos (constant (F := Ideal) S .f32 0x3727C5AC#32) :=
  fun _ => isPos_ofBits_eps

/-- Every entry of a broadcast, a shape cast, a slice or a gather is an entry of the operand. -/
theorem AllReal.broadcastInDim (hx : AllReal x)
    {dims : Fin s.rank → Fin t.rank} {h : s.BroadcastsInDim t dims} :
    AllReal (φ := φ) (ShloMosaic.broadcastInDim t dims h x) := fun _ => hx _

theorem AllNonneg.broadcastInDim (hx : AllNonneg x)
    {dims : Fin s.rank → Fin t.rank} {h : s.BroadcastsInDim t dims} :
    AllNonneg (φ := φ) (ShloMosaic.broadcastInDim t dims h x) := fun _ => hx _

theorem AllPos.broadcastInDim (hx : AllPos x)
    {dims : Fin s.rank → Fin t.rank} {h : s.BroadcastsInDim t dims} :
    AllPos (φ := φ) (ShloMosaic.broadcastInDim t dims h x) := fun _ => hx _

theorem AllGeOne.broadcastInDim (hx : AllGeOne x)
    {dims : Fin s.rank → Fin t.rank} {h : s.BroadcastsInDim t dims} :
    AllGeOne (φ := φ) (ShloMosaic.broadcastInDim t dims h x) := fun _ => hx _

theorem AllReal.shapeCast (hx : AllReal x) {h : s.ShapeCasts t} :
    AllReal (φ := φ) (ShloMosaic.shapeCast t x h) := fun _ => hx _

theorem AllReal.extractStridedSlice (hx : AllReal x)
    {off : Fin s.rank → Nat} {h : s.Slices off t} :
    AllReal (φ := φ) (ShloMosaic.extractStridedSlice t off x h) := fun _ => hx _

theorem AllReal.hostGather {s si t : Shape} {φ : FTy} {w : Nat} {x : FVec Ideal s φ} (hx : AllReal x)
    {d : GatherDims s si t} {idx : IVec si w} : AllReal (φ := φ) (Host.gather d x idx) := fun _ => hx _

/-- A contraction is, at each index, a finite sum of products of an entry of each operand. -/
theorem AllReal.hostDotGeneral {sl sr so : Shape} {φ₁ φ₂ : FTy} {d : DotDims sl sr so}
    {prec : Option ContractPrecision} {l : FVec Ideal sl φ₁} {r : FVec Ideal sr φ₂} (hl : AllReal l) (hr : AllReal r) :
    AllReal (Host.dotGeneral d prec l r) := fun j => by
  rw [show Host.dotGeneral d prec l r j = _ from Ideal.dotGeneral_apply d prec .single l r j]
  exact IsReal.sum fun k _ => (hl _).mul (hr _)

/-- A sum along axes is the initial value plus a finite sum of operand entries. -/
theorem AllReal.hostReduceAdd {s t u : Shape} {φ : FTy} {axes : List (Fin s.rank)} {x : FVec Ideal s φ}
    {init : FVec Ideal u φ} (hx : AllReal x) (hi : AllReal init) {h : s.ReducesTo axes t} {hu : 0 < u.numel} :
    AllReal (Host.reduceAdd x init h hu) :=
  fun _ => (hi _).add (IsReal.sum fun i _ => hx i)

theorem AllNonneg.hostReduceAdd {s t u : Shape} {φ : FTy} {axes : List (Fin s.rank)} {x : FVec Ideal s φ}
    {init : FVec Ideal u φ} (hx : AllNonneg x) (hi : AllNonneg init) {h : s.ReducesTo axes t} {hu : 0 < u.numel} :
    AllNonneg (Host.reduceAdd x init h hu) :=
  fun _ => (hi _).add (IsNonneg.sum fun i _ => hx i)

/-- An accumulating scatter is, at each index, the operand's entry plus a finite sum of updates. -/
theorem AllReal.hostScatterAdd {s si u : Shape} {φ : FTy} {w : Nat} {d : ScatterDims s si u} {x : FVec Ideal s φ}
    {idx : IVec si w} {upd : FVec Ideal u φ} (hx : AllReal x) (hupd : AllReal upd) :
    AllReal (Host.scatterAdd d x idx upd) :=
  fun i => (hx i).add (IsReal.sum fun j _ => hupd j)

theorem AllNonneg.hostScatterAdd {s si u : Shape} {φ : FTy} {w : Nat} {d : ScatterDims s si u}
    {x : FVec Ideal s φ} {idx : IVec si w} {upd : FVec Ideal u φ} (hx : AllNonneg x) (hupd : AllNonneg upd) :
    AllNonneg (Host.scatterAdd d x idx upd) :=
  fun i => (hx i).add (IsNonneg.sum fun j _ => hupd j)

theorem AllReal.hostDivf_pos {a b : FVec Ideal s φ} (ha : AllReal a) (hb : AllPos b) : AllReal (Host.divf a b) :=
  fun i => (ha i).div_pos (hb i)

theorem AllNonneg.hostDivf_pos {a b : FVec Ideal s φ} (ha : AllNonneg a) (hb : AllPos b) :
    AllNonneg (Host.divf a b) :=
  fun i => (ha i).div_pos (hb i)

/-- Where the condition holds everywhere the selection is its first array. -/
theorem AllNonneg.select_of_all_one {c : IVec s 1} {a b : FVec Ideal s φ} (hc : ∀ i, c i = 1#1) (ha : AllNonneg a) :
    AllNonneg (φ := φ) (ShloMosaic.select c a b) := fun i => by
  show IsNonneg (if c i = 1 then a i else b i)
  rw [if_pos (show c i = 1 from hc i)]; exact ha i

end Arrays

section Divisors
variable {s si u : Shape} {w : Nat}

/-- A count of incoming edges plus one for the vertex's own loop is positive, so its reciprocal square root is. -/
theorem allPos_rsqrt_scatterAdd_add {d : ScatterDims s si u} {z o1 : FVec Ideal s .f32} {idx : IVec si w}
    {o : FVec Ideal u .f32} (hz : AllNonneg z) (ho : AllNonneg o) (ho1 : AllGeOne o1) :
    AllPos (Host.rsqrt (ShloMosaic.addf (Host.scatterAdd d z idx o) o1)) :=
  fun i => ((hz.hostScatterAdd ho i).add_pos (ho1 i).isPos).rsqrt

/-- A variance plus the stabiliser is positive, so its reciprocal square root is. -/
theorem allPos_rsqrt_add_eps {v e : FVec Ideal s .f32} (hv : AllNonneg v) (he : AllPos e) :
    AllPos (Host.rsqrt (ShloMosaic.addf v e)) :=
  fun i => ((hv i).add_pos (he i)).rsqrt

/-- The number of rows less the converted integer zero is the positive real 100000. -/
theorem isPos_rows_sub_zero :
    IsPos (Ideal.ofBits .f32 0x47C35000#32 - FloatOps.sitofp (F := Ideal) .f32 (0#32 : BitVec 32)) :=
  ⟨100000, by norm_num, ofBits_100000_sub_sitofp_zero⟩

theorem cmp_ogt_rows_zero :
    Ideal.cmp .ogt (Ideal.ofBits .f32 0x47C35000#32 - FloatOps.sitofp (F := Ideal) .f32 (0#32 : BitVec 32))
      (Ideal.ofBits .f32 0x00000000#32) = 1#1 := by
  rw [ofBits_100000_sub_sitofp_zero, Ideal.ofBits_zero_f32]
  show BitVec.ofBool (decide ((0 : EReal) < ((100000 : ℝ) : EReal))) = 1#1
  rw [decide_eq_true (EReal.coe_pos.mpr (by norm_num))]; rfl

end Divisors

end Cert.Math

end
-- ==== Proof.Val.RefReal.lean ====
import proofs.«166185_j35605278883840_2_alg».proof.Proof.Ref.Stages
import proofs.«166185_j35605278883840_2_alg».proof.Proof.Math.Real
import proofs.«166185_j35605278883840_2_alg».proof.Proof.Math.HostReal

noncomputable section

namespace Cert.ReferenceIdeal.HandValue

open Idealize.ShloMosaic
open Cert.ReferenceIdeal Cert.ReferenceIdeal.Facts₀ Cert.ReferenceIdeal.Hand Cert.Math

variable [Facts]

local notation "Arr" s:max e:max => BufTy.Contents (Elt Ideal) (BufTy.mk s e)

theorem real_rows {v : Arr S128 .f32} (hv : AllReal (φ := .f32) v) : AllReal (φ := .f32) (r_rows (F := Ideal) v) := by
  unfold r_rows
  exact (hv.broadcastInDim).broadcastInDim

theorem nonneg_zeros {t : Shape} {h : S_.BroadcastsInDim t ![]} :
    AllNonneg (φ := .f32) (broadcastInDim (s := S_) t ![] h (constant (F := Ideal) S_ .f32 0x00000000#32)) :=
  (allNonneg_constant_zero S_).broadcastInDim

theorem geOne_ones {t : Shape} {h : S_.BroadcastsInDim t ![]} :
    AllGeOne (φ := .f32) (broadcastInDim (s := S_) t ![] h (constant (F := Ideal) S_ .f32 0x3F800000#32)) :=
  (allGeOne_constant_one S_).broadcastInDim

theorem nonneg_relu {x : Arr S100000x128 .f32} (hx : AllReal (φ := .f32) x) :
    AllNonneg (φ := .f32) (r_relu (F := Ideal) x) := by
  unfold r_relu
  exact hx.maximumf_nonneg nonneg_zeros

theorem real_relu {x : Arr S100000x128 .f32} (hx : AllReal (φ := .f32) x) :
    AllReal (φ := .f32) (r_relu (F := Ideal) x) := (nonneg_relu hx).allReal

theorem real_mat {off : Fin S3x128x128.rank → ℕ} {h : S3x128x128.Slices off S1x128x128} {a : Arr S3x128x128 .f32}
    (ha : AllReal (φ := .f32) a) : AllReal (φ := .f32) (r_mat (F := Ideal) off h a) := by
  unfold r_mat
  exact (ha.extractStridedSlice).shapeCast

theorem real_row {off : Fin S3x128.rank → ℕ} {h : S3x128.Slices off S1x128} {a : Arr S3x128 .f32}
    (ha : AllReal (φ := .f32) a) : AllReal (φ := .f32) (r_row (F := Ideal) off h a) := by
  unfold r_row
  exact (ha.extractStridedSlice).shapeCast

theorem pos_dinv (dst : Arr S1600000 .i32) : AllPos (φ := .f32) (r_dinv (F := Ideal) dst) := by
  unfold r_dinv
  exact allPos_rsqrt_scatterAdd_add nonneg_zeros geOne_ones.allNonneg geOne_ones

theorem real_edge_norm {dinv : Arr S100000 .f32} (hd : AllReal (φ := .f32) dinv) (src dst : Arr S1600000 .i32) :
    AllReal (φ := .f32) (r_edge_norm (F := Ideal) dinv src dst) := by
  unfold r_edge_norm
  exact (hd.hostGather.mulf hd.hostGather).broadcastInDim

theorem real_self_norm {dinv : Arr S100000 .f32} (hd : AllReal (φ := .f32) dinv) :
    AllReal (φ := .f32) (r_self_norm (F := Ideal) dinv) := by
  unfold r_self_norm
  exact (hd.mulf hd).broadcastInDim

theorem real_h0 {a0 : Arr S100000x128 .f32} {a3 : Arr S128x128 .f32} {a4 : Arr S128 .f32}
    (h0 : AllReal (φ := .f32) a0) (h3 : AllReal (φ := .f32) a3) (h4 : AllReal (φ := .f32) a4) :
    AllReal (φ := .f32) (r_h0 (F := Ideal) a0 a3 a4) := by
  unfold r_h0
  exact real_relu ((h0.hostDotGeneral h3).addf (real_rows h4))

theorem real_hw {h : Arr S100000x128 .f32} {W : Arr S128x128 .f32} (hh : AllReal (φ := .f32) h)
    (hW : AllReal (φ := .f32) W) : AllReal (φ := .f32) (r_hw (F := Ideal) h W) := by
  unfold r_hw
  exact hh.hostDotGeneral hW

theorem real_agg {hw : Arr S100000x128 .f32} {en : Arr S1600000x1 .f32} (hhw : AllReal (φ := .f32) hw)
    (hen : AllReal (φ := .f32) en) (src dst : Arr S1600000 .i32) :
    AllReal (φ := .f32) (r_agg (F := Ideal) hw src dst en) := by
  unfold r_agg
  exact (nonneg_zeros.allReal).hostScatterAdd (hhw.hostGather.mulf hen.broadcastInDim)

theorem real_hpre {agg hw : Arr S100000x128 .f32} {sn : Arr S100000x1 .f32} {bias : Arr S128 .f32}
    (hagg : AllReal (φ := .f32) agg) (hhw : AllReal (φ := .f32) hw) (hsn : AllReal (φ := .f32) sn)
    (hb : AllReal (φ := .f32) bias) : AllReal (φ := .f32) (r_hpre (F := Ideal) agg hw sn bias) := by
  unfold r_hpre
  exact (hagg.addf (hhw.mulf hsn.broadcastInDim)).addf (real_rows hb)

theorem real_colsum {x : Arr S100000x128 .f32} (hx : AllReal (φ := .f32) x) :
    AllReal (φ := .f32) (r_colsum (F := Ideal) x) := by
  unfold r_colsum
  exact hx.hostReduceAdd (allReal_constant_zero S_)

theorem nonneg_colsum {x : Arr S100000x128 .f32} (hx : AllNonneg (φ := .f32) x) :
    AllNonneg (φ := .f32) (r_colsum (F := Ideal) x) := by
  unfold r_colsum
  exact hx.hostReduceAdd (allNonneg_constant_zero S_)

theorem pos_rows {t : Shape} {h : S_.BroadcastsInDim t ![]} :
    AllPos (φ := .f32) (broadcastInDim (s := S_) t ![] h (constant (F := Ideal) S_ .f32 0x47C35000#32)) :=
  (allPos_constant_100000 S_).broadcastInDim

theorem real_mean {hpre : Arr S100000x128 .f32} (hx : AllReal (φ := .f32) hpre) :
    AllReal (φ := .f32) (r_mean (F := Ideal) hpre) := by
  unfold r_mean
  exact (real_colsum hx).hostDivf_pos pos_rows

theorem pos_rowsLess : AllPos (φ := .f32) (r_rowsLess (F := Ideal)) :=
  fun _ => isPos_rows_sub_zero

theorem real_centered {hpre : Arr S100000x128 .f32} (hx : AllReal (φ := .f32) hpre) :
    AllReal (φ := .f32) (r_centered (F := Ideal) hpre) := by
  unfold r_centered
  exact hx.subf (((real_colsum hx).broadcastInDim.hostDivf_pos pos_rows).broadcastInDim)

theorem var_guard (j : S128.Idx) :
    broadcastInDim (s := S_) S128 ![] bcast_S_S128
      (cmpf (F := Ideal) (φ := .f32) .ogt (r_rowsLess (F := Ideal)) (constant S_ .f32 0x00000000#32)) j = 1#1 :=
  cmp_ogt_rows_zero

theorem nonneg_var {hpre : Arr S100000x128 .f32} (hx : AllReal (φ := .f32) hpre) :
    AllNonneg (φ := .f32) (r_var (F := Ideal) hpre) := by
  unfold r_var
  exact AllNonneg.select_of_all_one var_guard
    ((nonneg_colsum (real_centered hx).mulf_self).hostDivf_pos pos_rowsLess.broadcastInDim)

theorem nonneg_norm_relu {hpre : Arr S100000x128 .f32} {mean var gamma beta : Arr S128 .f32}
    (hx : AllReal (φ := .f32) hpre) (hm : AllReal (φ := .f32) mean) (hv : AllNonneg (φ := .f32) var)
    (hg : AllReal (φ := .f32) gamma) (hb : AllReal (φ := .f32) beta) :
    AllNonneg (φ := .f32) (r_norm_relu (F := Ideal) hpre mean var gamma beta) := by
  unfold r_norm_relu
  have hr : AllPos (φ := .f32) (Host.rsqrt (addf var
      (broadcastInDim (s := S_) S128 ![] bcast_S_S128 (constant (F := Ideal) S_ .f32 0x3727C5AC#32)))) :=
    allPos_rsqrt_add_eps hv (allPos_constant_eps S_).broadcastInDim
  exact nonneg_relu ((((hx.subf (real_rows hm)).mulf (real_rows hr.allReal)).mulf (real_rows hg)).addf (real_rows hb))

theorem real_norm_relu {hpre : Arr S100000x128 .f32} {mean var gamma beta : Arr S128 .f32}
    (hx : AllReal (φ := .f32) hpre) (hm : AllReal (φ := .f32) mean) (hv : AllNonneg (φ := .f32) var)
    (hg : AllReal (φ := .f32) gamma) (hb : AllReal (φ := .f32) beta) :
    AllReal (φ := .f32) (r_norm_relu (F := Ideal) hpre mean var gamma beta) :=
  (nonneg_norm_relu hx hm hv hg hb).allReal

-- One layer before normalisation keeps reals: the degrees are at least one, so every weight is a real.
theorem real_layer (a1 : Arr S2x1600000 .i32) {h : Arr S100000x128 .f32} {W : Arr S128x128 .f32} {bias : Arr S128 .f32}
    (hh : AllReal (φ := .f32) h) (hW : AllReal (φ := .f32) W) (hb : AllReal (φ := .f32) bias) :
    AllReal (φ := .f32) (r_hpre (F := Ideal)
      (r_agg (r_hw h W) (r_src a1) (r_dst a1) (r_edge_norm (r_dinv (r_dst a1)) (r_src a1) (r_dst a1)))
      (r_hw h W) (r_self_norm (r_dinv (r_dst a1))) bias) :=
  have hd := (pos_dinv (r_dst a1)).allReal
  real_hpre (real_agg (real_hw hh hW) (real_edge_norm hd _ _) _ _) (real_hw hh hW) (real_self_norm hd) hb

-- The features leaving a layer are reals: the variance is a nonnegative real.
theorem real_next {x : Arr S100000x128 .f32} {gamma beta : Arr S128 .f32} (hx : AllReal (φ := .f32) x)
    (hg : AllReal (φ := .f32) gamma) (hb : AllReal (φ := .f32) beta) :
    AllReal (φ := .f32) (r_norm_relu (F := Ideal) x (r_mean x) (r_var x) gamma beta) :=
  real_norm_relu hx (real_mean hx) (nonneg_var hx) hg hb

section AtArguments
variable (a0 : Arr S100000x128 .f32) (a1 : Arr S2x1600000 .i32) (a2 : Arr S100000 .i32) (a3 : Arr S128x128 .f32)
    (a4 : Arr S128 .f32) (a5 : Arr S3x128x128 .f32) (a6 a7 a8 : Arr S3x128 .f32) (a9 : Arr S128x128 .f32) (a10 : Arr S128 .f32)
    (a11 : Arr S128x64 .f32) (a12 : Arr S64 .f32)
    (h0 : AllReal (φ := .f32) a0) (h3 : AllReal (φ := .f32) a3) (h4 : AllReal (φ := .f32) a4)
    (h5 : AllReal (φ := .f32) a5) (h6 : AllReal (φ := .f32) a6) (h7 : AllReal (φ := .f32) a7) (h8 : AllReal (φ := .f32) a8)
    (h9 : AllReal (φ := .f32) a9) (h10 : AllReal (φ := .f32) a10) (h11 : AllReal (φ := .f32) a11)
    (h12 : AllReal (φ := .f32) a12)
include h0 h3 h4 h5 h6 h7 h8 h9 h10 h11 h12

theorem real_hpre_0 :
    ∀ i, Cert.Math.IsReal (Cert.ReferenceIdeal.Hand.r_hpre_0 (F := Ideal) a0 a1 a2 a3 a4 a5 a6 a7 a8 a9 a10 a11 a12 i) :=
  real_layer a1 (real_h0 h0 h3 h4) (real_mat h5) (real_row h6)

theorem real_hpre_1 :
    ∀ i, Cert.Math.IsReal (Cert.ReferenceIdeal.Hand.r_hpre_1 (F := Ideal) a0 a1 a2 a3 a4 a5 a6 a7 a8 a9 a10 a11 a12 i) :=
  real_layer a1 (real_next (real_hpre_0 a0 a1 a2 a3 a4 a5 a6 a7 a8 a9 a10 a11 a12 h0 h3 h4 h5 h6 h7 h8 h9 h10 h11 h12) (real_row h7) (real_row h8)) (real_mat h5) (real_row h6)

theorem real_hpre_2 :
    ∀ i, Cert.Math.IsReal (Cert.ReferenceIdeal.Hand.r_hpre_2 (F := Ideal) a0 a1 a2 a3 a4 a5 a6 a7 a8 a9 a10 a11 a12 i) :=
  real_layer a1 (real_next (real_hpre_1 a0 a1 a2 a3 a4 a5 a6 a7 a8 a9 a10 a11 a12 h0 h3 h4 h5 h6 h7 h8 h9 h10 h11 h12) (real_row h7) (real_row h8)) (real_mat h5) (real_row h6)

end AtArguments

end Cert.ReferenceIdeal.HandValue

end
-- ==== Proof.Val.Pre.lean ====
import proofs.«166185_j35605278883840_2_alg».proof.Defs
import proofs.«166185_j35605278883840_2_alg».proof.Proof.Math.Real
import Idealize.ShloMosaic.Lib.ReduceAll
import Idealize.ShloMosaic.Lib.ValueIdx

set_option maxRecDepth 16384

noncomputable section

namespace Cert.KernelIdeal.HandValue

open Idealize.ShloMosaic Idealize.ShloMosaic.TcCoe Idealize.SL.Sem
open Cert.KernelIdeal Cert.Pre_finite_inputs

instance subsingleton_scalar_idx : Subsingleton S_.Idx := ⟨fun a b => funext fun d => d.elim0⟩

theorem inf_pattern : Ideal.ofBits .f32 0x7F800000#32 = (⊤ : EReal) := by
  simp [Ideal.ofBits, Ideal.ieee]

/-- At either infinity the absolute value is the top element, which is not below itself. -/
theorem isReal_of_cmp (x : EReal)
    (e : Ideal.cmp .olt (max x (-x)) (Ideal.ofBits .f32 0x7F800000#32) = 1#1) : Cert.Math.IsReal x := by
  rw [inf_pattern] at e
  induction x using EReal.rec with
  | bot => simp [Ideal.cmp] at e
  | top => simp [Ideal.cmp] at e
  | coe r => exact ⟨r, rfl⟩

/-- A conjunction over all indices that came out one is one at every index. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1) (i : s.Idx) : Cert.Math.IsReal (x i) :=
  isReal_of_cmp (x i) (Host.reduce_andi_all _ _ hr hu _ e i)

variable [Cert.Pre_finite_inputs.Facts] (m : (ℓ : Loc nD τ sig) → Buf (Elt Ideal) ℓ) (h : Cert.Pre_KernelIdeal m) (c : Dev nD)
include h

/-- The precondition is a conjunction, argument by argument, of "all entries are finite"; each conjunct is one. -/
theorem real_args :
    (∀ i, Cert.Math.IsReal (m ((c.tc : Thread nD τ).loc main_arg0) i))
    ∧ (∀ i, Cert.Math.IsReal (m ((c.tc : Thread nD τ).loc main_arg3) i))
    ∧ (∀ i, Cert.Math.IsReal (m ((c.tc : Thread nD τ).loc main_arg4) i))
    ∧ (∀ i, Cert.Math.IsReal (m ((c.tc : Thread nD τ).loc main_arg5) i))
    ∧ (∀ i, Cert.Math.IsReal (m ((c.tc : Thread nD τ).loc main_arg6) i))
    ∧ (∀ i, Cert.Math.IsReal (m ((c.tc : Thread nD τ).loc main_arg7) i))
    ∧ (∀ i, Cert.Math.IsReal (m ((c.tc : Thread nD τ).loc main_arg8) i))
    ∧ (∀ i, Cert.Math.IsReal (m ((c.tc : Thread nD τ).loc main_arg9) i))
    ∧ (∀ i, Cert.Math.IsReal (m ((c.tc : Thread nD τ).loc main_arg10) i))
    ∧ (∀ i, Cert.Math.IsReal (m ((c.tc : Thread nD τ).loc main_arg11) i))
    ∧ (∀ i, Cert.Math.IsReal (m ((c.tc : Thread nD τ).loc main_arg12) i)) := by
  have e := congrFun (h c) ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨e0, e3⟩, e4⟩, e5⟩, e6⟩, e7⟩, e8⟩, e9⟩, e10⟩, e11⟩, e12⟩ := e
  exact ⟨real_of_all _ _ _ _ e0, real_of_all _ _ _ _ e3, real_of_all _ _ _ _ e4, real_of_all _ _ _ _ e5, real_of_all _ _ _ _ e6, real_of_all _ _ _ _ e7, real_of_all _ _ _ _ e8, real_of_all _ _ _ _ e9, real_of_all _ _ _ _ e10, real_of_all _ _ _ _ e11, real_of_all _ _ _ _ e12⟩

theorem real_arg0 :
    ∀ i, Cert.Math.IsReal (m ((c.tc : Thread nD τ).loc main_arg0) i) :=
  (real_args m h c).1

theorem real_arg3 :
    ∀ i, Cert.Math.IsReal (m ((c.tc : Thread nD τ).loc main_arg3) i) :=
  (real_args m h c).2.1

theorem real_arg4 :
    ∀ i, Cert.Math.IsReal (m ((c.tc : Thread nD τ).loc main_arg4) i) :=
  (real_args m h c).2.2.1

theorem real_arg5 :
    ∀ i, Cert.Math.IsReal (m ((c.tc : Thread nD τ).loc main_arg5) i) :=
  (real_args m h c).2.2.2.1

theorem real_arg6 :
    ∀ i, Cert.Math.IsReal (m ((c.tc : Thread nD τ).loc main_arg6) i) :=
  (real_args m h c).2.2.2.2.1

theorem real_arg7 :
    ∀ i, Cert.Math.IsReal (m ((c.tc : Thread nD τ).loc main_arg7) i) :=
  (real_args m h c).2.2.2.2.2.1

theorem real_arg8 :
    ∀ i, Cert.Math.IsReal (m ((c.tc : Thread nD τ).loc main_arg8) i) :=
  (real_args m h c).2.2.2.2.2.2.1

theorem real_arg9 :
    ∀ i, Cert.Math.IsReal (m ((c.tc : Thread nD τ).loc main_arg9) i) :=
  (real_args m h c).2.2.2.2.2.2.2.1

theorem real_arg10 :
    ∀ i, Cert.Math.IsReal (m ((c.tc : Thread nD τ).loc main_arg10) i) :=
  (real_args m h c).2.2.2.2.2.2.2.2.1

theorem real_arg11 :
    ∀ i, Cert.Math.IsReal (m ((c.tc : Thread nD τ).loc main_arg11) i) :=
  (real_args m h c).2.2.2.2.2.2.2.2.2.1

theorem real_arg12 :
    ∀ i, Cert.Math.IsReal (m ((c.tc : Thread nD τ).loc main_arg12) i) :=
  (real_args m h c).2.2.2.2.2.2.2.2.2.2

end Cert.KernelIdeal.HandValue

end
-- ==== Proof.Val.Pay1.lean ====
import proofs.«166185_j35605278883840_2_alg».proof.Proof.Gen.KernelIdeal.Skeleton
import proofs.«166185_j35605278883840_2_alg».proof.Proof.Val.Cols

set_option maxRecDepth 16384

noncomputable section

namespace Cert.KernelIdeal.HandValue

open Idealize.ShloMosaic Idealize.ShloMosaic.ValueIdx
open Cert.KernelIdeal Cert.KernelIdeal.Gen
open scoped BigOperators

/-- The combined block at `(p, q)`: the aggregate, plus the projection times the row's normaliser, plus the bias of lane `q`. -/
theorem k1_pay3_apply (agg : FVec Ideal S4000x128 .f32) (hw : FVec Ideal S4000x128 .bf16)
    (sn : FVec Ideal S4000x1 .f32) (bias : FVec Ideal S1x128 .f32) (p : Fin 4000) (q : Fin 128) :
    k1_pay3 (F := Ideal) agg hw sn bias (ix2 p q)
      = agg (ix2 p q) + hw (ix2 p q) * sn (ix2 p (0 : Fin 1)) + bias (ix2 (0 : Fin 1) q) := by
  unfold k1_pay3
  rw [shapeCast_self, shapeCast_self, shapeCast_self, shapeCast_self]
  show agg (ix2 p q) + hw (ix2 p q) * broadcastTo S4000x128 sn broadcasts_S4000x1_S4000x128 (ix2 p q)
      + broadcastTo S4000x128 bias broadcasts_S1x128_S4000x128 (ix2 p q) = _
  rw [broadcastTo_col_apply, broadcastTo_1b_ab_apply]

/-- Each accumulator gains the column sums of the combined block (of its squares, for the second). -/
theorem k1_pay4_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k1_pay4 (F := Ideal) agg hw sn bias acc (ix2 u q)
      = acc (ix2 u q) + ∑ p : Fin 4000, k1_pay3 (F := Ideal) agg hw sn bias (ix2 p q) := by
  unfold k1_pay4
  exact (congrFun (shapeCast_self _ _) (ix2 u q)).trans (congrArg (acc (ix2 u q) + ·) (colsum_apply _ _ _ _ _ u q))

theorem k1_pay5_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k1_pay5 (F := Ideal) agg hw sn bias acc (ix2 u q)
      = acc (ix2 u q) + ∑ p : Fin 4000,
          k1_pay3 (F := Ideal) agg hw sn bias (ix2 p q) * k1_pay3 (F := Ideal) agg hw sn bias (ix2 p q) := by
  unfold k1_pay5
  exact (congrFun (shapeCast_self _ _) (ix2 u q)).trans (congrArg (acc (ix2 u q) + ·) (colsum_apply _ _ _ _ _ u q))

/-- The accumulators' reset values are the zero row. -/
theorem k1_pay1_apply (i : S1x128.Idx) : k1_pay1 (F := Ideal) i = 0 := by
  unfold k1_pay1
  exact (congrFun (shapeCast_self _ _) i).trans Ideal.ofBits_zero_f32

theorem k1_pay2_apply (i : S1x128.Idx) : k1_pay2 (F := Ideal) i = 0 := by
  unfold k1_pay2
  exact (congrFun (shapeCast_self _ _) i).trans Ideal.ofBits_zero_f32

end Cert.KernelIdeal.HandValue

end
-- ==== Proof.Val.Final1.lean ====
import proofs.«166185_j35605278883840_2_alg».proof.Proof.KI.RegR1
import proofs.«166185_j35605278883840_2_alg».proof.Proof.Val.Pay1
import proofs.«166185_j35605278883840_2_alg».proof.Proof.Math.Var
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand
open scoped BigOperators

variable (V : (c : Dev nD) → (b : Ref sig .tc) → Buf (Elt Ideal) ((c : Thread nD τ).loc b))

abbrev agg1 (c : Dev nD) : FVec Ideal S100000x128 .f32 := V c (Pipeline.arrRef spec1 0)
abbrev hw1 (c : Dev nD) : FVec Ideal S100000x128 .bf16 := V c (Pipeline.arrRef spec1 1)
abbrev sn1 (c : Dev nD) : FVec Ideal S100000x1 .f32 := V c (Pipeline.arrRef spec1 2)
abbrev bias1 (c : Dev nD) : FVec Ideal S1x128 .f32 := V c (Pipeline.arrRef spec1 3)

theorem idx_facts1 : ∀ t : Fin cfg1.N,
    (∀ a : Fin 2, win1_3.index t a = 0 ∧ win1_5.index t a = 0 ∧ win1_6.index t a = 0)
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_4.index t (0 : Fin 2) = t.val ∧ win1_4.index t (1 : Fin 2) = 0 :=
  (by decide +kernel : ∀ t : Fin grid1.N, _)

theorem row_lt1 (t : Fin cfg1.N) (p : Fin 4000) : 4000 * t.val + p.val < 100000 := by
  have hN : cfg1.N = 25 := N_1
  have := t.isLt; have := p.isLt; omega

/-- Row `p` of block `t` of a row-blocked array is row `4000 t + p` of the array. -/
theorem aggBlk1_apply (c : Dev nD) (t : Fin cfg1.N) (p : Fin 4000) (q : Fin 128) :
    iblk1 V c 0 t (ix2 p q) = agg1 V c (ix2 ⟨4000 * t.val + p.val, row_lt1 t p⟩ q) := by
  obtain ⟨-, e0, e1, -⟩ := idx_facts1 t
  show V c (Pipeline.arrRef spec1 0) (((cfg1.win 0).blk t).view.emb (ix2 p q)) = V c (Pipeline.arrRef spec1 0) _
  exact congrArg _ (Shape.idx_ext₂
    (show win1_0.index t (0 : Fin 2) * 4000 + 1 * p.val = 4000 * t.val + p.val by rw [e0]; omega)
    (show win1_0.index t (1 : Fin 2) * 128 + 1 * q.val = q.val by rw [e1]; omega))

theorem hwBlk1_apply (c : Dev nD) (t : Fin cfg1.N) (p : Fin 4000) (q : Fin 128) :
    iblk1 V c 1 t (ix2 p q) = hw1 V c (ix2 ⟨4000 * t.val + p.val, row_lt1 t p⟩ q) := by
  obtain ⟨-, -, -, e0, e1, -⟩ := idx_facts1 t
  show V c (Pipeline.arrRef spec1 1) (((cfg1.win 1).blk t).view.emb (ix2 p q)) = V c (Pipeline.arrRef spec1 1) _
  exact congrArg _ (Shape.idx_ext₂
    (show win1_1.index t (0 : Fin 2) * 4000 + 1 * p.val = 4000 * t.val + p.val by rw [e0]; omega)
    (show win1_1.index t (1 : Fin 2) * 128 + 1 * q.val = q.val by rw [e1]; omega))

theorem snBlk1_apply (c : Dev nD) (t : Fin cfg1.N) (p : Fin 4000) (u : Fin 1) :
    iblk1 V c 2 t (ix2 p u) = sn1 V c (ix2 ⟨4000 * t.val + p.val, row_lt1 t p⟩ (0 : Fin 1)) := by
  obtain ⟨-, -, -, -, -, e0, e1, -⟩ := idx_facts1 t
  show V c (Pipeline.arrRef spec1 2) (((cfg1.win 2).blk t).view.emb (ix2 p u)) = V c (Pipeline.arrRef spec1 2) _
  exact congrArg _ (Shape.idx_ext₂
    (show win1_2.index t (0 : Fin 2) * 4000 + 1 * p.val = 4000 * t.val + p.val by rw [e0]; omega)
    (show win1_2.index t (1 : Fin 2) * 1 + 1 * u.val = 0 by rw [e1]; omega))

/-- A window at block index zero on both axes reads its whole array. -/
theorem biasBlk1_apply (c : Dev nD) (t : Fin cfg1.N) : (iblk1 V c 3 t : FVec Ideal S1x128 .f32) = bias1 V c :=
  funext fun y => congrArg (V c (Pipeline.arrRef spec1 3)) (funext fun a => Fin.ext
    ((cfg1.win 3).rect_emb_val_of_index_zero t a ((idx_facts1 t).1 a).1 y))

def hpreAt1 (c : Dev nD) (P : Fin 100000) (q : Fin 128) : EReal :=
  agg1 V c (ix2 P q) + hw1 V c (ix2 P q) * sn1 V c (ix2 P (0 : Fin 1)) + bias1 V c (ix2 (0 : Fin 1) q)

def hpre1 (c : Dev nD) : FVec Ideal S100000x128 .f32 := fun i => hpreAt1 V c (i 0) (i 1)

/-- The combined block at point `t` is rows `4000 t … 4000 t + 3999` of the combined array. -/
theorem pay3_blk1 (c : Dev nD) (t : Fin cfg1.N) (p : Fin 4000) (q : Fin 128) :
    k1_pay3 (F := Ideal) (iblk1 V c 0 t) (iblk1 V c 1 t) (iblk1 V c 2 t) (iblk1 V c 3 t) (ix2 p q)
      = hpreAt1 V c ⟨4000 * t.val + p.val, row_lt1 t p⟩ q := by
  rw [k1_pay3_apply, aggBlk1_apply, hwBlk1_apply, snBlk1_apply, biasBlk1_apply]
  rfl

/-- Entry `(p, q)` of the first output's block at point `t` sits at row `4000 t + p`, lane `q` of the array. -/
theorem read_blk1_4 (t : Fin cfg1.N) (p : Fin 4000) (q : Fin 128) :
    ((cfg1.win 4).blk t).view.emb (ix2 p q) = ix2 ⟨4000 * t.val + p.val, row_lt1 t p⟩ q := by
  obtain ⟨-, -, -, -, -, -, -, e0, e1⟩ := idx_facts1 t
  exact Shape.idx_ext₂
    (show win1_4.index t (0 : Fin 2) * 4000 + 1 * p.val = 4000 * t.val + p.val by rw [e0]; omega)
    (show win1_4.index t (1 : Fin 2) * 128 + 1 * q.val = q.val by rw [e1]; omega)

/-- Row `P` lies in the block of point `P / 4000`, which holds that block of the combined array. -/
theorem final1_4_apply (c : Dev nD) (P : Fin 100000) (q : Fin 128) :
    (dat1 V c).arrAt 4 cfg1.N (ix2 P q) = hpreAt1 V c P q := by
  have hP := P.isLt
  have hlt : P.val / 4000 < cfg1.N := by rw [show cfg1.N = 25 from N_1]; omega
  refine (dat1 V c).arrAt_apply_of_mem 4 (hpre1 V c) (fun t _ => ?_) cfg1.N ⟨P.val / 4000, hlt⟩ (ix2 P q) hlt
    (flush1_4 _) ?_
  · show (cfg1.win 4).cut (grid1.coords t) ((dat1 V c).after 4 t) = _
    rw [after1_4]
    funext j
    obtain ⟨p, r, rfl⟩ : ∃ (p : Fin 4000) (r : Fin 128), j = ix2 p r := ⟨j 0, j 1, eq_ix2 (n0 := 4000) (n1 := 128) j⟩
    show _ = hpre1 V c (((cfg1.win 4).blk t).view.emb (ix2 p r))
    rw [read_blk1_4]
    exact pay3_blk1 V c t p r
  · exact Finset.mem_map.mpr ⟨ix2 (⟨P.val % 4000, Nat.mod_lt _ (by norm_num)⟩ : Fin 4000) q, Finset.mem_univ _,
      (read_blk1_4 ⟨P.val / 4000, hlt⟩ _ q).trans
        (Shape.idx_ext₂ (show 4000 * (P.val / 4000) + P.val % 4000 = P.val by omega) rfl)⟩

/-- The sum of block `s`'s rows of a function of the row (zero past the last block). -/
def blockSum1 (g : Fin 100000 → EReal) (s : ℕ) : EReal :=
  if h : s < 25 then ∑ p : Fin 4000, g ⟨4000 * s + p.val, by have := p.isLt; omega⟩ else 0

/-- The rows are the pairs (block, place), so the 25 block sums add up to the sum over all rows. -/
theorem sum_blockSum1 (g : Fin 100000 → EReal) : ∑ s ∈ Finset.range 25, blockSum1 g s = ∑ P : Fin 100000, g P := by
  rw [Cert.Math.sum_blocks_of_eq 25 4000 (by norm_num) g, ← Fin.sum_univ_eq_sum_range]
  exact Finset.sum_congr rfl fun s _ => dif_pos s.isLt

/-- A column sum over the combined block at point `t`, taken entrywise through `φ`, is block `t`'s sum. -/
theorem colsum_blk1 (c : Dev nD) (t : Fin cfg1.N) (q : Fin 128) (φ : EReal → EReal) :
    ∑ p : Fin 4000, φ (k1_pay3 (F := Ideal) (iblk1 V c 0 t) (iblk1 V c 1 t) (iblk1 V c 2 t) (iblk1 V c 3 t) (ix2 p q))
      = blockSum1 (fun P => φ (hpreAt1 V c P q)) t.val := by
  unfold blockSum1
  rw [dif_pos (Nat.lt_of_lt_of_eq t.isLt N_1)]
  exact Finset.sum_congr rfl fun p _ => congrArg φ (pay3_blk1 V c t p q)

/-- After point `n` each accumulator is the sum of the block sums of points `0 … n`: it starts at zero and every point adds its block's sum. -/
theorem accAt1_eq (c : Dev nD) (u : Fin 1) (q : Fin 128) : ∀ (n : ℕ) (hn : n < cfg1.N),
    (accAt1 V c n hn).1 (ix2 u q) = ∑ s ∈ Finset.range (n + 1), blockSum1 (fun P => hpreAt1 V c P q) s
    ∧ (accAt1 V c n hn).2 (ix2 u q)
      = ∑ s ∈ Finset.range (n + 1), blockSum1 (fun P => hpreAt1 V c P q * hpreAt1 V c P q) s
  | 0, hn => by
    rw [accAt1_zero, Finset.sum_range_one, Finset.sum_range_one]
    dsimp only
    exact ⟨(k1_pay4_apply _ _ _ _ _ u q).trans (by
        rw [k1_pay1_apply, zero_add]; exact colsum_blk1 V c ⟨0, hn⟩ q fun x => x),
      (k1_pay5_apply _ _ _ _ _ u q).trans (by
        rw [k1_pay2_apply, zero_add]; exact colsum_blk1 V c ⟨0, hn⟩ q fun x => x * x)⟩
  | n + 1, hn => by
    obtain ⟨h1, h2⟩ := accAt1_eq c u q n (Nat.lt_of_succ_lt hn)
    rw [accAt1_succ]
    dsimp only
    exact ⟨(k1_pay4_apply _ _ _ _ _ u q).trans ((congrArg₂ (· + ·) h1
        (colsum_blk1 V c ⟨n + 1, hn⟩ q fun x => x)).trans (Finset.sum_range_succ _ _).symm),
      (k1_pay5_apply _ _ _ _ _ u q).trans ((congrArg₂ (· + ·) h2
        (colsum_blk1 V c ⟨n + 1, hn⟩ q fun x => x * x)).trans (Finset.sum_range_succ _ _).symm)⟩

def sum1 (c : Dev nD) : FVec Ideal S1x128 .f32 := fun i => ∑ P : Fin 100000, hpreAt1 V c P (i 1)

def sumsq1 (c : Dev nD) : FVec Ideal S1x128 .f32 :=
  fun i => ∑ P : Fin 100000, hpreAt1 V c P (i 1) * hpreAt1 V c P (i 1)

theorem read_blk1_5 (t : Fin cfg1.N) (y : S1x128.Idx) : ((cfg1.win 5).blk t).view.emb y = y :=
  funext fun a => Fin.ext ((cfg1.win 5).rect_emb_val_of_index_zero t a ((idx_facts1 t).1 a).2.1 y)

theorem read_blk1_6 (t : Fin cfg1.N) (y : S1x128.Idx) : ((cfg1.win 6).blk t).view.emb y = y :=
  funext fun a => Fin.ext ((cfg1.win 6).rect_emb_val_of_index_zero t a ((idx_facts1 t).1 a).2.2 y)

abbrev last1 : Fin cfg1.N := ⟨24, by rw [show cfg1.N = 25 from N_1]; omega⟩

/-- The only point of the grid congruent to 24 modulo 25 is the last. -/
theorem last1_of {t : Fin cfg1.N} (h : t.val % 25 = 24) : t.val = 24 := by
  have := Nat.lt_of_lt_of_eq t.isLt N_1; omega

/-- The second output is the first accumulator after the last point: the sum of all 25 block sums. -/
theorem final1_5_apply (c : Dev nD) (u : Fin 1) (q : Fin 128) :
    (dat1 V c).arrAt 5 cfg1.N (ix2 u q) = ∑ P : Fin 100000, hpreAt1 V c P q := by
  refine (dat1 V c).arrAt_apply_of_mem 5 (sum1 V c) (fun t hf => ?_) cfg1.N last1 (ix2 u q) last1.isLt
    ((flush1_5 last1).mpr rfl) (Finset.mem_map.mpr ⟨ix2 u q, Finset.mem_univ _, read_blk1_5 last1 _⟩)
  show (cfg1.win 5).cut (grid1.coords t) ((dat1 V c).after 5 t) = _
  rw [after1_5]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg1.win 5).blk t).view.read (Elt Ideal) G (ix2 v r) = G (ix2 v r) :=
    fun G => congrArg G (read_blk1_5 t _)
  refine ((accAt1_eq V c v r t.val t.isLt).1.trans ?_).trans (hr (sum1 V c)).symm
  rw [last1_of ((flush1_5 t).mp hf)]
  exact sum_blockSum1 _

theorem final1_6_apply (c : Dev nD) (u : Fin 1) (q : Fin 128) :
    (dat1 V c).arrAt 6 cfg1.N (ix2 u q) = ∑ P : Fin 100000, hpreAt1 V c P q * hpreAt1 V c P q := by
  refine (dat1 V c).arrAt_apply_of_mem 6 (sumsq1 V c) (fun t hf => ?_) cfg1.N last1 (ix2 u q) last1.isLt
    ((flush1_6 last1).mpr rfl) (Finset.mem_map.mpr ⟨ix2 u q, Finset.mem_univ _, read_blk1_6 last1 _⟩)
  show (cfg1.win 6).cut (grid1.coords t) ((dat1 V c).after 6 t) = _
  rw [after1_6]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg1.win 6).blk t).view.read (Elt Ideal) G (ix2 v r) = G (ix2 v r) :=
    fun G => congrArg G (read_blk1_6 t _)
  refine ((accAt1_eq V c v r t.val t.isLt).2.trans ?_).trans (hr (sumsq1 V c)).symm
  rw [last1_of ((flush1_6 t).mp hf)]
  exact sum_blockSum1 _

end Cert.KernelIdeal.HandValue

end
-- ==== Proof.Val.Bridge1.lean ====
import proofs.«166185_j35605278883840_2_alg».proof.Proof.Val.Final1
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_hpre r_rows r_colsum)
open Cert.ReferenceIdeal.HandValue (rowOverNodes_apply colSum_apply)
open scoped BigOperators

variable (V : (c : Dev nD) → (b : Ref sig .tc) → Buf (Elt Ideal) ((c : Thread nD τ).loc b))
variable [Cert.ReferenceIdeal.Facts]

-- A column repeated over 128 columns reads, at (p, q), its entry of row p.
theorem refCol1_apply {α : Type} (v : Cert.ReferenceIdeal.S100000x1.Idx → α) (p : Fin 100000) (q : Fin 128) :
    broadcastInDim (s := Cert.ReferenceIdeal.S100000x1) Cert.ReferenceIdeal.S100000x128 ![0, 1]
        Cert.ReferenceIdeal.Facts₀.bcast_S100000x1_S100000x128_0_1 v (ix2 p q) = v (ix2 p (0 : Fin 1)) :=
  broadcastInDim_apply _ Cert.ReferenceIdeal.Facts₀.bcast_S100000x1_S100000x128_0_1 v (ix2 p q) (ix2 p (0 : Fin 1))
    (fun a => by
      match a with
      | ⟨0, _⟩ => show p.val = if (100000 : ℕ) = 1 then 0 else p.val; rw [if_neg (by decide)]
      | ⟨1, _⟩ => show 0 = if (1 : ℕ) = 1 then 0 else q.val; rw [if_pos rfl])

theorem r_hpre1_apply (agg hw : FVec Ideal Cert.ReferenceIdeal.S100000x128 .f32)
    (sn : FVec Ideal Cert.ReferenceIdeal.S100000x1 .f32) (bias : FVec Ideal Cert.ReferenceIdeal.S128 .f32)
    (P : Fin 100000) (q : Fin 128) :
    r_hpre (F := Ideal) agg hw sn bias (ix2 P q)
      = agg (ix2 P q) + hw (ix2 P q) * sn (ix2 P (0 : Fin 1)) + bias (ix1 q) := by
  unfold r_hpre r_rows
  rw [addf_apply, addf_apply, mulf_apply, refCol1_apply, rowOverNodes_apply]

-- Entry by entry both sides are agg + hw * self_norm + bias; the reference's reduction starts from a zero, and the sums over the rows are the same sums.
theorem bridge1 (c : Dev nD) (agg hw : FVec Ideal Cert.ReferenceIdeal.S100000x128 .f32)
    (sn : FVec Ideal Cert.ReferenceIdeal.S100000x1 .f32) (bias : FVec Ideal Cert.ReferenceIdeal.S128 .f32)
    (h0 : V c (Pipeline.arrRef spec1 0) = agg) (h1 : V c (Pipeline.arrRef spec1 1) = hw)
    (h2 : V c (Pipeline.arrRef spec1 2) = sn)
    (hb : ∀ q : Fin 128, V c (Pipeline.arrRef spec1 3) (ix2 (0 : Fin 1) q) = bias (ix1 q))
    (hp : FVec Ideal Cert.ReferenceIdeal.S100000x128 .f32) (he : r_hpre (F := Ideal) agg hw sn bias = hp) :
    (∀ i : Cert.ReferenceIdeal.S100000x128.Idx, (dat1 V c).arrAt 4 cfg1.N i = hp i)
    ∧ (∀ q : Fin 128, (dat1 V c).arrAt 5 cfg1.N (ix2 (0 : Fin 1) q) = r_colsum (F := Ideal) hp (ix1 q))
    ∧ (∀ q : Fin 128, (dat1 V c).arrAt 6 cfg1.N (ix2 (0 : Fin 1) q) = r_colsum (F := Ideal) (mulf hp hp) (ix1 q)) := by
  subst h0 h1 h2 he
  have e : ∀ P q, hpreAt1 V c P q = r_hpre (F := Ideal) (agg1 V c) (hw1 V c) (sn1 V c) bias (ix2 P q) := fun P q => by
    unfold hpreAt1
    rw [r_hpre1_apply, ← hb q]
  have cs : ∀ (x : FVec Ideal Cert.ReferenceIdeal.S100000x128 .f32) (q : Fin 128),
      r_colsum (F := Ideal) x (ix1 q) = ∑ P : Fin 100000, x (ix2 P q) := fun x q => by
    unfold r_colsum
    rw [colSum_apply, constant_apply, Ideal.ofBits_zero_f32, zero_add]
  refine ⟨fun i => ?_, fun q => ?_, fun q => ?_⟩
  · exact (congrArg _ (eq_ix2 i)).trans ((final1_4_apply V c _ _).trans ((e _ _).trans (congrArg _ (eq_ix2 i).symm)))
  · exact (final1_5_apply V c 0 q).trans ((Finset.sum_congr rfl fun P _ => e P q).trans (cs _ q).symm)
  · exact (final1_6_apply V c 0 q).trans ((Finset.sum_congr rfl fun P _ =>
      (congrArg₂ (· * ·) (e P q) (e P q)).trans (mulf_apply _ _ (ix2 P q)).symm).trans (cs _ q).symm)

end Cert.KernelIdeal.HandValue

end
-- ==== Proof.Val.ChainG.lean ====
import proofs.«166185_j35605278883840_2_alg».proof.Proof.Gen.ReferenceIdeal
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef
import proofs.«166185_j35605278883840_2_alg».proof.Proof.Val.Args

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

theorem graph_src :
    BW1 m ρ c (Proc.devRef .tc main_v1) = r_src (F := Ideal) (m ((c.tc : Thread nD τ).loc main_arg1)) :=
  (host0_main_v1 (BW0 m ρ c)).trans (edgeRow_zero_eq _ _)

theorem graph_dst :
    BW1 m ρ c (Proc.devRef .tc main_v3) = r_dst (F := Ideal) (m ((c.tc : Thread nD τ).loc main_arg1)) :=
  (host0_main_v3 (BW0 m ρ c)).trans (edgeRow_one_eq _ _)

theorem graph_edge_norm :
    BW1 m ρ c (Proc.devRef .tc main_v26) = atArgs m c (r_edge_norm_at (F := Ideal)) :=
  host0_main_v26 (BW0 m ρ c)

theorem graph_self_norm :
    BW1 m ρ c (Proc.devRef .tc main_v28) = atArgs m c (r_self_norm_at (F := Ideal)) :=
  host0_main_v28 (BW0 m ρ c)

end Cert.KernelIdeal.HandValue

end
-- ==== Proof.Val.ChainA0.lean ====
import proofs.«166185_j35605278883840_2_alg».proof.Proof.Gen.ReferenceIdeal
import proofs.«166185_j35605278883840_2_alg».proof.Proof.Gen.Pre_finite_inputs
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef
import proofs.«166185_j35605278883840_2_alg».proof.Proof.Val.Args
import proofs.«166185_j35605278883840_2_alg».proof.Proof.Val.Stats
import proofs.«166185_j35605278883840_2_alg».proof.Proof.Val.RefReal
import proofs.«166185_j35605278883840_2_alg».proof.Proof.Val.Pre
import proofs.«166185_j35605278883840_2_alg».proof.Proof.Val.Bridge1
import proofs.«166185_j35605278883840_2_alg».proof.Proof.Val.ChainG

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

-- From the layer's product: the neighbourhood sum, the combination with its two column sums, then mean and variance, which agree with the reference's where every entry is real.
theorem chainA0 (hpre : Cert.Pre_KernelIdeal m)
    (hhw : ∀ i, BW2 m ρ c (Proc.devRef .tc main_v32) i = atArgs m c (r_hw_0 (F := Ideal)) i) :
    (∀ i, BW5 m ρ c (Proc.devRef .tc main_v49_0) i = atArgs m c (r_hpre_0 (F := Ideal)) i)
    ∧ (∀ q : Fin 128, BW5 m ρ c (Proc.devRef .tc main_v51) (ix2 0 q) = atArgs m c (r_mean_0 (F := Ideal)) (ix1 q))
    ∧ (∀ q : Fin 128, BW5 m ρ c (Proc.devRef .tc main_v57) (ix2 0 q) = atArgs m c (r_var_0 (F := Ideal)) (ix1 q))
    ∧ (∀ q : Fin 128, BW5 m ρ c (Proc.devRef .tc main_v64) (ix2 0 q) = r_row (F := Ideal) ![0, 0] Cert.ReferenceIdeal.Facts₀.slices_S3x128_S1x128_0_0 (m ((c.tc : Thread nD τ).loc main_arg7)) (ix1 q))
    ∧ (∀ q : Fin 128, BW5 m ρ c (Proc.devRef .tc main_v65) (ix2 0 q) = r_row (F := Ideal) ![0, 0] Cert.ReferenceIdeal.Facts₀.slices_S3x128_S1x128_0_0 (m ((c.tc : Thread nD τ).loc main_arg8)) (ix1 q)) := by
  have h_agg : BW3 m ρ c (Proc.devRef .tc main_v45) = atArgs m c (r_agg_0 (F := Ideal)) := by
    refine (host1_main_v45 (BW2 m ρ c)).trans ?_
    rw [persist_2 m ρ c main_v1 (by decide), persist_2 m ρ c main_v3 (by decide), persist_2 m ρ c main_v26 (by decide),
      graph_src, graph_dst, graph_edge_norm]
    exact aggOf_eq _ _ hhw _ _ _
  have r6 := host1_main_v48 (BW2 m ρ c)
  have r7 := host2_main_v64 (BW4 m ρ c)
  have r8 := host2_main_v65 (BW4 m ρ c)
  rw [persist_2 m ρ c main_arg6 (by decide), BW1_main_arg6] at r6
  rw [persist_4 m ρ c main_arg7 (by decide), BW1_main_arg7] at r7
  rw [persist_4 m ρ c main_arg8 (by decide), BW1_main_arg8] at r8
  obtain ⟨h4, h5, h6⟩ := bridge1 (BV3 m ρ) c _ _ _ _ h_agg
    ((hostOps1_keeps (BW2 m ρ c) main_v32 (by decide)).trans (funext hhw))
    ((persist_3 m ρ c main_v28 (by decide)).trans (graph_self_norm m ρ c))
    (fun q => (congrFun r6 (ix2 0 q)).trans (layerRow_apply _ _ _ 0 q))
    (atArgs m c (r_hpre_0 (F := Ideal))) rfl
  have s5 := fun q : Fin 128 => (congrFun (BW4_arr m ρ c 5) _).trans (h5 q)
  have s6 := fun q : Fin 128 => (congrFun (BW4_arr m ρ c 6) _).trans (h6 q)
  have h_real : ∀ i, Cert.Math.IsReal (atArgs m c (r_hpre_0 (F := Ideal)) i) := by
    unfold atArgs
    exact Cert.ReferenceIdeal.HandValue.real_hpre_0 _ _ _ _ _ _ _ _ _ _ _ _ _ (real_arg0 m hpre c) (real_arg3 m hpre c)
      (real_arg4 m hpre c) (real_arg5 m hpre c) (real_arg6 m hpre c) (real_arg7 m hpre c) (real_arg8 m hpre c)
      (real_arg9 m hpre c) (real_arg10 m hpre c) (real_arg11 m hpre c) (real_arg12 m hpre c)
  have e51 : BW5 m ρ c (Proc.devRef .tc main_v51) = k_mean (BW4 m ρ c (Proc.devRef .tc main_v49_1)) :=
    host2_main_v51 (BW4 m ρ c)
  have e57 : BW5 m ρ c (Proc.devRef .tc main_v57)
      = k_var (BW4 m ρ c (Proc.devRef .tc main_v49_1)) (BW4 m ρ c (Proc.devRef .tc main_v49_2)) :=
    host2_main_v57 (BW4 m ρ c)
  refine ⟨fun i => (congrFun (hostOps2_keeps (BW4 m ρ c) main_v49_0 (by decide)) i).trans
      ((congrFun (BW4_arr m ρ c 4) i).trans (h4 i)),
    fun q => (congrFun e51 _).trans (mean_bridge _ _ s5 q), fun q => (congrFun e57 _).trans (var_bridge _ _ _ s5 s6 h_real q),
    fun q => (congrFun r7 (ix2 0 q)).trans (layerRow_apply _ _ _ 0 q),
    fun q => (congrFun r8 (ix2 0 q)).trans (layerRow_apply _ _ _ 0 q)⟩

end Cert.KernelIdeal.HandValue

end
-- ==== Proof.Val.ChainW0.lean ====
import proofs.«166185_j35605278883840_2_alg».proof.Proof.Gen.ReferenceIdeal
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

-- The next layer's matrix is the reference's slice of the same stack of three.
theorem chainW0 :
    BW5 m ρ c (Proc.devRef .tc main_v63)
      = r_mat (F := Ideal) ![1, 0, 0] Cert.ReferenceIdeal.Facts₀.slices_S3x128x128_S1x128x128_1_0_0
          (m ((c.tc : Thread nD τ).loc main_arg5)) := by
  refine (host2_main_v63 (BW4 m ρ c)).trans ?_
  rw [persist_4 m ρ c main_arg5 (by decide), BW1_main_arg5, layerMat_eq]

end Cert.KernelIdeal.HandValue

end
-- ==== Proof.Val.Pay2.lean ====
import proofs.«166185_j35605278883840_2_alg».proof.Proof.Gen.KernelIdeal.Skeleton
import proofs.«166185_j35605278883840_2_alg».proof.Proof.Val.Pay0

set_option maxRecDepth 16384

noncomputable section

namespace Cert.KernelIdeal.HandValue

open Idealize.ShloMosaic Idealize.ShloMosaic.ValueIdx
open Cert.KernelIdeal Cert.KernelIdeal.Gen
open scoped BigOperators

/-- The stored block at `(p, q)`: row `p` of the rectified normalised rows against column `q` of the weights. -/
theorem pay_at_r2 (h : FVec Ideal S4000x128 .f32) (mean var gamma beta : FVec Ideal S1x128 .f32)
    (W : FVec Ideal S128x128 .f32) (p : Fin 4000) (q : Fin 128) :
    k2_pay1 (F := Ideal) h mean var gamma beta W (ix2 p q)
      = ∑ k : Fin 128,
          max ((h (ix2 p k) - mean (ix2 (0 : Fin 1) k))
                * Ideal.rsqrt (var (ix2 (0 : Fin 1) k) + Ideal.ofBits .f32 0x3727C5AC#32)
                * gamma (ix2 (0 : Fin 1) k) + beta (ix2 (0 : Fin 1) k)) 0
            * W (ix2 k q) := by
  unfold k2_pay1
  simp only [shapeCast_self]
  rw [truncf_apply]
  refine (matmul_rows0_apply _ _ p q).trans ?_
  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  show max _ (Ideal.ofBits .f32 0x00000000#32) * _ = _
  rw [Ideal.ofBits_zero_f32]
  rfl

end Cert.KernelIdeal.HandValue

end
-- ==== Proof.Val.Final2.lean ====
import proofs.«166185_j35605278883840_2_alg».proof.Proof.KI.RegA2
import proofs.«166185_j35605278883840_2_alg».proof.Proof.Val.Pay2
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

abbrev harr_r2 (c : Dev nD) : FVec Ideal S100000x128 .f32 := V c (Pipeline.arrRef spec2 0)
abbrev marr_r2 (c : Dev nD) : FVec Ideal S1x128 .f32 := V c (Pipeline.arrRef spec2 1)
abbrev varr_r2 (c : Dev nD) : FVec Ideal S1x128 .f32 := V c (Pipeline.arrRef spec2 2)
abbrev garr_r2 (c : Dev nD) : FVec Ideal S1x128 .f32 := V c (Pipeline.arrRef spec2 3)
abbrev barr_r2 (c : Dev nD) : FVec Ideal S1x128 .f32 := V c (Pipeline.arrRef spec2 4)
abbrev warr_r2 (c : Dev nD) : FVec Ideal S128x128 .f32 := V c (Pipeline.arrRef spec2 5)

/-- The output array, entry by entry: row `P` of the rectified normalised rows against column `q` of the weights. -/
def G_r2 (h : FVec Ideal S100000x128 .f32) (mean var gamma beta : FVec Ideal S1x128 .f32) (W : FVec Ideal S128x128 .f32) :
    FVec Ideal S100000x128 .bf16 := fun i =>
  ∑ k : Fin 128,
    max ((h (ix2 (i 0) k) - mean (ix2 (0 : Fin 1) k))
          * Ideal.rsqrt (var (ix2 (0 : Fin 1) k) + Ideal.ofBits .f32 0x3727C5AC#32)
          * gamma (ix2 (0 : Fin 1) k) + beta (ix2 (0 : Fin 1) k)) 0
      * W (ix2 k (i 1))

theorem G_r2_apply (h : FVec Ideal S100000x128 .f32) (mean var gamma beta : FVec Ideal S1x128 .f32) (W : FVec Ideal S128x128 .f32)
    (P : Fin 100000) (q : Fin 128) :
    G_r2 h mean var gamma beta W (ix2 P q) = ∑ k : Fin 128,
      max ((h (ix2 P k) - mean (ix2 (0 : Fin 1) k))
            * Ideal.rsqrt (var (ix2 (0 : Fin 1) k) + Ideal.ofBits .f32 0x3727C5AC#32)
            * gamma (ix2 (0 : Fin 1) k) + beta (ix2 (0 : Fin 1) k)) 0
        * W (ix2 k q) := rfl

theorem hz_r2 : (![0, 0] : Fin 2 → Nat) = fun _ => 0 := funext fun a => by fin_cases a <;> rfl

theorem idx_facts_r2 : ∀ t : Fin cfg2.N, (win2_0.index t (0 : Fin 2) = t.val ∧ win2_0.index t (1 : Fin 2) = 0)
    ∧ (∀ a : Fin 2, win2_1.index t a = 0 ∧ win2_2.index t a = 0 ∧ win2_3.index t a = 0 ∧ win2_4.index t a = 0
      ∧ win2_5.index t a = 0)
    ∧ win2_6.index t (0 : Fin 2) = t.val ∧ win2_6.index t (1 : Fin 2) = 0 :=
  (by decide +kernel : ∀ t : Fin grid2.N, _)

theorem row_lt_r2 (t : Fin cfg2.N) (p : Fin 4000) : 4000 * t.val + p.val < 100000 := by
  have hN : cfg2.N = 25 := N_2
  have := t.isLt; have := p.isLt; omega

/-- Row `p` of the first window's block at point `t` is row `4000 t + p` of the array. -/
theorem iblk0_at_r2 (c : Dev nD) (t : Fin cfg2.N) (p : Fin 4000) (k : Fin 128) :
    (iblk2 V c 0 t : FVec Ideal S4000x128 .f32) (ix2 p k) = harr_r2 V c (ix2 ⟨4000 * t.val + p.val, row_lt_r2 t p⟩ k) := by
  obtain ⟨⟨e0, e1⟩, -⟩ := idx_facts_r2 t
  show V c (Pipeline.arrRef spec2 0) (((cfg2.win 0).blk t).view.emb (ix2 p k)) = V c (Pipeline.arrRef spec2 0) _
  exact congrArg _ (Shape.idx_ext₂
    (show win2_0.index t (0 : Fin 2) * 4000 + 1 * p.val = 4000 * t.val + p.val by rw [e0]; omega)
    (show win2_0.index t (1 : Fin 2) * 128 + 1 * k.val = k.val by rw [e1]; omega))

/-- A window at block index zero on both axes reads its whole array. -/
theorem iblk1_eq_r2 (c : Dev nD) (t : Fin cfg2.N) : (iblk2 V c 1 t : FVec Ideal S1x128 .f32) = marr_r2 V c :=
  funext fun y => congrArg (V c (Pipeline.arrRef spec2 1)) (funext fun a => Fin.ext
    ((cfg2.win 1).rect_emb_val_of_index_zero t a ((idx_facts_r2 t).2.1 a).1 y))

theorem iblk2_eq_r2 (c : Dev nD) (t : Fin cfg2.N) : (iblk2 V c 2 t : FVec Ideal S1x128 .f32) = varr_r2 V c :=
  funext fun y => congrArg (V c (Pipeline.arrRef spec2 2)) (funext fun a => Fin.ext
    ((cfg2.win 2).rect_emb_val_of_index_zero t a ((idx_facts_r2 t).2.1 a).2.1 y))

theorem iblk3_eq_r2 (c : Dev nD) (t : Fin cfg2.N) : (iblk2 V c 3 t : FVec Ideal S1x128 .f32) = garr_r2 V c :=
  funext fun y => congrArg (V c (Pipeline.arrRef spec2 3)) (funext fun a => Fin.ext
    ((cfg2.win 3).rect_emb_val_of_index_zero t a ((idx_facts_r2 t).2.1 a).2.2.1 y))

theorem iblk4_eq_r2 (c : Dev nD) (t : Fin cfg2.N) : (iblk2 V c 4 t : FVec Ideal S1x128 .f32) = barr_r2 V c :=
  funext fun y => congrArg (V c (Pipeline.arrRef spec2 4)) (funext fun a => Fin.ext
    ((cfg2.win 4).rect_emb_val_of_index_zero t a ((idx_facts_r2 t).2.1 a).2.2.2.1 y))

theorem iblk5_eq_r2 (c : Dev nD) (t : Fin cfg2.N) : (iblk2 V c 5 t : FVec Ideal S128x128 .f32) = warr_r2 V c :=
  funext fun y => congrArg (V c (Pipeline.arrRef spec2 5)) (funext fun a => Fin.ext
    ((cfg2.win 5).rect_emb_val_of_index_zero t a ((idx_facts_r2 t).2.1 a).2.2.2.2 y))

/-- Entry `(p, q)` of the output's block at point `t` sits at row `4000 t + p`, lane `q` of the array. -/
theorem emb6_r2 (t : Fin cfg2.N) (p : Fin 4000) (q : Fin 128) :
    ((cfg2.win 6).blk t).view.emb (ix2 p q) = ix2 ⟨4000 * t.val + p.val, row_lt_r2 t p⟩ q := by
  obtain ⟨-, -, e0, e1⟩ := idx_facts_r2 t
  exact Shape.idx_ext₂
    (show win2_6.index t (0 : Fin 2) * 4000 + 1 * p.val = 4000 * t.val + p.val by rw [e0]; omega)
    (show win2_6.index t (1 : Fin 2) * 128 + 1 * q.val = q.val by rw [e1]; omega)

/-- Block `t` of the output is block `t` of `G_r2` of the six arrays, entry by entry. -/
theorem flushed_r2 (c : Dev nD) (t : Fin cfg2.N) :
    (dat2 V c).flushed 6 t = ((cfg2.win 6).blk t).view.read (Elt Ideal)
      (G_r2 (harr_r2 V c) (marr_r2 V c) (varr_r2 V c) (garr_r2 V c) (barr_r2 V c) (warr_r2 V c)) := by
  show (cfg2.win 6).cut (grid2.coords t) ((dat2 V c).after 6 t) = _
  rw [after2_6]
  unfold out2_6
  rw [View.canon_unit_zero hz_r2]
  simp only [View.ld_unit_zero (S := S4000x128) hz_r2, View.ld_unit_zero (S := S1x128) hz_r2, View.ld_unit_zero (S := S128x128) hz_r2]
  funext j
  obtain ⟨p, q, rfl⟩ : ∃ (p : Fin 4000) (q : Fin 128), j = ix2 p q := ⟨j 0, j 1, eq_ix2 (n0 := 4000) (n1 := 128) j⟩
  show k2_pay1 (F := Ideal) (iblk2 V c 0 t) (iblk2 V c 1 t) (iblk2 V c 2 t) (iblk2 V c 3 t) (iblk2 V c 4 t) (iblk2 V c 5 t) (ix2 p q)
    = G_r2 (harr_r2 V c) (marr_r2 V c) (varr_r2 V c) (garr_r2 V c) (barr_r2 V c) (warr_r2 V c) (((cfg2.win 6).blk t).view.emb (ix2 p q))
  rw [emb6_r2, iblk1_eq_r2, iblk2_eq_r2, iblk3_eq_r2, iblk4_eq_r2, iblk5_eq_r2, pay_at_r2, G_r2_apply]
  exact Finset.sum_congr rfl fun k _ => by rw [iblk0_at_r2]

/-- The 25 blocks cover the rows: row `r` is in the block of point `r / 4000`. -/
theorem final2 (c : Dev nD) : (dat2 V c).arrAt 6 cfg2.N
    = G_r2 (harr_r2 V c) (marr_r2 V c) (varr_r2 V c) (garr_r2 V c) (barr_r2 V c) (warr_r2 V c) :=
  (dat2 V c).arrAt_eq_of_cover 6 _ (fun t _ => flushed_r2 V c t) fun (i : S100000x128.Idx) => by
    have hi0 : (i 0).val < 100000 := (i 0).isLt
    have hlt : (i 0).val / 4000 < cfg2.N := by rw [show cfg2.N = 25 from N_2]; omega
    exact ⟨⟨(i 0).val / 4000, hlt⟩, flush2_6 _, Finset.mem_map.mpr
      ⟨ix2 (⟨(i 0).val % 4000, Nat.mod_lt _ (by norm_num)⟩ : Fin 4000) (i 1), Finset.mem_univ _, (emb6_r2 ⟨(i 0).val / 4000, hlt⟩ _ (i 1)).trans
        (Shape.idx_ext₂ (show 4000 * ((i 0).val / 4000) + (i 0).val % 4000 = (i 0).val by omega) rfl)⟩⟩

end Cert.KernelIdeal.HandValue

end
-- ==== Proof.Val.Pay6.lean ====
import proofs.«166185_j35605278883840_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.ValueIdx
open Cert.KernelIdeal Cert.KernelIdeal.Gen
open scoped BigOperators

/-- The stored block at `(p, q)`: the rectified normalised entry. -/
theorem pay_at_r6 (h : FVec Ideal S4000x128 .f32) (mean var gamma beta : FVec Ideal S1x128 .f32)
    (p : Fin 4000) (q : Fin 128) :
    k6_pay1 (F := Ideal) h mean var gamma beta (ix2 p q)
      = max ((h (ix2 p q) - mean (ix2 (0 : Fin 1) q))
              * Ideal.rsqrt (var (ix2 (0 : Fin 1) q) + Ideal.ofBits .f32 0x3727C5AC#32)
              * gamma (ix2 (0 : Fin 1) q) + beta (ix2 (0 : Fin 1) q)) 0 := by
  unfold k6_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max _ (Ideal.ofBits .f32 0x00000000#32) = _
  rw [Ideal.ofBits_zero_f32]
  rfl

end Cert.KernelIdeal.HandValue

end
-- ==== Proof.Val.Final6.lean ====
import proofs.«166185_j35605278883840_2_alg».proof.Proof.KI.RegA6
import proofs.«166185_j35605278883840_2_alg».proof.Proof.Val.Pay6
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

abbrev harr_r6 (c : Dev nD) : FVec Ideal S100000x128 .f32 := V c (Pipeline.arrRef spec6 0)
abbrev marr_r6 (c : Dev nD) : FVec Ideal S1x128 .f32 := V c (Pipeline.arrRef spec6 1)
abbrev varr_r6 (c : Dev nD) : FVec Ideal S1x128 .f32 := V c (Pipeline.arrRef spec6 2)
abbrev garr_r6 (c : Dev nD) : FVec Ideal S1x128 .f32 := V c (Pipeline.arrRef spec6 3)
abbrev barr_r6 (c : Dev nD) : FVec Ideal S1x128 .f32 := V c (Pipeline.arrRef spec6 4)

/-- The output array, entry by entry: the rectified normalised entry. -/
def G_r6 (h : FVec Ideal S100000x128 .f32) (mean var gamma beta : FVec Ideal S1x128 .f32) :
    FVec Ideal S100000x128 .f32 := fun i =>
  max ((h (ix2 (i 0) (i 1)) - mean (ix2 (0 : Fin 1) (i 1)))
        * Ideal.rsqrt (var (ix2 (0 : Fin 1) (i 1)) + Ideal.ofBits .f32 0x3727C5AC#32)
        * gamma (ix2 (0 : Fin 1) (i 1)) + beta (ix2 (0 : Fin 1) (i 1))) 0

theorem G_r6_apply (h : FVec Ideal S100000x128 .f32) (mean var gamma beta : FVec Ideal S1x128 .f32)
    (P : Fin 100000) (q : Fin 128) :
    G_r6 h mean var gamma beta (ix2 P q) =
      max ((h (ix2 P q) - mean (ix2 (0 : Fin 1) q))
            * Ideal.rsqrt (var (ix2 (0 : Fin 1) q) + Ideal.ofBits .f32 0x3727C5AC#32)
            * gamma (ix2 (0 : Fin 1) q) + beta (ix2 (0 : Fin 1) q)) 0 := rfl

theorem hz_r6 : (![0, 0] : Fin 2 → Nat) = fun _ => 0 := funext fun a => by fin_cases a <;> rfl

theorem idx_facts_r6 : ∀ t : Fin cfg6.N, (win6_0.index t (0 : Fin 2) = t.val ∧ win6_0.index t (1 : Fin 2) = 0)
    ∧ (∀ a : Fin 2, win6_1.index t a = 0 ∧ win6_2.index t a = 0 ∧ win6_3.index t a = 0 ∧ win6_4.index t a = 0)
    ∧ win6_5.index t (0 : Fin 2) = t.val ∧ win6_5.index t (1 : Fin 2) = 0 :=
  (by decide +kernel : ∀ t : Fin grid6.N, _)

theorem row_lt_r6 (t : Fin cfg6.N) (p : Fin 4000) : 4000 * t.val + p.val < 100000 := by
  have hN : cfg6.N = 25 := N_6
  have := t.isLt; have := p.isLt; omega

/-- Row `p` of the first window's block at point `t` is row `4000 t + p` of the array. -/
theorem iblk0_at_r6 (c : Dev nD) (t : Fin cfg6.N) (p : Fin 4000) (k : Fin 128) :
    (iblk6 V c 0 t : FVec Ideal S4000x128 .f32) (ix2 p k) = harr_r6 V c (ix2 ⟨4000 * t.val + p.val, row_lt_r6 t p⟩ k) := by
  obtain ⟨⟨e0, e1⟩, -⟩ := idx_facts_r6 t
  show V c (Pipeline.arrRef spec6 0) (((cfg6.win 0).blk t).view.emb (ix2 p k)) = V c (Pipeline.arrRef spec6 0) _
  exact congrArg _ (Shape.idx_ext₂
    (show win6_0.index t (0 : Fin 2) * 4000 + 1 * p.val = 4000 * t.val + p.val by rw [e0]; omega)
    (show win6_0.index t (1 : Fin 2) * 128 + 1 * k.val = k.val by rw [e1]; omega))

/-- A window at block index zero on both axes reads its whole array. -/
theorem iblk1_eq_r6 (c : Dev nD) (t : Fin cfg6.N) : (iblk6 V c 1 t : FVec Ideal S1x128 .f32) = marr_r6 V c :=
  funext fun y => congrArg (V c (Pipeline.arrRef spec6 1)) (funext fun a => Fin.ext
    ((cfg6.win 1).rect_emb_val_of_index_zero t a ((idx_facts_r6 t).2.1 a).1 y))

theorem iblk2_eq_r6 (c : Dev nD) (t : Fin cfg6.N) : (iblk6 V c 2 t : FVec Ideal S1x128 .f32) = varr_r6 V c :=
  funext fun y => congrArg (V c (Pipeline.arrRef spec6 2)) (funext fun a => Fin.ext
    ((cfg6.win 2).rect_emb_val_of_index_zero t a ((idx_facts_r6 t).2.1 a).2.1 y))

theorem iblk3_eq_r6 (c : Dev nD) (t : Fin cfg6.N) : (iblk6 V c 3 t : FVec Ideal S1x128 .f32) = garr_r6 V c :=
  funext fun y => congrArg (V c (Pipeline.arrRef spec6 3)) (funext fun a => Fin.ext
    ((cfg6.win 3).rect_emb_val_of_index_zero t a ((idx_facts_r6 t).2.1 a).2.2.1 y))

theorem iblk4_eq_r6 (c : Dev nD) (t : Fin cfg6.N) : (iblk6 V c 4 t : FVec Ideal S1x128 .f32) = barr_r6 V c :=
  funext fun y => congrArg (V c (Pipeline.arrRef spec6 4)) (funext fun a => Fin.ext
    ((cfg6.win 4).rect_emb_val_of_index_zero t a ((idx_facts_r6 t).2.1 a).2.2.2 y))

/-- Entry `(p, q)` of the output's block at point `t` sits at row `4000 t + p`, lane `q` of the array. -/
theorem emb5_r6 (t : Fin cfg6.N) (p : Fin 4000) (q : Fin 128) :
    ((cfg6.win 5).blk t).view.emb (ix2 p q) = ix2 ⟨4000 * t.val + p.val, row_lt_r6 t p⟩ q := by
  obtain ⟨-, -, e0, e1⟩ := idx_facts_r6 t
  exact Shape.idx_ext₂
    (show win6_5.index t (0 : Fin 2) * 4000 + 1 * p.val = 4000 * t.val + p.val by rw [e0]; omega)
    (show win6_5.index t (1 : Fin 2) * 128 + 1 * q.val = q.val by rw [e1]; omega)

/-- Block `t` of the output is block `t` of `G_r6` of the five arrays, entry by entry. -/
theorem flushed_r6 (c : Dev nD) (t : Fin cfg6.N) :
    (dat6 V c).flushed 5 t = ((cfg6.win 5).blk t).view.read (Elt Ideal)
      (G_r6 (harr_r6 V c) (marr_r6 V c) (varr_r6 V c) (garr_r6 V c) (barr_r6 V c)) := by
  show (cfg6.win 5).cut (grid6.coords t) ((dat6 V c).after 5 t) = _
  rw [after6_5]
  unfold out6_5
  rw [View.canon_unit_zero hz_r6]
  simp only [View.ld_unit_zero (S := S4000x128) hz_r6, View.ld_unit_zero (S := S1x128) hz_r6]
  funext j
  obtain ⟨p, q, rfl⟩ : ∃ (p : Fin 4000) (q : Fin 128), j = ix2 p q := ⟨j 0, j 1, eq_ix2 (n0 := 4000) (n1 := 128) j⟩
  show k6_pay1 (F := Ideal) (iblk6 V c 0 t) (iblk6 V c 1 t) (iblk6 V c 2 t) (iblk6 V c 3 t) (iblk6 V c 4 t) (ix2 p q)
    = G_r6 (harr_r6 V c) (marr_r6 V c) (varr_r6 V c) (garr_r6 V c) (barr_r6 V c) (((cfg6.win 5).blk t).view.emb (ix2 p q))
  rw [emb5_r6, iblk1_eq_r6, iblk2_eq_r6, iblk3_eq_r6, iblk4_eq_r6, pay_at_r6, G_r6_apply, iblk0_at_r6]

/-- The 25 blocks cover the rows: row `r` is in the block of point `r / 4000`. -/
theorem final6 (c : Dev nD) : (dat6 V c).arrAt 5 cfg6.N
    = G_r6 (harr_r6 V c) (marr_r6 V c) (varr_r6 V c) (garr_r6 V c) (barr_r6 V c) :=
  (dat6 V c).arrAt_eq_of_cover 5 _ (fun t _ => flushed_r6 V c t) fun (i : S100000x128.Idx) => by
    have hi0 : (i 0).val < 100000 := (i 0).isLt
    have hlt : (i 0).val / 4000 < cfg6.N := by rw [show cfg6.N = 25 from N_6]; omega
    exact ⟨⟨(i 0).val / 4000, hlt⟩, flush6_5 _, Finset.mem_map.mpr
      ⟨ix2 (⟨(i 0).val % 4000, Nat.mod_lt _ (by norm_num)⟩ : Fin 4000) (i 1), Finset.mem_univ _, (emb5_r6 ⟨(i 0).val / 4000, hlt⟩ _ (i 1)).trans
        (Shape.idx_ext₂ (show 4000 * ((i 0).val / 4000) + (i 0).val % 4000 = (i 0).val by omega) rfl)⟩⟩

end Cert.KernelIdeal.HandValue

end
-- ==== Proof.Val.Bridge6.lean ====
import proofs.«166185_j35605278883840_2_alg».proof.Proof.Val.Final6
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_norm_relu r_relu r_rows)
open Cert.ReferenceIdeal.HandValue (rowOverNodes_apply hostRsqrt_apply scalarOverFeatures_apply scalarOverNodes_apply)
open scoped BigOperators

section Region6
variable [Cert.ReferenceIdeal.Facts]
variable (V : (c : Dev nD) → (b : Ref sig .tc) → Buf (Elt Ideal) ((c : Thread nD τ).loc b))

-- Each of the four vectors is repeated over the rows, so at (P, q) it reads its entry q.
theorem r_norm_relu_at_r6 (hpre : FVec Ideal Cert.ReferenceIdeal.S100000x128 .f32)
    (mean var gamma beta : FVec Ideal Cert.ReferenceIdeal.S128 .f32) (P : Fin 100000) (q : Fin 128) :
    r_norm_relu (F := Ideal) hpre mean var gamma beta (ix2 P q)
      = max ((hpre (ix2 P q) - mean (ix1 q)) * Ideal.rsqrt (var (ix1 q) + Ideal.ofBits .f32 0x3727C5AC#32)
          * gamma (ix1 q) + beta (ix1 q)) 0 := by
  unfold r_norm_relu r_relu r_rows
  rw [maximumf_apply, addf_apply, mulf_apply, mulf_apply, subf_apply, rowOverNodes_apply, rowOverNodes_apply,
    rowOverNodes_apply, rowOverNodes_apply, hostRsqrt_apply, addf_apply, scalarOverFeatures_apply,
    scalarOverNodes_apply, constant_apply, constant_apply, Ideal.ofBits_zero_f32]

-- Both sides are the same expression of the same entries once the four rows are read as the four vectors.
theorem bridge6 (c : Dev nD) (h : FVec Ideal Cert.ReferenceIdeal.S100000x128 .f32)
    (mean var gamma beta : FVec Ideal Cert.ReferenceIdeal.S128 .f32)
    (hh : harr_r6 V c = h)
    (hm : ∀ q : Fin 128, marr_r6 V c (ix2 (0 : Fin 1) q) = mean (ix1 q))
    (hv : ∀ q : Fin 128, varr_r6 V c (ix2 (0 : Fin 1) q) = var (ix1 q))
    (hg : ∀ q : Fin 128, garr_r6 V c (ix2 (0 : Fin 1) q) = gamma (ix1 q))
    (hbt : ∀ q : Fin 128, barr_r6 V c (ix2 (0 : Fin 1) q) = beta (ix1 q)) (i : S100000x128.Idx) :
    (dat6 V c).arrAt 5 cfg6.N i = r_norm_relu (F := Ideal) h mean var gamma beta i := by
  subst hh
  obtain ⟨P, q, rfl⟩ : ∃ (P : Fin 100000) (q : Fin 128), i = ix2 P q := ⟨i 0, i 1, eq_ix2 i⟩
  rw [final6 V c, G_r6_apply, hm q, hv q, hg q, hbt q, r_norm_relu_at_r6]

end Region6

end Cert.KernelIdeal.HandValue

end
-- ==== Proof.Val.Bridge2.lean ====
import proofs.«166185_j35605278883840_2_alg».proof.Proof.Val.Final2
import proofs.«166185_j35605278883840_2_alg».proof.Proof.Ref.Stages
import proofs.«166185_j35605278883840_2_alg».proof.Proof.Val.RefOps
import proofs.«166185_j35605278883840_2_alg».proof.Proof.Val.Bridge6

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_norm_relu r_hw)
open scoped BigOperators

section Region2
variable [Cert.ReferenceIdeal.Facts]
variable (V : (c : Dev nD) → (b : Ref sig .tc) → Buf (Elt Ideal) ((c : Thread nD τ).loc b))

-- Both sides are the same sum over the contracted coordinate of the same products once the four rows are read as the four vectors.
theorem bridge2 (c : Dev nD) (h : FVec Ideal Cert.ReferenceIdeal.S100000x128 .f32)
    (mean var gamma beta : FVec Ideal Cert.ReferenceIdeal.S128 .f32) (W : FVec Ideal Cert.ReferenceIdeal.S128x128 .f32)
    (hh : harr_r2 V c = h)
    (hm : ∀ q : Fin 128, marr_r2 V c (ix2 (0 : Fin 1) q) = mean (ix1 q))
    (hv : ∀ q : Fin 128, varr_r2 V c (ix2 (0 : Fin 1) q) = var (ix1 q))
    (hg : ∀ q : Fin 128, garr_r2 V c (ix2 (0 : Fin 1) q) = gamma (ix1 q))
    (hbt : ∀ q : Fin 128, barr_r2 V c (ix2 (0 : Fin 1) q) = beta (ix1 q))
    (hW : warr_r2 V c = W) (i : S100000x128.Idx) :
    (dat2 V c).arrAt 6 cfg2.N i = r_hw (F := Ideal) (r_norm_relu (F := Ideal) h mean var gamma beta) W i := by
  subst hh hW
  obtain ⟨P, q, rfl⟩ : ∃ (P : Fin 100000) (q : Fin 128), i = ix2 P q := ⟨i 0, i 1, eq_ix2 i⟩
  rw [final2 V c, G_r2_apply]
  unfold r_hw
  rw [Cert.ReferenceIdeal.HandValue.dotNodes_apply]
  show (_ : EReal) = _
  refine Finset.sum_congr rfl fun k _ => ?_
  rw [hm k, hv k, hg k, hbt k, r_norm_relu_at_r6]

end Region2

end Cert.KernelIdeal.HandValue

end
-- ==== Proof.Val.ChainB0.lean ====
import proofs.«166185_j35605278883840_2_alg».proof.Proof.KI.Run
import proofs.«166185_j35605278883840_2_alg».proof.Proof.Ref.Stages
import proofs.«166185_j35605278883840_2_alg».proof.Proof.Val.Args
import proofs.«166185_j35605278883840_2_alg».proof.Proof.Val.Bridge2

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable [Cert.ReferenceIdeal.Facts]
variable (m : (ℓ : Loc nD τ sig) → Buf (Elt Ideal) ℓ) (ρ : Dev nD → PrngReg) (c : Dev nD)

-- With its operands replaced by the stages they equal, what the region leaves is the next layer's product.
theorem chainB0
    (hh : ∀ i, BW5 m ρ c (Proc.devRef .tc main_v49_0) i = atArgs m c (r_hpre_0 (F := Ideal)) i)
    (hm : ∀ q : Fin 128, BW5 m ρ c (Proc.devRef .tc main_v51) (ix2 (0 : Fin 1) q) = atArgs m c (r_mean_0 (F := Ideal)) (ix1 q))
    (hv : ∀ q : Fin 128, BW5 m ρ c (Proc.devRef .tc main_v57) (ix2 (0 : Fin 1) q) = atArgs m c (r_var_0 (F := Ideal)) (ix1 q))
    (hg : ∀ q : Fin 128, BW5 m ρ c (Proc.devRef .tc main_v64) (ix2 (0 : Fin 1) q) = r_row (F := Ideal) ![0, 0] Cert.ReferenceIdeal.Facts₀.slices_S3x128_S1x128_0_0 (m ((c.tc : Thread nD τ).loc main_arg7)) (ix1 q))
    (hbt : ∀ q : Fin 128, BW5 m ρ c (Proc.devRef .tc main_v65) (ix2 (0 : Fin 1) q) = r_row (F := Ideal) ![0, 0] Cert.ReferenceIdeal.Facts₀.slices_S3x128_S1x128_0_0 (m ((c.tc : Thread nD τ).loc main_arg8)) (ix1 q))
    (hW : BW5 m ρ c (Proc.devRef .tc main_v63)
      = r_mat (F := Ideal) ![1, 0, 0] Cert.ReferenceIdeal.Facts₀.slices_S3x128x128_S1x128x128_1_0_0 (m ((c.tc : Thread nD τ).loc main_arg5)))
    (i) : BW6 m ρ c (Proc.devRef .tc main_v66) i = atArgs m c (r_hw_1 (F := Ideal)) i :=
  (congrFun (BW6_arr m ρ c 6) i).trans (bridge2 (BV5 m ρ) c _ _ _ _ _ _ (funext hh) hm hv hg hbt hW i)

end Cert.KernelIdeal.HandValue

end
-- ==== Proof.Val.Pay3.lean ====
import proofs.«166185_j35605278883840_2_alg».proof.Proof.Gen.KernelIdeal.Skeleton
import proofs.«166185_j35605278883840_2_alg».proof.Proof.Val.Cols

set_option maxRecDepth 16384

noncomputable section

namespace Cert.KernelIdeal.HandValue

open Idealize.ShloMosaic Idealize.ShloMosaic.ValueIdx
open Cert.KernelIdeal Cert.KernelIdeal.Gen
open scoped BigOperators

/-- The combined block at `(p, q)`: the aggregate, plus the projection times the row's normaliser, plus the bias of lane `q`. -/
theorem k3_pay3_apply (agg : FVec Ideal S4000x128 .f32) (hw : FVec Ideal S4000x128 .bf16)
    (sn : FVec Ideal S4000x1 .f32) (bias : FVec Ideal S1x128 .f32) (p : Fin 4000) (q : Fin 128) :
    k3_pay3 (F := Ideal) agg hw sn bias (ix2 p q)
      = agg (ix2 p q) + hw (ix2 p q) * sn (ix2 p (0 : Fin 1)) + bias (ix2 (0 : Fin 1) q) := by
  unfold k3_pay3
  rw [shapeCast_self, shapeCast_self, shapeCast_self, shapeCast_self]
  show agg (ix2 p q) + hw (ix2 p q) * broadcastTo S4000x128 sn broadcasts_S4000x1_S4000x128 (ix2 p q)
      + broadcastTo S4000x128 bias broadcasts_S1x128_S4000x128 (ix2 p q) = _
  rw [broadcastTo_col_apply, broadcastTo_1b_ab_apply]

/-- Each accumulator gains the column sums of the combined block (of its squares, for the second). -/
theorem k3_pay4_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k3_pay4 (F := Ideal) agg hw sn bias acc (ix2 u q)
      = acc (ix2 u q) + ∑ p : Fin 4000, k3_pay3 (F := Ideal) agg hw sn bias (ix2 p q) := by
  unfold k3_pay4
  exact (congrFun (shapeCast_self _ _) (ix2 u q)).trans (congrArg (acc (ix2 u q) + ·) (colsum_apply _ _ _ _ _ u q))

theorem k3_pay5_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k3_pay5 (F := Ideal) agg hw sn bias acc (ix2 u q)
      = acc (ix2 u q) + ∑ p : Fin 4000,
          k3_pay3 (F := Ideal) agg hw sn bias (ix2 p q) * k3_pay3 (F := Ideal) agg hw sn bias (ix2 p q) := by
  unfold k3_pay5
  exact (congrFun (shapeCast_self _ _) (ix2 u q)).trans (congrArg (acc (ix2 u q) + ·) (colsum_apply _ _ _ _ _ u q))

/-- The accumulators' reset values are the zero row. -/
theorem k3_pay1_apply (i : S1x128.Idx) : k3_pay1 (F := Ideal) i = 0 := by
  unfold k3_pay1
  exact (congrFun (shapeCast_self _ _) i).trans Ideal.ofBits_zero_f32

theorem k3_pay2_apply (i : S1x128.Idx) : k3_pay2 (F := Ideal) i = 0 := by
  unfold k3_pay2
  exact (congrFun (shapeCast_self _ _) i).trans Ideal.ofBits_zero_f32

end Cert.KernelIdeal.HandValue

end
-- ==== Proof.Val.Final3.lean ====
import proofs.«166185_j35605278883840_2_alg».proof.Proof.KI.RegR3
import proofs.«166185_j35605278883840_2_alg».proof.Proof.Val.Pay3
import proofs.«166185_j35605278883840_2_alg».proof.Proof.Math.Var
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand
open scoped BigOperators

variable (V : (c : Dev nD) → (b : Ref sig .tc) → Buf (Elt Ideal) ((c : Thread nD τ).loc b))

abbrev agg3 (c : Dev nD) : FVec Ideal S100000x128 .f32 := V c (Pipeline.arrRef spec3 0)
abbrev hw3 (c : Dev nD) : FVec Ideal S100000x128 .bf16 := V c (Pipeline.arrRef spec3 1)
abbrev sn3 (c : Dev nD) : FVec Ideal S100000x1 .f32 := V c (Pipeline.arrRef spec3 2)
abbrev bias3 (c : Dev nD) : FVec Ideal S1x128 .f32 := V c (Pipeline.arrRef spec3 3)

theorem idx_facts3 : ∀ t : Fin cfg3.N,
    (∀ a : Fin 2, win3_3.index t a = 0 ∧ win3_5.index t a = 0 ∧ win3_6.index t a = 0)
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_4.index t (0 : Fin 2) = t.val ∧ win3_4.index t (1 : Fin 2) = 0 :=
  (by decide +kernel : ∀ t : Fin grid3.N, _)

theorem row_lt3 (t : Fin cfg3.N) (p : Fin 4000) : 4000 * t.val + p.val < 100000 := by
  have hN : cfg3.N = 25 := N_3
  have := t.isLt; have := p.isLt; omega

/-- Row `p` of block `t` of a row-blocked array is row `4000 t + p` of the array. -/
theorem aggBlk3_apply (c : Dev nD) (t : Fin cfg3.N) (p : Fin 4000) (q : Fin 128) :
    iblk3 V c 0 t (ix2 p q) = agg3 V c (ix2 ⟨4000 * t.val + p.val, row_lt3 t p⟩ q) := by
  obtain ⟨-, e0, e1, -⟩ := idx_facts3 t
  show V c (Pipeline.arrRef spec3 0) (((cfg3.win 0).blk t).view.emb (ix2 p q)) = V c (Pipeline.arrRef spec3 0) _
  exact congrArg _ (Shape.idx_ext₂
    (show win3_0.index t (0 : Fin 2) * 4000 + 1 * p.val = 4000 * t.val + p.val by rw [e0]; omega)
    (show win3_0.index t (1 : Fin 2) * 128 + 1 * q.val = q.val by rw [e1]; omega))

theorem hwBlk3_apply (c : Dev nD) (t : Fin cfg3.N) (p : Fin 4000) (q : Fin 128) :
    iblk3 V c 1 t (ix2 p q) = hw3 V c (ix2 ⟨4000 * t.val + p.val, row_lt3 t p⟩ q) := by
  obtain ⟨-, -, -, e0, e1, -⟩ := idx_facts3 t
  show V c (Pipeline.arrRef spec3 1) (((cfg3.win 1).blk t).view.emb (ix2 p q)) = V c (Pipeline.arrRef spec3 1) _
  exact congrArg _ (Shape.idx_ext₂
    (show win3_1.index t (0 : Fin 2) * 4000 + 1 * p.val = 4000 * t.val + p.val by rw [e0]; omega)
    (show win3_1.index t (1 : Fin 2) * 128 + 1 * q.val = q.val by rw [e1]; omega))

theorem snBlk3_apply (c : Dev nD) (t : Fin cfg3.N) (p : Fin 4000) (u : Fin 1) :
    iblk3 V c 2 t (ix2 p u) = sn3 V c (ix2 ⟨4000 * t.val + p.val, row_lt3 t p⟩ (0 : Fin 1)) := by
  obtain ⟨-, -, -, -, -, e0, e1, -⟩ := idx_facts3 t
  show V c (Pipeline.arrRef spec3 2) (((cfg3.win 2).blk t).view.emb (ix2 p u)) = V c (Pipeline.arrRef spec3 2) _
  exact congrArg _ (Shape.idx_ext₂
    (show win3_2.index t (0 : Fin 2) * 4000 + 1 * p.val = 4000 * t.val + p.val by rw [e0]; omega)
    (show win3_2.index t (1 : Fin 2) * 1 + 1 * u.val = 0 by rw [e1]; omega))

/-- A window at block index zero on both axes reads its whole array. -/
theorem biasBlk3_apply (c : Dev nD) (t : Fin cfg3.N) : (iblk3 V c 3 t : FVec Ideal S1x128 .f32) = bias3 V c :=
  funext fun y => congrArg (V c (Pipeline.arrRef spec3 3)) (funext fun a => Fin.ext
    ((cfg3.win 3).rect_emb_val_of_index_zero t a ((idx_facts3 t).1 a).1 y))

def hpreAt3 (c : Dev nD) (P : Fin 100000) (q : Fin 128) : EReal :=
  agg3 V c (ix2 P q) + hw3 V c (ix2 P q) * sn3 V c (ix2 P (0 : Fin 1)) + bias3 V c (ix2 (0 : Fin 1) q)

def hpre3 (c : Dev nD) : FVec Ideal S100000x128 .f32 := fun i => hpreAt3 V c (i 0) (i 1)

/-- The combined block at point `t` is rows `4000 t … 4000 t + 3999` of the combined array. -/
theorem pay3_blk3 (c : Dev nD) (t : Fin cfg3.N) (p : Fin 4000) (q : Fin 128) :
    k3_pay3 (F := Ideal) (iblk3 V c 0 t) (iblk3 V c 1 t) (iblk3 V c 2 t) (iblk3 V c 3 t) (ix2 p q)
      = hpreAt3 V c ⟨4000 * t.val + p.val, row_lt3 t p⟩ q := by
  rw [k3_pay3_apply, aggBlk3_apply, hwBlk3_apply, snBlk3_apply, biasBlk3_apply]
  rfl

/-- Entry `(p, q)` of the first output's block at point `t` sits at row `4000 t + p`, lane `q` of the array. -/
theorem read_blk3_4 (t : Fin cfg3.N) (p : Fin 4000) (q : Fin 128) :
    ((cfg3.win 4).blk t).view.emb (ix2 p q) = ix2 ⟨4000 * t.val + p.val, row_lt3 t p⟩ q := by
  obtain ⟨-, -, -, -, -, -, -, e0, e1⟩ := idx_facts3 t
  exact Shape.idx_ext₂
    (show win3_4.index t (0 : Fin 2) * 4000 + 1 * p.val = 4000 * t.val + p.val by rw [e0]; omega)
    (show win3_4.index t (1 : Fin 2) * 128 + 1 * q.val = q.val by rw [e1]; omega)

/-- Row `P` lies in the block of point `P / 4000`, which holds that block of the combined array. -/
theorem final3_4_apply (c : Dev nD) (P : Fin 100000) (q : Fin 128) :
    (dat3 V c).arrAt 4 cfg3.N (ix2 P q) = hpreAt3 V c P q := by
  have hP := P.isLt
  have hlt : P.val / 4000 < cfg3.N := by rw [show cfg3.N = 25 from N_3]; omega
  refine (dat3 V c).arrAt_apply_of_mem 4 (hpre3 V c) (fun t _ => ?_) cfg3.N ⟨P.val / 4000, hlt⟩ (ix2 P q) hlt
    (flush3_4 _) ?_
  · show (cfg3.win 4).cut (grid3.coords t) ((dat3 V c).after 4 t) = _
    rw [after3_4]
    funext j
    obtain ⟨p, r, rfl⟩ : ∃ (p : Fin 4000) (r : Fin 128), j = ix2 p r := ⟨j 0, j 1, eq_ix2 (n0 := 4000) (n1 := 128) j⟩
    show _ = hpre3 V c (((cfg3.win 4).blk t).view.emb (ix2 p r))
    rw [read_blk3_4]
    exact pay3_blk3 V c t p r
  · exact Finset.mem_map.mpr ⟨ix2 (⟨P.val % 4000, Nat.mod_lt _ (by norm_num)⟩ : Fin 4000) q, Finset.mem_univ _,
      (read_blk3_4 ⟨P.val / 4000, hlt⟩ _ q).trans
        (Shape.idx_ext₂ (show 4000 * (P.val / 4000) + P.val % 4000 = P.val by omega) rfl)⟩

/-- The sum of block `s`'s rows of a function of the row (zero past the last block). -/
def blockSum3 (g : Fin 100000 → EReal) (s : ℕ) : EReal :=
  if h : s < 25 then ∑ p : Fin 4000, g ⟨4000 * s + p.val, by have := p.isLt; omega⟩ else 0

/-- The rows are the pairs (block, place), so the 25 block sums add up to the sum over all rows. -/
theorem sum_blockSum3 (g : Fin 100000 → EReal) : ∑ s ∈ Finset.range 25, blockSum3 g s = ∑ P : Fin 100000, g P := by
  rw [Cert.Math.sum_blocks_of_eq 25 4000 (by norm_num) g, ← Fin.sum_univ_eq_sum_range]
  exact Finset.sum_congr rfl fun s _ => dif_pos s.isLt

/-- A column sum over the combined block at point `t`, taken entrywise through `φ`, is block `t`'s sum. -/
theorem colsum_blk3 (c : Dev nD) (t : Fin cfg3.N) (q : Fin 128) (φ : EReal → EReal) :
    ∑ p : Fin 4000, φ (k3_pay3 (F := Ideal) (iblk3 V c 0 t) (iblk3 V c 1 t) (iblk3 V c 2 t) (iblk3 V c 3 t) (ix2 p q))
      = blockSum3 (fun P => φ (hpreAt3 V c P q)) t.val := by
  unfold blockSum3
  rw [dif_pos (Nat.lt_of_lt_of_eq t.isLt N_3)]
  exact Finset.sum_congr rfl fun p _ => congrArg φ (pay3_blk3 V c t p q)

/-- After point `n` each accumulator is the sum of the block sums of points `0 … n`: it starts at zero and every point adds its block's sum. -/
theorem accAt3_eq (c : Dev nD) (u : Fin 1) (q : Fin 128) : ∀ (n : ℕ) (hn : n < cfg3.N),
    (accAt3 V c n hn).1 (ix2 u q) = ∑ s ∈ Finset.range (n + 1), blockSum3 (fun P => hpreAt3 V c P q) s
    ∧ (accAt3 V c n hn).2 (ix2 u q)
      = ∑ s ∈ Finset.range (n + 1), blockSum3 (fun P => hpreAt3 V c P q * hpreAt3 V c P q) s
  | 0, hn => by
    rw [accAt3_zero, Finset.sum_range_one, Finset.sum_range_one]
    dsimp only
    exact ⟨(k3_pay4_apply _ _ _ _ _ u q).trans (by
        rw [k3_pay1_apply, zero_add]; exact colsum_blk3 V c ⟨0, hn⟩ q fun x => x),
      (k3_pay5_apply _ _ _ _ _ u q).trans (by
        rw [k3_pay2_apply, zero_add]; exact colsum_blk3 V c ⟨0, hn⟩ q fun x => x * x)⟩
  | n + 1, hn => by
    obtain ⟨h1, h2⟩ := accAt3_eq c u q n (Nat.lt_of_succ_lt hn)
    rw [accAt3_succ]
    dsimp only
    exact ⟨(k3_pay4_apply _ _ _ _ _ u q).trans ((congrArg₂ (· + ·) h1
        (colsum_blk3 V c ⟨n + 1, hn⟩ q fun x => x)).trans (Finset.sum_range_succ _ _).symm),
      (k3_pay5_apply _ _ _ _ _ u q).trans ((congrArg₂ (· + ·) h2
        (colsum_blk3 V c ⟨n + 1, hn⟩ q fun x => x * x)).trans (Finset.sum_range_succ _ _).symm)⟩

def sum3 (c : Dev nD) : FVec Ideal S1x128 .f32 := fun i => ∑ P : Fin 100000, hpreAt3 V c P (i 1)

def sumsq3 (c : Dev nD) : FVec Ideal S1x128 .f32 :=
  fun i => ∑ P : Fin 100000, hpreAt3 V c P (i 1) * hpreAt3 V c P (i 1)

theorem read_blk3_5 (t : Fin cfg3.N) (y : S1x128.Idx) : ((cfg3.win 5).blk t).view.emb y = y :=
  funext fun a => Fin.ext ((cfg3.win 5).rect_emb_val_of_index_zero t a ((idx_facts3 t).1 a).2.1 y)

theorem read_blk3_6 (t : Fin cfg3.N) (y : S1x128.Idx) : ((cfg3.win 6).blk t).view.emb y = y :=
  funext fun a => Fin.ext ((cfg3.win 6).rect_emb_val_of_index_zero t a ((idx_facts3 t).1 a).2.2 y)

abbrev last3 : Fin cfg3.N := ⟨24, by rw [show cfg3.N = 25 from N_3]; omega⟩

/-- The only point of the grid congruent to 24 modulo 25 is the last. -/
theorem last3_of {t : Fin cfg3.N} (h : t.val % 25 = 24) : t.val = 24 := by
  have := Nat.lt_of_lt_of_eq t.isLt N_3; omega

/-- The second output is the first accumulator after the last point: the sum of all 25 block sums. -/
theorem final3_5_apply (c : Dev nD) (u : Fin 1) (q : Fin 128) :
    (dat3 V c).arrAt 5 cfg3.N (ix2 u q) = ∑ P : Fin 100000, hpreAt3 V c P q := by
  refine (dat3 V c).arrAt_apply_of_mem 5 (sum3 V c) (fun t hf => ?_) cfg3.N last3 (ix2 u q) last3.isLt
    ((flush3_5 last3).mpr rfl) (Finset.mem_map.mpr ⟨ix2 u q, Finset.mem_univ _, read_blk3_5 last3 _⟩)
  show (cfg3.win 5).cut (grid3.coords t) ((dat3 V c).after 5 t) = _
  rw [after3_5]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg3.win 5).blk t).view.read (Elt Ideal) G (ix2 v r) = G (ix2 v r) :=
    fun G => congrArg G (read_blk3_5 t _)
  refine ((accAt3_eq V c v r t.val t.isLt).1.trans ?_).trans (hr (sum3 V c)).symm
  rw [last3_of ((flush3_5 t).mp hf)]
  exact sum_blockSum3 _

theorem final3_6_apply (c : Dev nD) (u : Fin 1) (q : Fin 128) :
    (dat3 V c).arrAt 6 cfg3.N (ix2 u q) = ∑ P : Fin 100000, hpreAt3 V c P q * hpreAt3 V c P q := by
  refine (dat3 V c).arrAt_apply_of_mem 6 (sumsq3 V c) (fun t hf => ?_) cfg3.N last3 (ix2 u q) last3.isLt
    ((flush3_6 last3).mpr rfl) (Finset.mem_map.mpr ⟨ix2 u q, Finset.mem_univ _, read_blk3_6 last3 _⟩)
  show (cfg3.win 6).cut (grid3.coords t) ((dat3 V c).after 6 t) = _
  rw [after3_6]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg3.win 6).blk t).view.read (Elt Ideal) G (ix2 v r) = G (ix2 v r) :=
    fun G => congrArg G (read_blk3_6 t _)
  refine ((accAt3_eq V c v r t.val t.isLt).2.trans ?_).trans (hr (sumsq3 V c)).symm
  rw [last3_of ((flush3_6 t).mp hf)]
  exact sum_blockSum3 _

end Cert.KernelIdeal.HandValue

end
-- ==== Proof.Val.Bridge3.lean ====
import proofs.«166185_j35605278883840_2_alg».proof.Proof.Val.Final3
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_hpre r_rows r_colsum)
open Cert.ReferenceIdeal.HandValue (rowOverNodes_apply colSum_apply)
open scoped BigOperators

variable (V : (c : Dev nD) → (b : Ref sig .tc) → Buf (Elt Ideal) ((c : Thread nD τ).loc b))
variable [Cert.ReferenceIdeal.Facts]

-- A column repeated over 128 columns reads, at (p, q), its entry of row p.
theorem refCol3_apply {α : Type} (v : Cert.ReferenceIdeal.S100000x1.Idx → α) (p : Fin 100000) (q : Fin 128) :
    broadcastInDim (s := Cert.ReferenceIdeal.S100000x1) Cert.ReferenceIdeal.S100000x128 ![0, 1]
        Cert.ReferenceIdeal.Facts₀.bcast_S100000x1_S100000x128_0_1 v (ix2 p q) = v (ix2 p (0 : Fin 1)) :=
  broadcastInDim_apply _ Cert.ReferenceIdeal.Facts₀.bcast_S100000x1_S100000x128_0_1 v (ix2 p q) (ix2 p (0 : Fin 1))
    (fun a => by
      match a with
      | ⟨0, _⟩ => show p.val = if (100000 : ℕ) = 1 then 0 else p.val; rw [if_neg (by decide)]
      | ⟨1, _⟩ => show 0 = if (1 : ℕ) = 1 then 0 else q.val; rw [if_pos rfl])

theorem r_hpre3_apply (agg hw : FVec Ideal Cert.ReferenceIdeal.S100000x128 .f32)
    (sn : FVec Ideal Cert.ReferenceIdeal.S100000x1 .f32) (bias : FVec Ideal Cert.ReferenceIdeal.S128 .f32)
    (P : Fin 100000) (q : Fin 128) :
    r_hpre (F := Ideal) agg hw sn bias (ix2 P q)
      = agg (ix2 P q) + hw (ix2 P q) * sn (ix2 P (0 : Fin 1)) + bias (ix1 q) := by
  unfold r_hpre r_rows
  rw [addf_apply, addf_apply, mulf_apply, refCol3_apply, rowOverNodes_apply]

-- Entry by entry both sides are agg + hw * self_norm + bias; the reference's reduction starts from a zero, and the sums over the rows are the same sums.
theorem bridge3 (c : Dev nD) (agg hw : FVec Ideal Cert.ReferenceIdeal.S100000x128 .f32)
    (sn : FVec Ideal Cert.ReferenceIdeal.S100000x1 .f32) (bias : FVec Ideal Cert.ReferenceIdeal.S128 .f32)
    (h0 : V c (Pipeline.arrRef spec3 0) = agg) (h1 : V c (Pipeline.arrRef spec3 1) = hw)
    (h2 : V c (Pipeline.arrRef spec3 2) = sn)
    (hb : ∀ q : Fin 128, V c (Pipeline.arrRef spec3 3) (ix2 (0 : Fin 1) q) = bias (ix1 q))
    (hp : FVec Ideal Cert.ReferenceIdeal.S100000x128 .f32) (he : r_hpre (F := Ideal) agg hw sn bias = hp) :
    (∀ i : Cert.ReferenceIdeal.S100000x128.Idx, (dat3 V c).arrAt 4 cfg3.N i = hp i)
    ∧ (∀ q : Fin 128, (dat3 V c).arrAt 5 cfg3.N (ix2 (0 : Fin 1) q) = r_colsum (F := Ideal) hp (ix1 q))
    ∧ (∀ q : Fin 128, (dat3 V c).arrAt 6 cfg3.N (ix2 (0 : Fin 1) q) = r_colsum (F := Ideal) (mulf hp hp) (ix1 q)) := by
  subst h0 h1 h2 he
  have e : ∀ P q, hpreAt3 V c P q = r_hpre (F := Ideal) (agg3 V c) (hw3 V c) (sn3 V c) bias (ix2 P q) := fun P q => by
    unfold hpreAt3
    rw [r_hpre3_apply, ← hb q]
  have cs : ∀ (x : FVec Ideal Cert.ReferenceIdeal.S100000x128 .f32) (q : Fin 128),
      r_colsum (F := Ideal) x (ix1 q) = ∑ P : Fin 100000, x (ix2 P q) := fun x q => by
    unfold r_colsum
    rw [colSum_apply, constant_apply, Ideal.ofBits_zero_f32, zero_add]
  refine ⟨fun i => ?_, fun q => ?_, fun q => ?_⟩
  · exact (congrArg _ (eq_ix2 i)).trans ((final3_4_apply V c _ _).trans ((e _ _).trans (congrArg _ (eq_ix2 i).symm)))
  · exact (final3_5_apply V c 0 q).trans ((Finset.sum_congr rfl fun P _ => e P q).trans (cs _ q).symm)
  · exact (final3_6_apply V c 0 q).trans ((Finset.sum_congr rfl fun P _ =>
      (congrArg₂ (· * ·) (e P q) (e P q)).trans (mulf_apply _ _ (ix2 P q)).symm).trans (cs _ q).symm)

end Cert.KernelIdeal.HandValue

end
-- ==== Proof.Val.ChainA1.lean ====
import proofs.«166185_j35605278883840_2_alg».proof.Proof.Gen.ReferenceIdeal
import proofs.«166185_j35605278883840_2_alg».proof.Proof.Gen.Pre_finite_inputs
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef
import proofs.«166185_j35605278883840_2_alg».proof.Proof.Val.Args
import proofs.«166185_j35605278883840_2_alg».proof.Proof.Val.Stats
import proofs.«166185_j35605278883840_2_alg».proof.Proof.Val.RefReal
import proofs.«166185_j35605278883840_2_alg».proof.Proof.Val.Pre
import proofs.«166185_j35605278883840_2_alg».proof.Proof.Val.Bridge3
import proofs.«166185_j35605278883840_2_alg».proof.Proof.Val.ChainG

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

-- From the layer's product: the neighbourhood sum, the combination with its two column sums, then mean and variance, which agree with the reference's where every entry is real.
theorem chainA1 (hpre : Cert.Pre_KernelIdeal m)
    (hhw : ∀ i, BW6 m ρ c (Proc.devRef .tc main_v66) i = atArgs m c (r_hw_1 (F := Ideal)) i) :
    (∀ i, BW9 m ρ c (Proc.devRef .tc main_v83_0) i = atArgs m c (r_hpre_1 (F := Ideal)) i)
    ∧ (∀ q : Fin 128, BW9 m ρ c (Proc.devRef .tc main_v85) (ix2 0 q) = atArgs m c (r_mean_1 (F := Ideal)) (ix1 q))
    ∧ (∀ q : Fin 128, BW9 m ρ c (Proc.devRef .tc main_v91) (ix2 0 q) = atArgs m c (r_var_1 (F := Ideal)) (ix1 q))
    ∧ (∀ q : Fin 128, BW9 m ρ c (Proc.devRef .tc main_v98) (ix2 0 q) = r_row (F := Ideal) ![1, 0] Cert.ReferenceIdeal.Facts₀.slices_S3x128_S1x128_1_0 (m ((c.tc : Thread nD τ).loc main_arg7)) (ix1 q))
    ∧ (∀ q : Fin 128, BW9 m ρ c (Proc.devRef .tc main_v99) (ix2 0 q) = r_row (F := Ideal) ![1, 0] Cert.ReferenceIdeal.Facts₀.slices_S3x128_S1x128_1_0 (m ((c.tc : Thread nD τ).loc main_arg8)) (ix1 q)) := by
  have h_agg : BW7 m ρ c (Proc.devRef .tc main_v79) = atArgs m c (r_agg_1 (F := Ideal)) := by
    refine (host3_main_v79 (BW6 m ρ c)).trans ?_
    rw [persist_6 m ρ c main_v1 (by decide), persist_6 m ρ c main_v3 (by decide), persist_6 m ρ c main_v26 (by decide),
      graph_src, graph_dst, graph_edge_norm]
    exact aggOf_eq _ _ hhw _ _ _
  have r6 := host3_main_v82 (BW6 m ρ c)
  have r7 := host4_main_v98 (BW8 m ρ c)
  have r8 := host4_main_v99 (BW8 m ρ c)
  rw [persist_6 m ρ c main_arg6 (by decide), BW1_main_arg6] at r6
  rw [persist_8 m ρ c main_arg7 (by decide), BW1_main_arg7] at r7
  rw [persist_8 m ρ c main_arg8 (by decide), BW1_main_arg8] at r8
  obtain ⟨h4, h5, h6⟩ := bridge3 (BV7 m ρ) c _ _ _ _ h_agg
    ((hostOps3_keeps (BW6 m ρ c) main_v66 (by decide)).trans (funext hhw))
    ((persist_7 m ρ c main_v28 (by decide)).trans (graph_self_norm m ρ c))
    (fun q => (congrFun r6 (ix2 0 q)).trans (layerRow_apply _ _ _ 0 q))
    (atArgs m c (r_hpre_1 (F := Ideal))) rfl
  have s5 := fun q : Fin 128 => (congrFun (BW8_arr m ρ c 5) _).trans (h5 q)
  have s6 := fun q : Fin 128 => (congrFun (BW8_arr m ρ c 6) _).trans (h6 q)
  have h_real : ∀ i, Cert.Math.IsReal (atArgs m c (r_hpre_1 (F := Ideal)) i) := by
    unfold atArgs
    exact Cert.ReferenceIdeal.HandValue.real_hpre_1 _ _ _ _ _ _ _ _ _ _ _ _ _ (real_arg0 m hpre c) (real_arg3 m hpre c)
      (real_arg4 m hpre c) (real_arg5 m hpre c) (real_arg6 m hpre c) (real_arg7 m hpre c) (real_arg8 m hpre c)
      (real_arg9 m hpre c) (real_arg10 m hpre c) (real_arg11 m hpre c) (real_arg12 m hpre c)
  have e51 : BW9 m ρ c (Proc.devRef .tc main_v85) = k_mean (BW8 m ρ c (Proc.devRef .tc main_v83_1)) :=
    host4_main_v85 (BW8 m ρ c)
  have e57 : BW9 m ρ c (Proc.devRef .tc main_v91)
      = k_var (BW8 m ρ c (Proc.devRef .tc main_v83_1)) (BW8 m ρ c (Proc.devRef .tc main_v83_2)) :=
    host4_main_v91 (BW8 m ρ c)
  refine ⟨fun i => (congrFun (hostOps4_keeps (BW8 m ρ c) main_v83_0 (by decide)) i).trans
      ((congrFun (BW8_arr m ρ c 4) i).trans (h4 i)),
    fun q => (congrFun e51 _).trans (mean_bridge _ _ s5 q), fun q => (congrFun e57 _).trans (var_bridge _ _ _ s5 s6 h_real q),
    fun q => (congrFun r7 (ix2 0 q)).trans (layerRow_apply _ _ _ 0 q),
    fun q => (congrFun r8 (ix2 0 q)).trans (layerRow_apply _ _ _ 0 q)⟩

end Cert.KernelIdeal.HandValue

end
-- ==== Proof.Val.ChainW1.lean ====
import proofs.«166185_j35605278883840_2_alg».proof.Proof.Gen.ReferenceIdeal
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

-- The next layer's matrix is the reference's slice of the same stack of three.
theorem chainW1 :
    BW9 m ρ c (Proc.devRef .tc main_v97)
      = r_mat (F := Ideal) ![2, 0, 0] Cert.ReferenceIdeal.Facts₀.slices_S3x128x128_S1x128x128_2_0_0
          (m ((c.tc : Thread nD τ).loc main_arg5)) := by
  refine (host4_main_v97 (BW8 m ρ c)).trans ?_
  rw [persist_8 m ρ c main_arg5 (by decide), BW1_main_arg5, layerMat_eq]

end Cert.KernelIdeal.HandValue

end
-- ==== Proof.Val.Pay4.lean ====
import proofs.«166185_j35605278883840_2_alg».proof.Proof.Gen.KernelIdeal.Skeleton
import proofs.«166185_j35605278883840_2_alg».proof.Proof.Val.Pay0

set_option maxRecDepth 16384

noncomputable section

namespace Cert.KernelIdeal.HandValue

open Idealize.ShloMosaic Idealize.ShloMosaic.ValueIdx
open Cert.KernelIdeal Cert.KernelIdeal.Gen
open scoped BigOperators

/-- The stored block at `(p, q)`: row `p` of the rectified normalised rows against column `q` of the weights. -/
theorem pay_at_r4 (h : FVec Ideal S4000x128 .f32) (mean var gamma beta : FVec Ideal S1x128 .f32)
    (W : FVec Ideal S128x128 .f32) (p : Fin 4000) (q : Fin 128) :
    k4_pay1 (F := Ideal) h mean var gamma beta W (ix2 p q)
      = ∑ k : Fin 128,
          max ((h (ix2 p k) - mean (ix2 (0 : Fin 1) k))
                * Ideal.rsqrt (var (ix2 (0 : Fin 1) k) + Ideal.ofBits .f32 0x3727C5AC#32)
                * gamma (ix2 (0 : Fin 1) k) + beta (ix2 (0 : Fin 1) k)) 0
            * W (ix2 k q) := by
  unfold k4_pay1
  simp only [shapeCast_self]
  rw [truncf_apply]
  refine (matmul_rows0_apply _ _ p q).trans ?_
  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply, broadcast_apply]
  show max _ (Ideal.ofBits .f32 0x00000000#32) * _ = _
  rw [Ideal.ofBits_zero_f32]
  rfl

end Cert.KernelIdeal.HandValue

end
-- ==== Proof.Val.Final4.lean ====
import proofs.«166185_j35605278883840_2_alg».proof.Proof.KI.RegA4
import proofs.«166185_j35605278883840_2_alg».proof.Proof.Val.Pay4
import Idealize.ShloMosaic.Lib.Pipeline.Value

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

abbrev harr_r4 (c : Dev nD) : FVec Ideal S100000x128 .f32 := V c (Pipeline.arrRef spec4 0)
abbrev marr_r4 (c : Dev nD) : FVec Ideal S1x128 .f32 := V c (Pipeline.arrRef spec4 1)
abbrev varr_r4 (c : Dev nD) : FVec Ideal S1x128 .f32 := V c (Pipeline.arrRef spec4 2)
abbrev garr_r4 (c : Dev nD) : FVec Ideal S1x128 .f32 := V c (Pipeline.arrRef spec4 3)
abbrev barr_r4 (c : Dev nD) : FVec Ideal S1x128 .f32 := V c (Pipeline.arrRef spec4 4)
abbrev warr_r4 (c : Dev nD) : FVec Ideal S128x128 .f32 := V c (Pipeline.arrRef spec4 5)

/-- The output array, entry by entry: row `P` of the rectified normalised rows against column `q` of the weights. -/
def G_r4 (h : FVec Ideal S100000x128 .f32) (mean var gamma beta : FVec Ideal S1x128 .f32) (W : FVec Ideal S128x128 .f32) :
    FVec Ideal S100000x128 .bf16 := fun i =>
  ∑ k : Fin 128,
    max ((h (ix2 (i 0) k) - mean (ix2 (0 : Fin 1) k))
          * Ideal.rsqrt (var (ix2 (0 : Fin 1) k) + Ideal.ofBits .f32 0x3727C5AC#32)
          * gamma (ix2 (0 : Fin 1) k) + beta (ix2 (0 : Fin 1) k)) 0
      * W (ix2 k (i 1))

theorem G_r4_apply (h : FVec Ideal S100000x128 .f32) (mean var gamma beta : FVec Ideal S1x128 .f32) (W : FVec Ideal S128x128 .f32)
    (P : Fin 100000) (q : Fin 128) :
    G_r4 h mean var gamma beta W (ix2 P q) = ∑ k : Fin 128,
      max ((h (ix2 P k) - mean (ix2 (0 : Fin 1) k))
            * Ideal.rsqrt (var (ix2 (0 : Fin 1) k) + Ideal.ofBits .f32 0x3727C5AC#32)
            * gamma (ix2 (0 : Fin 1) k) + beta (ix2 (0 : Fin 1) k)) 0
        * W (ix2 k q) := rfl

theorem hz_r4 : (![0, 0] : Fin 2 → Nat) = fun _ => 0 := funext fun a => by fin_cases a <;> rfl

theorem idx_facts_r4 : ∀ t : Fin cfg4.N, (win4_0.index t (0 : Fin 2) = t.val ∧ win4_0.index t (1 : Fin 2) = 0)
    ∧ (∀ a : Fin 2, win4_1.index t a = 0 ∧ win4_2.index t a = 0 ∧ win4_3.index t a = 0 ∧ win4_4.index t a = 0
      ∧ win4_5.index t a = 0)
    ∧ win4_6.index t (0 : Fin 2) = t.val ∧ win4_6.index t (1 : Fin 2) = 0 :=
  (by decide +kernel : ∀ t : Fin grid4.N, _)

theorem row_lt_r4 (t : Fin cfg4.N) (p : Fin 4000) : 4000 * t.val + p.val < 100000 := by
  have hN : cfg4.N = 25 := N_4
  have := t.isLt; have := p.isLt; omega

/-- Row `p` of the first window's block at point `t` is row `4000 t + p` of the array. -/
theorem iblk0_at_r4 (c : Dev nD) (t : Fin cfg4.N) (p : Fin 4000) (k : Fin 128) :
    (iblk4 V c 0 t : FVec Ideal S4000x128 .f32) (ix2 p k) = harr_r4 V c (ix2 ⟨4000 * t.val + p.val, row_lt_r4 t p⟩ k) := by
  obtain ⟨⟨e0, e1⟩, -⟩ := idx_facts_r4 t
  show V c (Pipeline.arrRef spec4 0) (((cfg4.win 0).blk t).view.emb (ix2 p k)) = V c (Pipeline.arrRef spec4 0) _
  exact congrArg _ (Shape.idx_ext₂
    (show win4_0.index t (0 : Fin 2) * 4000 + 1 * p.val = 4000 * t.val + p.val by rw [e0]; omega)
    (show win4_0.index t (1 : Fin 2) * 128 + 1 * k.val = k.val by rw [e1]; omega))

/-- A window at block index zero on both axes reads its whole array. -/
theorem iblk1_eq_r4 (c : Dev nD) (t : Fin cfg4.N) : (iblk4 V c 1 t : FVec Ideal S1x128 .f32) = marr_r4 V c :=
  funext fun y => congrArg (V c (Pipeline.arrRef spec4 1)) (funext fun a => Fin.ext
    ((cfg4.win 1).rect_emb_val_of_index_zero t a ((idx_facts_r4 t).2.1 a).1 y))

theorem iblk2_eq_r4 (c : Dev nD) (t : Fin cfg4.N) : (iblk4 V c 2 t : FVec Ideal S1x128 .f32) = varr_r4 V c :=
  funext fun y => congrArg (V c (Pipeline.arrRef spec4 2)) (funext fun a => Fin.ext
    ((cfg4.win 2).rect_emb_val_of_index_zero t a ((idx_facts_r4 t).2.1 a).2.1 y))

theorem iblk3_eq_r4 (c : Dev nD) (t : Fin cfg4.N) : (iblk4 V c 3 t : FVec Ideal S1x128 .f32) = garr_r4 V c :=
  funext fun y => congrArg (V c (Pipeline.arrRef spec4 3)) (funext fun a => Fin.ext
    ((cfg4.win 3).rect_emb_val_of_index_zero t a ((idx_facts_r4 t).2.1 a).2.2.1 y))

theorem iblk4_eq_r4 (c : Dev nD) (t : Fin cfg4.N) : (iblk4 V c 4 t : FVec Ideal S1x128 .f32) = barr_r4 V c :=
  funext fun y => congrArg (V c (Pipeline.arrRef spec4 4)) (funext fun a => Fin.ext
    ((cfg4.win 4).rect_emb_val_of_index_zero t a ((idx_facts_r4 t).2.1 a).2.2.2.1 y))

theorem iblk5_eq_r4 (c : Dev nD) (t : Fin cfg4.N) : (iblk4 V c 5 t : FVec Ideal S128x128 .f32) = warr_r4 V c :=
  funext fun y => congrArg (V c (Pipeline.arrRef spec4 5)) (funext fun a => Fin.ext
    ((cfg4.win 5).rect_emb_val_of_index_zero t a ((idx_facts_r4 t).2.1 a).2.2.2.2 y))

/-- Entry `(p, q)` of the output's block at point `t` sits at row `4000 t + p`, lane `q` of the array. -/
theorem emb6_r4 (t : Fin cfg4.N) (p : Fin 4000) (q : Fin 128) :
    ((cfg4.win 6).blk t).view.emb (ix2 p q) = ix2 ⟨4000 * t.val + p.val, row_lt_r4 t p⟩ q := by
  obtain ⟨-, -, e0, e1⟩ := idx_facts_r4 t
  exact Shape.idx_ext₂
    (show win4_6.index t (0 : Fin 2) * 4000 + 1 * p.val = 4000 * t.val + p.val by rw [e0]; omega)
    (show win4_6.index t (1 : Fin 2) * 128 + 1 * q.val = q.val by rw [e1]; omega)

/-- Block `t` of the output is block `t` of `G_r4` of the six arrays, entry by entry. -/
theorem flushed_r4 (c : Dev nD) (t : Fin cfg4.N) :
    (dat4 V c).flushed 6 t = ((cfg4.win 6).blk t).view.read (Elt Ideal)
      (G_r4 (harr_r4 V c) (marr_r4 V c) (varr_r4 V c) (garr_r4 V c) (barr_r4 V c) (warr_r4 V c)) := by
  show (cfg4.win 6).cut (grid4.coords t) ((dat4 V c).after 6 t) = _
  rw [after4_6]
  unfold out4_6
  rw [View.canon_unit_zero hz_r4]
  simp only [View.ld_unit_zero (S := S4000x128) hz_r4, View.ld_unit_zero (S := S1x128) hz_r4, View.ld_unit_zero (S := S128x128) hz_r4]
  funext j
  obtain ⟨p, q, rfl⟩ : ∃ (p : Fin 4000) (q : Fin 128), j = ix2 p q := ⟨j 0, j 1, eq_ix2 (n0 := 4000) (n1 := 128) j⟩
  show k4_pay1 (F := Ideal) (iblk4 V c 0 t) (iblk4 V c 1 t) (iblk4 V c 2 t) (iblk4 V c 3 t) (iblk4 V c 4 t) (iblk4 V c 5 t) (ix2 p q)
    = G_r4 (harr_r4 V c) (marr_r4 V c) (varr_r4 V c) (garr_r4 V c) (barr_r4 V c) (warr_r4 V c) (((cfg4.win 6).blk t).view.emb (ix2 p q))
  rw [emb6_r4, iblk1_eq_r4, iblk2_eq_r4, iblk3_eq_r4, iblk4_eq_r4, iblk5_eq_r4, pay_at_r4, G_r4_apply]
  exact Finset.sum_congr rfl fun k _ => by rw [iblk0_at_r4]

/-- The 25 blocks cover the rows: row `r` is in the block of point `r / 4000`. -/
theorem final4 (c : Dev nD) : (dat4 V c).arrAt 6 cfg4.N
    = G_r4 (harr_r4 V c) (marr_r4 V c) (varr_r4 V c) (garr_r4 V c) (barr_r4 V c) (warr_r4 V c) :=
  (dat4 V c).arrAt_eq_of_cover 6 _ (fun t _ => flushed_r4 V c t) fun (i : S100000x128.Idx) => by
    have hi0 : (i 0).val < 100000 := (i 0).isLt
    have hlt : (i 0).val / 4000 < cfg4.N := by rw [show cfg4.N = 25 from N_4]; omega
    exact ⟨⟨(i 0).val / 4000, hlt⟩, flush4_6 _, Finset.mem_map.mpr
      ⟨ix2 (⟨(i 0).val % 4000, Nat.mod_lt _ (by norm_num)⟩ : Fin 4000) (i 1), Finset.mem_univ _, (emb6_r4 ⟨(i 0).val / 4000, hlt⟩ _ (i 1)).trans
        (Shape.idx_ext₂ (show 4000 * ((i 0).val / 4000) + (i 0).val % 4000 = (i 0).val by omega) rfl)⟩⟩

end Cert.KernelIdeal.HandValue

end
-- ==== Proof.Val.Bridge4.lean ====
import proofs.«166185_j35605278883840_2_alg».proof.Proof.Val.Final4
import proofs.«166185_j35605278883840_2_alg».proof.Proof.Ref.Stages
import proofs.«166185_j35605278883840_2_alg».proof.Proof.Val.RefOps
import proofs.«166185_j35605278883840_2_alg».proof.Proof.Val.Bridge6

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_norm_relu r_hw)
open scoped BigOperators

section Region4
variable [Cert.ReferenceIdeal.Facts]
variable (V : (c : Dev nD) → (b : Ref sig .tc) → Buf (Elt Ideal) ((c : Thread nD τ).loc b))

-- Both sides are the same sum over the contracted coordinate of the same products once the four rows are read as the four vectors.
theorem bridge4 (c : Dev nD) (h : FVec Ideal Cert.ReferenceIdeal.S100000x128 .f32)
    (mean var gamma beta : FVec Ideal Cert.ReferenceIdeal.S128 .f32) (W : FVec Ideal Cert.ReferenceIdeal.S128x128 .f32)
    (hh : harr_r4 V c = h)
    (hm : ∀ q : Fin 128, marr_r4 V c (ix2 (0 : Fin 1) q) = mean (ix1 q))
    (hv : ∀ q : Fin 128, varr_r4 V c (ix2 (0 : Fin 1) q) = var (ix1 q))
    (hg : ∀ q : Fin 128, garr_r4 V c (ix2 (0 : Fin 1) q) = gamma (ix1 q))
    (hbt : ∀ q : Fin 128, barr_r4 V c (ix2 (0 : Fin 1) q) = beta (ix1 q))
    (hW : warr_r4 V c = W) (i : S100000x128.Idx) :
    (dat4 V c).arrAt 6 cfg4.N i = r_hw (F := Ideal) (r_norm_relu (F := Ideal) h mean var gamma beta) W i := by
  subst hh hW
  obtain ⟨P, q, rfl⟩ : ∃ (P : Fin 100000) (q : Fin 128), i = ix2 P q := ⟨i 0, i 1, eq_ix2 i⟩
  rw [final4 V c, G_r4_apply]
  unfold r_hw
  rw [Cert.ReferenceIdeal.HandValue.dotNodes_apply]
  show (_ : EReal) = _
  refine Finset.sum_congr rfl fun k _ => ?_
  rw [hm k, hv k, hg k, hbt k, r_norm_relu_at_r6]

end Region4

end Cert.KernelIdeal.HandValue

end
-- ==== Proof.Val.ChainB1.lean ====
import proofs.«166185_j35605278883840_2_alg».proof.Proof.KI.Run
import proofs.«166185_j35605278883840_2_alg».proof.Proof.Ref.Stages
import proofs.«166185_j35605278883840_2_alg».proof.Proof.Val.Args
import proofs.«166185_j35605278883840_2_alg».proof.Proof.Val.Bridge4

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable [Cert.ReferenceIdeal.Facts]
variable (m : (ℓ : Loc nD τ sig) → Buf (Elt Ideal) ℓ) (ρ : Dev nD → PrngReg) (c : Dev nD)

-- With its operands replaced by the stages they equal, what the region leaves is the next layer's product.
theorem chainB1
    (hh : ∀ i, BW9 m ρ c (Proc.devRef .tc main_v83_0) i = atArgs m c (r_hpre_1 (F := Ideal)) i)
    (hm : ∀ q : Fin 128, BW9 m ρ c (Proc.devRef .tc main_v85) (ix2 (0 : Fin 1) q) = atArgs m c (r_mean_1 (F := Ideal)) (ix1 q))
    (hv : ∀ q : Fin 128, BW9 m ρ c (Proc.devRef .tc main_v91) (ix2 (0 : Fin 1) q) = atArgs m c (r_var_1 (F := Ideal)) (ix1 q))
    (hg : ∀ q : Fin 128, BW9 m ρ c (Proc.devRef .tc main_v98) (ix2 (0 : Fin 1) q) = r_row (F := Ideal) ![1, 0] Cert.ReferenceIdeal.Facts₀.slices_S3x128_S1x128_1_0 (m ((c.tc : Thread nD τ).loc main_arg7)) (ix1 q))
    (hbt : ∀ q : Fin 128, BW9 m ρ c (Proc.devRef .tc main_v99) (ix2 (0 : Fin 1) q) = r_row (F := Ideal) ![1, 0] Cert.ReferenceIdeal.Facts₀.slices_S3x128_S1x128_1_0 (m ((c.tc : Thread nD τ).loc main_arg8)) (ix1 q))
    (hW : BW9 m ρ c (Proc.devRef .tc main_v97)
      = r_mat (F := Ideal) ![2, 0, 0] Cert.ReferenceIdeal.Facts₀.slices_S3x128x128_S1x128x128_2_0_0 (m ((c.tc : Thread nD τ).loc main_arg5)))
    (i) : BW10 m ρ c (Proc.devRef .tc main_v100) i = atArgs m c (r_hw_2 (F := Ideal)) i :=
  (congrFun (BW10_arr m ρ c 6) i).trans (bridge4 (BV9 m ρ) c _ _ _ _ _ _ (funext hh) hm hv hg hbt hW i)

end Cert.KernelIdeal.HandValue

end
-- ==== Proof.Val.Pay5.lean ====
import proofs.«166185_j35605278883840_2_alg».proof.Proof.Gen.KernelIdeal.Skeleton
import proofs.«166185_j35605278883840_2_alg».proof.Proof.Val.Cols

set_option maxRecDepth 16384

noncomputable section

namespace Cert.KernelIdeal.HandValue

open Idealize.ShloMosaic Idealize.ShloMosaic.ValueIdx
open Cert.KernelIdeal Cert.KernelIdeal.Gen
open scoped BigOperators

/-- The combined block at `(p, q)`: the aggregate, plus the projection times the row's normaliser, plus the bias of lane `q`. -/
theorem k5_pay3_apply (agg : FVec Ideal S4000x128 .f32) (hw : FVec Ideal S4000x128 .bf16)
    (sn : FVec Ideal S4000x1 .f32) (bias : FVec Ideal S1x128 .f32) (p : Fin 4000) (q : Fin 128) :
    k5_pay3 (F := Ideal) agg hw sn bias (ix2 p q)
      = agg (ix2 p q) + hw (ix2 p q) * sn (ix2 p (0 : Fin 1)) + bias (ix2 (0 : Fin 1) q) := by
  unfold k5_pay3
  rw [shapeCast_self, shapeCast_self, shapeCast_self, shapeCast_self]
  show agg (ix2 p q) + hw (ix2 p q) * broadcastTo S4000x128 sn broadcasts_S4000x1_S4000x128 (ix2 p q)
      + broadcastTo S4000x128 bias broadcasts_S1x128_S4000x128 (ix2 p q) = _
  rw [broadcastTo_col_apply, broadcastTo_1b_ab_apply]

/-- Each accumulator gains the column sums of the combined block (of its squares, for the second). -/
theorem k5_pay4_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k5_pay4 (F := Ideal) agg hw sn bias acc (ix2 u q)
      = acc (ix2 u q) + ∑ p : Fin 4000, k5_pay3 (F := Ideal) agg hw sn bias (ix2 p q) := by
  unfold k5_pay4
  exact (congrFun (shapeCast_self _ _) (ix2 u q)).trans (congrArg (acc (ix2 u q) + ·) (colsum_apply _ _ _ _ _ u q))

theorem k5_pay5_apply (agg : FVec Ideal S4000x128 .f32) (hw : FVec Ideal S4000x128 .bf16)
    (sn : FVec Ideal S4000x1 .f32) (bias : FVec Ideal S1x128 .f32) (acc : FVec Ideal S1x128 .f32)
    (u : Fin 1) (q : Fin 128) :
    k5_pay5 (F := Ideal) agg hw sn bias acc (ix2 u q)
      = acc (ix2 u q) + ∑ p : Fin 4000,
          k5_pay3 (F := Ideal) agg hw sn bias (ix2 p q) * k5_pay3 (F := Ideal) agg hw sn bias (ix2 p q) := by
  unfold k5_pay5
  exact (congrFun (shapeCast_self _ _) (ix2 u q)).trans (congrArg (acc (ix2 u q) + ·) (colsum_apply _ _ _ _ _ u q))

/-- The accumulators' reset values are the zero row. -/
theorem k5_pay1_apply (i : S1x128.Idx) : k5_pay1 (F := Ideal) i = 0 := by
  unfold k5_pay1
  exact (congrFun (shapeCast_self _ _) i).trans Ideal.ofBits_zero_f32

theorem k5_pay2_apply (i : S1x128.Idx) : k5_pay2 (F := Ideal) i = 0 := by
  unfold k5_pay2
  exact (congrFun (shapeCast_self _ _) i).trans Ideal.ofBits_zero_f32

end Cert.KernelIdeal.HandValue

end
-- ==== Proof.Val.Final5.lean ====
import proofs.«166185_j35605278883840_2_alg».proof.Proof.KI.RegR5
import proofs.«166185_j35605278883840_2_alg».proof.Proof.Val.Pay5
import proofs.«166185_j35605278883840_2_alg».proof.Proof.Math.Var
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand
open scoped BigOperators

variable (V : (c : Dev nD) → (b : Ref sig .tc) → Buf (Elt Ideal) ((c : Thread nD τ).loc b))

abbrev agg5 (c : Dev nD) : FVec Ideal S100000x128 .f32 := V c (Pipeline.arrRef spec5 0)
abbrev hw5 (c : Dev nD) : FVec Ideal S100000x128 .bf16 := V c (Pipeline.arrRef spec5 1)
abbrev sn5 (c : Dev nD) : FVec Ideal S100000x1 .f32 := V c (Pipeline.arrRef spec5 2)
abbrev bias5 (c : Dev nD) : FVec Ideal S1x128 .f32 := V c (Pipeline.arrRef spec5 3)

theorem idx_facts5 : ∀ t : Fin cfg5.N,
    (∀ a : Fin 2, win5_3.index t a = 0 ∧ win5_5.index t a = 0 ∧ win5_6.index t a = 0)
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_4.index t (0 : Fin 2) = t.val ∧ win5_4.index t (1 : Fin 2) = 0 :=
  (by decide +kernel : ∀ t : Fin grid5.N, _)

theorem row_lt5 (t : Fin cfg5.N) (p : Fin 4000) : 4000 * t.val + p.val < 100000 := by
  have hN : cfg5.N = 25 := N_5
  have := t.isLt; have := p.isLt; omega

/-- Row `p` of block `t` of a row-blocked array is row `4000 t + p` of the array. -/
theorem aggBlk5_apply (c : Dev nD) (t : Fin cfg5.N) (p : Fin 4000) (q : Fin 128) :
    iblk5 V c 0 t (ix2 p q) = agg5 V c (ix2 ⟨4000 * t.val + p.val, row_lt5 t p⟩ q) := by
  obtain ⟨-, e0, e1, -⟩ := idx_facts5 t
  show V c (Pipeline.arrRef spec5 0) (((cfg5.win 0).blk t).view.emb (ix2 p q)) = V c (Pipeline.arrRef spec5 0) _
  exact congrArg _ (Shape.idx_ext₂
    (show win5_0.index t (0 : Fin 2) * 4000 + 1 * p.val = 4000 * t.val + p.val by rw [e0]; omega)
    (show win5_0.index t (1 : Fin 2) * 128 + 1 * q.val = q.val by rw [e1]; omega))

theorem hwBlk5_apply (c : Dev nD) (t : Fin cfg5.N) (p : Fin 4000) (q : Fin 128) :
    iblk5 V c 1 t (ix2 p q) = hw5 V c (ix2 ⟨4000 * t.val + p.val, row_lt5 t p⟩ q) := by
  obtain ⟨-, -, -, e0, e1, -⟩ := idx_facts5 t
  show V c (Pipeline.arrRef spec5 1) (((cfg5.win 1).blk t).view.emb (ix2 p q)) = V c (Pipeline.arrRef spec5 1) _
  exact congrArg _ (Shape.idx_ext₂
    (show win5_1.index t (0 : Fin 2) * 4000 + 1 * p.val = 4000 * t.val + p.val by rw [e0]; omega)
    (show win5_1.index t (1 : Fin 2) * 128 + 1 * q.val = q.val by rw [e1]; omega))

theorem snBlk5_apply (c : Dev nD) (t : Fin cfg5.N) (p : Fin 4000) (u : Fin 1) :
    iblk5 V c 2 t (ix2 p u) = sn5 V c (ix2 ⟨4000 * t.val + p.val, row_lt5 t p⟩ (0 : Fin 1)) := by
  obtain ⟨-, -, -, -, -, e0, e1, -⟩ := idx_facts5 t
  show V c (Pipeline.arrRef spec5 2) (((cfg5.win 2).blk t).view.emb (ix2 p u)) = V c (Pipeline.arrRef spec5 2) _
  exact congrArg _ (Shape.idx_ext₂
    (show win5_2.index t (0 : Fin 2) * 4000 + 1 * p.val = 4000 * t.val + p.val by rw [e0]; omega)
    (show win5_2.index t (1 : Fin 2) * 1 + 1 * u.val = 0 by rw [e1]; omega))

/-- A window at block index zero on both axes reads its whole array. -/
theorem biasBlk5_apply (c : Dev nD) (t : Fin cfg5.N) : (iblk5 V c 3 t : FVec Ideal S1x128 .f32) = bias5 V c :=
  funext fun y => congrArg (V c (Pipeline.arrRef spec5 3)) (funext fun a => Fin.ext
    ((cfg5.win 3).rect_emb_val_of_index_zero t a ((idx_facts5 t).1 a).1 y))

def hpreAt5 (c : Dev nD) (P : Fin 100000) (q : Fin 128) : EReal :=
  agg5 V c (ix2 P q) + hw5 V c (ix2 P q) * sn5 V c (ix2 P (0 : Fin 1)) + bias5 V c (ix2 (0 : Fin 1) q)

def hpre5 (c : Dev nD) : FVec Ideal S100000x128 .f32 := fun i => hpreAt5 V c (i 0) (i 1)

/-- The combined block at point `t` is rows `4000 t … 4000 t + 3999` of the combined array. -/
theorem pay3_blk5 (c : Dev nD) (t : Fin cfg5.N) (p : Fin 4000) (q : Fin 128) :
    k5_pay3 (F := Ideal) (iblk5 V c 0 t) (iblk5 V c 1 t) (iblk5 V c 2 t) (iblk5 V c 3 t) (ix2 p q)
      = hpreAt5 V c ⟨4000 * t.val + p.val, row_lt5 t p⟩ q := by
  rw [k5_pay3_apply, aggBlk5_apply, hwBlk5_apply, snBlk5_apply, biasBlk5_apply]
  rfl

/-- Entry `(p, q)` of the first output's block at point `t` sits at row `4000 t + p`, lane `q` of the array. -/
theorem read_blk5_4 (t : Fin cfg5.N) (p : Fin 4000) (q : Fin 128) :
    ((cfg5.win 4).blk t).view.emb (ix2 p q) = ix2 ⟨4000 * t.val + p.val, row_lt5 t p⟩ q := by
  obtain ⟨-, -, -, -, -, -, -, e0, e1⟩ := idx_facts5 t
  exact Shape.idx_ext₂
    (show win5_4.index t (0 : Fin 2) * 4000 + 1 * p.val = 4000 * t.val + p.val by rw [e0]; omega)
    (show win5_4.index t (1 : Fin 2) * 128 + 1 * q.val = q.val by rw [e1]; omega)

/-- Row `P` lies in the block of point `P / 4000`, which holds that block of the combined array. -/
theorem final5_4_apply (c : Dev nD) (P : Fin 100000) (q : Fin 128) :
    (dat5 V c).arrAt 4 cfg5.N (ix2 P q) = hpreAt5 V c P q := by
  have hP := P.isLt
  have hlt : P.val / 4000 < cfg5.N := by rw [show cfg5.N = 25 from N_5]; omega
  refine (dat5 V c).arrAt_apply_of_mem 4 (hpre5 V c) (fun t _ => ?_) cfg5.N ⟨P.val / 4000, hlt⟩ (ix2 P q) hlt
    (flush5_4 _) ?_
  · show (cfg5.win 4).cut (grid5.coords t) ((dat5 V c).after 4 t) = _
    rw [after5_4]
    funext j
    obtain ⟨p, r, rfl⟩ : ∃ (p : Fin 4000) (r : Fin 128), j = ix2 p r := ⟨j 0, j 1, eq_ix2 (n0 := 4000) (n1 := 128) j⟩
    show _ = hpre5 V c (((cfg5.win 4).blk t).view.emb (ix2 p r))
    rw [read_blk5_4]
    exact pay3_blk5 V c t p r
  · exact Finset.mem_map.mpr ⟨ix2 (⟨P.val % 4000, Nat.mod_lt _ (by norm_num)⟩ : Fin 4000) q, Finset.mem_univ _,
      (read_blk5_4 ⟨P.val / 4000, hlt⟩ _ q).trans
        (Shape.idx_ext₂ (show 4000 * (P.val / 4000) + P.val % 4000 = P.val by omega) rfl)⟩

/-- The sum of block `s`'s rows of a function of the row (zero past the last block). -/
def blockSum5 (g : Fin 100000 → EReal) (s : ℕ) : EReal :=
  if h : s < 25 then ∑ p : Fin 4000, g ⟨4000 * s + p.val, by have := p.isLt; omega⟩ else 0

/-- The rows are the pairs (block, place), so the 25 block sums add up to the sum over all rows. -/
theorem sum_blockSum5 (g : Fin 100000 → EReal) : ∑ s ∈ Finset.range 25, blockSum5 g s = ∑ P : Fin 100000, g P := by
  rw [Cert.Math.sum_blocks_of_eq 25 4000 (by norm_num) g, ← Fin.sum_univ_eq_sum_range]
  exact Finset.sum_congr rfl fun s _ => dif_pos s.isLt

/-- A column sum over the combined block at point `t`, taken entrywise through `φ`, is block `t`'s sum. -/
theorem colsum_blk5 (c : Dev nD) (t : Fin cfg5.N) (q : Fin 128) (φ : EReal → EReal) :
    ∑ p : Fin 4000, φ (k5_pay3 (F := Ideal) (iblk5 V c 0 t) (iblk5 V c 1 t) (iblk5 V c 2 t) (iblk5 V c 3 t) (ix2 p q))
      = blockSum5 (fun P => φ (hpreAt5 V c P q)) t.val := by
  unfold blockSum5
  rw [dif_pos (Nat.lt_of_lt_of_eq t.isLt N_5)]
  exact Finset.sum_congr rfl fun p _ => congrArg φ (pay3_blk5 V c t p q)

/-- After point `n` each accumulator is the sum of the block sums of points `0 … n`: it starts at zero and every point adds its block's sum. -/
theorem accAt5_eq (c : Dev nD) (u : Fin 1) (q : Fin 128) : ∀ (n : ℕ) (hn : n < cfg5.N),
    (accAt5 V c n hn).1 (ix2 u q) = ∑ s ∈ Finset.range (n + 1), blockSum5 (fun P => hpreAt5 V c P q) s
    ∧ (accAt5 V c n hn).2 (ix2 u q)
      = ∑ s ∈ Finset.range (n + 1), blockSum5 (fun P => hpreAt5 V c P q * hpreAt5 V c P q) s
  | 0, hn => by
    rw [accAt5_zero, Finset.sum_range_one, Finset.sum_range_one]
    dsimp only
    exact ⟨(k5_pay4_apply _ _ _ _ _ u q).trans (by
        rw [k5_pay1_apply, zero_add]; exact colsum_blk5 V c ⟨0, hn⟩ q fun x => x),
      (k5_pay5_apply _ _ _ _ _ u q).trans (by
        rw [k5_pay2_apply, zero_add]; exact colsum_blk5 V c ⟨0, hn⟩ q fun x => x * x)⟩
  | n + 1, hn => by
    obtain ⟨h1, h2⟩ := accAt5_eq c u q n (Nat.lt_of_succ_lt hn)
    rw [accAt5_succ]
    dsimp only
    exact ⟨(k5_pay4_apply _ _ _ _ _ u q).trans ((congrArg₂ (· + ·) h1
        (colsum_blk5 V c ⟨n + 1, hn⟩ q fun x => x)).trans (Finset.sum_range_succ _ _).symm),
      (k5_pay5_apply _ _ _ _ _ u q).trans ((congrArg₂ (· + ·) h2
        (colsum_blk5 V c ⟨n + 1, hn⟩ q fun x => x * x)).trans (Finset.sum_range_succ _ _).symm)⟩

def sum5 (c : Dev nD) : FVec Ideal S1x128 .f32 := fun i => ∑ P : Fin 100000, hpreAt5 V c P (i 1)

def sumsq5 (c : Dev nD) : FVec Ideal S1x128 .f32 :=
  fun i => ∑ P : Fin 100000, hpreAt5 V c P (i 1) * hpreAt5 V c P (i 1)

theorem read_blk5_5 (t : Fin cfg5.N) (y : S1x128.Idx) : ((cfg5.win 5).blk t).view.emb y = y :=
  funext fun a => Fin.ext ((cfg5.win 5).rect_emb_val_of_index_zero t a ((idx_facts5 t).1 a).2.1 y)

theorem read_blk5_6 (t : Fin cfg5.N) (y : S1x128.Idx) : ((cfg5.win 6).blk t).view.emb y = y :=
  funext fun a => Fin.ext ((cfg5.win 6).rect_emb_val_of_index_zero t a ((idx_facts5 t).1 a).2.2 y)

abbrev last5 : Fin cfg5.N := ⟨24, by rw [show cfg5.N = 25 from N_5]; omega⟩

/-- The only point of the grid congruent to 24 modulo 25 is the last. -/
theorem last5_of {t : Fin cfg5.N} (h : t.val % 25 = 24) : t.val = 24 := by
  have := Nat.lt_of_lt_of_eq t.isLt N_5; omega

/-- The second output is the first accumulator after the last point: the sum of all 25 block sums. -/
theorem final5_5_apply (c : Dev nD) (u : Fin 1) (q : Fin 128) :
    (dat5 V c).arrAt 5 cfg5.N (ix2 u q) = ∑ P : Fin 100000, hpreAt5 V c P q := by
  refine (dat5 V c).arrAt_apply_of_mem 5 (sum5 V c) (fun t hf => ?_) cfg5.N last5 (ix2 u q) last5.isLt
    ((flush5_5 last5).mpr rfl) (Finset.mem_map.mpr ⟨ix2 u q, Finset.mem_univ _, read_blk5_5 last5 _⟩)
  show (cfg5.win 5).cut (grid5.coords t) ((dat5 V c).after 5 t) = _
  rw [after5_5]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg5.win 5).blk t).view.read (Elt Ideal) G (ix2 v r) = G (ix2 v r) :=
    fun G => congrArg G (read_blk5_5 t _)
  refine ((accAt5_eq V c v r t.val t.isLt).1.trans ?_).trans (hr (sum5 V c)).symm
  rw [last5_of ((flush5_5 t).mp hf)]
  exact sum_blockSum5 _

theorem final5_6_apply (c : Dev nD) (u : Fin 1) (q : Fin 128) :
    (dat5 V c).arrAt 6 cfg5.N (ix2 u q) = ∑ P : Fin 100000, hpreAt5 V c P q * hpreAt5 V c P q := by
  refine (dat5 V c).arrAt_apply_of_mem 6 (sumsq5 V c) (fun t hf => ?_) cfg5.N last5 (ix2 u q) last5.isLt
    ((flush5_6 last5).mpr rfl) (Finset.mem_map.mpr ⟨ix2 u q, Finset.mem_univ _, read_blk5_6 last5 _⟩)
  show (cfg5.win 6).cut (grid5.coords t) ((dat5 V c).after 6 t) = _
  rw [after5_6]
  funext j
  obtain ⟨v, r, rfl⟩ : ∃ (v : Fin 1) (r : Fin 128), j = ix2 v r := ⟨j 0, j 1, eq_ix2 (n0 := 1) (n1 := 128) j⟩
  have hr : ∀ G : FVec Ideal S1x128 .f32, ((cfg5.win 6).blk t).view.read (Elt Ideal) G (ix2 v r) = G (ix2 v r) :=
    fun G => congrArg G (read_blk5_6 t _)
  refine ((accAt5_eq V c v r t.val t.isLt).2.trans ?_).trans (hr (sumsq5 V c)).symm
  rw [last5_of ((flush5_6 t).mp hf)]
  exact sum_blockSum5 _

end Cert.KernelIdeal.HandValue

end
-- ==== Proof.Val.Bridge5.lean ====
import proofs.«166185_j35605278883840_2_alg».proof.Proof.Val.Final5
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_hpre r_rows r_colsum)
open Cert.ReferenceIdeal.HandValue (rowOverNodes_apply colSum_apply)
open scoped BigOperators

variable (V : (c : Dev nD) → (b : Ref sig .tc) → Buf (Elt Ideal) ((c : Thread nD τ).loc b))
variable [Cert.ReferenceIdeal.Facts]

-- A column repeated over 128 columns reads, at (p, q), its entry of row p.
theorem refCol5_apply {α : Type} (v : Cert.ReferenceIdeal.S100000x1.Idx → α) (p : Fin 100000) (q : Fin 128) :
    broadcastInDim (s := Cert.ReferenceIdeal.S100000x1) Cert.ReferenceIdeal.S100000x128 ![0, 1]
        Cert.ReferenceIdeal.Facts₀.bcast_S100000x1_S100000x128_0_1 v (ix2 p q) = v (ix2 p (0 : Fin 1)) :=
  broadcastInDim_apply _ Cert.ReferenceIdeal.Facts₀.bcast_S100000x1_S100000x128_0_1 v (ix2 p q) (ix2 p (0 : Fin 1))
    (fun a => by
      match a with
      | ⟨0, _⟩ => show p.val = if (100000 : ℕ) = 1 then 0 else p.val; rw [if_neg (by decide)]
      | ⟨1, _⟩ => show 0 = if (1 : ℕ) = 1 then 0 else q.val; rw [if_pos rfl])

theorem r_hpre5_apply (agg hw : FVec Ideal Cert.ReferenceIdeal.S100000x128 .f32)
    (sn : FVec Ideal Cert.ReferenceIdeal.S100000x1 .f32) (bias : FVec Ideal Cert.ReferenceIdeal.S128 .f32)
    (P : Fin 100000) (q : Fin 128) :
    r_hpre (F := Ideal) agg hw sn bias (ix2 P q)
      = agg (ix2 P q) + hw (ix2 P q) * sn (ix2 P (0 : Fin 1)) + bias (ix1 q) := by
  unfold r_hpre r_rows
  rw [addf_apply, addf_apply, mulf_apply, refCol5_apply, rowOverNodes_apply]

-- Entry by entry both sides are agg + hw * self_norm + bias; the reference's reduction starts from a zero, and the sums over the rows are the same sums.
theorem bridge5 (c : Dev nD) (agg hw : FVec Ideal Cert.ReferenceIdeal.S100000x128 .f32)
    (sn : FVec Ideal Cert.ReferenceIdeal.S100000x1 .f32) (bias : FVec Ideal Cert.ReferenceIdeal.S128 .f32)
    (h0 : V c (Pipeline.arrRef spec5 0) = agg) (h1 : V c (Pipeline.arrRef spec5 1) = hw)
    (h2 : V c (Pipeline.arrRef spec5 2) = sn)
    (hb : ∀ q : Fin 128, V c (Pipeline.arrRef spec5 3) (ix2 (0 : Fin 1) q) = bias (ix1 q))
    (hp : FVec Ideal Cert.ReferenceIdeal.S100000x128 .f32) (he : r_hpre (F := Ideal) agg hw sn bias = hp) :
    (∀ i : Cert.ReferenceIdeal.S100000x128.Idx, (dat5 V c).arrAt 4 cfg5.N i = hp i)
    ∧ (∀ q : Fin 128, (dat5 V c).arrAt 5 cfg5.N (ix2 (0 : Fin 1) q) = r_colsum (F := Ideal) hp (ix1 q))
    ∧ (∀ q : Fin 128, (dat5 V c).arrAt 6 cfg5.N (ix2 (0 : Fin 1) q) = r_colsum (F := Ideal) (mulf hp hp) (ix1 q)) := by
  subst h0 h1 h2 he
  have e : ∀ P q, hpreAt5 V c P q = r_hpre (F := Ideal) (agg5 V c) (hw5 V c) (sn5 V c) bias (ix2 P q) := fun P q => by
    unfold hpreAt5
    rw [r_hpre5_apply, ← hb q]
  have cs : ∀ (x : FVec Ideal Cert.ReferenceIdeal.S100000x128 .f32) (q : Fin 128),
      r_colsum (F := Ideal) x (ix1 q) = ∑ P : Fin 100000, x (ix2 P q) := fun x q => by
    unfold r_colsum
    rw [colSum_apply, constant_apply, Ideal.ofBits_zero_f32, zero_add]
  refine ⟨fun i => ?_, fun q => ?_, fun q => ?_⟩
  · exact (congrArg _ (eq_ix2 i)).trans ((final5_4_apply V c _ _).trans ((e _ _).trans (congrArg _ (eq_ix2 i).symm)))
  · exact (final5_5_apply V c 0 q).trans ((Finset.sum_congr rfl fun P _ => e P q).trans (cs _ q).symm)
  · exact (final5_6_apply V c 0 q).trans ((Finset.sum_congr rfl fun P _ =>
      (congrArg₂ (· * ·) (e P q) (e P q)).trans (mulf_apply _ _ (ix2 P q)).symm).trans (cs _ q).symm)

end Cert.KernelIdeal.HandValue

end
-- ==== Proof.Val.ChainA2.lean ====
import proofs.«166185_j35605278883840_2_alg».proof.Proof.Gen.ReferenceIdeal
import proofs.«166185_j35605278883840_2_alg».proof.Proof.Gen.Pre_finite_inputs
import proofs.«166185_j35605278883840_2_alg».proof.Proof.KI.Run
import proofs.«166185_j35605278883840_2_alg».proof.Proof.KI.Persist
import proofs.«166185_j35605278883840_2_alg».proof.Proof.Val.KHost
import proofs.«166185_j35605278883840_2_alg».proof.Proof.Val.KHostRef
import proofs.«166185_j35605278883840_2_alg».proof.Proof.Val.Args
import proofs.«166185_j35605278883840_2_alg».proof.Proof.Val.Stats
import proofs.«166185_j35605278883840_2_alg».proof.Proof.Val.RefReal
import proofs.«166185_j35605278883840_2_alg».proof.Proof.Val.Pre
import proofs.«166185_j35605278883840_2_alg».proof.Proof.Val.Bridge5
import proofs.«166185_j35605278883840_2_alg».proof.Proof.Val.ChainG

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.ReferenceIdeal.Hand

variable (m : (ℓ : Loc nD τ sig) → Buf (Elt Ideal) ℓ) (ρ : Dev nD → PrngReg) (c : Dev nD)

-- From the layer's product: the neighbourhood sum, the combination with its two column sums, then mean and variance, which agree with the reference's where every entry is real.
theorem chainA2 (hpre : Cert.Pre_KernelIdeal m)
    (hhw : ∀ i, BW10 m ρ c (Proc.devRef .tc main_v100) i = atArgs m c (r_hw_2 (F := Ideal)) i) :
    (∀ i, BW13 m ρ c (Proc.devRef .tc main_v117_0) i = atArgs m c (r_hpre_2 (F := Ideal)) i)
    ∧ (∀ q : Fin 128, BW13 m ρ c (Proc.devRef .tc main_v119) (ix2 0 q) = atArgs m c (r_mean_2 (F := Ideal)) (ix1 q))
    ∧ (∀ q : Fin 128, BW13 m ρ c (Proc.devRef .tc main_v125) (ix2 0 q) = atArgs m c (r_var_2 (F := Ideal)) (ix1 q))
    ∧ (∀ q : Fin 128, BW13 m ρ c (Proc.devRef .tc main_v130) (ix2 0 q) = r_row (F := Ideal) ![2, 0] Cert.ReferenceIdeal.Facts₀.slices_S3x128_S1x128_2_0 (m ((c.tc : Thread nD τ).loc main_arg7)) (ix1 q))
    ∧ (∀ q : Fin 128, BW13 m ρ c (Proc.devRef .tc main_v131) (ix2 0 q) = r_row (F := Ideal) ![2, 0] Cert.ReferenceIdeal.Facts₀.slices_S3x128_S1x128_2_0 (m ((c.tc : Thread nD τ).loc main_arg8)) (ix1 q)) := by
  have h_agg : BW11 m ρ c (Proc.devRef .tc main_v113) = atArgs m c (r_agg_2 (F := Ideal)) := by
    refine (host5_main_v113 (BW10 m ρ c)).trans ?_
    rw [persist_10 m ρ c main_v1 (by decide), persist_10 m ρ c main_v3 (by decide), persist_10 m ρ c main_v26 (by decide),
      graph_src, graph_dst, graph_edge_norm]
    exact aggOf_eq _ _ hhw _ _ _
  have r6 := host5_main_v116 (BW10 m ρ c)
  have r7 := host6_main_v130 (BW12 m ρ c)
  have r8 := host6_main_v131 (BW12 m ρ c)
  rw [persist_10 m ρ c main_arg6 (by decide), BW1_main_arg6] at r6
  rw [persist_12 m ρ c main_arg7 (by decide), BW1_main_arg7] at r7
  rw [persist_12 m ρ c main_arg8 (by decide), BW1_main_arg8] at r8
  obtain ⟨h4, h5, h6⟩ := bridge5 (BV11 m ρ) c _ _ _ _ h_agg
    ((hostOps5_keeps (BW10 m ρ c) main_v100 (by decide)).trans (funext hhw))
    ((persist_11 m ρ c main_v28 (by decide)).trans (graph_self_norm m ρ c))
    (fun q => (congrFun r6 (ix2 0 q)).trans (layerRow_apply _ _ _ 0 q))
    (atArgs m c (r_hpre_2 (F := Ideal))) rfl
  have s5 := fun q : Fin 128 => (congrFun (BW12_arr m ρ c 5) _).trans (h5 q)
  have s6 := fun q : Fin 128 => (congrFun (BW12_arr m ρ c 6) _).trans (h6 q)
  have h_real : ∀ i, Cert.Math.IsReal (atArgs m c (r_hpre_2 (F := Ideal)) i) := by
    unfold atArgs
    exact Cert.ReferenceIdeal.HandValue.real_hpre_2 _ _ _ _ _ _ _ _ _ _ _ _ _ (real_arg0 m hpre c) (real_arg3 m hpre c)
      (real_arg4 m hpre c) (real_arg5 m hpre c) (real_arg6 m hpre c) (real_arg7 m hpre c) (real_arg8 m hpre c)
      (real_arg9 m hpre c) (real_arg10 m hpre c) (real_arg11 m hpre c) (real_arg12 m hpre c)
  have e51 : BW13 m ρ c (Proc.devRef .tc main_v119) = k_mean (BW12 m ρ c (Proc.devRef .tc main_v117_1)) :=
    host6_main_v119 (BW12 m ρ c)
  have e57 : BW13 m ρ c (Proc.devRef .tc main_v125)
      = k_var (BW12 m ρ c (Proc.devRef .tc main_v117_1)) (BW12 m ρ c (Proc.devRef .tc main_v117_2)) :=
    host6_main_v125 (BW12 m ρ c)
  refine ⟨fun i => (congrFun (hostOps6_keeps (BW12 m ρ c) main_v117_0 (by decide)) i).trans
      ((congrFun (BW12_arr m ρ c 4) i).trans (h4 i)),
    fun q => (congrFun e51 _).trans (mean_bridge _ _ s5 q), fun q => (congrFun e57 _).trans (var_bridge _ _ _ s5 s6 h_real q),
    fun q => (congrFun r7 (ix2 0 q)).trans (layerRow_apply _ _ _ 0 q),
    fun q => (congrFun r8 (ix2 0 q)).trans (layerRow_apply _ _ _ 0 q)⟩

end Cert.KernelIdeal.HandValue

end
-- ==== Proof.Val.ChainB2.lean ====
import proofs.«166185_j35605278883840_2_alg».proof.Proof.KI.Run
import proofs.«166185_j35605278883840_2_alg».proof.Proof.Ref.Stages
import proofs.«166185_j35605278883840_2_alg».proof.Proof.Val.Args
import proofs.«166185_j35605278883840_2_alg».proof.Proof.Val.Bridge6

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable [Cert.ReferenceIdeal.Facts]
variable (m : (ℓ : Loc nD τ sig) → Buf (Elt Ideal) ℓ) (ρ : Dev nD → PrngReg) (c : Dev nD)

-- With its operands replaced by the stages they equal, what the region leaves is the features after the last layer.
theorem chainB2
    (hh : ∀ i, BW13 m ρ c (Proc.devRef .tc main_v117_0) i = atArgs m c (r_hpre_2 (F := Ideal)) i)
    (hm : ∀ q : Fin 128, BW13 m ρ c (Proc.devRef .tc main_v119) (ix2 (0 : Fin 1) q) = atArgs m c (r_mean_2 (F := Ideal)) (ix1 q))
    (hv : ∀ q : Fin 128, BW13 m ρ c (Proc.devRef .tc main_v125) (ix2 (0 : Fin 1) q) = atArgs m c (r_var_2 (F := Ideal)) (ix1 q))
    (hg : ∀ q : Fin 128, BW13 m ρ c (Proc.devRef .tc main_v130) (ix2 (0 : Fin 1) q) = r_row (F := Ideal) ![2, 0] Cert.ReferenceIdeal.Facts₀.slices_S3x128_S1x128_2_0 (m ((c.tc : Thread nD τ).loc main_arg7)) (ix1 q))
    (hbt : ∀ q : Fin 128, BW13 m ρ c (Proc.devRef .tc main_v131) (ix2 (0 : Fin 1) q) = r_row (F := Ideal) ![2, 0] Cert.ReferenceIdeal.Facts₀.slices_S3x128_S1x128_2_0 (m ((c.tc : Thread nD τ).loc main_arg8)) (ix1 q))
    (i) : BW14 m ρ c (Proc.devRef .tc main_v132) i = atArgs m c (r_h_3 (F := Ideal)) i :=
  (congrFun (BW14_arr m ρ c 5) i).trans (bridge6 (BV13 m ρ) c _ _ _ _ _ (funext hh) hm hv hg hbt i)

end Cert.KernelIdeal.HandValue

end
-- ==== Proof.Val.Pay7.lean ====
import proofs.«166185_j35605278883840_2_alg».proof.Proof.Gen.KernelIdeal.Skeleton
import proofs.«166185_j35605278883840_2_alg».proof.Proof.Val.Cols

set_option maxRecDepth 16384

noncomputable section

namespace Cert.KernelIdeal.HandValue

open Idealize.ShloMosaic Idealize.ShloMosaic.ValueIdx
open Cert.KernelIdeal Cert.KernelIdeal.Gen
open scoped BigOperators

/-- A 1024×128 by 128×128 product accumulated into zero, read at `(p, q)`. -/
theorem matmul_mlp7a_apply {φ₁ φ₂ : FTy} (a : FVec Ideal S1024x128 φ₁) (b : FVec Ideal S128x128 φ₂) (p : Fin 1024) (q : Fin 128) :
    matmul dot_S1024x128_S128x128_S1024x128_1_0_0_1_n_n none a b (constant (F := Ideal) S1024x128 .f32 0x00000000#32) (ix2 p q)
      = ∑ k : Fin 128, a (ix2 p k) * b (ix2 k q) :=
  matmul_ix2_apply dot_S1024x128_S128x128_S1024x128_1_0_0_1_n_n rfl rfl rfl rfl
    (fun i q => by
      unfold DotDims.lhsIdx
      rw [dif_neg (show ¬(0 : Fin S1024x128.rank) ∈ dot_S1024x128_S128x128_S1024x128_1_0_0_1_n_n.lhsBatch by decide),
        dif_pos (show (0 : Fin S1024x128.rank) ∈ dot_S1024x128_S128x128_S1024x128_1_0_0_1_n_n.lhsNonContracting by decide)]
      rfl)
    (fun i q => by
      unfold DotDims.rhsIdx
      rw [dif_neg (show ¬(1 : Fin S128x128.rank) ∈ dot_S1024x128_S128x128_S1024x128_1_0_0_1_n_n.rhsBatch by decide),
        dif_pos (show (1 : Fin S128x128.rank) ∈ dot_S1024x128_S128x128_S1024x128_1_0_0_1_n_n.rhsNonContracting by decide)]
      rfl) a b p q

/-- A 1024×128 by 128×64 product accumulated into zero, read at `(p, q)`. -/
theorem matmul_mlp7b_apply {φ₁ φ₂ : FTy} (a : FVec Ideal S1024x128 φ₁) (b : FVec Ideal S128x64 φ₂) (p : Fin 1024) (q : Fin 64) :
    matmul dot_S1024x128_S128x64_S1024x64_1_0_0_1_n_n none a b (constant (F := Ideal) S1024x64 .f32 0x00000000#32) (ix2 p q)
      = ∑ k : Fin 128, a (ix2 p k) * b (ix2 k q) :=
  matmul_ix2_apply dot_S1024x128_S128x64_S1024x64_1_0_0_1_n_n rfl rfl rfl rfl
    (fun i q => by
      unfold DotDims.lhsIdx
      rw [dif_neg (show ¬(0 : Fin S1024x128.rank) ∈ dot_S1024x128_S128x64_S1024x64_1_0_0_1_n_n.lhsBatch by decide),
        dif_pos (show (0 : Fin S1024x128.rank) ∈ dot_S1024x128_S128x64_S1024x64_1_0_0_1_n_n.lhsNonContracting by decide)]
      rfl)
    (fun i q => by
      unfold DotDims.rhsIdx
      rw [dif_neg (show ¬(1 : Fin S128x64.rank) ∈ dot_S1024x128_S128x64_S1024x64_1_0_0_1_n_n.rhsBatch by decide),
        dif_pos (show (1 : Fin S128x64.rank) ∈ dot_S1024x128_S128x64_S1024x64_1_0_0_1_n_n.rhsNonContracting by decide)]
      rfl) a b p q

/-- The stored value at `(p, q)`: row `p` of the rectified first layer against column `q` of the second matrix, plus the second bias. -/
theorem k7_pay1_apply (x : Vec Ideal S1024x128 .f32) (W1 : Vec Ideal S128x128 .f32) (b1 : Vec Ideal S1x128 .f32)
    (W2 : Vec Ideal S128x64 .f32) (b2 : Vec Ideal S1x64 .f32) (p : Fin 1024) (q : Fin 64) :
    k7_pay1 (F := Ideal) x W1 b1 W2 b2 (ix2 p q)
      = ∑ k : Fin 128, max (∑ j : Fin 128, x (ix2 p j) * W1 (ix2 j k) + b1 (ix2 (0 : Fin 1) k)) 0 * W2 (ix2 k q)
        + b2 (ix2 (0 : Fin 1) q) := by
  unfold k7_pay1
  simp only [shapeCast_self]
  rw [addf_apply, matmul_mlp7b_apply, broadcastTo_1b_ab_apply]
  refine congrArg (· + b2 (ix2 (0 : Fin 1) q)) (Finset.sum_congr rfl fun k _ => ?_)
  rw [truncf_apply, truncf_apply, maximumf_apply, addf_apply, matmul_mlp7a_apply, broadcastTo_1b_ab_apply, broadcast_apply]
  show max _ (Ideal.ofBits .f32 0x00000000#32) * _ = _
  rw [Ideal.ofBits_zero_f32]
  rfl

end Cert.KernelIdeal.HandValue

end
-- ==== Proof.Val.Final7.lean ====
import proofs.«166185_j35605278883840_2_alg».proof.Proof.KI.RegA7
import proofs.«166185_j35605278883840_2_alg».proof.Proof.Val.Pay7
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand
open scoped BigOperators

/-- Row `p`, column `q` of the two-layer perceptron: through `W1` and `b1`, rectified, then through `W2` and `b2`. -/
def mlp7 (x : S1024x128.Idx → EReal) (W1 : S128x128.Idx → EReal) (b1 : S1x128.Idx → EReal) (W2 : S128x64.Idx → EReal)
    (b2 : S1x64.Idx → EReal) (p : Fin 1024) (q : Fin 64) : EReal :=
  ∑ k : Fin 128, max (∑ j : Fin 128, x (ix2 p j) * W1 (ix2 j k) + b1 (ix2 (0 : Fin 1) k)) 0 * W2 (ix2 k q)
    + b2 (ix2 (0 : Fin 1) q)

def mlpArr7 (x : S1024x128.Idx → EReal) (W1 : S128x128.Idx → EReal) (b1 : S1x128.Idx → EReal) (W2 : S128x64.Idx → EReal)
    (b2 : S1x64.Idx → EReal) : S1024x64.Idx → EReal :=
  fun i => mlp7 x W1 b1 W2 b2 (i 0) (i 1)

variable (V : (c : Dev nD) → (b : Ref sig .tc) → Buf (Elt Ideal) ((c : Thread nD τ).loc b))

theorem hz7 : (![0, 0] : Fin 2 → Nat) = fun _ => 0 := funext fun a => by fin_cases a <;> rfl

theorem idx_facts7 : ∀ (t : Fin cfg7.N) (a : Fin 2), win7_0.index t a = 0 ∧ win7_1.index t a = 0 ∧ win7_2.index t a = 0
    ∧ win7_3.index t a = 0 ∧ win7_4.index t a = 0 ∧ win7_5.index t a = 0 :=
  (by decide +kernel : ∀ t : Fin grid7.N, _)

abbrev res7arr (c : Dev nD) : S1024x64.Idx → EReal :=
  mlpArr7 (V c main_v144) (V c main_arg9) (V c main_v145) (V c main_arg11) (V c main_v146)

/-- A window at block index zero on both axes reads its whole array. -/
theorem iblk0_eq7 (c : Dev nD) (t : Fin cfg7.N) : (iblk7 V c 0 t : Vec Ideal S1024x128 .f32) = V c main_v144 :=
  funext fun y => congrArg (V c main_v144) (funext fun a => Fin.ext
    ((cfg7.win 0).rect_emb_val_of_index_zero t a (idx_facts7 t a).1 y))

theorem iblk1_eq7 (c : Dev nD) (t : Fin cfg7.N) : (iblk7 V c 1 t : Vec Ideal S128x128 .f32) = V c main_arg9 :=
  funext fun y => congrArg (V c main_arg9) (funext fun a => Fin.ext
    ((cfg7.win 1).rect_emb_val_of_index_zero t a (idx_facts7 t a).2.1 y))

theorem iblk2_eq7 (c : Dev nD) (t : Fin cfg7.N) : (iblk7 V c 2 t : Vec Ideal S1x128 .f32) = V c main_v145 :=
  funext fun y => congrArg (V c main_v145) (funext fun a => Fin.ext
    ((cfg7.win 2).rect_emb_val_of_index_zero t a (idx_facts7 t a).2.2.1 y))

theorem iblk3_eq7 (c : Dev nD) (t : Fin cfg7.N) : (iblk7 V c 3 t : Vec Ideal S128x64 .f32) = V c main_arg11 :=
  funext fun y => congrArg (V c main_arg11) (funext fun a => Fin.ext
    ((cfg7.win 3).rect_emb_val_of_index_zero t a (idx_facts7 t a).2.2.2.1 y))

theorem iblk4_eq7 (c : Dev nD) (t : Fin cfg7.N) : (iblk7 V c 4 t : Vec Ideal S1x64 .f32) = V c main_v146 :=
  funext fun y => congrArg (V c main_v146) (funext fun a => Fin.ext
    ((cfg7.win 4).rect_emb_val_of_index_zero t a (idx_facts7 t a).2.2.2.2.1 y))

theorem emb5_7 (t : Fin cfg7.N) (y : S1024x64.Idx) : ((cfg7.win 5).blk t).view.emb y = y :=
  funext fun a => Fin.ext ((cfg7.win 5).rect_emb_val_of_index_zero t a (idx_facts7 t a).2.2.2.2.2 y)

/-- The one block is the whole result: the perceptron of the five whole arrays. -/
theorem flushed7_eq (c : Dev nD) (t : Fin cfg7.N) :
    (dat7 V c).flushed 5 t = ((cfg7.win 5).blk t).view.read (Elt Ideal) (res7arr V c) := by
  show (cfg7.win 5).cut (grid7.coords t) ((dat7 V c).after 5 t) = _
  rw [after7_5]
  unfold out7_5
  rw [View.canon_unit_zero hz7]
  simp only [View.ld_unit_zero (S := S1024x128) hz7, View.ld_unit_zero (S := S128x128) hz7, View.ld_unit_zero (S := S1x128) hz7,
    View.ld_unit_zero (S := S128x64) hz7, View.ld_unit_zero (S := S1x64) hz7]
  funext j
  obtain ⟨p, q, rfl⟩ : ∃ (p : Fin 1024) (q : Fin 64), j = ix2 p q := ⟨j 0, j 1, eq_ix2 (n0 := 1024) (n1 := 64) j⟩
  show k7_pay1 (F := Ideal) (iblk7 V c 0 t) (iblk7 V c 1 t) (iblk7 V c 2 t) (iblk7 V c 3 t) (iblk7 V c 4 t) (ix2 p q)
      = res7arr V c (((cfg7.win 5).blk t).view.emb (ix2 p q))
  rw [emb5_7, iblk0_eq7, iblk1_eq7, iblk2_eq7, iblk3_eq7, iblk4_eq7]
  exact k7_pay1_apply _ _ _ _ _ p q

theorem final7_apply (c : Dev nD) (p : Fin 1024) (q : Fin 64) :
    (dat7 V c).arrAt 5 cfg7.N (ix2 p q)
      = mlp7 (V c main_v144) (V c main_arg9) (V c main_v145) (V c main_arg11) (V c main_v146) p q :=
  congrFun ((dat7 V c).arrAt_eq_of_cover 5 (res7arr V c) (fun t _ => flushed7_eq V c t) fun i =>
    ⟨t7_0, flush7_5 t7_0, Finset.mem_map.mpr ⟨i, Finset.mem_univ _, emb5_7 t7_0 i⟩⟩) (ix2 p q)

end Cert.KernelIdeal.HandValue

end
-- ==== Proof.Val.Bridge7.lean ====
import proofs.«166185_j35605278883840_2_alg».proof.Proof.Val.Final7
import proofs.«166185_j35605278883840_2_alg».proof.Proof.Ref.Stages
import proofs.«166185_j35605278883840_2_alg».proof.Proof.Val.RefOps

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.Hand (r_mlp1 r_mlp2)
open Cert.ReferenceIdeal.HandValue (dotPooled_apply rowOverPooled_apply scalarOverPooled_apply dotHead_apply rowOverHead_apply)
open scoped BigOperators

variable [Cert.ReferenceIdeal.Facts]

-- The two stages read at (p, q): the same two sums over the 128 features, the rectifier the maximum with zero.
theorem ref_mlp2_mlp1_apply (x : FVec Ideal Cert.ReferenceIdeal.S1024x128 .f32) (W1 : FVec Ideal Cert.ReferenceIdeal.S128x128 .f32)
    (b1 : FVec Ideal Cert.ReferenceIdeal.S128 .f32) (W2 : FVec Ideal Cert.ReferenceIdeal.S128x64 .f32) (b2 : FVec Ideal Cert.ReferenceIdeal.S64 .f32)
    (p : Fin 1024) (q : Fin 64) :
    r_mlp2 (F := Ideal) (r_mlp1 (F := Ideal) x W1 b1) W2 b2 (ix2 p q)
      = ∑ k : Fin 128, max (∑ j : Fin 128, x (ix2 p j) * W1 (ix2 j k) + b1 (ix1 k)) 0 * W2 (ix2 k q) + b2 (ix1 q) := by
  unfold r_mlp2
  refine (congrArg₂ (· + ·) (dotHead_apply _ W2 p q) (rowOverHead_apply b2 p q)).trans
    (congrArg (· + b2 (ix1 q)) (Finset.sum_congr rfl fun k _ => congrArg (· * W2 (ix2 k q)) ?_))
  unfold r_mlp1
  exact congrArg₂ max (congrArg₂ (· + ·) (dotPooled_apply x W1 p k) (rowOverPooled_apply b1 p k))
    ((scalarOverPooled_apply _ (ix2 p k)).trans Ideal.ofBits_zero_f32)

variable (V : (c : Dev nD) → (b : Ref sig .tc) → Buf (Elt Ideal) ((c : Thread nD τ).loc b))

-- The region computes the same two sums in the same order, so the two agree entry by entry with no reordering.
theorem bridge7 (c : Dev nD) (x : FVec Ideal Cert.ReferenceIdeal.S1024x128 .f32) (W1 : FVec Ideal Cert.ReferenceIdeal.S128x128 .f32)
    (b1 : FVec Ideal Cert.ReferenceIdeal.S128 .f32) (W2 : FVec Ideal Cert.ReferenceIdeal.S128x64 .f32) (b2 : FVec Ideal Cert.ReferenceIdeal.S64 .f32)
    (hx : V c main_v144 = x) (h1 : V c main_arg9 = W1) (h2 : V c main_arg11 = W2)
    (hb1 : ∀ q : Fin 128, V c main_v145 (ix2 (0 : Fin 1) q) = b1 (ix1 q))
    (hb2 : ∀ q : Fin 64, V c main_v146 (ix2 (0 : Fin 1) q) = b2 (ix1 q)) (i) :
    (dat7 V c).arrAt 5 cfg7.N i = r_mlp2 (F := Ideal) (r_mlp1 (F := Ideal) x W1 b1) W2 b2 i := by
  subst hx h1 h2
  obtain ⟨p, q, rfl⟩ : ∃ (p : Fin 1024) (q : Fin 64), i = ix2 p q := ⟨i 0, i 1, eq_ix2 (n0 := 1024) (n1 := 64) i⟩
  refine (final7_apply V c p q).trans ((ref_mlp2_mlp1_apply (V c main_v144) (V c main_arg9) b1 (V c main_arg11) b2 p q).trans ?_).symm
  unfold mlp7
  simp only [hb1, hb2]

end Cert.KernelIdeal.HandValue

end
-- ==== Proof.Val.ChainEnd.lean ====
import proofs.«166185_j35605278883840_2_alg».proof.Proof.KI.Run
import proofs.«166185_j35605278883840_2_alg».proof.Proof.Val.KHost
import proofs.«166185_j35605278883840_2_alg».proof.Proof.Val.KHostRef
import proofs.«166185_j35605278883840_2_alg».proof.Proof.Val.Args
import proofs.«166185_j35605278883840_2_alg».proof.Proof.Val.Bridge7
import proofs.«166185_j35605278883840_2_alg».proof.Proof.Ref.Stages

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.ReferenceIdeal.Hand

variable [Cert.ReferenceIdeal.Facts]
variable (m : (ℓ : Loc nD τ sig) → Buf (Elt Ideal) ℓ) (ρ : Dev nD → PrngReg) (c : Dev nD)

-- The features are pooled per graph as the reference pools them, and the two-layer perceptron follows.
theorem chain_end
    (h3 : ∀ i, BW14 m ρ c (Proc.devRef .tc main_v132) i = atArgs m c (r_h_3 (F := Ideal)) i) (i) :
    BW16 m ρ c (Proc.devRef .tc main_v147) i = atArgs m c (r_out (F := Ideal)) i := by
  have hp : BV15 m ρ c main_v144 = r_pool (F := Ideal) (atArgs m c (r_h_3 (F := Ideal))) (r_cnt (m ((c : Thread nD τ).loc main_arg2))) (m ((c : Thread nD τ).loc main_arg2)) := by
    refine (host7_main_v144 (BW14 m ρ c)).trans ?_
    rw [show BW14 m ρ c (Proc.devRef .tc main_v132) = _ from funext h3, show BW14 m ρ c (Proc.devRef .tc main_arg2) = _ from
      (((hostOps7_keeps (BW14 m ρ c) main_arg2 (by decide)).symm.trans (BW16_of_ne m ρ c main_arg2 (by decide)).symm).trans
      (BW16_main_arg2 m ρ c))]
    exact pooledOf_eq _ _
  exact (congrFun (BW16_out m ρ c) i).trans (bridge7 (BV15 m ρ) c _ _ _ _ _ hp
    ((BW16_in m ρ c 1 rfl).symm.trans (BW16_main_arg9 m ρ c)) ((BW16_in m ρ c 3 rfl).symm.trans (BW16_main_arg11 m ρ c))
    (fun q => (congrFun (host7_main_v145 (BW14 m ρ c)) _).trans ((rowOf_apply _ 0 q).trans (congrFun
      (((hostOps7_keeps (BW14 m ρ c) main_arg10 (by decide)).symm.trans (BW16_of_ne m ρ c main_arg10 (by decide)).symm).trans
      (BW16_main_arg10 m ρ c)) _)))
    (fun q => (congrFun (host7_main_v146 (BW14 m ρ c)) _).trans ((rowOf64_apply _ 0 q).trans (congrFun
      (((hostOps7_keeps (BW14 m ρ c) main_arg12 (by decide)).symm.trans (BW16_of_ne m ρ c main_arg12 (by decide)).symm).trans
      (BW16_main_arg12 m ρ c)) _))) i)

end Cert.KernelIdeal.HandValue

end
-- ==== Proof.Val.Algebraic.lean ====
import proofs.«166185_j35605278883840_2_alg».proof.Proof.Ref.Run
import proofs.«166185_j35605278883840_2_alg».proof.Defs
import proofs.«166185_j35605278883840_2_alg».proof.Proof.Gen.KernelIdeal
import proofs.«166185_j35605278883840_2_alg».proof.Proof.Val.ChainStart
import proofs.«166185_j35605278883840_2_alg».proof.Proof.Val.ChainA0
import proofs.«166185_j35605278883840_2_alg».proof.Proof.Val.ChainW0
import proofs.«166185_j35605278883840_2_alg».proof.Proof.Val.ChainB0
import proofs.«166185_j35605278883840_2_alg».proof.Proof.Val.ChainA1
import proofs.«166185_j35605278883840_2_alg».proof.Proof.Val.ChainW1
import proofs.«166185_j35605278883840_2_alg».proof.Proof.Val.ChainB1
import proofs.«166185_j35605278883840_2_alg».proof.Proof.Val.ChainA2
import proofs.«166185_j35605278883840_2_alg».proof.Proof.Val.ChainB2
import proofs.«166185_j35605278883840_2_alg».proof.Proof.Val.ChainEnd

noncomputable section

namespace Cert.KernelIdeal.HandValue

open Idealize.ShloMosaic Idealize.ShloMosaic.TcCoe Idealize.SL.Sem
open Cert.KernelIdeal Cert.KernelIdeal.Gen Cert.KernelIdeal.Hand

-- The kernel program's result is, stage by stage, the reference's stage of the same argument arrays.
theorem algebraic : Cert.algebraic_KernelIdeal_ReferenceIdeal := by
  intro m ρ m' ρ' hpre hagree
  refine ⟨fun c => BW16 m ρ c (Proc.devRef .tc main_v147), ?_, ?_⟩
  · refine (θ_run _ _ _).mono (fun r h c => ?_) (run_all m ρ)
    have k := fun (b : Ref sig .tc) hb => h c _ (mem_uc b hb)
    exact ⟨k main_v147 (by decide),
      (k main_arg0 (by decide)).trans (BW16_main_arg0 m ρ c), (k main_arg1 (by decide)).trans (BW16_main_arg1 m ρ c),
      (k main_arg2 (by decide)).trans (BW16_main_arg2 m ρ c), (k main_arg3 (by decide)).trans (BW16_main_arg3 m ρ c),
      (k main_arg4 (by decide)).trans (BW16_main_arg4 m ρ c), (k main_arg5 (by decide)).trans (BW16_main_arg5 m ρ c),
      (k main_arg6 (by decide)).trans (BW16_main_arg6 m ρ c), (k main_arg7 (by decide)).trans (BW16_main_arg7 m ρ c),
      (k main_arg8 (by decide)).trans (BW16_main_arg8 m ρ c), (k main_arg9 (by decide)).trans (BW16_main_arg9 m ρ c),
      (k main_arg10 (by decide)).trans (BW16_main_arg10 m ρ c), (k main_arg11 (by decide)).trans (BW16_main_arg11 m ρ c),
      (k main_arg12 (by decide)).trans (BW16_main_arg12 m ρ c)⟩
  · refine (θ_run _ _ _).mono (fun r h c => ⟨(h c).1.trans ?_, (h c).2⟩) (Cert.ReferenceIdeal.Hand.run m' ρ')
    obtain ⟨e0, e1, e2, e3, e4, e5, e6, e7, e8, e9, e10, e11, e12⟩ := hagree c
    rw [e0, e1, e2, e3, e4, e5, e6, e7, e8, e9, e10, e11, e12]
    obtain ⟨p0, m0, v0, g0, b0⟩ := chainA0 m ρ c hpre (chain_start m ρ c)
    obtain ⟨p1, m1, v1, g1, b1⟩ := chainA1 m ρ c hpre (chainB0 m ρ c p0 m0 v0 g0 b0 (chainW0 m ρ c))
    obtain ⟨p2, m2, v2, g2, b2⟩ := chainA2 m ρ c hpre (chainB1 m ρ c p1 m1 v1 g1 b1 (chainW1 m ρ c))
    exact (funext (chain_end m ρ c (chainB2 m ρ c p2 m2 v2 g2 b2))).symm

end Cert.KernelIdeal.HandValue

end
-- ==== Proof.lean ====
-- The three programs run to the end with their arguments kept, and the two idealized programs end with equal results: the claims, assembled.
import proofs.«166185_j35605278883840_2_alg».proof.Defs
import proofs.«166185_j35605278883840_2_alg».proof.Proof.Gen.Kernel
import proofs.«166185_j35605278883840_2_alg».proof.Proof.Gen.KernelIdeal
import proofs.«166185_j35605278883840_2_alg».proof.Proof.Gen.ReferenceIdeal
import proofs.«166185_j35605278883840_2_alg».proof.Proof.Gen.Pre_finite_inputs
import proofs.«166185_j35605278883840_2_alg».proof.Proof.K.Run
import proofs.«166185_j35605278883840_2_alg».proof.Proof.KI.Run
import proofs.«166185_j35605278883840_2_alg».proof.Proof.Ref.Run
import proofs.«166185_j35605278883840_2_alg».proof.Proof.Val.Algebraic

noncomputable section

namespace Cert.Proof

open Idealize.ShloMosaic Idealize.SL.Sem

theorem frame_kernel : Cert.frame_Kernel := fun m ρ _ => Cert.Kernel.Hand.frame (F := Bits) m ρ

theorem frame_kernel_ideal : Cert.frame_KernelIdeal := fun m ρ _ => Cert.KernelIdeal.Hand.frame (F := Ideal) m ρ

theorem frame_reference : Cert.frame_ReferenceIdeal := fun m ρ _ => Cert.ReferenceIdeal.Hand.frame m ρ

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, Cert.KernelIdeal.HandValue.algebraic⟩

end Cert.Proof

end
